-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S600000 32) (main_v33 : IVec S_ 1) : IVec S_ 1 :=
  let main_c_12 : IVec S_ 32 := constantI S_ 32 0#32
  let main_v34 : IVec S600000 32 := broadcastInDim S600000 ![] bcast_S_S600000 main_c_12
  let main_v35 : IVec S600000 1 := cmpi .sge main_arg1 main_v34
  let main_c_13 : IVec S_ 32 := constantI S_ 32 50000#32
  let main_v36 : IVec S600000 32 := broadcastInDim S600000 ![] bcast_S_S600000 main_c_13
  let main_v37 : IVec S600000 1 := cmpi .slt main_arg1 main_v36
  let main_v38 : IVec S600000 1 := andi main_v35 main_v37
  let main_c_14 : IVec S_ 1 := constantI S_ 1 1#1
  let main_v39 : IVec S_ 1 := (fun x v => Host.reduce IntOp.andi x v reducesTo_S600000_S_d0 h_S_) main_v38 main_c_14
  let main_v40 : IVec S_ 1 := andi main_v33 main_v39
  main_v40

def fn_part1 {F : FTy → Type} [FloatOps F] (main_arg1 : IVec S600000 32) (main_arg6 : FVec F S128 .f32) (main_arg7 : FVec F S128x16 .f32) (main_arg8 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) (main_arg7 : FVec F S128x16 .f32) (main_arg8 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S50000 : Shape := ⟨1, ![50000]⟩
abbrev S600000x1 : Shape := ⟨2, ![600000, 1]⟩
abbrev S51200 : Shape := ⟨1, ![51200]⟩
abbrev S51200x1 : Shape := ⟨2, ![51200, 1]⟩
abbrev S600064 : Shape := ⟨1, ![600064]⟩
abbrev S600064x1 : Shape := ⟨2, ![600064, 1]⟩
abbrev S1x600064 : Shape := ⟨2, ![1, 600064]⟩
abbrev S51200x128 : Shape := ⟨2, ![51200, 128]⟩
abbrev S600064x128 : Shape := ⟨2, ![600064, 128]⟩
abbrev S2048x1 : Shape := ⟨2, ![2048, 1]⟩
abbrev S2048x128 : Shape := ⟨2, ![2048, 128]⟩
abbrev S2048x2048 : Shape := ⟨2, ![2048, 2048]⟩
abbrev S1x128 : Shape := ⟨2, ![1, 128]⟩
abbrev S1x2048 : Shape := ⟨2, ![1, 2048]⟩
abbrev S1x16 : Shape := ⟨2, ![1, 16]⟩
abbrev S51200x16 : Shape := ⟨2, ![51200, 16]⟩
abbrev S2048x16 : Shape := ⟨2, ![2048, 16]⟩
abbrev S50000x16 : Shape := ⟨2, ![50000, 16]⟩

abbrev nBuf : Space → Nat
  | .hbm => 60
  | .vmem => 60
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S51200, .f32⟩
  | .hbm, ⟨34, _⟩ => ⟨S51200x1, .f32⟩
  | .hbm, ⟨35, _⟩ => ⟨S_, .f32⟩
  | .hbm, ⟨36, _⟩ => ⟨S_, .f32⟩
  | .hbm, ⟨37, _⟩ => ⟨S51200, .f32⟩
  | .hbm, ⟨38, _⟩ => ⟨S51200x1, .f32⟩
  | .hbm, ⟨39, _⟩ => ⟨S_, .i32⟩
  | .hbm, ⟨40, _⟩ => ⟨S_, .i32⟩
  | .hbm, ⟨41, _⟩ => ⟨S600064, .i32⟩
  | .hbm, ⟨42, _⟩ => ⟨S600064x1, .i32⟩
  | .hbm, ⟨43, _⟩ => ⟨S_, .i32⟩
  | .hbm, ⟨44, _⟩ => ⟨S_, .i32⟩
  | .hbm, ⟨45, _⟩ => ⟨S600064, .i32⟩
  | .hbm, ⟨46, _⟩ => ⟨S1x600064, .i32⟩
  | .hbm, ⟨47, _⟩ => ⟨S_, .i32⟩
  | .hbm, ⟨48, _⟩ => ⟨S_, .f32⟩
  | .hbm, ⟨49, _⟩ => ⟨S51200x128, .f32⟩
  | .hbm, ⟨50, _⟩ => ⟨S600064x128, .bf16⟩
  | .hbm, ⟨51, _⟩ => ⟨S1x128, .f32⟩
  | .hbm, ⟨52, _⟩ => ⟨S51200x128, .f32⟩
  | .hbm, ⟨53, _⟩ => ⟨S600064x128, .bf16⟩
  | .hbm, ⟨54, _⟩ => ⟨S1x128, .f32⟩
  | .hbm, ⟨55, _⟩ => ⟨S51200x128, .f32⟩
  | .hbm, ⟨56, _⟩ => ⟨S600064x128, .bf16⟩
  | .hbm, ⟨57, _⟩ => ⟨S1x16, .f32⟩
  | .hbm, ⟨58, _⟩ => ⟨S51200x16, .f32⟩
  | .hbm, ⟨59, _⟩ => ⟨S50000x16, .f32⟩
  | .local _ .vmem, ⟨0, _⟩ => ⟨S2048x1, .i32⟩
  | .local _ .vmem, ⟨1, _⟩ => ⟨S2048x1, .i32⟩
  | .local _ .vmem, ⟨2, _⟩ => ⟨S2048x128, .f32⟩
  | .local _ .vmem, ⟨3, _⟩ => ⟨S2048x128, .f32⟩
  | .local _ .vmem, ⟨4, _⟩ => ⟨S2048x1, .f32⟩
  | .local _ .vmem, ⟨5, _⟩ => ⟨S2048x1, .f32⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S1x2048, .i32⟩
  | .local _ .vmem, ⟨10, _⟩ => ⟨S1x2048, .i32⟩
  | .local _ .vmem, ⟨11, _⟩ => ⟨S2048x128, .bf16⟩
  | .local _ .vmem, ⟨12, _⟩ => ⟨S2048x128, .bf16⟩
  | .local _ .vmem, ⟨13, _⟩ => ⟨S2048x1, .f32⟩
  | .local _ .vmem, ⟨14, _⟩ => ⟨S2048x1, .f32⟩
  | .local _ .vmem, ⟨15, _⟩ => ⟨S128x128, .f32⟩
  | .local _ .vmem, ⟨16, _⟩ => ⟨S1x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x1, .i32⟩
  | .local _ .vmem, ⟨21, _⟩ => ⟨S2048x1, .i32⟩
  | .local _ .vmem, ⟨22, _⟩ => ⟨S2048x128, .f32⟩
  | .local _ .vmem, ⟨23, _⟩ => ⟨S2048x128, .f32⟩
  | .local _ .vmem, ⟨24, _⟩ => ⟨S2048x1, .f32⟩
  | .local _ .vmem, ⟨25, _⟩ => ⟨S2048x1, .f32⟩
  | .local _ .vmem, ⟨26, _⟩ => ⟨S2048x128, .bf16⟩
  | .local _ .vmem, ⟨27, _⟩ => ⟨S2048x128, .bf16⟩
  | .local _ .vmem, ⟨28, _⟩ => ⟨S2048x128, .f32⟩
  | .local _ .vmem, ⟨29, _⟩ => ⟨S1x2048, .i32⟩
  | .local _ .vmem, ⟨30, _⟩ => ⟨S1x2048, .i32⟩
  | .local _ .vmem, ⟨31, _⟩ => ⟨S2048x128, .bf16⟩
  | .local _ .vmem, ⟨32, _⟩ => ⟨S2048x128, .bf16⟩
  | .local _ .vmem, ⟨33, _⟩ => ⟨S2048x1, .f32⟩
  | .local _ .vmem, ⟨34, _⟩ => ⟨S2048x1, .f32⟩
  | .local _ .vmem, ⟨35, _⟩ => ⟨S128x128, .f32⟩
  | .local _ .vmem, ⟨36, _⟩ => ⟨S1x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S2048x1, .i32⟩
  | .local _ .vmem, ⟨41, _⟩ => ⟨S2048x1, .i32⟩
  | .local _ .vmem, ⟨42, _⟩ => ⟨S2048x128, .f32⟩
  | .local _ .vmem, ⟨43, _⟩ => ⟨S2048x128, .f32⟩
  | .local _ .vmem, ⟨44, _⟩ => ⟨S2048x1, .f32⟩
  | .local _ .vmem, ⟨45, _⟩ => ⟨S2048x1, .f32⟩
  | .local _ .vmem, ⟨46, _⟩ => ⟨S2048x128, .bf16⟩
  | .local _ .vmem, ⟨47, _⟩ => ⟨S2048x128, .bf16⟩
  | .local _ .vmem, ⟨48, _⟩ => ⟨S2048x128, .f32⟩
  | .local _ .vmem, ⟨49, _⟩ => ⟨S1x2048, .i32⟩
  | .local _ .vmem, ⟨50, _⟩ => ⟨S1x2048, .i32⟩
  | .local _ .vmem, ⟨51, _⟩ => ⟨S2048x128, .bf16⟩
  | .local _ .vmem, ⟨52, _⟩ => ⟨S2048x128, .bf16⟩
  | .local _ .vmem, ⟨53, _⟩ => ⟨S2048x1, .f32⟩
  | .local _ .vmem, ⟨54, _⟩ => ⟨S2048x1, .f32⟩
  | .local _ .vmem, ⟨55, _⟩ => ⟨S128x16, .f32⟩
  | .local _ .vmem, ⟨56, _⟩ => ⟨S1x16, .f32⟩
  | .local _ .vmem, ⟨57, _⟩ => ⟨S2048x16, .f32⟩
  | .local _ .vmem, ⟨58, _⟩ => ⟨S2048x16, .f32⟩
  | .local _ .vmem, ⟨59, _⟩ => ⟨S2048x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_call0_v0 : Ref sig .tc := ⟨.hbm, 32, rfl⟩
abbrev main_v15 : Ref sig .tc := ⟨.hbm, 33, rfl⟩
abbrev main_v16 : Ref sig .tc := ⟨.hbm, 34, rfl⟩
abbrev main_cst_7 : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_call2_v0 : Ref sig .tc := ⟨.hbm, 40, rfl⟩
abbrev main_v19 : Ref sig .tc := ⟨.hbm, 41, rfl⟩
abbrev main_v20 : Ref sig .tc := ⟨.hbm, 42, rfl⟩
abbrev main_c_8 : Ref sig .tc := ⟨.hbm, 43, rfl⟩
abbrev main_call3_v0 : Ref sig .tc := ⟨.hbm, 44, rfl⟩
abbrev main_v21 : Ref sig .tc := ⟨.hbm, 45, rfl⟩
abbrev main_v22 : Ref sig .tc := ⟨.hbm, 46, rfl⟩
abbrev main_c_9 : Ref sig .tc := ⟨.hbm, 47, rfl⟩
abbrev main_call4_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc3_scratch0 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_scratch0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg5_1 : Ref sig .tc := ⟨.vmem, 58, rfl⟩
abbrev cc5_scratch0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨2, ![293, 25], ![false, false]⟩

def k0_cond2 (i : grid0.Coords) : BitVec 1 :=
  let arg1 : BitVec 32 := BitVec.ofNat 32 (i 1).val
  let c24_i32 : BitVec 32 := 24#32
  let v27 : BitVec 1 := Scalar.cmpi .eq arg1 c24_i32
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![25, 293], ![false, false]⟩

def k1_cond2 (i : grid1.Coords) : BitVec 1 :=
  let arg1 : BitVec 32 := BitVec.ofNat 32 (i 1).val
  let c292_i32 : BitVec 32 := 292#32
  let v22 : BitVec 1 := Scalar.cmpi .eq arg1 c292_i32
  let v23 : BitVec 32 := Scalar.extui v22
  let c0_i32_8 : BitVec 32 := 0#32
  let v24 : BitVec 1 := Scalar.cmpi .ne v23 c0_i32_8
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![293, 25], ![false, false]⟩

def k2_cond2 (i : grid2.Coords) : BitVec 1 :=
  let arg1 : BitVec 32 := BitVec.ofNat 32 (i 1).val
  let c24_i32 : BitVec 32 := 24#32
  let v27 : BitVec 1 := Scalar.cmpi .eq arg1 c24_i32
  let v28 : BitVec 32 := Scalar.extui v27
  let c0_i32_10 : BitVec 32 := 0#32
  let v29 : BitVec 1 := Scalar.cmpi .ne v28 c0_i32_10
  v29

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![25, 293], ![false, false]⟩

def k3_cond2 (i : grid3.Coords) : BitVec 1 :=
  let arg1 : BitVec 32 := BitVec.ofNat 32 (i 1).val
  let c292_i32 : BitVec 32 := 292#32
  let v22 : BitVec 1 := Scalar.cmpi .eq arg1 c292_i32
  let v23 : BitVec 32 := Scalar.extui v22
  let c0_i32_8 : BitVec 32 := 0#32
  let v24 : BitVec 1 := Scalar.cmpi .ne v23 c0_i32_8
  v24

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x2048 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S2048x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨2, ![293, 25], ![false, false]⟩

def k4_cond2 (i : grid4.Coords) : BitVec 1 :=
  let arg1 : BitVec 32 := BitVec.ofNat 32 (i 1).val
  let c24_i32 : BitVec 32 := 24#32
  let v27 : BitVec 1 := Scalar.cmpi .eq arg1 c24_i32
  let v28 : BitVec 32 := Scalar.extui v27
  let c0_i32_10 : BitVec 32 := 0#32
  let v29 : BitVec 1 := Scalar.cmpi .ne v28 c0_i32_10
  v29

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S2048x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![25, 293], ![false, false]⟩

def k5_cond2 (i : grid5.Coords) : BitVec 1 :=
  let arg1 : BitVec 32 := BitVec.ofNat 32 (i 1).val
  let c292_i32 : BitVec 32 := 292#32
  let v22 : BitVec 1 := Scalar.cmpi .eq arg1 c292_i32
  let v23 : BitVec 32 := Scalar.extui v22
  let c0_i32_8 : BitVec 32 := 0#32
  let v24 : BitVec 1 := Scalar.cmpi .ne v23 c0_i32_8
  v24

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x2048 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 1 → Memref sig .tc .vmem S128x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S2048x16 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  pads_S50000_S51200_012000 : S50000.Pads (![0] : Fin 1 → Nat) ![1200] ![0] S51200
  h_S_ : 0 < S_.numel
  shapeCasts_S51200_S51200x1 : S51200.ShapeCasts S51200x1
  pads_S600000_S600064_0640 : S600000.Pads (![0] : Fin 1 → Nat) ![64] ![0] S600064
  shapeCasts_S600064_S600064x1 : S600064.ShapeCasts S600064x1
  shapeCasts_S600064_S1x600064 : S600064.ShapeCasts S1x600064
  pads_S50000x128_S51200x128_012000_000 : S50000x128.Pads (![0, 0] : Fin 2 → Nat) ![1200, 0] ![0, 0] S51200x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S2048x2048_d1_w32 : S2048x2048.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x2048 : S2048x1.Broadcasts S2048x2048
  natLt_1_32 : 1 < 32
  bitsLt_bf16_f32 : FTy.bits .bf16 < FTy.bits .f32
  broadcasts_S2048x1_S2048x128 : S2048x1.Broadcasts S2048x128
  packedbf16_S2048x128_S2048x128_0_0 : (Rect.unit (s := S2048x128) ![0, 0] S2048x128.size inb_S2048x128_S2048x128_0_0).PackedRows (EltTy.packing .bf16)
  shapeCasts_S128_S1x128 : S128.ShapeCasts S1x128
  iota_S2048x2048_d0_w32 : S2048x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S2048x16_S2048x16_0_0 : ∀ a, (![0, 0] : Fin 2 → Nat) a + S2048x16.size a ≤ S2048x16.size a
  h_S2048x16 : 0 < S2048x16.numel
  slices_S51200x16_S50000x16_0_0 : S51200x16.Slices ![0, 0] S50000x16
  scatter_S50000_S600000x1_S600000_n_0_0_1_wf : ScatterDims.WF S50000 S600000x1 S600000 [] [0] [0] 1
  dot_S2048x2048_S2048x128_S2048x128_1_0_0_1_n_n_wf : DotDims.WF S2048x2048 S2048x128 S2048x128 [1] [0] [0] [1] [] []
  dot_S2048x128_S128x128_S2048x128_1_0_0_1_n_n_wf : DotDims.WF S2048x128 S128x128 S2048x128 [1] [0] [0] [1] [] []
  dot_S2048x128_S128x16_S2048x16_1_0_0_1_n_n_wf : DotDims.WF S2048x128 S128x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S600064x1.size a
  hwx0_0 : ∀ i : grid0.Coords, EltTy.bits .i32 = 32 ∨ (Rect.block (s := S600064x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S51200x128.size a
  hwx0_1 : ∀ i : grid0.Coords, EltTy.bits .f32 = 32 ∨ (Rect.block (s := S51200x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S51200x1.size a
  hwx0_2 : ∀ i : grid0.Coords, EltTy.bits .f32 = 32 ∨ (Rect.block (s := S51200x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S600064x128.size a
  hwx0_3 : ∀ i : grid0.Coords, EltTy.bits .bf16 = 32 ∨ (Rect.block (s := S600064x128) S2048x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x600064.size a
  hwx1_0 : ∀ i : grid1.Coords, EltTy.bits .i32 = 32 ∨ (Rect.block (s := S1x600064) S1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S600064x128.size a
  hwx1_1 : ∀ i : grid1.Coords, EltTy.bits .bf16 = 32 ∨ (Rect.block (s := S600064x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S51200x1.size a
  hwx1_2 : ∀ i : grid1.Coords, EltTy.bits .f32 = 32 ∨ (Rect.block (s := S51200x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S51200x128.size a
  hwx1_5 : ∀ i : grid1.Coords, EltTy.bits .f32 = 32 ∨ (Rect.block (s := S51200x128) S2048x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1.size a ≤ S600064x1.size a
  hwx2_0 : ∀ i : grid2.Coords, EltTy.bits .i32 = 32 ∨ (Rect.block (s := S600064x1) S2048x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S51200x128.size a
  hwx2_1 : ∀ i : grid2.Coords, EltTy.bits .f32 = 32 ∨ (Rect.block (s := S51200x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S51200x1.size a
  hwx2_2 : ∀ i : grid2.Coords, EltTy.bits .f32 = 32 ∨ (Rect.block (s := S51200x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S600064x128.size a
  hwx2_3 : ∀ i : grid2.Coords, EltTy.bits .bf16 = 32 ∨ (Rect.block (s := S600064x128) S2048x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048.size a ≤ S1x600064.size a
  hwx3_0 : ∀ i : grid3.Coords, EltTy.bits .i32 = 32 ∨ (Rect.block (s := S1x600064) S1x2048.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S600064x128.size a
  hwx3_1 : ∀ i : grid3.Coords, EltTy.bits .bf16 = 32 ∨ (Rect.block (s := S600064x128) S2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S51200x1.size a
  hwx3_2 : ∀ i : grid3.Coords, EltTy.bits .f32 = 32 ∨ (Rect.block (s := S51200x1) S2048x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x128.size a ≤ S51200x128.size a
  hwx3_5 : ∀ i : grid3.Coords, EltTy.bits .f32 = 32 ∨ (Rect.block (s := S51200x128) S2048x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1.size a ≤ S600064x1.size a
  hwx4_0 : ∀ i : grid4.Coords, EltTy.bits .i32 = 32 ∨ (Rect.block (s := S600064x1) S2048x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S51200x128.size a
  hwx4_1 : ∀ i : grid4.Coords, EltTy.bits .f32 = 32 ∨ (Rect.block (s := S51200x128) S2048x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S51200x1.size a
  hwx4_2 : ∀ i : grid4.Coords, EltTy.bits .f32 = 32 ∨ (Rect.block (s := S51200x1) S2048x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x128.size a ≤ S600064x128.size a
  hwx4_3 : ∀ i : grid4.Coords, EltTy.bits .bf16 = 32 ∨ (Rect.block (s := S600064x128) S2048x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x2048.size a ≤ S1x600064.size a
  hwx5_0 : ∀ i : grid5.Coords, EltTy.bits .i32 = 32 ∨ (Rect.block (s := S1x600064) S1x2048.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S600064x128.size a
  hwx5_1 : ∀ i : grid5.Coords, EltTy.bits .bf16 = 32 ∨ (Rect.block (s := S600064x128) S2048x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S51200x1.size a
  hwx5_2 : ∀ i : grid5.Coords, EltTy.bits .f32 = 32 ∨ (Rect.block (s := S51200x1) S2048x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x16.size a ≤ S128x16.size a
  hwx5_3 : ∀ i : grid5.Coords, EltTy.bits .f32 = 32 ∨ (Rect.block (s := S128x16) S128x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x16.size a ≤ S1x16.size a
  hwx5_4 : ∀ i : grid5.Coords, EltTy.bits .f32 = 32 ∨ (Rect.block (s := S1x16) S1x16.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2048x16.size a ≤ S51200x16.size a
  hwx5_5 : ∀ i : grid5.Coords, EltTy.bits .f32 = 32 ∨ (Rect.block (s := S51200x16) S2048x16.size (cc5_transform_5 i) (hinb5_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x16_S2048x16_1_0_0_1_n_n : DotDims S2048x128 S128x16 S2048x16 where
  lhsContracting := [1]
  rhsContracting := [0]
  lhsNonContracting := [0]
  rhsNonContracting := [1]
  lhsBatch := []
  rhsBatch := []
  wf := dot_S2048x128_S128x16_S2048x16_1_0_0_1_n_n_wf

abbrev win0_0 : Pipeline.Window sig grid0 :=
  Pipeline.Window.ofSpec (Memref.whole main_v20) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v22) S1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v20) S2048x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v22) S1x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v18) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v28) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29) S2048x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v20) S2048x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v30) S2048x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v22) S1x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v30) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v18) S2048x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S128x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v31) S1x16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v32) S2048x16.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S50000x16 : Shape := ⟨2, ![50000, 16]⟩
abbrev S1x16 : Shape := ⟨2, ![1, 16]⟩

abbrev nBuf : Space → Nat
  | .hbm => 156
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S128x128, .f32⟩
  | 4 => ⟨S128, .f32⟩
  | 5 => ⟨S128x128, .f32⟩
  | 6 => ⟨S128, .f32⟩
  | 7 => ⟨S128x16, .f32⟩
  | 8 => ⟨S16, .f32⟩
  | 9 => ⟨S_, .f32⟩
  | 10 => ⟨S600000, .f32⟩
  | 11 => ⟨S_, .f32⟩
  | 12 => ⟨S50000, .f32⟩
  | 13 => ⟨S600000x1, .i32⟩
  | 14 => ⟨S50000, .f32⟩
  | 15 => ⟨S_, .f32⟩
  | 16 => ⟨S_, .f32⟩
  | 17 => ⟨S50000, .f32⟩
  | 18 => ⟨S50000, .f32⟩
  | 19 => ⟨S_, .f32⟩
  | 20 => ⟨S50000, .f32⟩
  | 21 => ⟨S600000x1, .i32⟩
  | 22 => ⟨S50000, .f32⟩
  | 23 => ⟨S_, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S50000x1, .f32⟩
  | 31 => ⟨S50000x128, .f32⟩
  | 32 => ⟨S50000x128, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S_, .f32⟩
  | 43 => ⟨S50000x128, .f32⟩
  | 44 => ⟨S600000x1, .i32⟩
  | 45 => ⟨S50000x128, .f32⟩
  | 46 => ⟨S_, .f32⟩
  | 47 => ⟨S50000, .f32⟩
  | 48 => ⟨S50000, .f32⟩
  | 49 => ⟨S50000x1, .f32⟩
  | 50 => ⟨S50000x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S_, .f32⟩
  | 60 => ⟨S600000, .f32⟩
  | 61 => ⟨S_, .f32⟩
  | 62 => ⟨S50000, .f32⟩
  | 63 => ⟨S600000x1, .i32⟩
  | 64 => ⟨S50000, .f32⟩
  | 65 => ⟨S_, .f32⟩
  | 66 => ⟨S_, .f32⟩
  | 67 => ⟨S50000, .f32⟩
  | 68 => ⟨S50000, .f32⟩
  | 69 => ⟨S_, .f32⟩
  | 70 => ⟨S50000, .f32⟩
  | 71 => ⟨S600000x1, .i32⟩
  | 72 => ⟨S50000, .f32⟩
  | 73 => ⟨S_, .f32⟩
  | 74 => ⟨S_, .f32⟩
  | 75 => ⟨S50000, .f32⟩
  | 76 => ⟨S50000, .f32⟩
  | 77 => ⟨S_, .f32⟩
  | 78 => ⟨S50000, .f32⟩
  | 79 => ⟨S50000, .f32⟩
  | 80 => ⟨S50000x1, .f32⟩
  | 81 => ⟨S50000x128, .f32⟩
  | 82 => ⟨S50000x128, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S_, .f32⟩
  | 93 => ⟨S50000x128, .f32⟩
  | 94 => ⟨S600000x1, .i32⟩
  | 95 => ⟨S50000x128, .f32⟩
  | 96 => ⟨S_, .f32⟩
  | 97 => ⟨S50000, .f32⟩
  | 98 => ⟨S50000, .f32⟩
  | 99 => ⟨S50000x1, .f32⟩
  | 100 => ⟨S50000x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .f32⟩
  | 110 => ⟨S600000, .f32⟩
  | 111 => ⟨S_, .f32⟩
  | 112 => ⟨S50000, .f32⟩
  | 113 => ⟨S600000x1, .i32⟩
  | 114 => ⟨S50000, .f32⟩
  | 115 => ⟨S_, .f32⟩
  | 116 => ⟨S_, .f32⟩
  | 117 => ⟨S50000, .f32⟩
  | 118 => ⟨S50000, .f32⟩
  | 119 => ⟨S_, .f32⟩
  | 120 => ⟨S50000, .f32⟩
  | 121 => ⟨S600000x1, .i32⟩
  | 122 => ⟨S50000, .f32⟩
  | 123 => ⟨S_, .f32⟩
  | 124 => ⟨S_, .f32⟩
  | 125 => ⟨S50000, .f32⟩
  | 126 => ⟨S50000, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S50000x1, .f32⟩
  | 3 => ⟨S50000x128, .f32⟩
  | 4 => ⟨S50000x128, .f32⟩
  | 5 => ⟨S_, .i32⟩
  | 6 => ⟨S600000, .i32⟩
  | 7 => ⟨S600000, .i1⟩
  | 8 => ⟨S_, .i32⟩
  | 9 => ⟨S600000, .i32⟩
  | 10 => ⟨S600000, .i32⟩
  | 11 => ⟨S600000, .i32⟩
  | 12 => ⟨S600000x1, .i32⟩
  | 13 => ⟨S600000x128, .f32⟩
  | 14 => ⟨S_, .f32⟩
  | 15 => ⟨S50000x128, .f32⟩
  | 16 => ⟨S600000x1, .i32⟩
  | 17 => ⟨S50000x128, .f32⟩
  | 18 => ⟨S_, .f32⟩
  | 19 => ⟨S50000, .f32⟩
  | 20 => ⟨S50000, .f32⟩
  | 21 => ⟨S50000x1, .f32⟩
  | 22 => ⟨S50000x128, .f32⟩
  | 23 => ⟨S50000x128, .f32⟩
  | 24 => ⟨S50000x16, .f32⟩
  | 25 => ⟨S1x16, .f32⟩
  | 26 => ⟨S50000x16, .f32⟩
  | 27 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_10 : Ref sig .tc := ⟨.hbm, 65, rfl⟩
abbrev main_call3_v0 : Ref sig .tc := ⟨.hbm, 66, rfl⟩
abbrev main_call3_v1 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_12 : Ref sig .tc := ⟨.hbm, 73, rfl⟩
abbrev main_call4_v0 : Ref sig .tc := ⟨.hbm, 74, rfl⟩
abbrev main_call4_v1 : Ref sig .tc := ⟨.hbm, 75, rfl⟩
abbrev main_v42 : Ref sig .tc := ⟨.hbm, 76, rfl⟩
abbrev main_cst_13 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_14 : Ref sig .tc := ⟨.hbm, 83, rfl⟩
abbrev main_v48 : Ref sig .tc := ⟨.hbm, 84, rfl⟩
abbrev main_v49 : Ref sig .tc := ⟨.hbm, 85, rfl⟩
abbrev main_c_15 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_16 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_17 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call5_cst : Ref sig .tc := ⟨.hbm, 106, rfl⟩
abbrev main_call5_v0 : Ref sig .tc := ⟨.hbm, 107, rfl⟩
abbrev main_v67 : Ref sig .tc := ⟨.hbm, 108, rfl⟩
abbrev main_cst_18 : Ref sig .tc := ⟨.hbm, 109, rfl⟩
abbrev main_v68 : Ref sig .tc := ⟨.hbm, 110, rfl⟩
abbrev main_cst_19 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_20 : Ref sig .tc := ⟨.hbm, 115, rfl⟩
abbrev main_call6_v0 : Ref sig .tc := ⟨.hbm, 116, rfl⟩
abbrev main_call6_v1 : Ref sig .tc := ⟨.hbm, 117, rfl⟩
abbrev main_v72 : Ref sig .tc := ⟨.hbm, 118, rfl⟩
abbrev main_cst_21 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_22 : Ref sig .tc := ⟨.hbm, 123, rfl⟩
abbrev main_call7_v0 : Ref sig .tc := ⟨.hbm, 124, rfl⟩
abbrev main_call7_v1 : Ref sig .tc := ⟨.hbm, 125, rfl⟩
abbrev main_v76 : Ref sig .tc := ⟨.hbm, 126, rfl⟩
abbrev main_cst_23 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_c_24 : Ref sig .tc := ⟨.hbm, 133, rfl⟩
abbrev main_v82 : Ref sig .tc := ⟨.hbm, 134, rfl⟩
abbrev main_v83 : Ref sig .tc := ⟨.hbm, 135, rfl⟩
abbrev main_c_25 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_26 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_27 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.K.R0.Runs.lean ====
import proofs.«404853_j60129542534_1_alg».proof.Proof.Gen.Kernel.Launch
import proofs.«404853_j60129542534_1_alg».proof.Proof.Gen.Kernel.Skeleton
import proofs.«404853_j60129542534_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_of {c : Dev nD} (dat : Dat τ (Elt F) Unit ℕ (UR sig nD τ) ℕ cfg0 c) :
    (dat.A 0 = V c (Pipeline.arrRef spec0 0) → (∀ t, dat.after 0 t = iblk0 V c 0 t) → ∀ t d, dat.before 0 t d = iblk0 V c 0 t)
      ∧ (dat.A 1 = V c (Pipeline.arrRef spec0 1) → (∀ t, dat.after 1 t = iblk0 V c 1 t) → ∀ t d, dat.before 1 t d = iblk0 V c 1 t)
      ∧ (dat.A 2 = V c (Pipeline.arrRef spec0 2) → (∀ t, dat.after 2 t = iblk0 V c 2 t) → ∀ t d, dat.before 2 t d = iblk0 V c 2 t) := by
  refine ⟨?_, ?_, ?_⟩ <;> intro hA hafter t d <;>
    exact (dat.before_in_eq_fetched _ rfl (fun _ => rfl) (fun _ _ _ => rfl) (fun t => by rw [hafter]; unfold Dat.blockOf iblk0; rw [hA]; try rfl) t d).trans
      (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

theorem idleAt0_3 (t : Fin cfg0.N) (h : ¬cond0_1 (grid0.coords t)) : cfg0.idle 3 (grid0.coords t) = true := by
  show (!(k0_cond2 (grid0.coords t) == 1#1)) = true
  simp only [Bool.not_eq_true', beq_eq_false_iff_ne, ne_eq]; exact h
theorem noFlush0_3 (t : Fin cfg0.N) (h : ¬cond0_1 (grid0.coords t)) : (cfg0.win 3).flush t = false :=
  Bool.eq_false_iff.mpr fun hf => h ((hcond0_1 t).mpr ((flush0_3 t).mp hf))
theorem liveAt0_3 (t : Fin cfg0.N) (h : cond0_1 (grid0.coords t)) : cfg0.idle 3 (grid0.coords t) = false := by
  show (!(k0_cond2 (grid0.coords t) == 1#1)) = false
  simp only [Bool.not_eq_false', beq_iff_eq]; exact h

abbrev VO0_3 : View sig .tc .vmem S2048x128 .bf16 := (Memref.whole cc0_stg3_0 : Memref sig .tc .vmem S2048x128 .bf16).view
abbrev ms0_0 (t : Fin cfg0.N) : Memref sig .tc .vmem S2048x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev scM0_0 : Memref sig .tc .vmem S2048x128 .f32 := Memref.whole cc0_scratch0
abbrev VS0_0 : View sig .tc .vmem S2048x128 .f32 := scM0_0.view

abbrev restBut0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ restBut0 c) ∗ (∃ r, prngReg c r)) := by
  unfold Pipeline.ΦA; rw [scopedRest0_split]; simp only [scM0_0, owns_whole]; try rfl

end Cert.Kernel.Fr

end
-- ==== Proof.K.R0.RunA.lean ====
import proofs.«404853_j60129542534_1_alg».proof.Proof.K.R0.Runs

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : cond0_0 i) (hc1 : ¬cond0_1 i)
    (x0 : Vec F S2048x1 .i32) (x1 : Vec F S2048x128 .f32) (x2 : Vec F S2048x1 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernelA_body i arg2 harg2 arg3 harg3 arg4 harg4 arg5 harg5 arg6 harg6) K } := by
  refine ⟨[], ?_, fun xi3 E K => ?run⟩
  case run =>
    simp only [cc0__kernelA_body_eq_skeleton]; unfold cc0__kernelA_body_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.R0.RunB.lean ====
import proofs.«404853_j60129542534_1_alg».proof.Proof.K.R0.RunA

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : ¬cond0_0 i) (hc1 : ¬cond0_1 i)
    (x0 : Vec F S2048x1 .i32) (x1 : Vec F S2048x128 .f32) (x2 : Vec F S2048x1 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernelA_body i arg2 harg2 arg3 harg3 arg4 harg4 arg5 harg5 arg6 harg6) K } := by
  refine ⟨[], ?_, fun xi3 E K => ?run⟩
  case run =>
    simp only [cc0__kernelA_body_eq_skeleton]; unfold cc0__kernelA_body_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.R0.RunC.lean ====
import proofs.«404853_j60129542534_1_alg».proof.Proof.K.R0.RunB

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : ¬cond0_0 i) (hc1 : cond0_1 i)
    (x0 : Vec F S2048x1 .i32) (x1 : Vec F S2048x128 .f32) (x2 : Vec F S2048x1 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernelA_body i arg2 harg2 arg3 harg3 arg4 harg4 arg5 harg5 arg6 harg6) K } := by
  refine ⟨?_, ?_, fun E K => ?run⟩
  case run =>
    simp only [cc0__kernelA_body_eq_skeleton]; unfold cc0__kernelA_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.R0.Region.lean ====
import proofs.«404853_j60129542534_1_alg».proof.Proof.K.R0.RunC

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole)

section
variable (hc0 : cond0_0 i) (hc1 : ¬cond0_1 i) (x0 : Vec F S2048x1 .i32) (x1 : Vec F S2048x128 .f32) (x2 : Vec F S2048x1 .f32)

def out0_A_3 : Vec F S2048x128 .bf16 :=
  VO0_3.read (Elt F) (VO0_3.writes (Elt F) VO0_3.junk (kernelRun0_A c i arg2 harg2 arg3 harg3 arg4 harg4 arg5 harg5 arg6 harg6 hc0 hc1 x0 x1 x2).1)

theorem scover0_A_0 (y : S2048x128.Idx) : ∃ pc ∈ (kernelRun0_A c i arg2 harg2 arg3 harg3 arg4 harg4 arg5 harg5 arg6 harg6 hc0 hc1 x0 x1 x2).2.1, y ∈ pc.1.set :=
  View.cover_of_tiledL _ S2048x128.size (by sl_kernel_rfl) y

def sout0_A_0 : Vec F S2048x128 .f32 :=
  VS0_0.read (Elt F) (VS0_0.writes (Elt F) VS0_0.junk (kernelRun0_A c i arg2 harg2 arg3 harg3 arg4 harg4 arg5 harg5 arg6 harg6 hc0 hc1 x0 x1 x2).2.1)

def pair0_A : Vec F S2048x128 .bf16 × Vec F S2048x128 .f32 :=
  (out0_A_3 c i arg2 harg2 arg3 harg3 arg4 harg4 arg5 harg5 arg6 harg6 hc0 hc1 x0 x1 x2, sout0_A_0 c i arg2 harg2 arg3 harg3 arg4 harg4 arg5 harg5 arg6 harg6 hc0 hc1 x0 x1 x2)

end

section
variable (hc0 : ¬cond0_0 i) (hc1 : ¬cond0_1 i) (x0 : Vec F S2048x1 .i32) (x1 : Vec F S2048x128 .f32) (x2 : Vec F S2048x1 .f32) (xs0 : Vec F S2048x128 .f32)

def out0_B_3 : Vec F S2048x128 .bf16 :=
  VO0_3.read (Elt F) (VO0_3.writes (Elt F) VO0_3.junk (kernelRun0_B c i arg2 harg2 arg3 harg3 arg4 harg4 arg5 harg5 arg6 harg6 hc0 hc1 x0 x1 x2 xs0).1)

theorem scover0_B_0 (y : S2048x128.Idx) : ∃ pc ∈ (kernelRun0_B c i arg2 harg2 arg3 harg3 arg4 harg4 arg5 harg5 arg6 harg6 hc0 hc1 x0 x1 x2 xs0).2.1, y ∈ pc.1.set :=
  View.cover_of_tiledL _ S2048x128.size (by sl_kernel_rfl) y

def sout0_B_0 : Vec F S2048x128 .f32 :=
  VS0_0.read (Elt F) (VS0_0.writes (Elt F) VS0_0.junk (kernelRun0_B c i arg2 harg2 arg3 harg3 arg4 harg4 arg5 harg5 arg6 harg6 hc0 hc1 x0 x1 x2 xs0).2.1)

def pair0_B : Vec F S2048x128 .bf16 × Vec F S2048x128 .f32 :=
  (out0_B_3 c i arg2 harg2 arg3 harg3 arg4 harg4 arg5 harg5 arg6 harg6 hc0 hc1 x0 x1 x2 xs0, sout0_B_0 c i arg2 harg2 arg3 harg3 arg4 harg4 arg5 harg5 arg6 harg6 hc0 hc1 x0 x1 x2 xs0)

end

section
variable (hc0 : ¬cond0_0 i) (hc1 : cond0_1 i) (x0 : Vec F S2048x1 .i32) (x1 : Vec F S2048x128 .f32) (x2 : Vec F S2048x1 .f32) (xs0 : Vec F S2048x128 .f32)

theorem cover0_C_3 (y : S2048x128.Idx) : ∃ pc ∈ (kernelRun0_C c i arg2 harg2 arg3 harg3 arg4 harg4 arg5 harg5 arg6 harg6 hc0 hc1 x0 x1 x2 xs0).1, y ∈ pc.1.set :=
  View.cover_of_tiledL _ S2048x128.size (by sl_kernel_rfl) y

def out0_C_3 : Vec F S2048x128 .bf16 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (y : S2048x128.Idx) : ∃ pc ∈ (kernelRun0_C c i arg2 harg2 arg3 harg3 arg4 harg4 arg5 harg5 arg6 harg6 hc0 hc1 x0 x1 x2 xs0).2.1, y ∈ pc.1.set :=
  View.cover_of_tiledL _ S2048x128.size (by sl_kernel_rfl) y

def sout0_C_0 : Vec F S2048x128 .f32 :=
  VS0_0.read (Elt F) (VS0_0.writes (Elt F) VS0_0.junk (kernelRun0_C c i arg2 harg2 arg3 harg3 arg4 harg4 arg5 harg5 arg6 harg6 hc0 hc1 x0 x1 x2 xs0).2.1)

def pair0_C : Vec F S2048x128 .bf16 × Vec F S2048x128 .f32 :=
  (out0_C_3 c i arg2 harg2 arg3 harg3 arg4 harg4 arg5 harg5 arg6 harg6 hc0 hc1 x0 x1 x2 xs0, sout0_C_0 c i arg2 harg2 arg3 harg3 arg4 harg4 arg5 harg5 arg6 harg6 hc0 hc1 x0 x1 x2 xs0)

end

end

-- The output block and the accumulator after position n, by recursion on n: the residue mod 25 selects the case.
def outsAt0 (c : Dev nD) : (n : ℕ) → n < cfg0.N → Vec F S2048x128 .bf16 × Vec F S2048x128 .f32
  | 0, hn => pair0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)
  | n + 1, hn =>
    if h0 : (n + 1) % 25 = 0 then
      if h1 : (n + 1) % 25 = 24 then
        False.elim (by omega)
      else
        pair0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩)
    else
      if h1 : (n + 1) % 25 = 24 then
        pair0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2
      else
        pair0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2

theorem outsAt0_A (c : Dev nD) (t : Fin cfg0.N) (h0 : t.val % 25 = 0) (h1 : ¬t.val % 25 = 24) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 25 = 0) (h1 : t.val % 25 = 24) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restBut0 c) ∗ (∃ r, prngReg c r))

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restBut0 c) ∗ (∃ r, prngReg c r)) := by
  cases n with
  | zero => exact absurd rfl hz
  | succ n => rfl

-- At every position the invariant gives the accumulator at some contents.
theorem PhiS0_weak (c : Dev nD) (n : ℕ) (h : n ≤ cfg0.N) :
    PhiS0 V c n h ⊢ iprop(iprop((∃ d, owns (c : Thread nD τ) scM0_0 fullShare d) ∗ restBut0 c) ∗ (∃ r, prngReg c r)) := by
  by_cases hz : n = 0
  · subst hz; exact Entails.of_eq (PhiA0_eq c)
  · rw [PhiS0_pos V c n h hz]
    iintro ⟨⟨HS0, Hrest⟩, Hg⟩
    iframe Hrest Hg
    iexists _; iexact HS0

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = (outsAt0 V c t.val t.isLt).1 := rfl

set_option maxHeartbeats 4800000 in
-- The residue of the position mod 25 says which case the point is in; that case's run applies, between the invariant before and after.
theorem sound_body0 (c : Dev nD) (t : Fin cfg0.N) :
    iprop(PhiS0 V c t.val (Nat.le_of_lt t.isLt) ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
      ⊢ wp frame (wpE (defs₀ (F := F)) Variants.none c none) Set.univ (bodyAt0 t) (fun _ =>
        iprop(iprop(iprop(owns (c : Thread nD τ) scM0_0 fullShare (outsAt0 V c t.val t.isLt).2 ∗ restBut0 c) ∗ (∃ r, prngReg c r)) ∗ (dat0 V c).owesAt () t.castSucc
          ∗ owns (c : Thread nD τ) (ms0_0 t) fullShare (iblk0 V c 0 t)
          ∗ owns (c : Thread nD τ) (ms0_1 t) fullShare (iblk0 V c 1 t)
          ∗ owns (c : Thread nD τ) (ms0_2 t) fullShare (iblk0 V c 2 t)
          ∗ (dat0 V c).leavesExact 3 t)) := by
  unfold bodyAt0
  simp only [(before0_of V (dat0 V c)).1 rfl (after0_0 V c), (before0_of V (dat0 V c)).2.1 rfl (after0_1 V c), (before0_of V (dat0 V c)).2.2 rfl (after0_2 V c)]
  by_cases h0 : t.val % 25 = 0
  · have h1 : ¬t.val % 25 = 24 := by omega
    rw [Dat.leavesExact_idle (dat0 V c) 3 t (idleAt0_3 t fun h => h1 ((hcond0_1 t).mp h)) (noFlush0_3 t fun h => h1 ((hcond0_1 t).mp h)), outsAt0_A V c t h0 h1]
    unfold sout0_A_0; (try dsimp only)
    refine (sep_mono_left (PhiS0_weak V c _ _)).trans ?_
    iintro ⟨⟨⟨HS0, Hrest⟩, Hg⟩, Ho, ⟨%d0, H0⟩, ⟨%d1, H1⟩, ⟨%d2, H2⟩, ⟨%d3, H3⟩⟩
    iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    iframe Hrest Hg Ho H0 H1 H2
    isplitl [HS0]
    · unfold owns; iexists _; isplitr
      swap; · iexact HS0
      ipureintro; exact View.read_writes_of_cover _ _ _ _ _ (scover0_A_0 c _ _ _ _ _ _ _ _ _ _ _ _ _ _ _ _)
    iexists _; iexact H3
  · rw [PhiS0_pos V c _ _ fun hz => h0 (by rw [hz])]
    by_cases h1 : t.val % 25 = 24
    · rw [show (dat0 V c).leavesExact 3 t = owns (c : Thread nD τ) (ms0_3 t) fullShare ((dat0 V c).after 3 t) from by
        unfold Dat.leavesExact; rw [liveAt0_3 t ((hcond0_1 t).mpr h1)], after0_3, outsAt0_C V c t h0 h1]
      unfold out0_C_3 sout0_C_0; (try dsimp only)
      iintro ⟨⟨⟨HS0, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      iframe Hrest Hg Ho H0 H1 H2
      isplitl [HS0]
      · unfold owns; iexists _; isplitr
        swap; · iexact HS0
        ipureintro; exact View.read_writes_of_cover _ _ _ _ _ (scover0_C_0 c _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t fun h => h1 ((hcond0_1 t).mp h)) (noFlush0_3 t fun h => h1 ((hcond0_1 t).mp h)), outsAt0_B V c t h0 h1]
      unfold sout0_B_0; (try dsimp only)
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      iframe Hrest Hg Ho H0 H1 H2
      isplitl [HS0]
      · unfold owns; iexists _; isplitr
        swap; · iexact HS0
        ipureintro; exact View.read_writes_of_cover _ _ _ _ _ (scover0_B_0 c _ _ _ _ _ _ _ _ _ _ _ _ _ _ _ _ _)
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c :=
  (PhiS0_weak V c cfg0.N (Nat.le_refl _)).trans (Entails.of_eq (PhiA0_eq c).symm)

end Cert.Kernel.Fr

end
-- ==== Proof.K.R1.Runs.lean ====
import proofs.«404853_j60129542534_1_alg».proof.Proof.Gen.Kernel.Launch
import proofs.«404853_j60129542534_1_alg».proof.Proof.Gen.Kernel.Skeleton
import proofs.«404853_j60129542534_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_of {c : Dev nD} (dat : Dat τ (Elt F) Unit ℕ (UR sig nD τ) ℕ cfg1 c) :
    (dat.A 0 = V c (Pipeline.arrRef spec1 0) → (∀ t, dat.after 0 t = iblk1 V c 0 t) → ∀ t d, dat.before 0 t d = iblk1 V c 0 t)
      ∧ (dat.A 1 = V c (Pipeline.arrRef spec1 1) → (∀ t, dat.after 1 t = iblk1 V c 1 t) → ∀ t d, dat.before 1 t d = iblk1 V c 1 t)
      ∧ (dat.A 2 = V c (Pipeline.arrRef spec1 2) → (∀ t, dat.after 2 t = iblk1 V c 2 t) → ∀ t d, dat.before 2 t d = iblk1 V c 2 t)
      ∧ (dat.A 3 = V c (Pipeline.arrRef spec1 3) → (∀ t, dat.after 3 t = iblk1 V c 3 t) → ∀ t d, dat.before 3 t d = iblk1 V c 3 t)
      ∧ (dat.A 4 = V c (Pipeline.arrRef spec1 4) → (∀ t, dat.after 4 t = iblk1 V c 4 t) → ∀ t d, dat.before 4 t d = iblk1 V c 4 t) := by
  refine ⟨?_, ?_, ?_, ?_, ?_⟩ <;> intro hA hafter t d <;>
    exact (dat.before_in_eq_fetched _ rfl (fun _ => rfl) (fun _ _ _ => rfl) (fun t => by rw [hafter]; unfold Dat.blockOf iblk1; rw [hA]; try rfl) t d).trans
      (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 293 = 0 :=
  (by decide +kernel : ∀ t : Fin grid1.N, cond1_0 (grid1.coords t) ↔ t.val % 293 = 0)
abbrev cond1_1 (i : grid1.Coords) : Prop := k1_cond2 i = 1#1
theorem hcond1_1 : ∀ t : Fin cfg1.N, cond1_1 (grid1.coords t) ↔ t.val % 293 = 292 :=
  (by decide +kernel : ∀ t : Fin grid1.N, cond1_1 (grid1.coords t) ↔ t.val % 293 = 292)

theorem idleAt1_5 (t : Fin cfg1.N) (h : ¬cond1_1 (grid1.coords t)) : cfg1.idle 5 (grid1.coords t) = true := by
  show (!(k1_cond2 (grid1.coords t) == 1#1)) = true
  simp only [Bool.not_eq_true', beq_eq_false_iff_ne, ne_eq]; exact h
theorem noFlush1_5 (t : Fin cfg1.N) (h : ¬cond1_1 (grid1.coords t)) : (cfg1.win 5).flush t = false :=
  Bool.eq_false_iff.mpr fun hf => h ((hcond1_1 t).mpr ((flush1_5 t).mp hf))
theorem liveAt1_5 (t : Fin cfg1.N) (h : cond1_1 (grid1.coords t)) : cfg1.idle 5 (grid1.coords t) = false := by
  show (!(k1_cond2 (grid1.coords t) == 1#1)) = false
  simp only [Bool.not_eq_false', beq_iff_eq]; exact h

abbrev VO1_5 : View sig .tc .vmem S2048x128 .f32 := (Memref.whole cc1_stg5_0 : Memref sig .tc .vmem S2048x128 .f32).view
abbrev ms1_0 (t : Fin cfg1.N) : Memref sig .tc .vmem S1x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x128 .f32 := win1_5.stage (cfg1.slots t 5)
abbrev hs1_5 (t : Fin cfg1.N) : (ms1_5 t).IsWhole := hstage1_5 ((cfg1.slots t 5).cast nbuf1_5)
abbrev scM1_0 : Memref sig .tc .vmem S2048x128 .f32 := Memref.whole cc1_scratch0
abbrev VS1_0 : View sig .tc .vmem S2048x128 .f32 := scM1_0.view

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ restBut1 c) ∗ (∃ r, prngReg c r)) := by
  unfold Pipeline.ΦA; rw [scopedRest1_split]; simp only [scM1_0, owns_whole]; try rfl

end Cert.Kernel.Fr

end
-- ==== Proof.K.R1.RunA.lean ====
import proofs.«404853_j60129542534_1_alg».proof.Proof.K.R1.Runs

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_A (c : Dev nD) (i : grid1.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole)
    (arg7 : Memref sig .tc .vmem S2048x128 .f32) (harg7 : arg7.IsWhole)
    (arg8 : Memref sig .tc .vmem S2048x128 .f32) (harg8 : arg8.IsWhole) (hc0 : cond1_0 i) (hc1 : ¬cond1_1 i)
    (x0 : Vec F S1x2048 .i32) (x1 : Vec F S2048x128 .bf16) (x2 : Vec F S2048x1 .f32) (x3 : Vec F S128x128 .f32) (x4 : Vec F S1x128 .f32) :
    Σ' (L5 : List (View.Piece (Elt F) S2048x128 .f32)),
      { LS0 : List (View.Piece (Elt F) S2048x128 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_body i arg2 harg2 arg3 harg3 arg4 harg4 arg5 harg5 arg6 harg6 arg7 harg7 arg8 harg8) K } := by
  refine ⟨[], ?_, fun xi5 E K => ?run⟩
  case run =>
    simp only [cc1_body_eq_skeleton]; unfold cc1_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.R1.RunB.lean ====
import proofs.«404853_j60129542534_1_alg».proof.Proof.K.R1.RunA

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_B (c : Dev nD) (i : grid1.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole)
    (arg7 : Memref sig .tc .vmem S2048x128 .f32) (harg7 : arg7.IsWhole)
    (arg8 : Memref sig .tc .vmem S2048x128 .f32) (harg8 : arg8.IsWhole) (hc0 : ¬cond1_0 i) (hc1 : ¬cond1_1 i)
    (x0 : Vec F S1x2048 .i32) (x1 : Vec F S2048x128 .bf16) (x2 : Vec F S2048x1 .f32) (x3 : Vec F S128x128 .f32) (x4 : Vec F S1x128 .f32) (xs0 : Vec F S2048x128 .f32) :
    Σ' (L5 : List (View.Piece (Elt F) S2048x128 .f32)),
      { LS0 : List (View.Piece (Elt F) S2048x128 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_body i arg2 harg2 arg3 harg3 arg4 harg4 arg5 harg5 arg6 harg6 arg7 harg7 arg8 harg8) K } := by
  refine ⟨[], ?_, fun xi5 E K => ?run⟩
  case run =>
    simp only [cc1_body_eq_skeleton]; unfold cc1_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.R1.RunC.lean ====
import proofs.«404853_j60129542534_1_alg».proof.Proof.K.R1.RunB

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_C (c : Dev nD) (i : grid1.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole)
    (arg7 : Memref sig .tc .vmem S2048x128 .f32) (harg7 : arg7.IsWhole)
    (arg8 : Memref sig .tc .vmem S2048x128 .f32) (harg8 : arg8.IsWhole) (hc0 : ¬cond1_0 i) (hc1 : cond1_1 i)
    (x0 : Vec F S1x2048 .i32) (x1 : Vec F S2048x128 .bf16) (x2 : Vec F S2048x1 .f32) (x3 : Vec F S128x128 .f32) (x4 : Vec F S1x128 .f32) (xs0 : Vec F S2048x128 .f32) :
    Σ' (L5 : List (View.Piece (Elt F) S2048x128 .f32)),
      { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1_body i arg2 harg2 arg3 harg3 arg4 harg4 arg5 harg5 arg6 harg6 arg7 harg7 arg8 harg8) K } := by
  refine ⟨?_, ?_, fun E K => ?run⟩
  case run =>
    simp only [cc1_body_eq_skeleton]; unfold cc1_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Fr

end
-- ==== Proof.K.R1.Region.lean ====
import proofs.«404853_j60129542534_1_alg».proof.Proof.K.R1.RunC

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole)

section
variable (hc0 : cond1_0 i) (hc1 : ¬cond1_1 i) (x0 : Vec F S1x2048 .i32) (x1 : Vec F S2048x128 .bf16) (x2 : Vec F S2048x1 .f32) (x3 : Vec F S128x128 .f32) (x4 : Vec F S1x128 .f32)

def out1_A_5 : Vec F S2048x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

theorem scover1_A_0 (y : S2048x128.Idx) : ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL _ S2048x128.size (by sl_kernel_rfl) y

def sout1_A_0 : Vec F S2048x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

def pair1_A : Vec F S2048x128 .f32 × Vec F S2048x128 .f32 :=
  (out1_A_5 c i arg2 harg2 arg3 harg3 arg4 harg4 arg5 harg5 arg6 harg6 arg7 harg7 arg8 harg8 hc0 hc1 x0 x1 x2 x3 x4, sout1_A_0 c i arg2 harg2 arg3 harg3 arg4 harg4 arg5 harg5 arg6 harg6 arg7 harg7 arg8 harg8 hc0 hc1 x0 x1 x2 x3 x4)

end

section
variable (hc0 : ¬cond1_0 i) (hc1 : ¬cond1_1 i) (x0 : Vec F S1x2048 .i32) (x1 : Vec F S2048x128 .bf16) (x2 : Vec F S2048x1 .f32) (x3 : Vec F S128x128 .f32) (x4 : Vec F S1x128 .f32) (xs0 : Vec F S2048x128 .f32)

def out1_B_5 : Vec F S2048x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

theorem scover1_B_0 (y : S2048x128.Idx) : ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL _ S2048x128.size (by sl_kernel_rfl) y

def sout1_B_0 : Vec F S2048x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

def pair1_B : Vec F S2048x128 .f32 × Vec F S2048x128 .f32 :=
  (out1_B_5 c i arg2 harg2 arg3 harg3 arg4 harg4 arg5 harg5 arg6 harg6 arg7 harg7 arg8 harg8 hc0 hc1 x0 x1 x2 x3 x4 xs0, sout1_B_0 c i arg2 harg2 arg3 harg3 arg4 harg4 arg5 harg5 arg6 harg6 arg7 harg7 arg8 harg8 hc0 hc1 x0 x1 x2 x3 x4 xs0)

end

section
variable (hc0 : ¬cond1_0 i) (hc1 : cond1_1 i) (x0 : Vec F S1x2048 .i32) (x1 : Vec F S2048x128 .bf16) (x2 : Vec F S2048x1 .f32) (x3 : Vec F S128x128 .f32) (x4 : Vec F S1x128 .f32) (xs0 : Vec F S2048x128 .f32)

theorem cover1_C_5 (y : S2048x128.Idx) : ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL _ S2048x128.size (by sl_kernel_rfl) y

def out1_C_5 : Vec F S2048x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

theorem scover1_C_0 (y : S2048x128.Idx) : ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL _ S2048x128.size (by sl_kernel_rfl) y

def sout1_C_0 : Vec F S2048x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

def pair1_C : Vec F S2048x128 .f32 × Vec F S2048x128 .f32 :=
  (out1_C_5 c i arg2 harg2 arg3 harg3 arg4 harg4 arg5 harg5 arg6 harg6 arg7 harg7 arg8 harg8 hc0 hc1 x0 x1 x2 x3 x4 xs0, sout1_C_0 c i arg2 harg2 arg3 harg3 arg4 harg4 arg5 harg5 arg6 harg6 arg7 harg7 arg8 harg8 hc0 hc1 x0 x1 x2 x3 x4 xs0)

end

end

-- The output block and the accumulator after position n, by recursion on n: the residue mod 293 selects the case.
def outsAt1 (c : Dev nD) : (n : ℕ) → n < cfg1.N → Vec F S2048x128 .f32 × Vec F S2048x128 .f32
  | 0, hn => pair1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 293 = 0 then
      if h1 : (n + 1) % 293 = 292 then
        False.elim (by omega)
      else
        pair1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 293 = 292 then
        pair1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2
      else
        pair1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2

theorem outsAt1_A (c : Dev nD) (t : Fin cfg1.N) (h0 : t.val % 293 = 0) (h1 : ¬t.val % 293 = 292) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 293 = 0) (h1 : ¬t.val % 293 = 292) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 293 = 0) (h1 : t.val % 293 = 292) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 c) ∗ (∃ r, prngReg c r))

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 c) ∗ (∃ r, prngReg c r)) := by
  cases n with
  | zero => exact absurd rfl hz
  | succ n => rfl

-- At every position the invariant gives the accumulator at some contents.
theorem PhiS1_weak (c : Dev nD) (n : ℕ) (h : n ≤ cfg1.N) :
    PhiS1 V c n h ⊢ iprop(iprop((∃ d, owns (c : Thread nD τ) scM1_0 fullShare d) ∗ restBut1 c) ∗ (∃ r, prngReg c r)) := by
  by_cases hz : n = 0
  · subst hz; exact Entails.of_eq (PhiA1_eq c)
  · rw [PhiS1_pos V c n h hz]
    iintro ⟨⟨HS0, Hrest⟩, Hg⟩
    iframe Hrest Hg
    iexists _; iexact HS0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = iblk1 V c 3 t := rfl
theorem after1_4 (c : Dev nD) (t : Fin cfg1.N) : (dat1 V c).after 4 t = iblk1 V c 4 t := rfl
theorem after1_5 (c : Dev nD) (t : Fin cfg1.N) : (dat1 V c).after 5 t = (outsAt1 V c t.val t.isLt).1 := rfl

set_option maxHeartbeats 4800000 in
-- The residue of the position mod 293 says which case the point is in; that case's run applies, between the invariant before and after.
theorem sound_body1 (c : Dev nD) (t : Fin cfg1.N) :
    iprop(PhiS1 V c t.val (Nat.le_of_lt t.isLt) ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d))
      ∗ (∃ d, owns (c : Thread nD τ) (ms1_5 t) fullShare ((dat1 V c).before 5 t d)))
      ⊢ wp frame (wpE (defs₀ (F := F)) Variants.none c none) Set.univ (bodyAt1 t) (fun _ =>
        iprop(iprop(iprop(owns (c : Thread nD τ) scM1_0 fullShare (outsAt1 V c t.val t.isLt).2 ∗ restBut1 c) ∗ (∃ r, prngReg c r)) ∗ (dat1 V c).owesAt () t.castSucc
          ∗ owns (c : Thread nD τ) (ms1_0 t) fullShare (iblk1 V c 0 t)
          ∗ owns (c : Thread nD τ) (ms1_1 t) fullShare (iblk1 V c 1 t)
          ∗ owns (c : Thread nD τ) (ms1_2 t) fullShare (iblk1 V c 2 t)
          ∗ owns (c : Thread nD τ) (ms1_3 t) fullShare (iblk1 V c 3 t)
          ∗ owns (c : Thread nD τ) (ms1_4 t) fullShare (iblk1 V c 4 t)
          ∗ (dat1 V c).leavesExact 5 t)) := by
  unfold bodyAt1
  simp only [(before1_of V (dat1 V c)).1 rfl (after1_0 V c), (before1_of V (dat1 V c)).2.1 rfl (after1_1 V c), (before1_of V (dat1 V c)).2.2.1 rfl (after1_2 V c), (before1_of V (dat1 V c)).2.2.2.1 rfl (after1_3 V c), (before1_of V (dat1 V c)).2.2.2.2 rfl (after1_4 V c)]
  by_cases h0 : t.val % 293 = 0
  · have h1 : ¬t.val % 293 = 292 := by omega
    rw [Dat.leavesExact_idle (dat1 V c) 5 t (idleAt1_5 t fun h => h1 ((hcond1_1 t).mp h)) (noFlush1_5 t fun h => h1 ((hcond1_1 t).mp h)), outsAt1_A V c t h0 h1]
    unfold sout1_A_0; (try dsimp only)
    refine (sep_mono_left (PhiS1_weak V c _ _)).trans ?_
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    iframe Hrest Hg Ho H0 H1 H2 H3 H4
    isplitl [HS0]
    · unfold owns; iexists _; isplitr
      swap; · iexact HS0
      ipureintro; exact View.read_writes_of_cover _ _ _ _ _ (scover1_A_0 c _ _ _ _ _ _ _ _ _ _ _ _ _ _ _ _ _ _ _ _ _ _)
    iexists _; iexact H5
  · rw [PhiS1_pos V c _ _ fun hz => h0 (by rw [hz])]
    by_cases h1 : t.val % 293 = 292
    · rw [show (dat1 V c).leavesExact 5 t = owns (c : Thread nD τ) (ms1_5 t) fullShare ((dat1 V c).after 5 t) from by
        unfold Dat.leavesExact; rw [liveAt1_5 t ((hcond1_1 t).mpr h1)], after1_5, outsAt1_C V c t h0 h1]
      unfold out1_C_5 sout1_C_0; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      iframe Hrest Hg Ho H0 H1 H2 H3 H4
      isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _ _)
    · rw [Dat.leavesExact_idle (dat1 V c) 5 t (idleAt1_5 t fun h => h1 ((hcond1_1 t).mp h)) (noFlush1_5 t fun h => h1 ((hcond1_1 t).mp h)), outsAt1_B V c t h0 h1]
      unfold sout1_B_0; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      iframe Hrest Hg Ho H0 H1 H2 H3 H4
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _)
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c :=
  (PhiS1_weak V c cfg1.N (Nat.le_refl _)).trans (Entails.of_eq (PhiA1_eq c).symm)

end Cert.Kernel.Fr

end
-- ==== Proof.K.R2.Runs.lean ====
import proofs.«404853_j60129542534_1_alg».proof.Proof.Gen.Kernel.Launch
import proofs.«404853_j60129542534_1_alg».proof.Proof.Gen.Kernel.Skeleton
import proofs.«404853_j60129542534_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_of {c : Dev nD} (dat : Dat τ (Elt F) Unit ℕ (UR sig nD τ) ℕ cfg2 c) :
    (dat.A 0 = V c (Pipeline.arrRef spec2 0) → (∀ t, dat.after 0 t = iblk2 V c 0 t) → ∀ t d, dat.before 0 t d = iblk2 V c 0 t)
      ∧ (dat.A 1 = V c (Pipeline.arrRef spec2 1) → (∀ t, dat.after 1 t = iblk2 V c 1 t) → ∀ t d, dat.before 1 t d = iblk2 V c 1 t)
      ∧ (dat.A 2 = V c (Pipeline.arrRef spec2 2) → (∀ t, dat.after 2 t = iblk2 V c 2 t) → ∀ t d, dat.before 2 t d = iblk2 V c 2 t) := by
  refine ⟨?_, ?_, ?_⟩ <;> intro hA hafter t d <;>
    exact (dat.before_in_eq_fetched _ rfl (fun _ => rfl) (fun _ _ _ => rfl) (fun t => by rw [hafter]; unfold Dat.blockOf iblk2; rw [hA]; try rfl) t d).trans
      (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)
abbrev cond2_1 (i : grid2.Coords) : Prop := k2_cond2 i = 1#1
theorem hcond2_1 : ∀ t : Fin cfg2.N, cond2_1 (grid2.coords t) ↔ t.val % 25 = 24 :=
  (by decide +kernel : ∀ t : Fin grid2.N, cond2_1 (grid2.coords t) ↔ t.val % 25 = 24)

theorem idleAt2_3 (t : Fin cfg2.N) (h : ¬cond2_1 (grid2.coords t)) : cfg2.idle 3 (grid2.coords t) = true := by
  show (!(k2_cond2 (grid2.coords t) == 1#1)) = true
  simp only [Bool.not_eq_true', beq_eq_false_iff_ne, ne_eq]; exact h
theorem noFlush2_3 (t : Fin cfg2.N) (h : ¬cond2_1 (grid2.coords t)) : (cfg2.win 3).flush t = false :=
  Bool.eq_false_iff.mpr fun hf => h ((hcond2_1 t).mpr ((flush2_3 t).mp hf))
theorem liveAt2_3 (t : Fin cfg2.N) (h : cond2_1 (grid2.coords t)) : cfg2.idle 3 (grid2.coords t) = false := by
  show (!(k2_cond2 (grid2.coords t) == 1#1)) = false
  simp only [Bool.not_eq_false', beq_iff_eq]; exact h

abbrev VO2_3 : View sig .tc .vmem S2048x128 .bf16 := (Memref.whole cc2_stg3_0 : Memref sig .tc .vmem S2048x128 .bf16).view
abbrev ms2_0 (t : Fin cfg2.N) : Memref sig .tc .vmem S2048x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x128 .bf16 := win2_3.stage (cfg2.slots t 3)
abbrev hs2_3 (t : Fin cfg2.N) : (ms2_3 t).IsWhole := hstage2_3 ((cfg2.slots t 3).cast nbuf2_3)
abbrev scM2_0 : Memref sig .tc .vmem S2048x128 .f32 := Memref.whole cc2_scratch0
abbrev VS2_0 : View sig .tc .vmem S2048x128 .f32 := scM2_0.view

abbrev restBut2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ restBut2 c) ∗ (∃ r, prngReg c r)) := by
  unfold Pipeline.ΦA; rw [scopedRest2_split]; simp only [scM2_0, owns_whole]; try rfl

end Cert.Kernel.Fr

end
-- ==== Proof.K.R2.RunA.lean ====
import proofs.«404853_j60129542534_1_alg».proof.Proof.K.R2.Runs

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : cond2_0 i) (hc1 : ¬cond2_1 i)
    (x0 : Vec F S2048x1 .i32) (x1 : Vec F S2048x128 .f32) (x2 : Vec F S2048x1 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__kernelA_body i arg2 harg2 arg3 harg3 arg4 harg4 arg5 harg5 arg6 harg6) K } := by
  refine ⟨[], ?_, fun xi3 E K => ?run⟩
  case run =>
    simp only [cc2__kernelA_body_eq_skeleton]; unfold cc2__kernelA_body_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.R2.RunB.lean ====
import proofs.«404853_j60129542534_1_alg».proof.Proof.K.R2.RunA

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : ¬cond2_0 i) (hc1 : ¬cond2_1 i)
    (x0 : Vec F S2048x1 .i32) (x1 : Vec F S2048x128 .f32) (x2 : Vec F S2048x1 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__kernelA_body i arg2 harg2 arg3 harg3 arg4 harg4 arg5 harg5 arg6 harg6) K } := by
  refine ⟨[], ?_, fun xi3 E K => ?run⟩
  case run =>
    simp only [cc2__kernelA_body_eq_skeleton]; unfold cc2__kernelA_body_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.R2.RunC.lean ====
import proofs.«404853_j60129542534_1_alg».proof.Proof.K.R2.RunB

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : ¬cond2_0 i) (hc1 : cond2_1 i)
    (x0 : Vec F S2048x1 .i32) (x1 : Vec F S2048x128 .f32) (x2 : Vec F S2048x1 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__kernelA_body i arg2 harg2 arg3 harg3 arg4 harg4 arg5 harg5 arg6 harg6) K } := by
  refine ⟨?_, ?_, fun E K => ?run⟩
  case run =>
    simp only [cc2__kernelA_body_eq_skeleton]; unfold cc2__kernelA_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.R2.Region.lean ====
import proofs.«404853_j60129542534_1_alg».proof.Proof.K.R2.RunC

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole)

section
variable (hc0 : cond2_0 i) (hc1 : ¬cond2_1 i) (x0 : Vec F S2048x1 .i32) (x1 : Vec F S2048x128 .f32) (x2 : Vec F S2048x1 .f32)

def out2_A_3 : Vec F S2048x128 .bf16 :=
  VO2_3.read (Elt F) (VO2_3.writes (Elt F) VO2_3.junk (kernelRun2_A c i arg2 harg2 arg3 harg3 arg4 harg4 arg5 harg5 arg6 harg6 hc0 hc1 x0 x1 x2).1)

theorem scover2_A_0 (y : S2048x128.Idx) : ∃ pc ∈ (kernelRun2_A c i arg2 harg2 arg3 harg3 arg4 harg4 arg5 harg5 arg6 harg6 hc0 hc1 x0 x1 x2).2.1, y ∈ pc.1.set :=
  View.cover_of_tiledL _ S2048x128.size (by sl_kernel_rfl) y

def sout2_A_0 : Vec F S2048x128 .f32 :=
  VS2_0.read (Elt F) (VS2_0.writes (Elt F) VS2_0.junk (kernelRun2_A c i arg2 harg2 arg3 harg3 arg4 harg4 arg5 harg5 arg6 harg6 hc0 hc1 x0 x1 x2).2.1)

def pair2_A : Vec F S2048x128 .bf16 × Vec F S2048x128 .f32 :=
  (out2_A_3 c i arg2 harg2 arg3 harg3 arg4 harg4 arg5 harg5 arg6 harg6 hc0 hc1 x0 x1 x2, sout2_A_0 c i arg2 harg2 arg3 harg3 arg4 harg4 arg5 harg5 arg6 harg6 hc0 hc1 x0 x1 x2)

end

section
variable (hc0 : ¬cond2_0 i) (hc1 : ¬cond2_1 i) (x0 : Vec F S2048x1 .i32) (x1 : Vec F S2048x128 .f32) (x2 : Vec F S2048x1 .f32) (xs0 : Vec F S2048x128 .f32)

def out2_B_3 : Vec F S2048x128 .bf16 :=
  VO2_3.read (Elt F) (VO2_3.writes (Elt F) VO2_3.junk (kernelRun2_B c i arg2 harg2 arg3 harg3 arg4 harg4 arg5 harg5 arg6 harg6 hc0 hc1 x0 x1 x2 xs0).1)

theorem scover2_B_0 (y : S2048x128.Idx) : ∃ pc ∈ (kernelRun2_B c i arg2 harg2 arg3 harg3 arg4 harg4 arg5 harg5 arg6 harg6 hc0 hc1 x0 x1 x2 xs0).2.1, y ∈ pc.1.set :=
  View.cover_of_tiledL _ S2048x128.size (by sl_kernel_rfl) y

def sout2_B_0 : Vec F S2048x128 .f32 :=
  VS2_0.read (Elt F) (VS2_0.writes (Elt F) VS2_0.junk (kernelRun2_B c i arg2 harg2 arg3 harg3 arg4 harg4 arg5 harg5 arg6 harg6 hc0 hc1 x0 x1 x2 xs0).2.1)

def pair2_B : Vec F S2048x128 .bf16 × Vec F S2048x128 .f32 :=
  (out2_B_3 c i arg2 harg2 arg3 harg3 arg4 harg4 arg5 harg5 arg6 harg6 hc0 hc1 x0 x1 x2 xs0, sout2_B_0 c i arg2 harg2 arg3 harg3 arg4 harg4 arg5 harg5 arg6 harg6 hc0 hc1 x0 x1 x2 xs0)

end

section
variable (hc0 : ¬cond2_0 i) (hc1 : cond2_1 i) (x0 : Vec F S2048x1 .i32) (x1 : Vec F S2048x128 .f32) (x2 : Vec F S2048x1 .f32) (xs0 : Vec F S2048x128 .f32)

theorem cover2_C_3 (y : S2048x128.Idx) : ∃ pc ∈ (kernelRun2_C c i arg2 harg2 arg3 harg3 arg4 harg4 arg5 harg5 arg6 harg6 hc0 hc1 x0 x1 x2 xs0).1, y ∈ pc.1.set :=
  View.cover_of_tiledL _ S2048x128.size (by sl_kernel_rfl) y

def out2_C_3 : Vec F S2048x128 .bf16 :=
  VO2_3.read (Elt F) (VO2_3.writes (Elt F) VO2_3.junk (kernelRun2_C c i arg2 harg2 arg3 harg3 arg4 harg4 arg5 harg5 arg6 harg6 hc0 hc1 x0 x1 x2 xs0).1)

theorem scover2_C_0 (y : S2048x128.Idx) : ∃ pc ∈ (kernelRun2_C c i arg2 harg2 arg3 harg3 arg4 harg4 arg5 harg5 arg6 harg6 hc0 hc1 x0 x1 x2 xs0).2.1, y ∈ pc.1.set :=
  View.cover_of_tiledL _ S2048x128.size (by sl_kernel_rfl) y

def sout2_C_0 : Vec F S2048x128 .f32 :=
  VS2_0.read (Elt F) (VS2_0.writes (Elt F) VS2_0.junk (kernelRun2_C c i arg2 harg2 arg3 harg3 arg4 harg4 arg5 harg5 arg6 harg6 hc0 hc1 x0 x1 x2 xs0).2.1)

def pair2_C : Vec F S2048x128 .bf16 × Vec F S2048x128 .f32 :=
  (out2_C_3 c i arg2 harg2 arg3 harg3 arg4 harg4 arg5 harg5 arg6 harg6 hc0 hc1 x0 x1 x2 xs0, sout2_C_0 c i arg2 harg2 arg3 harg3 arg4 harg4 arg5 harg5 arg6 harg6 hc0 hc1 x0 x1 x2 xs0)

end

end

-- The output block and the accumulator after position n, by recursion on n: the residue mod 25 selects the case.
def outsAt2 (c : Dev nD) : (n : ℕ) → n < cfg2.N → Vec F S2048x128 .bf16 × Vec F S2048x128 .f32
  | 0, hn => pair2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 25 = 0 then
      if h1 : (n + 1) % 25 = 24 then
        False.elim (by omega)
      else
        pair2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩)
    else
      if h1 : (n + 1) % 25 = 24 then
        pair2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2
      else
        pair2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2

theorem outsAt2_A (c : Dev nD) (t : Fin cfg2.N) (h0 : t.val % 25 = 0) (h1 : ¬t.val % 25 = 24) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 25 = 0) (h1 : ¬t.val % 25 = 24) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 25 = 0) (h1 : t.val % 25 = 24) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 c) ∗ (∃ r, prngReg c r))

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 c) ∗ (∃ r, prngReg c r)) := by
  cases n with
  | zero => exact absurd rfl hz
  | succ n => rfl

-- At every position the invariant gives the accumulator at some contents.
theorem PhiS2_weak (c : Dev nD) (n : ℕ) (h : n ≤ cfg2.N) :
    PhiS2 V c n h ⊢ iprop(iprop((∃ d, owns (c : Thread nD τ) scM2_0 fullShare d) ∗ restBut2 c) ∗ (∃ r, prngReg c r)) := by
  by_cases hz : n = 0
  · subst hz; exact Entails.of_eq (PhiA2_eq c)
  · rw [PhiS2_pos V c n h hz]
    iintro ⟨⟨HS0, Hrest⟩, Hg⟩
    iframe Hrest Hg
    iexists _; iexact HS0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) : (dat2 V c).after 3 t = (outsAt2 V c t.val t.isLt).1 := rfl

set_option maxHeartbeats 4800000 in
-- The residue of the position mod 25 says which case the point is in; that case's run applies, between the invariant before and after.
theorem sound_body2 (c : Dev nD) (t : Fin cfg2.N) :
    iprop(PhiS2 V c t.val (Nat.le_of_lt t.isLt) ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
      ⊢ wp frame (wpE (defs₀ (F := F)) Variants.none c none) Set.univ (bodyAt2 t) (fun _ =>
        iprop(iprop(iprop(owns (c : Thread nD τ) scM2_0 fullShare (outsAt2 V c t.val t.isLt).2 ∗ restBut2 c) ∗ (∃ r, prngReg c r)) ∗ (dat2 V c).owesAt () t.castSucc
          ∗ owns (c : Thread nD τ) (ms2_0 t) fullShare (iblk2 V c 0 t)
          ∗ owns (c : Thread nD τ) (ms2_1 t) fullShare (iblk2 V c 1 t)
          ∗ owns (c : Thread nD τ) (ms2_2 t) fullShare (iblk2 V c 2 t)
          ∗ (dat2 V c).leavesExact 3 t)) := by
  unfold bodyAt2
  simp only [(before2_of V (dat2 V c)).1 rfl (after2_0 V c), (before2_of V (dat2 V c)).2.1 rfl (after2_1 V c), (before2_of V (dat2 V c)).2.2 rfl (after2_2 V c)]
  by_cases h0 : t.val % 25 = 0
  · have h1 : ¬t.val % 25 = 24 := by omega
    rw [Dat.leavesExact_idle (dat2 V c) 3 t (idleAt2_3 t fun h => h1 ((hcond2_1 t).mp h)) (noFlush2_3 t fun h => h1 ((hcond2_1 t).mp h)), outsAt2_A V c t h0 h1]
    unfold sout2_A_0; (try dsimp only)
    refine (sep_mono_left (PhiS2_weak V c _ _)).trans ?_
    iintro ⟨⟨⟨HS0, Hrest⟩, Hg⟩, Ho, ⟨%d0, H0⟩, ⟨%d1, H1⟩, ⟨%d2, H2⟩, ⟨%d3, H3⟩⟩
    iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    iframe Hrest Hg Ho H0 H1 H2
    isplitl [HS0]
    · unfold owns; iexists _; isplitr
      swap; · iexact HS0
      ipureintro; exact View.read_writes_of_cover _ _ _ _ _ (scover2_A_0 c _ _ _ _ _ _ _ _ _ _ _ _ _ _ _ _)
    iexists _; iexact H3
  · rw [PhiS2_pos V c _ _ fun hz => h0 (by rw [hz])]
    by_cases h1 : t.val % 25 = 24
    · rw [show (dat2 V c).leavesExact 3 t = owns (c : Thread nD τ) (ms2_3 t) fullShare ((dat2 V c).after 3 t) from by
        unfold Dat.leavesExact; rw [liveAt2_3 t ((hcond2_1 t).mpr h1)], after2_3, outsAt2_C V c t h0 h1]
      unfold out2_C_3 sout2_C_0; (try dsimp only)
      iintro ⟨⟨⟨HS0, Hrest⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      iframe Hrest Hg Ho H0 H1 H2
      isplitl [HS0]
      · unfold owns; iexists _; isplitr
        swap; · iexact HS0
        ipureintro; exact View.read_writes_of_cover _ _ _ _ _ (scover2_C_0 c _ _ _ _ _ _ _ _ _ _ _ _ _ _ _ _ _)
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t fun h => h1 ((hcond2_1 t).mp h)) (noFlush2_3 t fun h => h1 ((hcond2_1 t).mp h)), outsAt2_B V c t h0 h1]
      unfold sout2_B_0; (try dsimp only)
      iintro ⟨⟨⟨HS0, Hrest⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      iframe Hrest Hg Ho H0 H1 H2
      isplitl [HS0]
      · unfold owns; iexists _; isplitr
        swap; · iexact HS0
        ipureintro; exact View.read_writes_of_cover _ _ _ _ _ (scover2_B_0 c _ _ _ _ _ _ _ _ _ _ _ _ _ _ _ _ _)
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c :=
  (PhiS2_weak V c cfg2.N (Nat.le_refl _)).trans (Entails.of_eq (PhiA2_eq c).symm)

end Cert.Kernel.Fr

end
-- ==== Proof.K.R3.Runs.lean ====
import proofs.«404853_j60129542534_1_alg».proof.Proof.Gen.Kernel.Launch
import proofs.«404853_j60129542534_1_alg».proof.Proof.Gen.Kernel.Skeleton
import proofs.«404853_j60129542534_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_of {c : Dev nD} (dat : Dat τ (Elt F) Unit ℕ (UR sig nD τ) ℕ cfg3 c) :
    (dat.A 0 = V c (Pipeline.arrRef spec3 0) → (∀ t, dat.after 0 t = iblk3 V c 0 t) → ∀ t d, dat.before 0 t d = iblk3 V c 0 t)
      ∧ (dat.A 1 = V c (Pipeline.arrRef spec3 1) → (∀ t, dat.after 1 t = iblk3 V c 1 t) → ∀ t d, dat.before 1 t d = iblk3 V c 1 t)
      ∧ (dat.A 2 = V c (Pipeline.arrRef spec3 2) → (∀ t, dat.after 2 t = iblk3 V c 2 t) → ∀ t d, dat.before 2 t d = iblk3 V c 2 t)
      ∧ (dat.A 3 = V c (Pipeline.arrRef spec3 3) → (∀ t, dat.after 3 t = iblk3 V c 3 t) → ∀ t d, dat.before 3 t d = iblk3 V c 3 t)
      ∧ (dat.A 4 = V c (Pipeline.arrRef spec3 4) → (∀ t, dat.after 4 t = iblk3 V c 4 t) → ∀ t d, dat.before 4 t d = iblk3 V c 4 t) := by
  refine ⟨?_, ?_, ?_, ?_, ?_⟩ <;> intro hA hafter t d <;>
    exact (dat.before_in_eq_fetched _ rfl (fun _ => rfl) (fun _ _ _ => rfl) (fun t => by rw [hafter]; unfold Dat.blockOf iblk3; rw [hA]; try rfl) t d).trans
      (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 293 = 0 :=
  (by decide +kernel : ∀ t : Fin grid3.N, cond3_0 (grid3.coords t) ↔ t.val % 293 = 0)
abbrev cond3_1 (i : grid3.Coords) : Prop := k3_cond2 i = 1#1
theorem hcond3_1 : ∀ t : Fin cfg3.N, cond3_1 (grid3.coords t) ↔ t.val % 293 = 292 :=
  (by decide +kernel : ∀ t : Fin grid3.N, cond3_1 (grid3.coords t) ↔ t.val % 293 = 292)

theorem idleAt3_5 (t : Fin cfg3.N) (h : ¬cond3_1 (grid3.coords t)) : cfg3.idle 5 (grid3.coords t) = true := by
  show (!(k3_cond2 (grid3.coords t) == 1#1)) = true
  simp only [Bool.not_eq_true', beq_eq_false_iff_ne, ne_eq]; exact h
theorem noFlush3_5 (t : Fin cfg3.N) (h : ¬cond3_1 (grid3.coords t)) : (cfg3.win 5).flush t = false :=
  Bool.eq_false_iff.mpr fun hf => h ((hcond3_1 t).mpr ((flush3_5 t).mp hf))
theorem liveAt3_5 (t : Fin cfg3.N) (h : cond3_1 (grid3.coords t)) : cfg3.idle 5 (grid3.coords t) = false := by
  show (!(k3_cond2 (grid3.coords t) == 1#1)) = false
  simp only [Bool.not_eq_false', beq_iff_eq]; exact h

abbrev VO3_5 : View sig .tc .vmem S2048x128 .f32 := (Memref.whole cc3_stg5_0 : Memref sig .tc .vmem S2048x128 .f32).view
abbrev ms3_0 (t : Fin cfg3.N) : Memref sig .tc .vmem S1x2048 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2048x128 .f32 := win3_5.stage (cfg3.slots t 5)
abbrev hs3_5 (t : Fin cfg3.N) : (ms3_5 t).IsWhole := hstage3_5 ((cfg3.slots t 5).cast nbuf3_5)
abbrev scM3_0 : Memref sig .tc .vmem S2048x128 .f32 := Memref.whole cc3_scratch0
abbrev VS3_0 : View sig .tc .vmem S2048x128 .f32 := scM3_0.view

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns (c : Thread nD τ) scM3_0 fullShare d) ∗ restBut3 c) ∗ (∃ r, prngReg c r)) := by
  unfold Pipeline.ΦA; rw [scopedRest3_split]; simp only [scM3_0, owns_whole]; try rfl

end Cert.Kernel.Fr

end
-- ==== Proof.K.R3.RunA.lean ====
import proofs.«404853_j60129542534_1_alg».proof.Proof.K.R3.Runs

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun3_A (c : Dev nD) (i : grid3.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole)
    (arg7 : Memref sig .tc .vmem S2048x128 .f32) (harg7 : arg7.IsWhole)
    (arg8 : Memref sig .tc .vmem S2048x128 .f32) (harg8 : arg8.IsWhole) (hc0 : cond3_0 i) (hc1 : ¬cond3_1 i)
    (x0 : Vec F S1x2048 .i32) (x1 : Vec F S2048x128 .bf16) (x2 : Vec F S2048x1 .f32) (x3 : Vec F S128x128 .f32) (x4 : Vec F S1x128 .f32) :
    Σ' (L5 : List (View.Piece (Elt F) S2048x128 .f32)),
      { LS0 : List (View.Piece (Elt F) S2048x128 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc3_body i arg2 harg2 arg3 harg3 arg4 harg4 arg5 harg5 arg6 harg6 arg7 harg7 arg8 harg8) K } := by
  refine ⟨[], ?_, fun xi5 E K => ?run⟩
  case run =>
    simp only [cc3_body_eq_skeleton]; unfold cc3_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.R3.RunB.lean ====
import proofs.«404853_j60129542534_1_alg».proof.Proof.K.R3.RunA

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun3_B (c : Dev nD) (i : grid3.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole)
    (arg7 : Memref sig .tc .vmem S2048x128 .f32) (harg7 : arg7.IsWhole)
    (arg8 : Memref sig .tc .vmem S2048x128 .f32) (harg8 : arg8.IsWhole) (hc0 : ¬cond3_0 i) (hc1 : ¬cond3_1 i)
    (x0 : Vec F S1x2048 .i32) (x1 : Vec F S2048x128 .bf16) (x2 : Vec F S2048x1 .f32) (x3 : Vec F S128x128 .f32) (x4 : Vec F S1x128 .f32) (xs0 : Vec F S2048x128 .f32) :
    Σ' (L5 : List (View.Piece (Elt F) S2048x128 .f32)),
      { LS0 : List (View.Piece (Elt F) S2048x128 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc3_body i arg2 harg2 arg3 harg3 arg4 harg4 arg5 harg5 arg6 harg6 arg7 harg7 arg8 harg8) K } := by
  refine ⟨[], ?_, fun xi5 E K => ?run⟩
  case run =>
    simp only [cc3_body_eq_skeleton]; unfold cc3_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.R3.RunC.lean ====
import proofs.«404853_j60129542534_1_alg».proof.Proof.K.R3.RunB

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun3_C (c : Dev nD) (i : grid3.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole)
    (arg7 : Memref sig .tc .vmem S2048x128 .f32) (harg7 : arg7.IsWhole)
    (arg8 : Memref sig .tc .vmem S2048x128 .f32) (harg8 : arg8.IsWhole) (hc0 : ¬cond3_0 i) (hc1 : cond3_1 i)
    (x0 : Vec F S1x2048 .i32) (x1 : Vec F S2048x128 .bf16) (x2 : Vec F S2048x1 .f32) (x3 : Vec F S128x128 .f32) (x4 : Vec F S1x128 .f32) (xs0 : Vec F S2048x128 .f32) :
    Σ' (L5 : List (View.Piece (Elt F) S2048x128 .f32)),
      { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc3_body i arg2 harg2 arg3 harg3 arg4 harg4 arg5 harg5 arg6 harg6 arg7 harg7 arg8 harg8) K } := by
  refine ⟨?_, ?_, fun E K => ?run⟩
  case run =>
    simp only [cc3_body_eq_skeleton]; unfold cc3_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Fr

end
-- ==== Proof.K.R3.Region.lean ====
import proofs.«404853_j60129542534_1_alg».proof.Proof.K.R3.RunC

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid3.Coords) (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole)

section
variable (hc0 : cond3_0 i) (hc1 : ¬cond3_1 i) (x0 : Vec F S1x2048 .i32) (x1 : Vec F S2048x128 .bf16) (x2 : Vec F S2048x1 .f32) (x3 : Vec F S128x128 .f32) (x4 : Vec F S1x128 .f32)

def out3_A_5 : Vec F S2048x128 .f32 :=
  VO3_5.read (Elt F) (VO3_5.writes (Elt F) VO3_5.junk (kernelRun3_A c i arg2 harg2 arg3 harg3 arg4 harg4 arg5 harg5 arg6 harg6 arg7 harg7 arg8 harg8 hc0 hc1 x0 x1 x2 x3 x4).1)

theorem scover3_A_0 (y : S2048x128.Idx) : ∃ pc ∈ (kernelRun3_A c i arg2 harg2 arg3 harg3 arg4 harg4 arg5 harg5 arg6 harg6 arg7 harg7 arg8 harg8 hc0 hc1 x0 x1 x2 x3 x4).2.1, y ∈ pc.1.set :=
  View.cover_of_tiledL _ S2048x128.size (by sl_kernel_rfl) y

def sout3_A_0 : Vec F S2048x128 .f32 :=
  VS3_0.read (Elt F) (VS3_0.writes (Elt F) VS3_0.junk (kernelRun3_A c i arg2 harg2 arg3 harg3 arg4 harg4 arg5 harg5 arg6 harg6 arg7 harg7 arg8 harg8 hc0 hc1 x0 x1 x2 x3 x4).2.1)

def pair3_A : Vec F S2048x128 .f32 × Vec F S2048x128 .f32 :=
  (out3_A_5 c i arg2 harg2 arg3 harg3 arg4 harg4 arg5 harg5 arg6 harg6 arg7 harg7 arg8 harg8 hc0 hc1 x0 x1 x2 x3 x4, sout3_A_0 c i arg2 harg2 arg3 harg3 arg4 harg4 arg5 harg5 arg6 harg6 arg7 harg7 arg8 harg8 hc0 hc1 x0 x1 x2 x3 x4)

end

section
variable (hc0 : ¬cond3_0 i) (hc1 : ¬cond3_1 i) (x0 : Vec F S1x2048 .i32) (x1 : Vec F S2048x128 .bf16) (x2 : Vec F S2048x1 .f32) (x3 : Vec F S128x128 .f32) (x4 : Vec F S1x128 .f32) (xs0 : Vec F S2048x128 .f32)

def out3_B_5 : Vec F S2048x128 .f32 :=
  VO3_5.read (Elt F) (VO3_5.writes (Elt F) VO3_5.junk (kernelRun3_B c i arg2 harg2 arg3 harg3 arg4 harg4 arg5 harg5 arg6 harg6 arg7 harg7 arg8 harg8 hc0 hc1 x0 x1 x2 x3 x4 xs0).1)

theorem scover3_B_0 (y : S2048x128.Idx) : ∃ pc ∈ (kernelRun3_B c i arg2 harg2 arg3 harg3 arg4 harg4 arg5 harg5 arg6 harg6 arg7 harg7 arg8 harg8 hc0 hc1 x0 x1 x2 x3 x4 xs0).2.1, y ∈ pc.1.set :=
  View.cover_of_tiledL _ S2048x128.size (by sl_kernel_rfl) y

def sout3_B_0 : Vec F S2048x128 .f32 :=
  VS3_0.read (Elt F) (VS3_0.writes (Elt F) VS3_0.junk (kernelRun3_B c i arg2 harg2 arg3 harg3 arg4 harg4 arg5 harg5 arg6 harg6 arg7 harg7 arg8 harg8 hc0 hc1 x0 x1 x2 x3 x4 xs0).2.1)

def pair3_B : Vec F S2048x128 .f32 × Vec F S2048x128 .f32 :=
  (out3_B_5 c i arg2 harg2 arg3 harg3 arg4 harg4 arg5 harg5 arg6 harg6 arg7 harg7 arg8 harg8 hc0 hc1 x0 x1 x2 x3 x4 xs0, sout3_B_0 c i arg2 harg2 arg3 harg3 arg4 harg4 arg5 harg5 arg6 harg6 arg7 harg7 arg8 harg8 hc0 hc1 x0 x1 x2 x3 x4 xs0)

end

section
variable (hc0 : ¬cond3_0 i) (hc1 : cond3_1 i) (x0 : Vec F S1x2048 .i32) (x1 : Vec F S2048x128 .bf16) (x2 : Vec F S2048x1 .f32) (x3 : Vec F S128x128 .f32) (x4 : Vec F S1x128 .f32) (xs0 : Vec F S2048x128 .f32)

theorem cover3_C_5 (y : S2048x128.Idx) : ∃ pc ∈ (kernelRun3_C c i arg2 harg2 arg3 harg3 arg4 harg4 arg5 harg5 arg6 harg6 arg7 harg7 arg8 harg8 hc0 hc1 x0 x1 x2 x3 x4 xs0).1, y ∈ pc.1.set :=
  View.cover_of_tiledL _ S2048x128.size (by sl_kernel_rfl) y

def out3_C_5 : Vec F S2048x128 .f32 :=
  VO3_5.read (Elt F) (VO3_5.writes (Elt F) VO3_5.junk (kernelRun3_C c i arg2 harg2 arg3 harg3 arg4 harg4 arg5 harg5 arg6 harg6 arg7 harg7 arg8 harg8 hc0 hc1 x0 x1 x2 x3 x4 xs0).1)

theorem scover3_C_0 (y : S2048x128.Idx) : ∃ pc ∈ (kernelRun3_C c i arg2 harg2 arg3 harg3 arg4 harg4 arg5 harg5 arg6 harg6 arg7 harg7 arg8 harg8 hc0 hc1 x0 x1 x2 x3 x4 xs0).2.1, y ∈ pc.1.set :=
  View.cover_of_tiledL _ S2048x128.size (by sl_kernel_rfl) y

def sout3_C_0 : Vec F S2048x128 .f32 :=
  VS3_0.read (Elt F) (VS3_0.writes (Elt F) VS3_0.junk (kernelRun3_C c i arg2 harg2 arg3 harg3 arg4 harg4 arg5 harg5 arg6 harg6 arg7 harg7 arg8 harg8 hc0 hc1 x0 x1 x2 x3 x4 xs0).2.1)

def pair3_C : Vec F S2048x128 .f32 × Vec F S2048x128 .f32 :=
  (out3_C_5 c i arg2 harg2 arg3 harg3 arg4 harg4 arg5 harg5 arg6 harg6 arg7 harg7 arg8 harg8 hc0 hc1 x0 x1 x2 x3 x4 xs0, sout3_C_0 c i arg2 harg2 arg3 harg3 arg4 harg4 arg5 harg5 arg6 harg6 arg7 harg7 arg8 harg8 hc0 hc1 x0 x1 x2 x3 x4 xs0)

end

end

-- The output block and the accumulator after position n, by recursion on n: the residue mod 293 selects the case.
def outsAt3 (c : Dev nD) : (n : ℕ) → n < cfg3.N → Vec F S2048x128 .f32 × Vec F S2048x128 .f32
  | 0, hn => pair3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩)
  | n + 1, hn =>
    if h0 : (n + 1) % 293 = 0 then
      if h1 : (n + 1) % 293 = 292 then
        False.elim (by omega)
      else
        pair3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)
    else
      if h1 : (n + 1) % 293 = 292 then
        pair3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2
      else
        pair3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2

theorem outsAt3_A (c : Dev nD) (t : Fin cfg3.N) (h0 : t.val % 293 = 0) (h1 : ¬t.val % 293 = 292) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t)) := by
  obtain ⟨n, hn⟩ := t
  cases n with
  | zero => exact rfl
  | succ n => exact (dif_pos h0).trans ((dif_neg h1).trans rfl)

theorem outsAt3_B (c : Dev nD) (t : Fin cfg3.N) (h0 : ¬t.val % 293 = 0) (h1 : ¬t.val % 293 = 292) :
    outsAt3 V c t.val t.isLt = (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 293 = 0) (h1 : t.val % 293 = 292) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ restBut3 c) ∗ (∃ r, prngReg c r))

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ restBut3 c) ∗ (∃ r, prngReg c r)) := by
  cases n with
  | zero => exact absurd rfl hz
  | succ n => rfl

-- At every position the invariant gives the accumulator at some contents.
theorem PhiS3_weak (c : Dev nD) (n : ℕ) (h : n ≤ cfg3.N) :
    PhiS3 V c n h ⊢ iprop(iprop((∃ d, owns (c : Thread nD τ) scM3_0 fullShare d) ∗ restBut3 c) ∗ (∃ r, prngReg c r)) := by
  by_cases hz : n = 0
  · subst hz; exact Entails.of_eq (PhiA3_eq c)
  · rw [PhiS3_pos V c n h hz]
    iintro ⟨⟨HS0, Hrest⟩, Hg⟩
    iframe Hrest Hg
    iexists _; iexact HS0

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = iblk3 V c 2 t := rfl
theorem after3_3 (c : Dev nD) (t : Fin cfg3.N) : (dat3 V c).after 3 t = iblk3 V c 3 t := rfl
theorem after3_4 (c : Dev nD) (t : Fin cfg3.N) : (dat3 V c).after 4 t = iblk3 V c 4 t := rfl
theorem after3_5 (c : Dev nD) (t : Fin cfg3.N) : (dat3 V c).after 5 t = (outsAt3 V c t.val t.isLt).1 := rfl

set_option maxHeartbeats 4800000 in
-- The residue of the position mod 293 says which case the point is in; that case's run applies, between the invariant before and after.
theorem sound_body3 (c : Dev nD) (t : Fin cfg3.N) :
    iprop(PhiS3 V c t.val (Nat.le_of_lt t.isLt) ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d))
      ∗ (∃ d, owns (c : Thread nD τ) (ms3_3 t) fullShare ((dat3 V c).before 3 t d))
      ∗ (∃ d, owns (c : Thread nD τ) (ms3_4 t) fullShare ((dat3 V c).before 4 t d))
      ∗ (∃ d, owns (c : Thread nD τ) (ms3_5 t) fullShare ((dat3 V c).before 5 t d)))
      ⊢ wp frame (wpE (defs₀ (F := F)) Variants.none c none) Set.univ (bodyAt3 t) (fun _ =>
        iprop(iprop(iprop(owns (c : Thread nD τ) scM3_0 fullShare (outsAt3 V c t.val t.isLt).2 ∗ restBut3 c) ∗ (∃ r, prngReg c r)) ∗ (dat3 V c).owesAt () t.castSucc
          ∗ owns (c : Thread nD τ) (ms3_0 t) fullShare (iblk3 V c 0 t)
          ∗ owns (c : Thread nD τ) (ms3_1 t) fullShare (iblk3 V c 1 t)
          ∗ owns (c : Thread nD τ) (ms3_2 t) fullShare (iblk3 V c 2 t)
          ∗ owns (c : Thread nD τ) (ms3_3 t) fullShare (iblk3 V c 3 t)
          ∗ owns (c : Thread nD τ) (ms3_4 t) fullShare (iblk3 V c 4 t)
          ∗ (dat3 V c).leavesExact 5 t)) := by
  unfold bodyAt3
  simp only [(before3_of V (dat3 V c)).1 rfl (after3_0 V c), (before3_of V (dat3 V c)).2.1 rfl (after3_1 V c), (before3_of V (dat3 V c)).2.2.1 rfl (after3_2 V c), (before3_of V (dat3 V c)).2.2.2.1 rfl (after3_3 V c), (before3_of V (dat3 V c)).2.2.2.2 rfl (after3_4 V c)]
  by_cases h0 : t.val % 293 = 0
  · have h1 : ¬t.val % 293 = 292 := by omega
    rw [Dat.leavesExact_idle (dat3 V c) 5 t (idleAt3_5 t fun h => h1 ((hcond3_1 t).mp h)) (noFlush3_5 t fun h => h1 ((hcond3_1 t).mp h)), outsAt3_A V c t h0 h1]
    unfold sout3_A_0; (try dsimp only)
    refine (sep_mono_left (PhiS3_weak V c _ _)).trans ?_
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    iframe Hrest Hg Ho H0 H1 H2 H3 H4
    isplitl [HS0]
    · unfold owns; iexists _; isplitr
      swap; · iexact HS0
      ipureintro; exact View.read_writes_of_cover _ _ _ _ _ (scover3_A_0 c _ _ _ _ _ _ _ _ _ _ _ _ _ _ _ _ _ _ _ _ _ _)
    iexists _; iexact H5
  · rw [PhiS3_pos V c _ _ fun hz => h0 (by rw [hz])]
    by_cases h1 : t.val % 293 = 292
    · rw [show (dat3 V c).leavesExact 5 t = owns (c : Thread nD τ) (ms3_5 t) fullShare ((dat3 V c).after 5 t) from by
        unfold Dat.leavesExact; rw [liveAt3_5 t ((hcond3_1 t).mpr h1)], after3_5, outsAt3_C V c t h0 h1]
      unfold out3_C_5 sout3_C_0; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      iframe Hrest Hg Ho H0 H1 H2 H3 H4
      isplitl [HS0]
      · unfold owns; iexists _; isplitr
        swap; · iexact HS0
        ipureintro; exact View.read_writes_of_cover _ _ _ _ _ (scover3_C_0 c _ _ _ _ _ _ _ _ _ _ _ _ _ _ _ _ _ _ _ _ _ _ _)
      unfold owns; iexists _; isplitr
      swap; · iexact H5
      ipureintro; exact View.read_writes_of_cover _ _ _ _ _ (cover3_C_5 c _ _ _ _ _ _ _ _ _ _ _ _ _ _ _ _ _ _ _ _ _ _ _)
    · rw [Dat.leavesExact_idle (dat3 V c) 5 t (idleAt3_5 t fun h => h1 ((hcond3_1 t).mp h)) (noFlush3_5 t fun h => h1 ((hcond3_1 t).mp h)), outsAt3_B V c t h0 h1]
      unfold sout3_B_0; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      iframe Hrest Hg Ho H0 H1 H2 H3 H4
      isplitl [HS0]
      · unfold owns; iexists _; isplitr
        swap; · iexact HS0
        ipureintro; exact View.read_writes_of_cover _ _ _ _ _ (scover3_B_0 c _ _ _ _ _ _ _ _ _ _ _ _ _ _ _ _ _ _ _ _ _ _ _)
      iexists _; iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c :=
  (PhiS3_weak V c cfg3.N (Nat.le_refl _)).trans (Entails.of_eq (PhiA3_eq c).symm)

end Cert.Kernel.Fr

end
-- ==== Proof.K.R4.Runs.lean ====
import proofs.«404853_j60129542534_1_alg».proof.Proof.Gen.Kernel.Launch
import proofs.«404853_j60129542534_1_alg».proof.Proof.Gen.Kernel.Skeleton
import proofs.«404853_j60129542534_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_of {c : Dev nD} (dat : Dat τ (Elt F) Unit ℕ (UR sig nD τ) ℕ cfg4 c) :
    (dat.A 0 = V c (Pipeline.arrRef spec4 0) → (∀ t, dat.after 0 t = iblk4 V c 0 t) → ∀ t d, dat.before 0 t d = iblk4 V c 0 t)
      ∧ (dat.A 1 = V c (Pipeline.arrRef spec4 1) → (∀ t, dat.after 1 t = iblk4 V c 1 t) → ∀ t d, dat.before 1 t d = iblk4 V c 1 t)
      ∧ (dat.A 2 = V c (Pipeline.arrRef spec4 2) → (∀ t, dat.after 2 t = iblk4 V c 2 t) → ∀ t d, dat.before 2 t d = iblk4 V c 2 t) := by
  refine ⟨?_, ?_, ?_⟩ <;> intro hA hafter t d <;>
    exact (dat.before_in_eq_fetched _ rfl (fun _ => rfl) (fun _ _ _ => rfl) (fun t => by rw [hafter]; unfold Dat.blockOf iblk4; rw [hA]; try rfl) t d).trans
      (by unfold Dat.fetched Dat.blockOf iblk4; rw [hA]; try rfl)

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 25 = 0 :=
  (by decide +kernel : ∀ t : Fin grid4.N, cond4_0 (grid4.coords t) ↔ t.val % 25 = 0)
abbrev cond4_1 (i : grid4.Coords) : Prop := k4_cond2 i = 1#1
theorem hcond4_1 : ∀ t : Fin cfg4.N, cond4_1 (grid4.coords t) ↔ t.val % 25 = 24 :=
  (by decide +kernel : ∀ t : Fin grid4.N, cond4_1 (grid4.coords t) ↔ t.val % 25 = 24)

theorem idleAt4_3 (t : Fin cfg4.N) (h : ¬cond4_1 (grid4.coords t)) : cfg4.idle 3 (grid4.coords t) = true := by
  show (!(k4_cond2 (grid4.coords t) == 1#1)) = true
  simp only [Bool.not_eq_true', beq_eq_false_iff_ne, ne_eq]; exact h
theorem noFlush4_3 (t : Fin cfg4.N) (h : ¬cond4_1 (grid4.coords t)) : (cfg4.win 3).flush t = false :=
  Bool.eq_false_iff.mpr fun hf => h ((hcond4_1 t).mpr ((flush4_3 t).mp hf))
theorem liveAt4_3 (t : Fin cfg4.N) (h : cond4_1 (grid4.coords t)) : cfg4.idle 3 (grid4.coords t) = false := by
  show (!(k4_cond2 (grid4.coords t) == 1#1)) = false
  simp only [Bool.not_eq_false', beq_iff_eq]; exact h

abbrev VO4_3 : View sig .tc .vmem S2048x128 .bf16 := (Memref.whole cc4_stg3_0 : Memref sig .tc .vmem S2048x128 .bf16).view
abbrev ms4_0 (t : Fin cfg4.N) : Memref sig .tc .vmem S2048x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x128 .bf16 := win4_3.stage (cfg4.slots t 3)
abbrev hs4_3 (t : Fin cfg4.N) : (ms4_3 t).IsWhole := hstage4_3 ((cfg4.slots t 3).cast nbuf4_3)
abbrev scM4_0 : Memref sig .tc .vmem S2048x128 .f32 := Memref.whole cc4_scratch0
abbrev VS4_0 : View sig .tc .vmem S2048x128 .f32 := scM4_0.view

abbrev restBut4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop((∃ d, owns (c : Thread nD τ) scM4_0 fullShare d) ∗ restBut4 c) ∗ (∃ r, prngReg c r)) := by
  unfold Pipeline.ΦA; rw [scopedRest4_split]; simp only [scM4_0, owns_whole]; try rfl

end Cert.Kernel.Fr

end
-- ==== Proof.K.R4.RunA.lean ====
import proofs.«404853_j60129542534_1_alg».proof.Proof.K.R4.Runs

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun4_A (c : Dev nD) (i : grid4.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : cond4_0 i) (hc1 : ¬cond4_1 i)
    (x0 : Vec F S2048x1 .i32) (x1 : Vec F S2048x128 .f32) (x2 : Vec F S2048x1 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__kernelA_body i arg2 harg2 arg3 harg3 arg4 harg4 arg5 harg5 arg6 harg6) K } := by
  refine ⟨[], ?_, fun xi3 E K => ?run⟩
  case run =>
    simp only [cc4__kernelA_body_eq_skeleton]; unfold cc4__kernelA_body_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.R4.RunB.lean ====
import proofs.«404853_j60129542534_1_alg».proof.Proof.K.R4.RunA

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun4_B (c : Dev nD) (i : grid4.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : ¬cond4_0 i) (hc1 : ¬cond4_1 i)
    (x0 : Vec F S2048x1 .i32) (x1 : Vec F S2048x128 .f32) (x2 : Vec F S2048x1 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__kernelA_body i arg2 harg2 arg3 harg3 arg4 harg4 arg5 harg5 arg6 harg6) K } := by
  refine ⟨[], ?_, fun xi3 E K => ?run⟩
  case run =>
    simp only [cc4__kernelA_body_eq_skeleton]; unfold cc4__kernelA_body_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.R4.RunC.lean ====
import proofs.«404853_j60129542534_1_alg».proof.Proof.K.R4.RunB

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun4_C (c : Dev nD) (i : grid4.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : ¬cond4_0 i) (hc1 : cond4_1 i)
    (x0 : Vec F S2048x1 .i32) (x1 : Vec F S2048x128 .f32) (x2 : Vec F S2048x1 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__kernelA_body i arg2 harg2 arg3 harg3 arg4 harg4 arg5 harg5 arg6 harg6) K } := by
  refine ⟨?_, ?_, fun E K => ?run⟩
  case run =>
    simp only [cc4__kernelA_body_eq_skeleton]; unfold cc4__kernelA_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.R4.Region.lean ====
import proofs.«404853_j60129542534_1_alg».proof.Proof.K.R4.RunC

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid4.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole)

section
variable (hc0 : cond4_0 i) (hc1 : ¬cond4_1 i) (x0 : Vec F S2048x1 .i32) (x1 : Vec F S2048x128 .f32) (x2 : Vec F S2048x1 .f32)

def out4_A_3 : Vec F S2048x128 .bf16 :=
  VO4_3.read (Elt F) (VO4_3.writes (Elt F) VO4_3.junk (kernelRun4_A c i arg2 harg2 arg3 harg3 arg4 harg4 arg5 harg5 arg6 harg6 hc0 hc1 x0 x1 x2).1)

theorem scover4_A_0 (y : S2048x128.Idx) : ∃ pc ∈ (kernelRun4_A c i arg2 harg2 arg3 harg3 arg4 harg4 arg5 harg5 arg6 harg6 hc0 hc1 x0 x1 x2).2.1, y ∈ pc.1.set :=
  View.cover_of_tiledL _ S2048x128.size (by sl_kernel_rfl) y

def sout4_A_0 : Vec F S2048x128 .f32 :=
  VS4_0.read (Elt F) (VS4_0.writes (Elt F) VS4_0.junk (kernelRun4_A c i arg2 harg2 arg3 harg3 arg4 harg4 arg5 harg5 arg6 harg6 hc0 hc1 x0 x1 x2).2.1)

def pair4_A : Vec F S2048x128 .bf16 × Vec F S2048x128 .f32 :=
  (out4_A_3 c i arg2 harg2 arg3 harg3 arg4 harg4 arg5 harg5 arg6 harg6 hc0 hc1 x0 x1 x2, sout4_A_0 c i arg2 harg2 arg3 harg3 arg4 harg4 arg5 harg5 arg6 harg6 hc0 hc1 x0 x1 x2)

end

section
variable (hc0 : ¬cond4_0 i) (hc1 : ¬cond4_1 i) (x0 : Vec F S2048x1 .i32) (x1 : Vec F S2048x128 .f32) (x2 : Vec F S2048x1 .f32) (xs0 : Vec F S2048x128 .f32)

def out4_B_3 : Vec F S2048x128 .bf16 :=
  VO4_3.read (Elt F) (VO4_3.writes (Elt F) VO4_3.junk (kernelRun4_B c i arg2 harg2 arg3 harg3 arg4 harg4 arg5 harg5 arg6 harg6 hc0 hc1 x0 x1 x2 xs0).1)

theorem scover4_B_0 (y : S2048x128.Idx) : ∃ pc ∈ (kernelRun4_B c i arg2 harg2 arg3 harg3 arg4 harg4 arg5 harg5 arg6 harg6 hc0 hc1 x0 x1 x2 xs0).2.1, y ∈ pc.1.set :=
  View.cover_of_tiledL _ S2048x128.size (by sl_kernel_rfl) y

def sout4_B_0 : Vec F S2048x128 .f32 :=
  VS4_0.read (Elt F) (VS4_0.writes (Elt F) VS4_0.junk (kernelRun4_B c i arg2 harg2 arg3 harg3 arg4 harg4 arg5 harg5 arg6 harg6 hc0 hc1 x0 x1 x2 xs0).2.1)

def pair4_B : Vec F S2048x128 .bf16 × Vec F S2048x128 .f32 :=
  (out4_B_3 c i arg2 harg2 arg3 harg3 arg4 harg4 arg5 harg5 arg6 harg6 hc0 hc1 x0 x1 x2 xs0, sout4_B_0 c i arg2 harg2 arg3 harg3 arg4 harg4 arg5 harg5 arg6 harg6 hc0 hc1 x0 x1 x2 xs0)

end

section
variable (hc0 : ¬cond4_0 i) (hc1 : cond4_1 i) (x0 : Vec F S2048x1 .i32) (x1 : Vec F S2048x128 .f32) (x2 : Vec F S2048x1 .f32) (xs0 : Vec F S2048x128 .f32)

theorem cover4_C_3 (y : S2048x128.Idx) : ∃ pc ∈ (kernelRun4_C c i arg2 harg2 arg3 harg3 arg4 harg4 arg5 harg5 arg6 harg6 hc0 hc1 x0 x1 x2 xs0).1, y ∈ pc.1.set :=
  View.cover_of_tiledL _ S2048x128.size (by sl_kernel_rfl) y

def out4_C_3 : Vec F S2048x128 .bf16 :=
  VO4_3.read (Elt F) (VO4_3.writes (Elt F) VO4_3.junk (kernelRun4_C c i arg2 harg2 arg3 harg3 arg4 harg4 arg5 harg5 arg6 harg6 hc0 hc1 x0 x1 x2 xs0).1)

theorem scover4_C_0 (y : S2048x128.Idx) : ∃ pc ∈ (kernelRun4_C c i arg2 harg2 arg3 harg3 arg4 harg4 arg5 harg5 arg6 harg6 hc0 hc1 x0 x1 x2 xs0).2.1, y ∈ pc.1.set :=
  View.cover_of_tiledL _ S2048x128.size (by sl_kernel_rfl) y

def sout4_C_0 : Vec F S2048x128 .f32 :=
  VS4_0.read (Elt F) (VS4_0.writes (Elt F) VS4_0.junk (kernelRun4_C c i arg2 harg2 arg3 harg3 arg4 harg4 arg5 harg5 arg6 harg6 hc0 hc1 x0 x1 x2 xs0).2.1)

def pair4_C : Vec F S2048x128 .bf16 × Vec F S2048x128 .f32 :=
  (out4_C_3 c i arg2 harg2 arg3 harg3 arg4 harg4 arg5 harg5 arg6 harg6 hc0 hc1 x0 x1 x2 xs0, sout4_C_0 c i arg2 harg2 arg3 harg3 arg4 harg4 arg5 harg5 arg6 harg6 hc0 hc1 x0 x1 x2 xs0)

end

end

-- The output block and the accumulator after position n, by recursion on n: the residue mod 25 selects the case.
def outsAt4 (c : Dev nD) : (n : ℕ) → n < cfg4.N → Vec F S2048x128 .bf16 × Vec F S2048x128 .f32
  | 0, hn => pair4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩)
  | n + 1, hn =>
    if h0 : (n + 1) % 25 = 0 then
      if h1 : (n + 1) % 25 = 24 then
        False.elim (by omega)
      else
        pair4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩)
    else
      if h1 : (n + 1) % 25 = 24 then
        pair4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2
      else
        pair4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2

theorem outsAt4_A (c : Dev nD) (t : Fin cfg4.N) (h0 : t.val % 25 = 0) (h1 : ¬t.val % 25 = 24) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 25 = 0) (h1 : ¬t.val % 25 = 24) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt4_C (c : Dev nD) (t : Fin cfg4.N) (h0 : ¬t.val % 25 = 0) (h1 : t.val % 25 = 24) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ restBut4 c) ∗ (∃ r, prngReg c r))

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ restBut4 c) ∗ (∃ r, prngReg c r)) := by
  cases n with
  | zero => exact absurd rfl hz
  | succ n => rfl

-- At every position the invariant gives the accumulator at some contents.
theorem PhiS4_weak (c : Dev nD) (n : ℕ) (h : n ≤ cfg4.N) :
    PhiS4 V c n h ⊢ iprop(iprop((∃ d, owns (c : Thread nD τ) scM4_0 fullShare d) ∗ restBut4 c) ∗ (∃ r, prngReg c r)) := by
  by_cases hz : n = 0
  · subst hz; exact Entails.of_eq (PhiA4_eq c)
  · rw [PhiS4_pos V c n h hz]
    iintro ⟨⟨HS0, Hrest⟩, Hg⟩
    iframe Hrest Hg
    iexists _; iexact HS0

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = iblk4 V c 2 t := rfl
theorem after4_3 (c : Dev nD) (t : Fin cfg4.N) : (dat4 V c).after 3 t = (outsAt4 V c t.val t.isLt).1 := rfl

set_option maxHeartbeats 4800000 in
-- The residue of the position mod 25 says which case the point is in; that case's run applies, between the invariant before and after.
theorem sound_body4 (c : Dev nD) (t : Fin cfg4.N) :
    iprop(PhiS4 V c t.val (Nat.le_of_lt t.isLt) ∗ (dat4 V c).owesAt () t.castSucc
      ∗ (∃ d, owns (c : Thread nD τ) (ms4_0 t) fullShare ((dat4 V c).before 0 t d))
      ∗ (∃ d, owns (c : Thread nD τ) (ms4_1 t) fullShare ((dat4 V c).before 1 t d))
      ∗ (∃ d, owns (c : Thread nD τ) (ms4_2 t) fullShare ((dat4 V c).before 2 t d))
      ∗ (∃ d, owns (c : Thread nD τ) (ms4_3 t) fullShare ((dat4 V c).before 3 t d)))
      ⊢ wp frame (wpE (defs₀ (F := F)) Variants.none c none) Set.univ (bodyAt4 t) (fun _ =>
        iprop(iprop(iprop(owns (c : Thread nD τ) scM4_0 fullShare (outsAt4 V c t.val t.isLt).2 ∗ restBut4 c) ∗ (∃ r, prngReg c r)) ∗ (dat4 V c).owesAt () t.castSucc
          ∗ owns (c : Thread nD τ) (ms4_0 t) fullShare (iblk4 V c 0 t)
          ∗ owns (c : Thread nD τ) (ms4_1 t) fullShare (iblk4 V c 1 t)
          ∗ owns (c : Thread nD τ) (ms4_2 t) fullShare (iblk4 V c 2 t)
          ∗ (dat4 V c).leavesExact 3 t)) := by
  unfold bodyAt4
  simp only [(before4_of V (dat4 V c)).1 rfl (after4_0 V c), (before4_of V (dat4 V c)).2.1 rfl (after4_1 V c), (before4_of V (dat4 V c)).2.2 rfl (after4_2 V c)]
  by_cases h0 : t.val % 25 = 0
  · have h1 : ¬t.val % 25 = 24 := by omega
    rw [Dat.leavesExact_idle (dat4 V c) 3 t (idleAt4_3 t fun h => h1 ((hcond4_1 t).mp h)) (noFlush4_3 t fun h => h1 ((hcond4_1 t).mp h)), outsAt4_A V c t h0 h1]
    unfold sout4_A_0; (try dsimp only)
    refine (sep_mono_left (PhiS4_weak V c _ _)).trans ?_
    iintro ⟨⟨⟨HS0, Hrest⟩, Hg⟩, Ho, ⟨%d0, H0⟩, ⟨%d1, H1⟩, ⟨%d2, H2⟩, ⟨%d3, H3⟩⟩
    iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    iframe Hrest Hg Ho H0 H1 H2
    isplitl [HS0]
    · unfold owns; iexists _; isplitr
      swap; · iexact HS0
      ipureintro; exact View.read_writes_of_cover _ _ _ _ _ (scover4_A_0 c _ _ _ _ _ _ _ _ _ _ _ _ _ _ _ _)
    iexists _; iexact H3
  · rw [PhiS4_pos V c _ _ fun hz => h0 (by rw [hz])]
    by_cases h1 : t.val % 25 = 24
    · rw [show (dat4 V c).leavesExact 3 t = owns (c : Thread nD τ) (ms4_3 t) fullShare ((dat4 V c).after 3 t) from by
        unfold Dat.leavesExact; rw [liveAt4_3 t ((hcond4_1 t).mpr h1)], after4_3, outsAt4_C V c t h0 h1]
      unfold out4_C_3 sout4_C_0; (try dsimp only)
      iintro ⟨⟨⟨HS0, Hrest⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      iframe Hrest Hg Ho H0 H1 H2
      isplitl [HS0]
      · unfold owns; iexists _; isplitr
        swap; · iexact HS0
        ipureintro; exact View.read_writes_of_cover _ _ _ _ _ (scover4_C_0 c _ _ _ _ _ _ _ _ _ _ _ _ _ _ _ _ _)
      unfold owns; iexists _; isplitr
      swap; · iexact H3
      ipureintro; exact View.read_writes_of_cover _ _ _ _ _ (cover4_C_3 c _ _ _ _ _ _ _ _ _ _ _ _ _ _ _ _ _)
    · rw [Dat.leavesExact_idle (dat4 V c) 3 t (idleAt4_3 t fun h => h1 ((hcond4_1 t).mp h)) (noFlush4_3 t fun h => h1 ((hcond4_1 t).mp h)), outsAt4_B V c t h0 h1]
      unfold sout4_B_0; (try dsimp only)
      iintro ⟨⟨⟨HS0, Hrest⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      iframe Hrest Hg Ho H0 H1 H2
      isplitl [HS0]
      · unfold owns; iexists _; isplitr
        swap; · iexact HS0
        ipureintro; exact View.read_writes_of_cover _ _ _ _ _ (scover4_B_0 c _ _ _ _ _ _ _ _ _ _ _ _ _ _ _ _ _)
      iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem hout4 (c : Dev nD) : (dat4 V c).Φ (Fin.last cfg4.N) ⊢ Pipeline.ΦA spec4 c :=
  (PhiS4_weak V c cfg4.N (Nat.le_refl _)).trans (Entails.of_eq (PhiA4_eq c).symm)

end Cert.Kernel.Fr

end
-- ==== Proof.K.R5.Runs.lean ====
import proofs.«404853_j60129542534_1_alg».proof.Proof.Gen.Kernel.Launch
import proofs.«404853_j60129542534_1_alg».proof.Proof.Gen.Kernel.Skeleton
import proofs.«404853_j60129542534_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_of {c : Dev nD} (dat : Dat τ (Elt F) Unit ℕ (UR sig nD τ) ℕ cfg5 c) :
    (dat.A 0 = V c (Pipeline.arrRef spec5 0) → (∀ t, dat.after 0 t = iblk5 V c 0 t) → ∀ t d, dat.before 0 t d = iblk5 V c 0 t)
      ∧ (dat.A 1 = V c (Pipeline.arrRef spec5 1) → (∀ t, dat.after 1 t = iblk5 V c 1 t) → ∀ t d, dat.before 1 t d = iblk5 V c 1 t)
      ∧ (dat.A 2 = V c (Pipeline.arrRef spec5 2) → (∀ t, dat.after 2 t = iblk5 V c 2 t) → ∀ t d, dat.before 2 t d = iblk5 V c 2 t)
      ∧ (dat.A 3 = V c (Pipeline.arrRef spec5 3) → (∀ t, dat.after 3 t = iblk5 V c 3 t) → ∀ t d, dat.before 3 t d = iblk5 V c 3 t)
      ∧ (dat.A 4 = V c (Pipeline.arrRef spec5 4) → (∀ t, dat.after 4 t = iblk5 V c 4 t) → ∀ t d, dat.before 4 t d = iblk5 V c 4 t) := by
  refine ⟨?_, ?_, ?_, ?_, ?_⟩ <;> intro hA hafter t d <;>
    exact (dat.before_in_eq_fetched _ rfl (fun _ => rfl) (fun _ _ _ => rfl) (fun t => by rw [hafter]; unfold Dat.blockOf iblk5; rw [hA]; try rfl) t d).trans
      (by unfold Dat.fetched Dat.blockOf iblk5; rw [hA]; try rfl)

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 293 = 0 :=
  (by decide +kernel : ∀ t : Fin grid5.N, cond5_0 (grid5.coords t) ↔ t.val % 293 = 0)
abbrev cond5_1 (i : grid5.Coords) : Prop := k5_cond2 i = 1#1
theorem hcond5_1 : ∀ t : Fin cfg5.N, cond5_1 (grid5.coords t) ↔ t.val % 293 = 292 :=
  (by decide +kernel : ∀ t : Fin grid5.N, cond5_1 (grid5.coords t) ↔ t.val % 293 = 292)

theorem idleAt5_5 (t : Fin cfg5.N) (h : ¬cond5_1 (grid5.coords t)) : cfg5.idle 5 (grid5.coords t) = true := by
  show (!(k5_cond2 (grid5.coords t) == 1#1)) = true
  simp only [Bool.not_eq_true', beq_eq_false_iff_ne, ne_eq]; exact h
theorem noFlush5_5 (t : Fin cfg5.N) (h : ¬cond5_1 (grid5.coords t)) : (cfg5.win 5).flush t = false :=
  Bool.eq_false_iff.mpr fun hf => h ((hcond5_1 t).mpr ((flush5_5 t).mp hf))
theorem liveAt5_5 (t : Fin cfg5.N) (h : cond5_1 (grid5.coords t)) : cfg5.idle 5 (grid5.coords t) = false := by
  show (!(k5_cond2 (grid5.coords t) == 1#1)) = false
  simp only [Bool.not_eq_false', beq_iff_eq]; exact h

abbrev VO5_5 : View sig .tc .vmem S2048x16 .f32 := (Memref.whole cc5_stg5_0 : Memref sig .tc .vmem S2048x16 .f32).view
abbrev ms5_0 (t : Fin cfg5.N) : Memref sig .tc .vmem S1x2048 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S128x16 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x16 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S2048x16 .f32 := win5_5.stage (cfg5.slots t 5)
abbrev hs5_5 (t : Fin cfg5.N) : (ms5_5 t).IsWhole := hstage5_5 ((cfg5.slots t 5).cast nbuf5_5)
abbrev scM5_0 : Memref sig .tc .vmem S2048x128 .f32 := Memref.whole cc5_scratch0
abbrev VS5_0 : View sig .tc .vmem S2048x128 .f32 := scM5_0.view

abbrev restBut5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop((∃ d, owns (c : Thread nD τ) scM5_0 fullShare d) ∗ restBut5 c) ∗ (∃ r, prngReg c r)) := by
  unfold Pipeline.ΦA; rw [scopedRest5_split]; simp only [scM5_0, owns_whole]; try rfl

end Cert.Kernel.Fr

end
-- ==== Proof.K.R5.RunA.lean ====
import proofs.«404853_j60129542534_1_alg».proof.Proof.K.R5.Runs

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun5_A (c : Dev nD) (i : grid5.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x16 .f32) (harg5 : arg5.IsWhole) (arg6 : Memref sig .tc .vmem S1x16 .f32) (harg6 : arg6.IsWhole)
    (arg7 : Memref sig .tc .vmem S2048x16 .f32) (harg7 : arg7.IsWhole)
    (arg8 : Memref sig .tc .vmem S2048x128 .f32) (harg8 : arg8.IsWhole) (hc0 : cond5_0 i) (hc1 : ¬cond5_1 i)
    (x0 : Vec F S1x2048 .i32) (x1 : Vec F S2048x128 .bf16) (x2 : Vec F S2048x1 .f32) (x3 : Vec F S128x16 .f32) (x4 : Vec F S1x16 .f32) :
    Σ' (L5 : List (View.Piece (Elt F) S2048x16 .f32)),
      { LS0 : List (View.Piece (Elt F) S2048x128 .f32) //
      ∀ (xi5 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc5_body i arg2 harg2 arg3 harg3 arg4 harg4 arg5 harg5 arg6 harg6 arg7 harg7 arg8 harg8) K } := by
  refine ⟨[], ?_, fun xi5 E K => ?run⟩
  case run =>
    simp only [cc5_body_eq_skeleton]; unfold cc5_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.R5.RunB.lean ====
import proofs.«404853_j60129542534_1_alg».proof.Proof.K.R5.RunA

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun5_B (c : Dev nD) (i : grid5.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x16 .f32) (harg5 : arg5.IsWhole) (arg6 : Memref sig .tc .vmem S1x16 .f32) (harg6 : arg6.IsWhole)
    (arg7 : Memref sig .tc .vmem S2048x16 .f32) (harg7 : arg7.IsWhole)
    (arg8 : Memref sig .tc .vmem S2048x128 .f32) (harg8 : arg8.IsWhole) (hc0 : ¬cond5_0 i) (hc1 : ¬cond5_1 i)
    (x0 : Vec F S1x2048 .i32) (x1 : Vec F S2048x128 .bf16) (x2 : Vec F S2048x1 .f32) (x3 : Vec F S128x16 .f32) (x4 : Vec F S1x16 .f32) (xs0 : Vec F S2048x128 .f32) :
    Σ' (L5 : List (View.Piece (Elt F) S2048x16 .f32)),
      { LS0 : List (View.Piece (Elt F) S2048x128 .f32) //
      ∀ (xi5 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc5_body i arg2 harg2 arg3 harg3 arg4 harg4 arg5 harg5 arg6 harg6 arg7 harg7 arg8 harg8) K } := by
  refine ⟨[], ?_, fun xi5 E K => ?run⟩
  case run =>
    simp only [cc5_body_eq_skeleton]; unfold cc5_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.R5.RunC.lean ====
import proofs.«404853_j60129542534_1_alg».proof.Proof.K.R5.RunB

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun5_C (c : Dev nD) (i : grid5.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x16 .f32) (harg5 : arg5.IsWhole) (arg6 : Memref sig .tc .vmem S1x16 .f32) (harg6 : arg6.IsWhole)
    (arg7 : Memref sig .tc .vmem S2048x16 .f32) (harg7 : arg7.IsWhole)
    (arg8 : Memref sig .tc .vmem S2048x128 .f32) (harg8 : arg8.IsWhole) (hc0 : ¬cond5_0 i) (hc1 : cond5_1 i)
    (x0 : Vec F S1x2048 .i32) (x1 : Vec F S2048x128 .bf16) (x2 : Vec F S2048x1 .f32) (x3 : Vec F S128x16 .f32) (x4 : Vec F S1x16 .f32) (xs0 : Vec F S2048x128 .f32) :
    Σ' (L5 : List (View.Piece (Elt F) S2048x16 .f32)),
      { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc5_body i arg2 harg2 arg3 harg3 arg4 harg4 arg5 harg5 arg6 harg6 arg7 harg7 arg8 harg8) K } := by
  refine ⟨?_, ?_, fun E K => ?run⟩
  case run =>
    simp only [cc5_body_eq_skeleton]; unfold cc5_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Fr

end
-- ==== Proof.K.R5.Region.lean ====
import proofs.«404853_j60129542534_1_alg».proof.Proof.K.R5.RunC

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid5.Coords) (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x16 .f32) (harg5 : arg5.IsWhole) (arg6 : Memref sig .tc .vmem S1x16 .f32) (harg6 : arg6.IsWhole) (arg7 : Memref sig .tc .vmem S2048x16 .f32) (harg7 : arg7.IsWhole) (arg8 : Memref sig .tc .vmem S2048x128 .f32) (harg8 : arg8.IsWhole)

section
variable (hc0 : cond5_0 i) (hc1 : ¬cond5_1 i) (x0 : Vec F S1x2048 .i32) (x1 : Vec F S2048x128 .bf16) (x2 : Vec F S2048x1 .f32) (x3 : Vec F S128x16 .f32) (x4 : Vec F S1x16 .f32)

def out5_A_5 : Vec F S2048x16 .f32 :=
  VO5_5.read (Elt F) (VO5_5.writes (Elt F) VO5_5.junk (kernelRun5_A c i arg2 harg2 arg3 harg3 arg4 harg4 arg5 harg5 arg6 harg6 arg7 harg7 arg8 harg8 hc0 hc1 x0 x1 x2 x3 x4).1)

theorem scover5_A_0 (y : S2048x128.Idx) : ∃ pc ∈ (kernelRun5_A c i arg2 harg2 arg3 harg3 arg4 harg4 arg5 harg5 arg6 harg6 arg7 harg7 arg8 harg8 hc0 hc1 x0 x1 x2 x3 x4).2.1, y ∈ pc.1.set :=
  View.cover_of_tiledL _ S2048x128.size (by sl_kernel_rfl) y

def sout5_A_0 : Vec F S2048x128 .f32 :=
  VS5_0.read (Elt F) (VS5_0.writes (Elt F) VS5_0.junk (kernelRun5_A c i arg2 harg2 arg3 harg3 arg4 harg4 arg5 harg5 arg6 harg6 arg7 harg7 arg8 harg8 hc0 hc1 x0 x1 x2 x3 x4).2.1)

def pair5_A : Vec F S2048x16 .f32 × Vec F S2048x128 .f32 :=
  (out5_A_5 c i arg2 harg2 arg3 harg3 arg4 harg4 arg5 harg5 arg6 harg6 arg7 harg7 arg8 harg8 hc0 hc1 x0 x1 x2 x3 x4, sout5_A_0 c i arg2 harg2 arg3 harg3 arg4 harg4 arg5 harg5 arg6 harg6 arg7 harg7 arg8 harg8 hc0 hc1 x0 x1 x2 x3 x4)

end

section
variable (hc0 : ¬cond5_0 i) (hc1 : ¬cond5_1 i) (x0 : Vec F S1x2048 .i32) (x1 : Vec F S2048x128 .bf16) (x2 : Vec F S2048x1 .f32) (x3 : Vec F S128x16 .f32) (x4 : Vec F S1x16 .f32) (xs0 : Vec F S2048x128 .f32)

def out5_B_5 : Vec F S2048x16 .f32 :=
  VO5_5.read (Elt F) (VO5_5.writes (Elt F) VO5_5.junk (kernelRun5_B c i arg2 harg2 arg3 harg3 arg4 harg4 arg5 harg5 arg6 harg6 arg7 harg7 arg8 harg8 hc0 hc1 x0 x1 x2 x3 x4 xs0).1)

theorem scover5_B_0 (y : S2048x128.Idx) : ∃ pc ∈ (kernelRun5_B c i arg2 harg2 arg3 harg3 arg4 harg4 arg5 harg5 arg6 harg6 arg7 harg7 arg8 harg8 hc0 hc1 x0 x1 x2 x3 x4 xs0).2.1, y ∈ pc.1.set :=
  View.cover_of_tiledL _ S2048x128.size (by sl_kernel_rfl) y

def sout5_B_0 : Vec F S2048x128 .f32 :=
  VS5_0.read (Elt F) (VS5_0.writes (Elt F) VS5_0.junk (kernelRun5_B c i arg2 harg2 arg3 harg3 arg4 harg4 arg5 harg5 arg6 harg6 arg7 harg7 arg8 harg8 hc0 hc1 x0 x1 x2 x3 x4 xs0).2.1)

def pair5_B : Vec F S2048x16 .f32 × Vec F S2048x128 .f32 :=
  (out5_B_5 c i arg2 harg2 arg3 harg3 arg4 harg4 arg5 harg5 arg6 harg6 arg7 harg7 arg8 harg8 hc0 hc1 x0 x1 x2 x3 x4 xs0, sout5_B_0 c i arg2 harg2 arg3 harg3 arg4 harg4 arg5 harg5 arg6 harg6 arg7 harg7 arg8 harg8 hc0 hc1 x0 x1 x2 x3 x4 xs0)

end

section
variable (hc0 : ¬cond5_0 i) (hc1 : cond5_1 i) (x0 : Vec F S1x2048 .i32) (x1 : Vec F S2048x128 .bf16) (x2 : Vec F S2048x1 .f32) (x3 : Vec F S128x16 .f32) (x4 : Vec F S1x16 .f32) (xs0 : Vec F S2048x128 .f32)

theorem cover5_C_5 (y : S2048x16.Idx) : ∃ pc ∈ (kernelRun5_C c i arg2 harg2 arg3 harg3 arg4 harg4 arg5 harg5 arg6 harg6 arg7 harg7 arg8 harg8 hc0 hc1 x0 x1 x2 x3 x4 xs0).1, y ∈ pc.1.set :=
  View.cover_of_tiledL _ S2048x16.size (by sl_kernel_rfl) y

def out5_C_5 : Vec F S2048x16 .f32 :=
  VO5_5.read (Elt F) (VO5_5.writes (Elt F) VO5_5.junk (kernelRun5_C c i arg2 harg2 arg3 harg3 arg4 harg4 arg5 harg5 arg6 harg6 arg7 harg7 arg8 harg8 hc0 hc1 x0 x1 x2 x3 x4 xs0).1)

theorem scover5_C_0 (y : S2048x128.Idx) : ∃ pc ∈ (kernelRun5_C c i arg2 harg2 arg3 harg3 arg4 harg4 arg5 harg5 arg6 harg6 arg7 harg7 arg8 harg8 hc0 hc1 x0 x1 x2 x3 x4 xs0).2.1, y ∈ pc.1.set :=
  View.cover_of_tiledL _ S2048x128.size (by sl_kernel_rfl) y

def sout5_C_0 : Vec F S2048x128 .f32 :=
  VS5_0.read (Elt F) (VS5_0.writes (Elt F) VS5_0.junk (kernelRun5_C c i arg2 harg2 arg3 harg3 arg4 harg4 arg5 harg5 arg6 harg6 arg7 harg7 arg8 harg8 hc0 hc1 x0 x1 x2 x3 x4 xs0).2.1)

def pair5_C : Vec F S2048x16 .f32 × Vec F S2048x128 .f32 :=
  (out5_C_5 c i arg2 harg2 arg3 harg3 arg4 harg4 arg5 harg5 arg6 harg6 arg7 harg7 arg8 harg8 hc0 hc1 x0 x1 x2 x3 x4 xs0, sout5_C_0 c i arg2 harg2 arg3 harg3 arg4 harg4 arg5 harg5 arg6 harg6 arg7 harg7 arg8 harg8 hc0 hc1 x0 x1 x2 x3 x4 xs0)

end

end

-- The output block and the accumulator after position n, by recursion on n: the residue mod 293 selects the case.
def outsAt5 (c : Dev nD) : (n : ℕ) → n < cfg5.N → Vec F S2048x16 .f32 × Vec F S2048x128 .f32
  | 0, hn => pair5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩)
  | n + 1, hn =>
    if h0 : (n + 1) % 293 = 0 then
      if h1 : (n + 1) % 293 = 292 then
        False.elim (by omega)
      else
        pair5_A c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩)
    else
      if h1 : (n + 1) % 293 = 292 then
        pair5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2
      else
        pair5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2

theorem outsAt5_A (c : Dev nD) (t : Fin cfg5.N) (h0 : t.val % 293 = 0) (h1 : ¬t.val % 293 = 292) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans ((dif_neg h1).trans rfl)

theorem outsAt5_B (c : Dev nD) (t : Fin cfg5.N) (h0 : ¬t.val % 293 = 0) (h1 : ¬t.val % 293 = 292) :
    outsAt5 V c t.val t.isLt = (out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt5_C (c : Dev nD) (t : Fin cfg5.N) (h0 : ¬t.val % 293 = 0) (h1 : t.val % 293 = 292) :
    outsAt5 V c t.val t.isLt = (out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ restBut5 c) ∗ (∃ r, prngReg c r))

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ restBut5 c) ∗ (∃ r, prngReg c r)) := by
  cases n with
  | zero => exact absurd rfl hz
  | succ n => rfl

-- At every position the invariant gives the accumulator at some contents.
theorem PhiS5_weak (c : Dev nD) (n : ℕ) (h : n ≤ cfg5.N) :
    PhiS5 V c n h ⊢ iprop(iprop((∃ d, owns (c : Thread nD τ) scM5_0 fullShare d) ∗ restBut5 c) ∗ (∃ r, prngReg c r)) := by
  by_cases hz : n = 0
  · subst hz; exact Entails.of_eq (PhiA5_eq c)
  · rw [PhiS5_pos V c n h hz]
    iintro ⟨⟨HS0, Hrest⟩, Hg⟩
    iframe Hrest Hg
    iexists _; iexact HS0

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_0 (c : Dev nD) (t : Fin cfg5.N) : (dat5 V c).after 0 t = iblk5 V c 0 t := rfl
theorem after5_1 (c : Dev nD) (t : Fin cfg5.N) : (dat5 V c).after 1 t = iblk5 V c 1 t := rfl
theorem after5_2 (c : Dev nD) (t : Fin cfg5.N) : (dat5 V c).after 2 t = iblk5 V c 2 t := rfl
theorem after5_3 (c : Dev nD) (t : Fin cfg5.N) : (dat5 V c).after 3 t = iblk5 V c 3 t := rfl
theorem after5_4 (c : Dev nD) (t : Fin cfg5.N) : (dat5 V c).after 4 t = iblk5 V c 4 t := rfl
theorem after5_5 (c : Dev nD) (t : Fin cfg5.N) : (dat5 V c).after 5 t = (outsAt5 V c t.val t.isLt).1 := rfl

set_option maxHeartbeats 4800000 in
-- The residue of the position mod 293 says which case the point is in; that case's run applies, between the invariant before and after.
theorem sound_body5 (c : Dev nD) (t : Fin cfg5.N) :
    iprop(PhiS5 V c t.val (Nat.le_of_lt t.isLt) ∗ (dat5 V c).owesAt () t.castSucc
      ∗ (∃ d, owns (c : Thread nD τ) (ms5_0 t) fullShare ((dat5 V c).before 0 t d))
      ∗ (∃ d, owns (c : Thread nD τ) (ms5_1 t) fullShare ((dat5 V c).before 1 t d))
      ∗ (∃ d, owns (c : Thread nD τ) (ms5_2 t) fullShare ((dat5 V c).before 2 t d))
      ∗ (∃ d, owns (c : Thread nD τ) (ms5_3 t) fullShare ((dat5 V c).before 3 t d))
      ∗ (∃ d, owns (c : Thread nD τ) (ms5_4 t) fullShare ((dat5 V c).before 4 t d))
      ∗ (∃ d, owns (c : Thread nD τ) (ms5_5 t) fullShare ((dat5 V c).before 5 t d)))
      ⊢ wp frame (wpE (defs₀ (F := F)) Variants.none c none) Set.univ (bodyAt5 t) (fun _ =>
        iprop(iprop(iprop(owns (c : Thread nD τ) scM5_0 fullShare (outsAt5 V c t.val t.isLt).2 ∗ restBut5 c) ∗ (∃ r, prngReg c r)) ∗ (dat5 V c).owesAt () t.castSucc
          ∗ owns (c : Thread nD τ) (ms5_0 t) fullShare (iblk5 V c 0 t)
          ∗ owns (c : Thread nD τ) (ms5_1 t) fullShare (iblk5 V c 1 t)
          ∗ owns (c : Thread nD τ) (ms5_2 t) fullShare (iblk5 V c 2 t)
          ∗ owns (c : Thread nD τ) (ms5_3 t) fullShare (iblk5 V c 3 t)
          ∗ owns (c : Thread nD τ) (ms5_4 t) fullShare (iblk5 V c 4 t)
          ∗ (dat5 V c).leavesExact 5 t)) := by
  unfold bodyAt5
  simp only [(before5_of V (dat5 V c)).1 rfl (after5_0 V c), (before5_of V (dat5 V c)).2.1 rfl (after5_1 V c), (before5_of V (dat5 V c)).2.2.1 rfl (after5_2 V c), (before5_of V (dat5 V c)).2.2.2.1 rfl (after5_3 V c), (before5_of V (dat5 V c)).2.2.2.2 rfl (after5_4 V c)]
  by_cases h0 : t.val % 293 = 0
  · have h1 : ¬t.val % 293 = 292 := by omega
    rw [Dat.leavesExact_idle (dat5 V c) 5 t (idleAt5_5 t fun h => h1 ((hcond5_1 t).mp h)) (noFlush5_5 t fun h => h1 ((hcond5_1 t).mp h)), outsAt5_A V c t h0 h1]
    unfold sout5_A_0; (try dsimp only)
    refine (sep_mono_left (PhiS5_weak V c _ _)).trans ?_
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun5_A c (grid5.coords t) _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    iframe Hrest Hg Ho H0 H1 H2 H3 H4
    isplitl [HS0]
    · unfold owns; iexists _; isplitr
      swap; · iexact HS0
      ipureintro; exact View.read_writes_of_cover _ _ _ _ _ (scover5_A_0 c _ _ _ _ _ _ _ _ _ _ _ _ _ _ _ _ _ _ _ _ _ _)
    iexists _; iexact H5
  · rw [PhiS5_pos V c _ _ fun hz => h0 (by rw [hz])]
    by_cases h1 : t.val % 293 = 292
    · rw [show (dat5 V c).leavesExact 5 t = owns (c : Thread nD τ) (ms5_5 t) fullShare ((dat5 V c).after 5 t) from by
        unfold Dat.leavesExact; rw [liveAt5_5 t ((hcond5_1 t).mpr h1)], after5_5, outsAt5_C V c t h0 h1]
      unfold out5_C_5 sout5_C_0; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun5_C c (grid5.coords t) _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      iframe Hrest Hg Ho H0 H1 H2 H3 H4
      isplitl [HS0]
      · unfold owns; iexists _; isplitr
        swap; · iexact HS0
        ipureintro; exact View.read_writes_of_cover _ _ _ _ _ (scover5_C_0 c _ _ _ _ _ _ _ _ _ _ _ _ _ _ _ _ _ _ _ _ _ _ _)
      unfold owns; iexists _; isplitr
      swap; · iexact H5
      ipureintro; exact View.read_writes_of_cover _ _ _ _ _ (cover5_C_5 c _ _ _ _ _ _ _ _ _ _ _ _ _ _ _ _ _ _ _ _ _ _ _)
    · rw [Dat.leavesExact_idle (dat5 V c) 5 t (idleAt5_5 t fun h => h1 ((hcond5_1 t).mp h)) (noFlush5_5 t fun h => h1 ((hcond5_1 t).mp h)), outsAt5_B V c t h0 h1]
      unfold sout5_B_0; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun5_B c (grid5.coords t) _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      iframe Hrest Hg Ho H0 H1 H2 H3 H4
      isplitl [HS0]
      · unfold owns; iexists _; isplitr
        swap; · iexact HS0
        ipureintro; exact View.read_writes_of_cover _ _ _ _ _ (scover5_B_0 c _ _ _ _ _ _ _ _ _ _ _ _ _ _ _ _ _ _ _ _ _ _ _)
      iexists _; iexact H5

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl

theorem hout5 (c : Dev nD) : (dat5 V c).Φ (Fin.last cfg5.N) ⊢ Pipeline.ΦA spec5 c :=
  (PhiS5_weak V c cfg5.N (Nat.le_refl _)).trans (Entails.of_eq (PhiA5_eq c).symm)

end Cert.Kernel.Fr

end
-- ==== Proof.K.Segs.lean ====
import proofs.«404853_j60129542534_1_alg».proof.Proof.K.R0.Region
import proofs.«404853_j60129542534_1_alg».proof.Proof.K.R1.Region
import proofs.«404853_j60129542534_1_alg».proof.Proof.K.R2.Region
import proofs.«404853_j60129542534_1_alg».proof.Proof.K.R3.Region
import proofs.«404853_j60129542534_1_alg».proof.Proof.K.R4.Region
import proofs.«404853_j60129542534_1_alg».proof.Proof.K.R5.Region
import proofs.«404853_j60129542534_1_alg».proof.Proof.Gen.Kernel.Regions
import proofs.«404853_j60129542534_1_alg».proof.Proof.K.RunCond
import Idealize.ShloMosaic.Lib.Pipeline.RegionsLoop

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat Cfg BodyObligation)

variable {F : FTy → Type} [FloatOps F]

local notation "𝕄" => MT nD τ sig Unit (Elt F) ℕ (UR sig nD τ) ℕ

/-- Updating equal contents by what an update holds at the updated place is that update. -/
theorem update_read {V Y : Valuation τ sig (Elt F)} (h : V = Y) (o : DevRef τ sig) (X : o.ty.Contents (Elt F)) :
    Function.update V o (Function.update Y o X o) = Function.update Y o X := by
  rw [h, Function.update_self]

section Wrote

variable {cfg : Cfg sig Λ₀} {c : Dev nD} (dat : Dat τ (Elt F) Unit ℕ (UR sig nD τ) ℕ cfg c)
  (V : Valuation τ sig (Elt F)) (wo : Fin cfg.W)

/-- The contents `V` changed only at window `wo`'s array, to that window's final contents. -/
abbrev wrote : Valuation τ sig (Elt F) :=
  Function.update V (Proc.devRef .tc (Pipeline.arrRef cfg.spec wo)) (dat.arrAt wo cfg.N)

/-- An input window's array keeps its entry contents and is not the output's; the output's is read back off the update. -/
theorem arrAt_wrote (hw : Pipeline.WinFacts cfg.spec) (hA : ∀ w, dat.A w = V (Proc.devRef .tc (Pipeline.arrRef cfg.spec w)))
    (hins : ∀ w, w ≠ wo → (cfg.win w).isOut = false) (w : Fin cfg.W) :
    dat.arrAt w cfg.N = wrote dat V wo (Proc.devRef .tc (Pipeline.arrRef cfg.spec w)) := by
  obtain rfl | h := eq_or_ne w wo
  · unfold wrote; rw [Function.update_self]
  · exact (dat.arrAt_in w (hins w h) _).trans ((hA w).trans (Function.update_of_ne (StableHlo.devRef_ne_of_ne (hw.arr_inj.ne h)) _ _).symm)

/-- A buffer that is no window's array is not the output's. -/
theorem wrote_rest (b : Ref sig .tc) (hb : b ∉ Finset.univ.image (Pipeline.arrRef cfg.spec)) :
    wrote dat V wo (Proc.devRef .tc b) = V (Proc.devRef .tc b) :=
  Function.update_of_ne (StableHlo.devRef_ne_of_ne fun e => hb (Finset.mem_image.mpr ⟨wo, Finset.mem_univ _, e.symm⟩)) _ _

end Wrote

variable (m : (ℓ : Loc nD τ sig) → Buf (Elt F) ℓ)

abbrev rd (W : Dev nD → Valuation τ sig (Elt F)) : (c : Dev nD) → (b : Ref sig .tc) → Buf (Elt F) ((c : Thread nD τ).loc b) := fun c b => W c b

abbrev Y10 (c : Dev nD) : Valuation τ sig (Elt F) := V10 m c
def Y11 (c : Dev nD) : Valuation τ sig (Elt F) := Function.update (Y10 m c) main_v24 ((dat0 (rd (Y10 m)) c).arrAt 3 cfg0.N)
abbrev Y12 (c : Dev nD) : Valuation τ sig (Elt F) := StableHlo.after hostOps1 (Y11 m c)
def Y13 (c : Dev nD) : Valuation τ sig (Elt F) := Function.update (Y12 m c) main_v26 ((dat1 (rd (Y12 m)) c).arrAt 5 cfg1.N)
def Y14 (c : Dev nD) : Valuation τ sig (Elt F) := Function.update (Y13 m c) main_v27 ((dat2 (rd (Y13 m)) c).arrAt 3 cfg2.N)
abbrev Y15 (c : Dev nD) : Valuation τ sig (Elt F) := StableHlo.after hostOps3 (Y14 m c)
def Y16 (c : Dev nD) : Valuation τ sig (Elt F) := Function.update (Y15 m c) main_v29 ((dat3 (rd (Y15 m)) c).arrAt 5 cfg3.N)
def Y17 (c : Dev nD) : Valuation τ sig (Elt F) := Function.update (Y16 m c) main_v30 ((dat4 (rd (Y16 m)) c).arrAt 3 cfg4.N)
abbrev Y18 (c : Dev nD) : Valuation τ sig (Elt F) := StableHlo.after hostOps5 (Y17 m c)
def Y19 (c : Dev nD) : Valuation τ sig (Elt F) := Function.update (Y18 m c) main_v32 ((dat5 (rd (Y18 m)) c).arrAt 5 cfg5.N)
abbrev Y20 (c : Dev nD) : Valuation τ sig (Elt F) := StableHlo.after hostOps6 (Y19 m c)

def outs : Outs (F := F) := fun J r c => match J with
  | 11 => Y11 m c r
  | 13 => Y13 m c r
  | 14 => Y14 m c r
  | 16 => Y16 m c r
  | 17 => Y17 m c r
  | 19 => Y19 m c r
  | _ => Y10 m c r

theorem hV11 (c : Dev nD) : V11 m (outs m) c = Y11 m c := update_read rfl _ _
theorem hV12 (c : Dev nD) : V12 m (outs m) c = Y12 m c := congrArg (StableHlo.after hostOps1) (hV11 m c)
theorem hV13 (c : Dev nD) : V13 m (outs m) c = Y13 m c := update_read (hV12 m c) _ _
theorem hV14 (c : Dev nD) : V14 m (outs m) c = Y14 m c := update_read (hV13 m c) _ _
theorem hV15 (c : Dev nD) : V15 m (outs m) c = Y15 m c := congrArg (StableHlo.after hostOps3) (hV14 m c)
theorem hV16 (c : Dev nD) : V16 m (outs m) c = Y16 m c := update_read (hV15 m c) _ _
theorem hV17 (c : Dev nD) : V17 m (outs m) c = Y17 m c := update_read (hV16 m c) _ _
theorem hV18 (c : Dev nD) : V18 m (outs m) c = Y18 m c := congrArg (StableHlo.after hostOps5) (hV17 m c)
theorem hV19 (c : Dev nD) : V19 m (outs m) c = Y19 m c := update_read (hV18 m c) _ _
theorem hV20 (c : Dev nD) : V20 m (outs m) c = Y20 m c := congrArg (StableHlo.after hostOps6) (hV19 m c)

def pdats : (p : Fin 6) → (c : Dev nD) → Dat τ (Elt F) Unit ℕ (UR sig nD τ) ℕ (cfgs p) c
  | ⟨0, _⟩ => fun c => dat0 (rd (Y10 m)) c
  | ⟨1, _⟩ => fun c => dat1 (rd (Y12 m)) c
  | ⟨2, _⟩ => fun c => dat2 (rd (Y13 m)) c
  | ⟨3, _⟩ => fun c => dat3 (rd (Y15 m)) c
  | ⟨4, _⟩ => fun c => dat4 (rd (Y16 m)) c
  | ⟨5, _⟩ => fun c => dat5 (rd (Y18 m)) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 7 → Dev nD → sProp 𝕄 := fun _ c => R c

def regOf (p : Fin 6) (lf : Pipeline.LaunchFacts (nD := nD) (τ := τ) cfgs p) (wo : Fin (cfgs p).W)
    (W W' V : Dev nD → Valuation τ sig (Elt F)) (hW : ∀ c, W c = V c) (hW' : ∀ c, W' c = wrote (pdats m p c) (V c) wo)
    (hb : ∀ c, BodyObligation (pdats m p c) (defs₀ (F := F)) Variants.none () Set.univ)
    (hq : ∀ c w, (pdats m p c).q w = fullShare) (howed : ∀ c t, (pdats m p c).owed t = 0)
    (hrec : ∀ c x, x ∈ (pdats m p c).recorded 0)
    (hΦ0 : ∀ c, Pipeline.ΦA (cfgs p).spec c ⊢ (pdats m p c).Φ 0)
    (hΦN : ∀ c, (pdats m p c).Φ (Fin.last (cfgs p).N) ⊢ Pipeline.ΦA (cfgs p).spec c)
    (hA : ∀ c w, (pdats m p c).A w = V c (Proc.devRef .tc (Pipeline.arrRef (cfgs p).spec w)))
    (hins : ∀ w, w ≠ wo → ((cfgs p).win w).isOut = false) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (rd V c)
  hentry c := by
    rw [Pipeline.ownSems0_none, hW c]
    have hsplit := Pipeline.arrays_of_unscopedBufs (p := p) (pcfgs (F := F)) adm (pdats m) lf.win lf.arr_whole c
      ((pdats m p c).share_full (hq c)) (rd V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    rw [hW' c]
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd V c) (fun b => wrote (pdats m p c) (V c) wo b) ((pdats m p c).arrAt · (cfgs p).N)
      (arrAt_wrote _ _ wo lf.win (hA c) hins) (wrote_rest _ _ wo)
    rw [Pipeline.unscopedBufs_held] at hjoin
    unfold Pipeline.Dat.owesAt Pipeline.owesWithin
    rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 : Pipeline.RegionSeg (pcfgs (F := F)) adm (pdats m) () defs₀ 𝒱₀ L lv 0 :=
  regOf m 0 launch0 (3 : Fin 4) (V10 m) (V11 m (outs m)) (Y10 m) (fun _ => rfl) (hV11 m) (body_obligation0 _)
    (fun _ _ => rfl) (fun _ _ => rfl) (fun _ _ => trivial) (hin0 _) (hout0 _) (A_eq0 _) (by decide)
def reg1 : Pipeline.RegionSeg (pcfgs (F := F)) adm (pdats m) () defs₀ 𝒱₀ L lv 1 :=
  regOf m 1 launch1 (5 : Fin 6) (V12 m (outs m)) (V13 m (outs m)) (Y12 m) (hV12 m) (hV13 m) (body_obligation1 _)
    (fun _ _ => rfl) (fun _ _ => rfl) (fun _ _ => trivial) (hin1 _) (hout1 _) (A_eq1 _) (by decide)
def reg2 : Pipeline.RegionSeg (pcfgs (F := F)) adm (pdats m) () defs₀ 𝒱₀ L lv 2 :=
  regOf m 2 launch2 (3 : Fin 4) (V13 m (outs m)) (V14 m (outs m)) (Y13 m) (hV13 m) (hV14 m) (body_obligation2 _)
    (fun _ _ => rfl) (fun _ _ => rfl) (fun _ _ => trivial) (hin2 _) (hout2 _) (A_eq2 _) (by decide)
def reg3 : Pipeline.RegionSeg (pcfgs (F := F)) adm (pdats m) () defs₀ 𝒱₀ L lv 3 :=
  regOf m 3 launch3 (5 : Fin 6) (V15 m (outs m)) (V16 m (outs m)) (Y15 m) (hV15 m) (hV16 m) (body_obligation3 _)
    (fun _ _ => rfl) (fun _ _ => rfl) (fun _ _ => trivial) (hin3 _) (hout3 _) (A_eq3 _) (by decide)
def reg4 : Pipeline.RegionSeg (pcfgs (F := F)) adm (pdats m) () defs₀ 𝒱₀ L lv 4 :=
  regOf m 4 launch4 (3 : Fin 4) (V16 m (outs m)) (V17 m (outs m)) (Y16 m) (hV16 m) (hV17 m) (body_obligation4 _)
    (fun _ _ => rfl) (fun _ _ => rfl) (fun _ _ => trivial) (hin4 _) (hout4 _) (A_eq4 _) (by decide)
def reg5 : Pipeline.RegionSeg (pcfgs (F := F)) adm (pdats m) () defs₀ 𝒱₀ L lv 5 :=
  regOf m 5 launch5 (5 : Fin 6) (V18 m (outs m)) (V19 m (outs m)) (Y18 m) (hV18 m) (hV19 m) (body_obligation5 _)
    (fun _ _ => rfl) (fun _ _ => rfl) (fun _ _ => trivial) (hin5 _) (hout5 _) (A_eq5 _) (by decide)

theorem hu₀ (u : UR sig nD τ) : (ownU u : sProp 𝕄)
    ⊢ |={Set.univ}=> iprop(BI.own (emb₁ u) ∗ bigSep Finset.univ (fun _ : Dev nD => (BI.emp : sProp 𝕄))) := by
  iintro Hu; imodintro
  isplitl [Hu]
  · iapply (show (ownU u : sProp 𝕄) ⊢ BI.own (emb₁ u) from .rfl); iexact Hu
  iapply (show (BI.emp : sProp 𝕄) ⊢ bigSep Finset.univ (fun _ : Dev nD => (BI.emp : sProp 𝕄)) from by rw [BI.bigSep_emp_const]); iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : E (F := F) 6 c ⊢ (iprop(∃ W, owes (c : Thread nD τ) (0 : CellTallies nD τ sig Unit) W) : sProp 𝕄) := by
  iintro ⟨-, H⟩; iexact H

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m emb₁ () 𝒱₀ L lv (fun _ _ => rfl) ρ (outs m) (pdats m) 0 (fun _ => iprop(emp))
    (Rounds.initOf (Pipeline.cells cfgs cellOf_inj) (Pipeline.launchToks cfgs cellOf_inj)) (hu₀ _) E (hE0 ρ) hE6
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

theorem run_value (ρ : Dev nD → PrngReg) : θ_run defs (onTc (τ := τ) (main (F := F))) ⟨m, fun _ => 0, ρ⟩ (fun r => ∀ c : Dev nD,
      r.2.mem ((c.tc : Thread nD τ).loc main_v33) = Y20 m c main_v33
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (congrFun (hV20 m c) _), (h c).2⟩)
    (run_cond m emb₁ () 𝒱₀ L lv (fun _ _ => rfl) ρ (outs m) (pdats m) 0 (fun _ => iprop(emp))
      (Rounds.initOf (Pipeline.cells cfgs cellOf_inj) (Pipeline.launchToks cfgs cellOf_inj)) (hu₀ _) E (hE0 ρ) hE6
      (reg0 m) (fun _ => .rfl) (fun _ => .rfl) (reg1 m) (fun _ => .rfl) (fun _ => .rfl) (reg2 m) (fun _ => .rfl) (fun _ => .rfl)
      (reg3 m) (fun _ => .rfl) (fun _ => .rfl) (reg4 m) (fun _ => .rfl) (fun _ => .rfl) (reg5 m) (fun _ => .rfl) (fun _ => .rfl))

end Cert.Kernel.Fr

end
-- ==== Proof.KI.R0.Runs.lean ====
import proofs.«404853_j60129542534_1_alg».proof.Proof.Gen.KernelIdeal.Launch
import proofs.«404853_j60129542534_1_alg».proof.Proof.Gen.KernelIdeal.Skeleton
import proofs.«404853_j60129542534_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_of {c : Dev nD} (dat : Dat τ (Elt F) Unit ℕ (UR sig nD τ) ℕ cfg0 c) :
    (dat.A 0 = V c (Pipeline.arrRef spec0 0) → (∀ t, dat.after 0 t = iblk0 V c 0 t) → ∀ t d, dat.before 0 t d = iblk0 V c 0 t)
      ∧ (dat.A 1 = V c (Pipeline.arrRef spec0 1) → (∀ t, dat.after 1 t = iblk0 V c 1 t) → ∀ t d, dat.before 1 t d = iblk0 V c 1 t)
      ∧ (dat.A 2 = V c (Pipeline.arrRef spec0 2) → (∀ t, dat.after 2 t = iblk0 V c 2 t) → ∀ t d, dat.before 2 t d = iblk0 V c 2 t) := by
  refine ⟨?_, ?_, ?_⟩ <;> intro hA hafter t d <;>
    exact (dat.before_in_eq_fetched _ rfl (fun _ => rfl) (fun _ _ _ => rfl) (fun t => by rw [hafter]; unfold Dat.blockOf iblk0; rw [hA]; try rfl) t d).trans
      (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

theorem idleAt0_3 (t : Fin cfg0.N) (h : ¬cond0_1 (grid0.coords t)) : cfg0.idle 3 (grid0.coords t) = true := by
  show (!(k0_cond2 (grid0.coords t) == 1#1)) = true
  simp only [Bool.not_eq_true', beq_eq_false_iff_ne, ne_eq]; exact h
theorem noFlush0_3 (t : Fin cfg0.N) (h : ¬cond0_1 (grid0.coords t)) : (cfg0.win 3).flush t = false :=
  Bool.eq_false_iff.mpr fun hf => h ((hcond0_1 t).mpr ((flush0_3 t).mp hf))
theorem liveAt0_3 (t : Fin cfg0.N) (h : cond0_1 (grid0.coords t)) : cfg0.idle 3 (grid0.coords t) = false := by
  show (!(k0_cond2 (grid0.coords t) == 1#1)) = false
  simp only [Bool.not_eq_false', beq_iff_eq]; exact h

abbrev VO0_3 : View sig .tc .vmem S2048x128 .bf16 := (Memref.whole cc0_stg3_0 : Memref sig .tc .vmem S2048x128 .bf16).view
abbrev ms0_0 (t : Fin cfg0.N) : Memref sig .tc .vmem S2048x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev scM0_0 : Memref sig .tc .vmem S2048x128 .f32 := Memref.whole cc0_scratch0
abbrev VS0_0 : View sig .tc .vmem S2048x128 .f32 := scM0_0.view

abbrev restBut0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ restBut0 c) ∗ (∃ r, prngReg c r)) := by
  unfold Pipeline.ΦA; rw [scopedRest0_split]; simp only [scM0_0, owns_whole]; try rfl

end Cert.KernelIdeal.Fr

end
-- ==== Proof.KI.R0.RunA.lean ====
import proofs.«404853_j60129542534_1_alg».proof.Proof.KI.R0.Runs

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : cond0_0 i) (hc1 : ¬cond0_1 i)
    (x0 : Vec F S2048x1 .i32) (x1 : Vec F S2048x128 .f32) (x2 : Vec F S2048x1 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernelA_body i arg2 harg2 arg3 harg3 arg4 harg4 arg5 harg5 arg6 harg6) K } := by
  refine ⟨[], ?_, fun xi3 E K => ?run⟩
  case run =>
    simp only [cc0__kernelA_body_eq_skeleton]; unfold cc0__kernelA_body_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R0.RunB.lean ====
import proofs.«404853_j60129542534_1_alg».proof.Proof.KI.R0.RunA

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : ¬cond0_0 i) (hc1 : ¬cond0_1 i)
    (x0 : Vec F S2048x1 .i32) (x1 : Vec F S2048x128 .f32) (x2 : Vec F S2048x1 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernelA_body i arg2 harg2 arg3 harg3 arg4 harg4 arg5 harg5 arg6 harg6) K } := by
  refine ⟨[], ?_, fun xi3 E K => ?run⟩
  case run =>
    simp only [cc0__kernelA_body_eq_skeleton]; unfold cc0__kernelA_body_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R0.RunC.lean ====
import proofs.«404853_j60129542534_1_alg».proof.Proof.KI.R0.RunB

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : ¬cond0_0 i) (hc1 : cond0_1 i)
    (x0 : Vec F S2048x1 .i32) (x1 : Vec F S2048x128 .f32) (x2 : Vec F S2048x1 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernelA_body i arg2 harg2 arg3 harg3 arg4 harg4 arg5 harg5 arg6 harg6) K } := by
  refine ⟨?_, ?_, fun E K => ?run⟩
  case run =>
    simp only [cc0__kernelA_body_eq_skeleton]; unfold cc0__kernelA_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.R0.Region.lean ====
import proofs.«404853_j60129542534_1_alg».proof.Proof.KI.R0.RunC

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole)

section
variable (hc0 : cond0_0 i) (hc1 : ¬cond0_1 i) (x0 : Vec F S2048x1 .i32) (x1 : Vec F S2048x128 .f32) (x2 : Vec F S2048x1 .f32)

def out0_A_3 : Vec F S2048x128 .bf16 :=
  VO0_3.read (Elt F) (VO0_3.writes (Elt F) VO0_3.junk (kernelRun0_A c i arg2 harg2 arg3 harg3 arg4 harg4 arg5 harg5 arg6 harg6 hc0 hc1 x0 x1 x2).1)

theorem scover0_A_0 (y : S2048x128.Idx) : ∃ pc ∈ (kernelRun0_A c i arg2 harg2 arg3 harg3 arg4 harg4 arg5 harg5 arg6 harg6 hc0 hc1 x0 x1 x2).2.1, y ∈ pc.1.set :=
  View.cover_of_tiledL _ S2048x128.size (by sl_kernel_rfl) y

def sout0_A_0 : Vec F S2048x128 .f32 :=
  VS0_0.read (Elt F) (VS0_0.writes (Elt F) VS0_0.junk (kernelRun0_A c i arg2 harg2 arg3 harg3 arg4 harg4 arg5 harg5 arg6 harg6 hc0 hc1 x0 x1 x2).2.1)

def pair0_A : Vec F S2048x128 .bf16 × Vec F S2048x128 .f32 :=
  (out0_A_3 c i arg2 harg2 arg3 harg3 arg4 harg4 arg5 harg5 arg6 harg6 hc0 hc1 x0 x1 x2, sout0_A_0 c i arg2 harg2 arg3 harg3 arg4 harg4 arg5 harg5 arg6 harg6 hc0 hc1 x0 x1 x2)

end

section
variable (hc0 : ¬cond0_0 i) (hc1 : ¬cond0_1 i) (x0 : Vec F S2048x1 .i32) (x1 : Vec F S2048x128 .f32) (x2 : Vec F S2048x1 .f32) (xs0 : Vec F S2048x128 .f32)

def out0_B_3 : Vec F S2048x128 .bf16 :=
  VO0_3.read (Elt F) (VO0_3.writes (Elt F) VO0_3.junk (kernelRun0_B c i arg2 harg2 arg3 harg3 arg4 harg4 arg5 harg5 arg6 harg6 hc0 hc1 x0 x1 x2 xs0).1)

theorem scover0_B_0 (y : S2048x128.Idx) : ∃ pc ∈ (kernelRun0_B c i arg2 harg2 arg3 harg3 arg4 harg4 arg5 harg5 arg6 harg6 hc0 hc1 x0 x1 x2 xs0).2.1, y ∈ pc.1.set :=
  View.cover_of_tiledL _ S2048x128.size (by sl_kernel_rfl) y

def sout0_B_0 : Vec F S2048x128 .f32 :=
  VS0_0.read (Elt F) (VS0_0.writes (Elt F) VS0_0.junk (kernelRun0_B c i arg2 harg2 arg3 harg3 arg4 harg4 arg5 harg5 arg6 harg6 hc0 hc1 x0 x1 x2 xs0).2.1)

def pair0_B : Vec F S2048x128 .bf16 × Vec F S2048x128 .f32 :=
  (out0_B_3 c i arg2 harg2 arg3 harg3 arg4 harg4 arg5 harg5 arg6 harg6 hc0 hc1 x0 x1 x2 xs0, sout0_B_0 c i arg2 harg2 arg3 harg3 arg4 harg4 arg5 harg5 arg6 harg6 hc0 hc1 x0 x1 x2 xs0)

end

section
variable (hc0 : ¬cond0_0 i) (hc1 : cond0_1 i) (x0 : Vec F S2048x1 .i32) (x1 : Vec F S2048x128 .f32) (x2 : Vec F S2048x1 .f32) (xs0 : Vec F S2048x128 .f32)

theorem cover0_C_3 (y : S2048x128.Idx) : ∃ pc ∈ (kernelRun0_C c i arg2 harg2 arg3 harg3 arg4 harg4 arg5 harg5 arg6 harg6 hc0 hc1 x0 x1 x2 xs0).1, y ∈ pc.1.set :=
  View.cover_of_tiledL _ S2048x128.size (by sl_kernel_rfl) y

def out0_C_3 : Vec F S2048x128 .bf16 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (y : S2048x128.Idx) : ∃ pc ∈ (kernelRun0_C c i arg2 harg2 arg3 harg3 arg4 harg4 arg5 harg5 arg6 harg6 hc0 hc1 x0 x1 x2 xs0).2.1, y ∈ pc.1.set :=
  View.cover_of_tiledL _ S2048x128.size (by sl_kernel_rfl) y

def sout0_C_0 : Vec F S2048x128 .f32 :=
  VS0_0.read (Elt F) (VS0_0.writes (Elt F) VS0_0.junk (kernelRun0_C c i arg2 harg2 arg3 harg3 arg4 harg4 arg5 harg5 arg6 harg6 hc0 hc1 x0 x1 x2 xs0).2.1)

def pair0_C : Vec F S2048x128 .bf16 × Vec F S2048x128 .f32 :=
  (out0_C_3 c i arg2 harg2 arg3 harg3 arg4 harg4 arg5 harg5 arg6 harg6 hc0 hc1 x0 x1 x2 xs0, sout0_C_0 c i arg2 harg2 arg3 harg3 arg4 harg4 arg5 harg5 arg6 harg6 hc0 hc1 x0 x1 x2 xs0)

end

end

-- The output block and the accumulator after position n, by recursion on n: the residue mod 25 selects the case.
def outsAt0 (c : Dev nD) : (n : ℕ) → n < cfg0.N → Vec F S2048x128 .bf16 × Vec F S2048x128 .f32
  | 0, hn => pair0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)
  | n + 1, hn =>
    if h0 : (n + 1) % 25 = 0 then
      if h1 : (n + 1) % 25 = 24 then
        False.elim (by omega)
      else
        pair0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩)
    else
      if h1 : (n + 1) % 25 = 24 then
        pair0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2
      else
        pair0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2

theorem outsAt0_A (c : Dev nD) (t : Fin cfg0.N) (h0 : t.val % 25 = 0) (h1 : ¬t.val % 25 = 24) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 25 = 0) (h1 : t.val % 25 = 24) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restBut0 c) ∗ (∃ r, prngReg c r))

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restBut0 c) ∗ (∃ r, prngReg c r)) := by
  cases n with
  | zero => exact absurd rfl hz
  | succ n => rfl

-- At every position the invariant gives the accumulator at some contents.
theorem PhiS0_weak (c : Dev nD) (n : ℕ) (h : n ≤ cfg0.N) :
    PhiS0 V c n h ⊢ iprop(iprop((∃ d, owns (c : Thread nD τ) scM0_0 fullShare d) ∗ restBut0 c) ∗ (∃ r, prngReg c r)) := by
  by_cases hz : n = 0
  · subst hz; exact Entails.of_eq (PhiA0_eq c)
  · rw [PhiS0_pos V c n h hz]
    iintro ⟨⟨HS0, Hrest⟩, Hg⟩
    iframe Hrest Hg
    iexists _; iexact HS0

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = (outsAt0 V c t.val t.isLt).1 := rfl

set_option maxHeartbeats 4800000 in
-- The residue of the position mod 25 says which case the point is in; that case's run applies, between the invariant before and after.
theorem sound_body0 (c : Dev nD) (t : Fin cfg0.N) :
    iprop(PhiS0 V c t.val (Nat.le_of_lt t.isLt) ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
      ⊢ wp frame (wpE (defs₀ (F := F)) Variants.none c none) Set.univ (bodyAt0 t) (fun _ =>
        iprop(iprop(iprop(owns (c : Thread nD τ) scM0_0 fullShare (outsAt0 V c t.val t.isLt).2 ∗ restBut0 c) ∗ (∃ r, prngReg c r)) ∗ (dat0 V c).owesAt () t.castSucc
          ∗ owns (c : Thread nD τ) (ms0_0 t) fullShare (iblk0 V c 0 t)
          ∗ owns (c : Thread nD τ) (ms0_1 t) fullShare (iblk0 V c 1 t)
          ∗ owns (c : Thread nD τ) (ms0_2 t) fullShare (iblk0 V c 2 t)
          ∗ (dat0 V c).leavesExact 3 t)) := by
  unfold bodyAt0
  simp only [(before0_of V (dat0 V c)).1 rfl (after0_0 V c), (before0_of V (dat0 V c)).2.1 rfl (after0_1 V c), (before0_of V (dat0 V c)).2.2 rfl (after0_2 V c)]
  by_cases h0 : t.val % 25 = 0
  · have h1 : ¬t.val % 25 = 24 := by omega
    rw [Dat.leavesExact_idle (dat0 V c) 3 t (idleAt0_3 t fun h => h1 ((hcond0_1 t).mp h)) (noFlush0_3 t fun h => h1 ((hcond0_1 t).mp h)), outsAt0_A V c t h0 h1]
    unfold sout0_A_0; (try dsimp only)
    refine (sep_mono_left (PhiS0_weak V c _ _)).trans ?_
    iintro ⟨⟨⟨HS0, Hrest⟩, Hg⟩, Ho, ⟨%d0, H0⟩, ⟨%d1, H1⟩, ⟨%d2, H2⟩, ⟨%d3, H3⟩⟩
    iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    iframe Hrest Hg Ho H0 H1 H2
    isplitl [HS0]
    · unfold owns; iexists _; isplitr
      swap; · iexact HS0
      ipureintro; exact View.read_writes_of_cover _ _ _ _ _ (scover0_A_0 c _ _ _ _ _ _ _ _ _ _ _ _ _ _ _ _)
    iexists _; iexact H3
  · rw [PhiS0_pos V c _ _ fun hz => h0 (by rw [hz])]
    by_cases h1 : t.val % 25 = 24
    · rw [show (dat0 V c).leavesExact 3 t = owns (c : Thread nD τ) (ms0_3 t) fullShare ((dat0 V c).after 3 t) from by
        unfold Dat.leavesExact; rw [liveAt0_3 t ((hcond0_1 t).mpr h1)], after0_3, outsAt0_C V c t h0 h1]
      unfold out0_C_3 sout0_C_0; (try dsimp only)
      iintro ⟨⟨⟨HS0, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      iframe Hrest Hg Ho H0 H1 H2
      isplitl [HS0]
      · unfold owns; iexists _; isplitr
        swap; · iexact HS0
        ipureintro; exact View.read_writes_of_cover _ _ _ _ _ (scover0_C_0 c _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t fun h => h1 ((hcond0_1 t).mp h)) (noFlush0_3 t fun h => h1 ((hcond0_1 t).mp h)), outsAt0_B V c t h0 h1]
      unfold sout0_B_0; (try dsimp only)
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      iframe Hrest Hg Ho H0 H1 H2
      isplitl [HS0]
      · unfold owns; iexists _; isplitr
        swap; · iexact HS0
        ipureintro; exact View.read_writes_of_cover _ _ _ _ _ (scover0_B_0 c _ _ _ _ _ _ _ _ _ _ _ _ _ _ _ _ _)
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c :=
  (PhiS0_weak V c cfg0.N (Nat.le_refl _)).trans (Entails.of_eq (PhiA0_eq c).symm)

end Cert.KernelIdeal.Fr

end
-- ==== Proof.KI.R1.Runs.lean ====
import proofs.«404853_j60129542534_1_alg».proof.Proof.Gen.KernelIdeal.Launch
import proofs.«404853_j60129542534_1_alg».proof.Proof.Gen.KernelIdeal.Skeleton
import proofs.«404853_j60129542534_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_of {c : Dev nD} (dat : Dat τ (Elt F) Unit ℕ (UR sig nD τ) ℕ cfg1 c) :
    (dat.A 0 = V c (Pipeline.arrRef spec1 0) → (∀ t, dat.after 0 t = iblk1 V c 0 t) → ∀ t d, dat.before 0 t d = iblk1 V c 0 t)
      ∧ (dat.A 1 = V c (Pipeline.arrRef spec1 1) → (∀ t, dat.after 1 t = iblk1 V c 1 t) → ∀ t d, dat.before 1 t d = iblk1 V c 1 t)
      ∧ (dat.A 2 = V c (Pipeline.arrRef spec1 2) → (∀ t, dat.after 2 t = iblk1 V c 2 t) → ∀ t d, dat.before 2 t d = iblk1 V c 2 t)
      ∧ (dat.A 3 = V c (Pipeline.arrRef spec1 3) → (∀ t, dat.after 3 t = iblk1 V c 3 t) → ∀ t d, dat.before 3 t d = iblk1 V c 3 t)
      ∧ (dat.A 4 = V c (Pipeline.arrRef spec1 4) → (∀ t, dat.after 4 t = iblk1 V c 4 t) → ∀ t d, dat.before 4 t d = iblk1 V c 4 t) := by
  refine ⟨?_, ?_, ?_, ?_, ?_⟩ <;> intro hA hafter t d <;>
    exact (dat.before_in_eq_fetched _ rfl (fun _ => rfl) (fun _ _ _ => rfl) (fun t => by rw [hafter]; unfold Dat.blockOf iblk1; rw [hA]; try rfl) t d).trans
      (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 293 = 0 :=
  (by decide +kernel : ∀ t : Fin grid1.N, cond1_0 (grid1.coords t) ↔ t.val % 293 = 0)
abbrev cond1_1 (i : grid1.Coords) : Prop := k1_cond2 i = 1#1
theorem hcond1_1 : ∀ t : Fin cfg1.N, cond1_1 (grid1.coords t) ↔ t.val % 293 = 292 :=
  (by decide +kernel : ∀ t : Fin grid1.N, cond1_1 (grid1.coords t) ↔ t.val % 293 = 292)

theorem idleAt1_5 (t : Fin cfg1.N) (h : ¬cond1_1 (grid1.coords t)) : cfg1.idle 5 (grid1.coords t) = true := by
  show (!(k1_cond2 (grid1.coords t) == 1#1)) = true
  simp only [Bool.not_eq_true', beq_eq_false_iff_ne, ne_eq]; exact h
theorem noFlush1_5 (t : Fin cfg1.N) (h : ¬cond1_1 (grid1.coords t)) : (cfg1.win 5).flush t = false :=
  Bool.eq_false_iff.mpr fun hf => h ((hcond1_1 t).mpr ((flush1_5 t).mp hf))
theorem liveAt1_5 (t : Fin cfg1.N) (h : cond1_1 (grid1.coords t)) : cfg1.idle 5 (grid1.coords t) = false := by
  show (!(k1_cond2 (grid1.coords t) == 1#1)) = false
  simp only [Bool.not_eq_false', beq_iff_eq]; exact h

abbrev VO1_5 : View sig .tc .vmem S2048x128 .f32 := (Memref.whole cc1_stg5_0 : Memref sig .tc .vmem S2048x128 .f32).view
abbrev ms1_0 (t : Fin cfg1.N) : Memref sig .tc .vmem S1x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x128 .f32 := win1_5.stage (cfg1.slots t 5)
abbrev hs1_5 (t : Fin cfg1.N) : (ms1_5 t).IsWhole := hstage1_5 ((cfg1.slots t 5).cast nbuf1_5)
abbrev scM1_0 : Memref sig .tc .vmem S2048x128 .f32 := Memref.whole cc1_scratch0
abbrev VS1_0 : View sig .tc .vmem S2048x128 .f32 := scM1_0.view

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ restBut1 c) ∗ (∃ r, prngReg c r)) := by
  unfold Pipeline.ΦA; rw [scopedRest1_split]; simp only [scM1_0, owns_whole]; try rfl

end Cert.KernelIdeal.Fr

end
-- ==== Proof.KI.R1.RunA.lean ====
import proofs.«404853_j60129542534_1_alg».proof.Proof.KI.R1.Runs

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_A (c : Dev nD) (i : grid1.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole)
    (arg7 : Memref sig .tc .vmem S2048x128 .f32) (harg7 : arg7.IsWhole)
    (arg8 : Memref sig .tc .vmem S2048x128 .f32) (harg8 : arg8.IsWhole) (hc0 : cond1_0 i) (hc1 : ¬cond1_1 i)
    (x0 : Vec F S1x2048 .i32) (x1 : Vec F S2048x128 .bf16) (x2 : Vec F S2048x1 .f32) (x3 : Vec F S128x128 .f32) (x4 : Vec F S1x128 .f32) :
    Σ' (L5 : List (View.Piece (Elt F) S2048x128 .f32)),
      { LS0 : List (View.Piece (Elt F) S2048x128 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_body i arg2 harg2 arg3 harg3 arg4 harg4 arg5 harg5 arg6 harg6 arg7 harg7 arg8 harg8) K } := by
  refine ⟨[], ?_, fun xi5 E K => ?run⟩
  case run =>
    simp only [cc1_body_eq_skeleton]; unfold cc1_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.R1.RunB.lean ====
import proofs.«404853_j60129542534_1_alg».proof.Proof.KI.R1.RunA

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_B (c : Dev nD) (i : grid1.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole)
    (arg7 : Memref sig .tc .vmem S2048x128 .f32) (harg7 : arg7.IsWhole)
    (arg8 : Memref sig .tc .vmem S2048x128 .f32) (harg8 : arg8.IsWhole) (hc0 : ¬cond1_0 i) (hc1 : ¬cond1_1 i)
    (x0 : Vec F S1x2048 .i32) (x1 : Vec F S2048x128 .bf16) (x2 : Vec F S2048x1 .f32) (x3 : Vec F S128x128 .f32) (x4 : Vec F S1x128 .f32) (xs0 : Vec F S2048x128 .f32) :
    Σ' (L5 : List (View.Piece (Elt F) S2048x128 .f32)),
      { LS0 : List (View.Piece (Elt F) S2048x128 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_body i arg2 harg2 arg3 harg3 arg4 harg4 arg5 harg5 arg6 harg6 arg7 harg7 arg8 harg8) K } := by
  refine ⟨[], ?_, fun xi5 E K => ?run⟩
  case run =>
    simp only [cc1_body_eq_skeleton]; unfold cc1_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.R1.RunC.lean ====
import proofs.«404853_j60129542534_1_alg».proof.Proof.KI.R1.RunB

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_C (c : Dev nD) (i : grid1.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole)
    (arg7 : Memref sig .tc .vmem S2048x128 .f32) (harg7 : arg7.IsWhole)
    (arg8 : Memref sig .tc .vmem S2048x128 .f32) (harg8 : arg8.IsWhole) (hc0 : ¬cond1_0 i) (hc1 : cond1_1 i)
    (x0 : Vec F S1x2048 .i32) (x1 : Vec F S2048x128 .bf16) (x2 : Vec F S2048x1 .f32) (x3 : Vec F S128x128 .f32) (x4 : Vec F S1x128 .f32) (xs0 : Vec F S2048x128 .f32) :
    Σ' (L5 : List (View.Piece (Elt F) S2048x128 .f32)),
      { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1_body i arg2 harg2 arg3 harg3 arg4 harg4 arg5 harg5 arg6 harg6 arg7 harg7 arg8 harg8) K } := by
  refine ⟨?_, ?_, fun E K => ?run⟩
  case run =>
    simp only [cc1_body_eq_skeleton]; unfold cc1_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fr

end
-- ==== Proof.KI.R1.Region.lean ====
import proofs.«404853_j60129542534_1_alg».proof.Proof.KI.R1.RunC

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole)

section
variable (hc0 : cond1_0 i) (hc1 : ¬cond1_1 i) (x0 : Vec F S1x2048 .i32) (x1 : Vec F S2048x128 .bf16) (x2 : Vec F S2048x1 .f32) (x3 : Vec F S128x128 .f32) (x4 : Vec F S1x128 .f32)

def out1_A_5 : Vec F S2048x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

theorem scover1_A_0 (y : S2048x128.Idx) : ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL _ S2048x128.size (by sl_kernel_rfl) y

def sout1_A_0 : Vec F S2048x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

def pair1_A : Vec F S2048x128 .f32 × Vec F S2048x128 .f32 :=
  (out1_A_5 c i arg2 harg2 arg3 harg3 arg4 harg4 arg5 harg5 arg6 harg6 arg7 harg7 arg8 harg8 hc0 hc1 x0 x1 x2 x3 x4, sout1_A_0 c i arg2 harg2 arg3 harg3 arg4 harg4 arg5 harg5 arg6 harg6 arg7 harg7 arg8 harg8 hc0 hc1 x0 x1 x2 x3 x4)

end

section
variable (hc0 : ¬cond1_0 i) (hc1 : ¬cond1_1 i) (x0 : Vec F S1x2048 .i32) (x1 : Vec F S2048x128 .bf16) (x2 : Vec F S2048x1 .f32) (x3 : Vec F S128x128 .f32) (x4 : Vec F S1x128 .f32) (xs0 : Vec F S2048x128 .f32)

def out1_B_5 : Vec F S2048x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

theorem scover1_B_0 (y : S2048x128.Idx) : ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL _ S2048x128.size (by sl_kernel_rfl) y

def sout1_B_0 : Vec F S2048x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

def pair1_B : Vec F S2048x128 .f32 × Vec F S2048x128 .f32 :=
  (out1_B_5 c i arg2 harg2 arg3 harg3 arg4 harg4 arg5 harg5 arg6 harg6 arg7 harg7 arg8 harg8 hc0 hc1 x0 x1 x2 x3 x4 xs0, sout1_B_0 c i arg2 harg2 arg3 harg3 arg4 harg4 arg5 harg5 arg6 harg6 arg7 harg7 arg8 harg8 hc0 hc1 x0 x1 x2 x3 x4 xs0)

end

section
variable (hc0 : ¬cond1_0 i) (hc1 : cond1_1 i) (x0 : Vec F S1x2048 .i32) (x1 : Vec F S2048x128 .bf16) (x2 : Vec F S2048x1 .f32) (x3 : Vec F S128x128 .f32) (x4 : Vec F S1x128 .f32) (xs0 : Vec F S2048x128 .f32)

theorem cover1_C_5 (y : S2048x128.Idx) : ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL _ S2048x128.size (by sl_kernel_rfl) y

def out1_C_5 : Vec F S2048x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

theorem scover1_C_0 (y : S2048x128.Idx) : ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL _ S2048x128.size (by sl_kernel_rfl) y

def sout1_C_0 : Vec F S2048x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

def pair1_C : Vec F S2048x128 .f32 × Vec F S2048x128 .f32 :=
  (out1_C_5 c i arg2 harg2 arg3 harg3 arg4 harg4 arg5 harg5 arg6 harg6 arg7 harg7 arg8 harg8 hc0 hc1 x0 x1 x2 x3 x4 xs0, sout1_C_0 c i arg2 harg2 arg3 harg3 arg4 harg4 arg5 harg5 arg6 harg6 arg7 harg7 arg8 harg8 hc0 hc1 x0 x1 x2 x3 x4 xs0)

end

end

-- The output block and the accumulator after position n, by recursion on n: the residue mod 293 selects the case.
def outsAt1 (c : Dev nD) : (n : ℕ) → n < cfg1.N → Vec F S2048x128 .f32 × Vec F S2048x128 .f32
  | 0, hn => pair1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 293 = 0 then
      if h1 : (n + 1) % 293 = 292 then
        False.elim (by omega)
      else
        pair1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 293 = 292 then
        pair1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2
      else
        pair1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2

theorem outsAt1_A (c : Dev nD) (t : Fin cfg1.N) (h0 : t.val % 293 = 0) (h1 : ¬t.val % 293 = 292) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 293 = 0) (h1 : ¬t.val % 293 = 292) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 293 = 0) (h1 : t.val % 293 = 292) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 c) ∗ (∃ r, prngReg c r))

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 c) ∗ (∃ r, prngReg c r)) := by
  cases n with
  | zero => exact absurd rfl hz
  | succ n => rfl

-- At every position the invariant gives the accumulator at some contents.
theorem PhiS1_weak (c : Dev nD) (n : ℕ) (h : n ≤ cfg1.N) :
    PhiS1 V c n h ⊢ iprop(iprop((∃ d, owns (c : Thread nD τ) scM1_0 fullShare d) ∗ restBut1 c) ∗ (∃ r, prngReg c r)) := by
  by_cases hz : n = 0
  · subst hz; exact Entails.of_eq (PhiA1_eq c)
  · rw [PhiS1_pos V c n h hz]
    iintro ⟨⟨HS0, Hrest⟩, Hg⟩
    iframe Hrest Hg
    iexists _; iexact HS0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = iblk1 V c 3 t := rfl
theorem after1_4 (c : Dev nD) (t : Fin cfg1.N) : (dat1 V c).after 4 t = iblk1 V c 4 t := rfl
theorem after1_5 (c : Dev nD) (t : Fin cfg1.N) : (dat1 V c).after 5 t = (outsAt1 V c t.val t.isLt).1 := rfl

set_option maxHeartbeats 4800000 in
-- The residue of the position mod 293 says which case the point is in; that case's run applies, between the invariant before and after.
theorem sound_body1 (c : Dev nD) (t : Fin cfg1.N) :
    iprop(PhiS1 V c t.val (Nat.le_of_lt t.isLt) ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d))
      ∗ (∃ d, owns (c : Thread nD τ) (ms1_5 t) fullShare ((dat1 V c).before 5 t d)))
      ⊢ wp frame (wpE (defs₀ (F := F)) Variants.none c none) Set.univ (bodyAt1 t) (fun _ =>
        iprop(iprop(iprop(owns (c : Thread nD τ) scM1_0 fullShare (outsAt1 V c t.val t.isLt).2 ∗ restBut1 c) ∗ (∃ r, prngReg c r)) ∗ (dat1 V c).owesAt () t.castSucc
          ∗ owns (c : Thread nD τ) (ms1_0 t) fullShare (iblk1 V c 0 t)
          ∗ owns (c : Thread nD τ) (ms1_1 t) fullShare (iblk1 V c 1 t)
          ∗ owns (c : Thread nD τ) (ms1_2 t) fullShare (iblk1 V c 2 t)
          ∗ owns (c : Thread nD τ) (ms1_3 t) fullShare (iblk1 V c 3 t)
          ∗ owns (c : Thread nD τ) (ms1_4 t) fullShare (iblk1 V c 4 t)
          ∗ (dat1 V c).leavesExact 5 t)) := by
  unfold bodyAt1
  simp only [(before1_of V (dat1 V c)).1 rfl (after1_0 V c), (before1_of V (dat1 V c)).2.1 rfl (after1_1 V c), (before1_of V (dat1 V c)).2.2.1 rfl (after1_2 V c), (before1_of V (dat1 V c)).2.2.2.1 rfl (after1_3 V c), (before1_of V (dat1 V c)).2.2.2.2 rfl (after1_4 V c)]
  by_cases h0 : t.val % 293 = 0
  · have h1 : ¬t.val % 293 = 292 := by omega
    rw [Dat.leavesExact_idle (dat1 V c) 5 t (idleAt1_5 t fun h => h1 ((hcond1_1 t).mp h)) (noFlush1_5 t fun h => h1 ((hcond1_1 t).mp h)), outsAt1_A V c t h0 h1]
    unfold sout1_A_0; (try dsimp only)
    refine (sep_mono_left (PhiS1_weak V c _ _)).trans ?_
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    iframe Hrest Hg Ho H0 H1 H2 H3 H4
    isplitl [HS0]
    · unfold owns; iexists _; isplitr
      swap; · iexact HS0
      ipureintro; exact View.read_writes_of_cover _ _ _ _ _ (scover1_A_0 c _ _ _ _ _ _ _ _ _ _ _ _ _ _ _ _ _ _ _ _ _ _)
    iexists _; iexact H5
  · rw [PhiS1_pos V c _ _ fun hz => h0 (by rw [hz])]
    by_cases h1 : t.val % 293 = 292
    · rw [show (dat1 V c).leavesExact 5 t = owns (c : Thread nD τ) (ms1_5 t) fullShare ((dat1 V c).after 5 t) from by
        unfold Dat.leavesExact; rw [liveAt1_5 t ((hcond1_1 t).mpr h1)], after1_5, outsAt1_C V c t h0 h1]
      unfold out1_C_5 sout1_C_0; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      iframe Hrest Hg Ho H0 H1 H2 H3 H4
      isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _ _)
    · rw [Dat.leavesExact_idle (dat1 V c) 5 t (idleAt1_5 t fun h => h1 ((hcond1_1 t).mp h)) (noFlush1_5 t fun h => h1 ((hcond1_1 t).mp h)), outsAt1_B V c t h0 h1]
      unfold sout1_B_0; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      iframe Hrest Hg Ho H0 H1 H2 H3 H4
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _)
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c :=
  (PhiS1_weak V c cfg1.N (Nat.le_refl _)).trans (Entails.of_eq (PhiA1_eq c).symm)

end Cert.KernelIdeal.Fr

end
-- ==== Proof.KI.R2.Runs.lean ====
import proofs.«404853_j60129542534_1_alg».proof.Proof.Gen.KernelIdeal.Launch
import proofs.«404853_j60129542534_1_alg».proof.Proof.Gen.KernelIdeal.Skeleton
import proofs.«404853_j60129542534_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_of {c : Dev nD} (dat : Dat τ (Elt F) Unit ℕ (UR sig nD τ) ℕ cfg2 c) :
    (dat.A 0 = V c (Pipeline.arrRef spec2 0) → (∀ t, dat.after 0 t = iblk2 V c 0 t) → ∀ t d, dat.before 0 t d = iblk2 V c 0 t)
      ∧ (dat.A 1 = V c (Pipeline.arrRef spec2 1) → (∀ t, dat.after 1 t = iblk2 V c 1 t) → ∀ t d, dat.before 1 t d = iblk2 V c 1 t)
      ∧ (dat.A 2 = V c (Pipeline.arrRef spec2 2) → (∀ t, dat.after 2 t = iblk2 V c 2 t) → ∀ t d, dat.before 2 t d = iblk2 V c 2 t) := by
  refine ⟨?_, ?_, ?_⟩ <;> intro hA hafter t d <;>
    exact (dat.before_in_eq_fetched _ rfl (fun _ => rfl) (fun _ _ _ => rfl) (fun t => by rw [hafter]; unfold Dat.blockOf iblk2; rw [hA]; try rfl) t d).trans
      (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)
abbrev cond2_1 (i : grid2.Coords) : Prop := k2_cond2 i = 1#1
theorem hcond2_1 : ∀ t : Fin cfg2.N, cond2_1 (grid2.coords t) ↔ t.val % 25 = 24 :=
  (by decide +kernel : ∀ t : Fin grid2.N, cond2_1 (grid2.coords t) ↔ t.val % 25 = 24)

theorem idleAt2_3 (t : Fin cfg2.N) (h : ¬cond2_1 (grid2.coords t)) : cfg2.idle 3 (grid2.coords t) = true := by
  show (!(k2_cond2 (grid2.coords t) == 1#1)) = true
  simp only [Bool.not_eq_true', beq_eq_false_iff_ne, ne_eq]; exact h
theorem noFlush2_3 (t : Fin cfg2.N) (h : ¬cond2_1 (grid2.coords t)) : (cfg2.win 3).flush t = false :=
  Bool.eq_false_iff.mpr fun hf => h ((hcond2_1 t).mpr ((flush2_3 t).mp hf))
theorem liveAt2_3 (t : Fin cfg2.N) (h : cond2_1 (grid2.coords t)) : cfg2.idle 3 (grid2.coords t) = false := by
  show (!(k2_cond2 (grid2.coords t) == 1#1)) = false
  simp only [Bool.not_eq_false', beq_iff_eq]; exact h

abbrev VO2_3 : View sig .tc .vmem S2048x128 .bf16 := (Memref.whole cc2_stg3_0 : Memref sig .tc .vmem S2048x128 .bf16).view
abbrev ms2_0 (t : Fin cfg2.N) : Memref sig .tc .vmem S2048x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x128 .bf16 := win2_3.stage (cfg2.slots t 3)
abbrev hs2_3 (t : Fin cfg2.N) : (ms2_3 t).IsWhole := hstage2_3 ((cfg2.slots t 3).cast nbuf2_3)
abbrev scM2_0 : Memref sig .tc .vmem S2048x128 .f32 := Memref.whole cc2_scratch0
abbrev VS2_0 : View sig .tc .vmem S2048x128 .f32 := scM2_0.view

abbrev restBut2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ restBut2 c) ∗ (∃ r, prngReg c r)) := by
  unfold Pipeline.ΦA; rw [scopedRest2_split]; simp only [scM2_0, owns_whole]; try rfl

end Cert.KernelIdeal.Fr

end
-- ==== Proof.KI.R2.RunA.lean ====
import proofs.«404853_j60129542534_1_alg».proof.Proof.KI.R2.Runs

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : cond2_0 i) (hc1 : ¬cond2_1 i)
    (x0 : Vec F S2048x1 .i32) (x1 : Vec F S2048x128 .f32) (x2 : Vec F S2048x1 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__kernelA_body i arg2 harg2 arg3 harg3 arg4 harg4 arg5 harg5 arg6 harg6) K } := by
  refine ⟨[], ?_, fun xi3 E K => ?run⟩
  case run =>
    simp only [cc2__kernelA_body_eq_skeleton]; unfold cc2__kernelA_body_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R2.RunB.lean ====
import proofs.«404853_j60129542534_1_alg».proof.Proof.KI.R2.RunA

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : ¬cond2_0 i) (hc1 : ¬cond2_1 i)
    (x0 : Vec F S2048x1 .i32) (x1 : Vec F S2048x128 .f32) (x2 : Vec F S2048x1 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__kernelA_body i arg2 harg2 arg3 harg3 arg4 harg4 arg5 harg5 arg6 harg6) K } := by
  refine ⟨[], ?_, fun xi3 E K => ?run⟩
  case run =>
    simp only [cc2__kernelA_body_eq_skeleton]; unfold cc2__kernelA_body_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R2.RunC.lean ====
import proofs.«404853_j60129542534_1_alg».proof.Proof.KI.R2.RunB

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : ¬cond2_0 i) (hc1 : cond2_1 i)
    (x0 : Vec F S2048x1 .i32) (x1 : Vec F S2048x128 .f32) (x2 : Vec F S2048x1 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__kernelA_body i arg2 harg2 arg3 harg3 arg4 harg4 arg5 harg5 arg6 harg6) K } := by
  refine ⟨?_, ?_, fun E K => ?run⟩
  case run =>
    simp only [cc2__kernelA_body_eq_skeleton]; unfold cc2__kernelA_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.R2.Region.lean ====
import proofs.«404853_j60129542534_1_alg».proof.Proof.KI.R2.RunC

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole)

section
variable (hc0 : cond2_0 i) (hc1 : ¬cond2_1 i) (x0 : Vec F S2048x1 .i32) (x1 : Vec F S2048x128 .f32) (x2 : Vec F S2048x1 .f32)

def out2_A_3 : Vec F S2048x128 .bf16 :=
  VO2_3.read (Elt F) (VO2_3.writes (Elt F) VO2_3.junk (kernelRun2_A c i arg2 harg2 arg3 harg3 arg4 harg4 arg5 harg5 arg6 harg6 hc0 hc1 x0 x1 x2).1)

theorem scover2_A_0 (y : S2048x128.Idx) : ∃ pc ∈ (kernelRun2_A c i arg2 harg2 arg3 harg3 arg4 harg4 arg5 harg5 arg6 harg6 hc0 hc1 x0 x1 x2).2.1, y ∈ pc.1.set :=
  View.cover_of_tiledL _ S2048x128.size (by sl_kernel_rfl) y

def sout2_A_0 : Vec F S2048x128 .f32 :=
  VS2_0.read (Elt F) (VS2_0.writes (Elt F) VS2_0.junk (kernelRun2_A c i arg2 harg2 arg3 harg3 arg4 harg4 arg5 harg5 arg6 harg6 hc0 hc1 x0 x1 x2).2.1)

def pair2_A : Vec F S2048x128 .bf16 × Vec F S2048x128 .f32 :=
  (out2_A_3 c i arg2 harg2 arg3 harg3 arg4 harg4 arg5 harg5 arg6 harg6 hc0 hc1 x0 x1 x2, sout2_A_0 c i arg2 harg2 arg3 harg3 arg4 harg4 arg5 harg5 arg6 harg6 hc0 hc1 x0 x1 x2)

end

section
variable (hc0 : ¬cond2_0 i) (hc1 : ¬cond2_1 i) (x0 : Vec F S2048x1 .i32) (x1 : Vec F S2048x128 .f32) (x2 : Vec F S2048x1 .f32) (xs0 : Vec F S2048x128 .f32)

def out2_B_3 : Vec F S2048x128 .bf16 :=
  VO2_3.read (Elt F) (VO2_3.writes (Elt F) VO2_3.junk (kernelRun2_B c i arg2 harg2 arg3 harg3 arg4 harg4 arg5 harg5 arg6 harg6 hc0 hc1 x0 x1 x2 xs0).1)

theorem scover2_B_0 (y : S2048x128.Idx) : ∃ pc ∈ (kernelRun2_B c i arg2 harg2 arg3 harg3 arg4 harg4 arg5 harg5 arg6 harg6 hc0 hc1 x0 x1 x2 xs0).2.1, y ∈ pc.1.set :=
  View.cover_of_tiledL _ S2048x128.size (by sl_kernel_rfl) y

def sout2_B_0 : Vec F S2048x128 .f32 :=
  VS2_0.read (Elt F) (VS2_0.writes (Elt F) VS2_0.junk (kernelRun2_B c i arg2 harg2 arg3 harg3 arg4 harg4 arg5 harg5 arg6 harg6 hc0 hc1 x0 x1 x2 xs0).2.1)

def pair2_B : Vec F S2048x128 .bf16 × Vec F S2048x128 .f32 :=
  (out2_B_3 c i arg2 harg2 arg3 harg3 arg4 harg4 arg5 harg5 arg6 harg6 hc0 hc1 x0 x1 x2 xs0, sout2_B_0 c i arg2 harg2 arg3 harg3 arg4 harg4 arg5 harg5 arg6 harg6 hc0 hc1 x0 x1 x2 xs0)

end

section
variable (hc0 : ¬cond2_0 i) (hc1 : cond2_1 i) (x0 : Vec F S2048x1 .i32) (x1 : Vec F S2048x128 .f32) (x2 : Vec F S2048x1 .f32) (xs0 : Vec F S2048x128 .f32)

theorem cover2_C_3 (y : S2048x128.Idx) : ∃ pc ∈ (kernelRun2_C c i arg2 harg2 arg3 harg3 arg4 harg4 arg5 harg5 arg6 harg6 hc0 hc1 x0 x1 x2 xs0).1, y ∈ pc.1.set :=
  View.cover_of_tiledL _ S2048x128.size (by sl_kernel_rfl) y

def out2_C_3 : Vec F S2048x128 .bf16 :=
  VO2_3.read (Elt F) (VO2_3.writes (Elt F) VO2_3.junk (kernelRun2_C c i arg2 harg2 arg3 harg3 arg4 harg4 arg5 harg5 arg6 harg6 hc0 hc1 x0 x1 x2 xs0).1)

theorem scover2_C_0 (y : S2048x128.Idx) : ∃ pc ∈ (kernelRun2_C c i arg2 harg2 arg3 harg3 arg4 harg4 arg5 harg5 arg6 harg6 hc0 hc1 x0 x1 x2 xs0).2.1, y ∈ pc.1.set :=
  View.cover_of_tiledL _ S2048x128.size (by sl_kernel_rfl) y

def sout2_C_0 : Vec F S2048x128 .f32 :=
  VS2_0.read (Elt F) (VS2_0.writes (Elt F) VS2_0.junk (kernelRun2_C c i arg2 harg2 arg3 harg3 arg4 harg4 arg5 harg5 arg6 harg6 hc0 hc1 x0 x1 x2 xs0).2.1)

def pair2_C : Vec F S2048x128 .bf16 × Vec F S2048x128 .f32 :=
  (out2_C_3 c i arg2 harg2 arg3 harg3 arg4 harg4 arg5 harg5 arg6 harg6 hc0 hc1 x0 x1 x2 xs0, sout2_C_0 c i arg2 harg2 arg3 harg3 arg4 harg4 arg5 harg5 arg6 harg6 hc0 hc1 x0 x1 x2 xs0)

end

end

-- The output block and the accumulator after position n, by recursion on n: the residue mod 25 selects the case.
def outsAt2 (c : Dev nD) : (n : ℕ) → n < cfg2.N → Vec F S2048x128 .bf16 × Vec F S2048x128 .f32
  | 0, hn => pair2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 25 = 0 then
      if h1 : (n + 1) % 25 = 24 then
        False.elim (by omega)
      else
        pair2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩)
    else
      if h1 : (n + 1) % 25 = 24 then
        pair2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2
      else
        pair2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2

theorem outsAt2_A (c : Dev nD) (t : Fin cfg2.N) (h0 : t.val % 25 = 0) (h1 : ¬t.val % 25 = 24) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 25 = 0) (h1 : ¬t.val % 25 = 24) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 25 = 0) (h1 : t.val % 25 = 24) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 c) ∗ (∃ r, prngReg c r))

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 c) ∗ (∃ r, prngReg c r)) := by
  cases n with
  | zero => exact absurd rfl hz
  | succ n => rfl

-- At every position the invariant gives the accumulator at some contents.
theorem PhiS2_weak (c : Dev nD) (n : ℕ) (h : n ≤ cfg2.N) :
    PhiS2 V c n h ⊢ iprop(iprop((∃ d, owns (c : Thread nD τ) scM2_0 fullShare d) ∗ restBut2 c) ∗ (∃ r, prngReg c r)) := by
  by_cases hz : n = 0
  · subst hz; exact Entails.of_eq (PhiA2_eq c)
  · rw [PhiS2_pos V c n h hz]
    iintro ⟨⟨HS0, Hrest⟩, Hg⟩
    iframe Hrest Hg
    iexists _; iexact HS0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) : (dat2 V c).after 3 t = (outsAt2 V c t.val t.isLt).1 := rfl

set_option maxHeartbeats 4800000 in
-- The residue of the position mod 25 says which case the point is in; that case's run applies, between the invariant before and after.
theorem sound_body2 (c : Dev nD) (t : Fin cfg2.N) :
    iprop(PhiS2 V c t.val (Nat.le_of_lt t.isLt) ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
      ⊢ wp frame (wpE (defs₀ (F := F)) Variants.none c none) Set.univ (bodyAt2 t) (fun _ =>
        iprop(iprop(iprop(owns (c : Thread nD τ) scM2_0 fullShare (outsAt2 V c t.val t.isLt).2 ∗ restBut2 c) ∗ (∃ r, prngReg c r)) ∗ (dat2 V c).owesAt () t.castSucc
          ∗ owns (c : Thread nD τ) (ms2_0 t) fullShare (iblk2 V c 0 t)
          ∗ owns (c : Thread nD τ) (ms2_1 t) fullShare (iblk2 V c 1 t)
          ∗ owns (c : Thread nD τ) (ms2_2 t) fullShare (iblk2 V c 2 t)
          ∗ (dat2 V c).leavesExact 3 t)) := by
  unfold bodyAt2
  simp only [(before2_of V (dat2 V c)).1 rfl (after2_0 V c), (before2_of V (dat2 V c)).2.1 rfl (after2_1 V c), (before2_of V (dat2 V c)).2.2 rfl (after2_2 V c)]
  by_cases h0 : t.val % 25 = 0
  · have h1 : ¬t.val % 25 = 24 := by omega
    rw [Dat.leavesExact_idle (dat2 V c) 3 t (idleAt2_3 t fun h => h1 ((hcond2_1 t).mp h)) (noFlush2_3 t fun h => h1 ((hcond2_1 t).mp h)), outsAt2_A V c t h0 h1]
    unfold sout2_A_0; (try dsimp only)
    refine (sep_mono_left (PhiS2_weak V c _ _)).trans ?_
    iintro ⟨⟨⟨HS0, Hrest⟩, Hg⟩, Ho, ⟨%d0, H0⟩, ⟨%d1, H1⟩, ⟨%d2, H2⟩, ⟨%d3, H3⟩⟩
    iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    iframe Hrest Hg Ho H0 H1 H2
    isplitl [HS0]
    · unfold owns; iexists _; isplitr
      swap; · iexact HS0
      ipureintro; exact View.read_writes_of_cover _ _ _ _ _ (scover2_A_0 c _ _ _ _ _ _ _ _ _ _ _ _ _ _ _ _)
    iexists _; iexact H3
  · rw [PhiS2_pos V c _ _ fun hz => h0 (by rw [hz])]
    by_cases h1 : t.val % 25 = 24
    · rw [show (dat2 V c).leavesExact 3 t = owns (c : Thread nD τ) (ms2_3 t) fullShare ((dat2 V c).after 3 t) from by
        unfold Dat.leavesExact; rw [liveAt2_3 t ((hcond2_1 t).mpr h1)], after2_3, outsAt2_C V c t h0 h1]
      unfold out2_C_3 sout2_C_0; (try dsimp only)
      iintro ⟨⟨⟨HS0, Hrest⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      iframe Hrest Hg Ho H0 H1 H2
      isplitl [HS0]
      · unfold owns; iexists _; isplitr
        swap; · iexact HS0
        ipureintro; exact View.read_writes_of_cover _ _ _ _ _ (scover2_C_0 c _ _ _ _ _ _ _ _ _ _ _ _ _ _ _ _ _)
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t fun h => h1 ((hcond2_1 t).mp h)) (noFlush2_3 t fun h => h1 ((hcond2_1 t).mp h)), outsAt2_B V c t h0 h1]
      unfold sout2_B_0; (try dsimp only)
      iintro ⟨⟨⟨HS0, Hrest⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      iframe Hrest Hg Ho H0 H1 H2
      isplitl [HS0]
      · unfold owns; iexists _; isplitr
        swap; · iexact HS0
        ipureintro; exact View.read_writes_of_cover _ _ _ _ _ (scover2_B_0 c _ _ _ _ _ _ _ _ _ _ _ _ _ _ _ _ _)
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c :=
  (PhiS2_weak V c cfg2.N (Nat.le_refl _)).trans (Entails.of_eq (PhiA2_eq c).symm)

end Cert.KernelIdeal.Fr

end
-- ==== Proof.KI.R3.Runs.lean ====
import proofs.«404853_j60129542534_1_alg».proof.Proof.Gen.KernelIdeal.Launch
import proofs.«404853_j60129542534_1_alg».proof.Proof.Gen.KernelIdeal.Skeleton
import proofs.«404853_j60129542534_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_of {c : Dev nD} (dat : Dat τ (Elt F) Unit ℕ (UR sig nD τ) ℕ cfg3 c) :
    (dat.A 0 = V c (Pipeline.arrRef spec3 0) → (∀ t, dat.after 0 t = iblk3 V c 0 t) → ∀ t d, dat.before 0 t d = iblk3 V c 0 t)
      ∧ (dat.A 1 = V c (Pipeline.arrRef spec3 1) → (∀ t, dat.after 1 t = iblk3 V c 1 t) → ∀ t d, dat.before 1 t d = iblk3 V c 1 t)
      ∧ (dat.A 2 = V c (Pipeline.arrRef spec3 2) → (∀ t, dat.after 2 t = iblk3 V c 2 t) → ∀ t d, dat.before 2 t d = iblk3 V c 2 t)
      ∧ (dat.A 3 = V c (Pipeline.arrRef spec3 3) → (∀ t, dat.after 3 t = iblk3 V c 3 t) → ∀ t d, dat.before 3 t d = iblk3 V c 3 t)
      ∧ (dat.A 4 = V c (Pipeline.arrRef spec3 4) → (∀ t, dat.after 4 t = iblk3 V c 4 t) → ∀ t d, dat.before 4 t d = iblk3 V c 4 t) := by
  refine ⟨?_, ?_, ?_, ?_, ?_⟩ <;> intro hA hafter t d <;>
    exact (dat.before_in_eq_fetched _ rfl (fun _ => rfl) (fun _ _ _ => rfl) (fun t => by rw [hafter]; unfold Dat.blockOf iblk3; rw [hA]; try rfl) t d).trans
      (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 293 = 0 :=
  (by decide +kernel : ∀ t : Fin grid3.N, cond3_0 (grid3.coords t) ↔ t.val % 293 = 0)
abbrev cond3_1 (i : grid3.Coords) : Prop := k3_cond2 i = 1#1
theorem hcond3_1 : ∀ t : Fin cfg3.N, cond3_1 (grid3.coords t) ↔ t.val % 293 = 292 :=
  (by decide +kernel : ∀ t : Fin grid3.N, cond3_1 (grid3.coords t) ↔ t.val % 293 = 292)

theorem idleAt3_5 (t : Fin cfg3.N) (h : ¬cond3_1 (grid3.coords t)) : cfg3.idle 5 (grid3.coords t) = true := by
  show (!(k3_cond2 (grid3.coords t) == 1#1)) = true
  simp only [Bool.not_eq_true', beq_eq_false_iff_ne, ne_eq]; exact h
theorem noFlush3_5 (t : Fin cfg3.N) (h : ¬cond3_1 (grid3.coords t)) : (cfg3.win 5).flush t = false :=
  Bool.eq_false_iff.mpr fun hf => h ((hcond3_1 t).mpr ((flush3_5 t).mp hf))
theorem liveAt3_5 (t : Fin cfg3.N) (h : cond3_1 (grid3.coords t)) : cfg3.idle 5 (grid3.coords t) = false := by
  show (!(k3_cond2 (grid3.coords t) == 1#1)) = false
  simp only [Bool.not_eq_false', beq_iff_eq]; exact h

abbrev VO3_5 : View sig .tc .vmem S2048x128 .f32 := (Memref.whole cc3_stg5_0 : Memref sig .tc .vmem S2048x128 .f32).view
abbrev ms3_0 (t : Fin cfg3.N) : Memref sig .tc .vmem S1x2048 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2048x128 .f32 := win3_5.stage (cfg3.slots t 5)
abbrev hs3_5 (t : Fin cfg3.N) : (ms3_5 t).IsWhole := hstage3_5 ((cfg3.slots t 5).cast nbuf3_5)
abbrev scM3_0 : Memref sig .tc .vmem S2048x128 .f32 := Memref.whole cc3_scratch0
abbrev VS3_0 : View sig .tc .vmem S2048x128 .f32 := scM3_0.view

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns (c : Thread nD τ) scM3_0 fullShare d) ∗ restBut3 c) ∗ (∃ r, prngReg c r)) := by
  unfold Pipeline.ΦA; rw [scopedRest3_split]; simp only [scM3_0, owns_whole]; try rfl

end Cert.KernelIdeal.Fr

end
-- ==== Proof.KI.R3.RunA.lean ====
import proofs.«404853_j60129542534_1_alg».proof.Proof.KI.R3.Runs

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun3_A (c : Dev nD) (i : grid3.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole)
    (arg7 : Memref sig .tc .vmem S2048x128 .f32) (harg7 : arg7.IsWhole)
    (arg8 : Memref sig .tc .vmem S2048x128 .f32) (harg8 : arg8.IsWhole) (hc0 : cond3_0 i) (hc1 : ¬cond3_1 i)
    (x0 : Vec F S1x2048 .i32) (x1 : Vec F S2048x128 .bf16) (x2 : Vec F S2048x1 .f32) (x3 : Vec F S128x128 .f32) (x4 : Vec F S1x128 .f32) :
    Σ' (L5 : List (View.Piece (Elt F) S2048x128 .f32)),
      { LS0 : List (View.Piece (Elt F) S2048x128 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc3_body i arg2 harg2 arg3 harg3 arg4 harg4 arg5 harg5 arg6 harg6 arg7 harg7 arg8 harg8) K } := by
  refine ⟨[], ?_, fun xi5 E K => ?run⟩
  case run =>
    simp only [cc3_body_eq_skeleton]; unfold cc3_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.R3.RunB.lean ====
import proofs.«404853_j60129542534_1_alg».proof.Proof.KI.R3.RunA

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun3_B (c : Dev nD) (i : grid3.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole)
    (arg7 : Memref sig .tc .vmem S2048x128 .f32) (harg7 : arg7.IsWhole)
    (arg8 : Memref sig .tc .vmem S2048x128 .f32) (harg8 : arg8.IsWhole) (hc0 : ¬cond3_0 i) (hc1 : ¬cond3_1 i)
    (x0 : Vec F S1x2048 .i32) (x1 : Vec F S2048x128 .bf16) (x2 : Vec F S2048x1 .f32) (x3 : Vec F S128x128 .f32) (x4 : Vec F S1x128 .f32) (xs0 : Vec F S2048x128 .f32) :
    Σ' (L5 : List (View.Piece (Elt F) S2048x128 .f32)),
      { LS0 : List (View.Piece (Elt F) S2048x128 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc3_body i arg2 harg2 arg3 harg3 arg4 harg4 arg5 harg5 arg6 harg6 arg7 harg7 arg8 harg8) K } := by
  refine ⟨[], ?_, fun xi5 E K => ?run⟩
  case run =>
    simp only [cc3_body_eq_skeleton]; unfold cc3_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.R3.RunC.lean ====
import proofs.«404853_j60129542534_1_alg».proof.Proof.KI.R3.RunB

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun3_C (c : Dev nD) (i : grid3.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole)
    (arg7 : Memref sig .tc .vmem S2048x128 .f32) (harg7 : arg7.IsWhole)
    (arg8 : Memref sig .tc .vmem S2048x128 .f32) (harg8 : arg8.IsWhole) (hc0 : ¬cond3_0 i) (hc1 : cond3_1 i)
    (x0 : Vec F S1x2048 .i32) (x1 : Vec F S2048x128 .bf16) (x2 : Vec F S2048x1 .f32) (x3 : Vec F S128x128 .f32) (x4 : Vec F S1x128 .f32) (xs0 : Vec F S2048x128 .f32) :
    Σ' (L5 : List (View.Piece (Elt F) S2048x128 .f32)),
      { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc3_body i arg2 harg2 arg3 harg3 arg4 harg4 arg5 harg5 arg6 harg6 arg7 harg7 arg8 harg8) K } := by
  refine ⟨?_, ?_, fun E K => ?run⟩
  case run =>
    simp only [cc3_body_eq_skeleton]; unfold cc3_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fr

end
-- ==== Proof.KI.R3.Region.lean ====
import proofs.«404853_j60129542534_1_alg».proof.Proof.KI.R3.RunC

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid3.Coords) (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole)

section
variable (hc0 : cond3_0 i) (hc1 : ¬cond3_1 i) (x0 : Vec F S1x2048 .i32) (x1 : Vec F S2048x128 .bf16) (x2 : Vec F S2048x1 .f32) (x3 : Vec F S128x128 .f32) (x4 : Vec F S1x128 .f32)

def out3_A_5 : Vec F S2048x128 .f32 :=
  VO3_5.read (Elt F) (VO3_5.writes (Elt F) VO3_5.junk (kernelRun3_A c i arg2 harg2 arg3 harg3 arg4 harg4 arg5 harg5 arg6 harg6 arg7 harg7 arg8 harg8 hc0 hc1 x0 x1 x2 x3 x4).1)

theorem scover3_A_0 (y : S2048x128.Idx) : ∃ pc ∈ (kernelRun3_A c i arg2 harg2 arg3 harg3 arg4 harg4 arg5 harg5 arg6 harg6 arg7 harg7 arg8 harg8 hc0 hc1 x0 x1 x2 x3 x4).2.1, y ∈ pc.1.set :=
  View.cover_of_tiledL _ S2048x128.size (by sl_kernel_rfl) y

def sout3_A_0 : Vec F S2048x128 .f32 :=
  VS3_0.read (Elt F) (VS3_0.writes (Elt F) VS3_0.junk (kernelRun3_A c i arg2 harg2 arg3 harg3 arg4 harg4 arg5 harg5 arg6 harg6 arg7 harg7 arg8 harg8 hc0 hc1 x0 x1 x2 x3 x4).2.1)

def pair3_A : Vec F S2048x128 .f32 × Vec F S2048x128 .f32 :=
  (out3_A_5 c i arg2 harg2 arg3 harg3 arg4 harg4 arg5 harg5 arg6 harg6 arg7 harg7 arg8 harg8 hc0 hc1 x0 x1 x2 x3 x4, sout3_A_0 c i arg2 harg2 arg3 harg3 arg4 harg4 arg5 harg5 arg6 harg6 arg7 harg7 arg8 harg8 hc0 hc1 x0 x1 x2 x3 x4)

end

section
variable (hc0 : ¬cond3_0 i) (hc1 : ¬cond3_1 i) (x0 : Vec F S1x2048 .i32) (x1 : Vec F S2048x128 .bf16) (x2 : Vec F S2048x1 .f32) (x3 : Vec F S128x128 .f32) (x4 : Vec F S1x128 .f32) (xs0 : Vec F S2048x128 .f32)

def out3_B_5 : Vec F S2048x128 .f32 :=
  VO3_5.read (Elt F) (VO3_5.writes (Elt F) VO3_5.junk (kernelRun3_B c i arg2 harg2 arg3 harg3 arg4 harg4 arg5 harg5 arg6 harg6 arg7 harg7 arg8 harg8 hc0 hc1 x0 x1 x2 x3 x4 xs0).1)

theorem scover3_B_0 (y : S2048x128.Idx) : ∃ pc ∈ (kernelRun3_B c i arg2 harg2 arg3 harg3 arg4 harg4 arg5 harg5 arg6 harg6 arg7 harg7 arg8 harg8 hc0 hc1 x0 x1 x2 x3 x4 xs0).2.1, y ∈ pc.1.set :=
  View.cover_of_tiledL _ S2048x128.size (by sl_kernel_rfl) y

def sout3_B_0 : Vec F S2048x128 .f32 :=
  VS3_0.read (Elt F) (VS3_0.writes (Elt F) VS3_0.junk (kernelRun3_B c i arg2 harg2 arg3 harg3 arg4 harg4 arg5 harg5 arg6 harg6 arg7 harg7 arg8 harg8 hc0 hc1 x0 x1 x2 x3 x4 xs0).2.1)

def pair3_B : Vec F S2048x128 .f32 × Vec F S2048x128 .f32 :=
  (out3_B_5 c i arg2 harg2 arg3 harg3 arg4 harg4 arg5 harg5 arg6 harg6 arg7 harg7 arg8 harg8 hc0 hc1 x0 x1 x2 x3 x4 xs0, sout3_B_0 c i arg2 harg2 arg3 harg3 arg4 harg4 arg5 harg5 arg6 harg6 arg7 harg7 arg8 harg8 hc0 hc1 x0 x1 x2 x3 x4 xs0)

end

section
variable (hc0 : ¬cond3_0 i) (hc1 : cond3_1 i) (x0 : Vec F S1x2048 .i32) (x1 : Vec F S2048x128 .bf16) (x2 : Vec F S2048x1 .f32) (x3 : Vec F S128x128 .f32) (x4 : Vec F S1x128 .f32) (xs0 : Vec F S2048x128 .f32)

theorem cover3_C_5 (y : S2048x128.Idx) : ∃ pc ∈ (kernelRun3_C c i arg2 harg2 arg3 harg3 arg4 harg4 arg5 harg5 arg6 harg6 arg7 harg7 arg8 harg8 hc0 hc1 x0 x1 x2 x3 x4 xs0).1, y ∈ pc.1.set :=
  View.cover_of_tiledL _ S2048x128.size (by sl_kernel_rfl) y

def out3_C_5 : Vec F S2048x128 .f32 :=
  VO3_5.read (Elt F) (VO3_5.writes (Elt F) VO3_5.junk (kernelRun3_C c i arg2 harg2 arg3 harg3 arg4 harg4 arg5 harg5 arg6 harg6 arg7 harg7 arg8 harg8 hc0 hc1 x0 x1 x2 x3 x4 xs0).1)

theorem scover3_C_0 (y : S2048x128.Idx) : ∃ pc ∈ (kernelRun3_C c i arg2 harg2 arg3 harg3 arg4 harg4 arg5 harg5 arg6 harg6 arg7 harg7 arg8 harg8 hc0 hc1 x0 x1 x2 x3 x4 xs0).2.1, y ∈ pc.1.set :=
  View.cover_of_tiledL _ S2048x128.size (by sl_kernel_rfl) y

def sout3_C_0 : Vec F S2048x128 .f32 :=
  VS3_0.read (Elt F) (VS3_0.writes (Elt F) VS3_0.junk (kernelRun3_C c i arg2 harg2 arg3 harg3 arg4 harg4 arg5 harg5 arg6 harg6 arg7 harg7 arg8 harg8 hc0 hc1 x0 x1 x2 x3 x4 xs0).2.1)

def pair3_C : Vec F S2048x128 .f32 × Vec F S2048x128 .f32 :=
  (out3_C_5 c i arg2 harg2 arg3 harg3 arg4 harg4 arg5 harg5 arg6 harg6 arg7 harg7 arg8 harg8 hc0 hc1 x0 x1 x2 x3 x4 xs0, sout3_C_0 c i arg2 harg2 arg3 harg3 arg4 harg4 arg5 harg5 arg6 harg6 arg7 harg7 arg8 harg8 hc0 hc1 x0 x1 x2 x3 x4 xs0)

end

end

-- The output block and the accumulator after position n, by recursion on n: the residue mod 293 selects the case.
def outsAt3 (c : Dev nD) : (n : ℕ) → n < cfg3.N → Vec F S2048x128 .f32 × Vec F S2048x128 .f32
  | 0, hn => pair3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩)
  | n + 1, hn =>
    if h0 : (n + 1) % 293 = 0 then
      if h1 : (n + 1) % 293 = 292 then
        False.elim (by omega)
      else
        pair3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)
    else
      if h1 : (n + 1) % 293 = 292 then
        pair3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2
      else
        pair3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2

theorem outsAt3_A (c : Dev nD) (t : Fin cfg3.N) (h0 : t.val % 293 = 0) (h1 : ¬t.val % 293 = 292) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t)) := by
  obtain ⟨n, hn⟩ := t
  cases n with
  | zero => exact rfl
  | succ n => exact (dif_pos h0).trans ((dif_neg h1).trans rfl)

theorem outsAt3_B (c : Dev nD) (t : Fin cfg3.N) (h0 : ¬t.val % 293 = 0) (h1 : ¬t.val % 293 = 292) :
    outsAt3 V c t.val t.isLt = (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 293 = 0) (h1 : t.val % 293 = 292) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ restBut3 c) ∗ (∃ r, prngReg c r))

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ restBut3 c) ∗ (∃ r, prngReg c r)) := by
  cases n with
  | zero => exact absurd rfl hz
  | succ n => rfl

-- At every position the invariant gives the accumulator at some contents.
theorem PhiS3_weak (c : Dev nD) (n : ℕ) (h : n ≤ cfg3.N) :
    PhiS3 V c n h ⊢ iprop(iprop((∃ d, owns (c : Thread nD τ) scM3_0 fullShare d) ∗ restBut3 c) ∗ (∃ r, prngReg c r)) := by
  by_cases hz : n = 0
  · subst hz; exact Entails.of_eq (PhiA3_eq c)
  · rw [PhiS3_pos V c n h hz]
    iintro ⟨⟨HS0, Hrest⟩, Hg⟩
    iframe Hrest Hg
    iexists _; iexact HS0

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = iblk3 V c 2 t := rfl
theorem after3_3 (c : Dev nD) (t : Fin cfg3.N) : (dat3 V c).after 3 t = iblk3 V c 3 t := rfl
theorem after3_4 (c : Dev nD) (t : Fin cfg3.N) : (dat3 V c).after 4 t = iblk3 V c 4 t := rfl
theorem after3_5 (c : Dev nD) (t : Fin cfg3.N) : (dat3 V c).after 5 t = (outsAt3 V c t.val t.isLt).1 := rfl

set_option maxHeartbeats 4800000 in
-- The residue of the position mod 293 says which case the point is in; that case's run applies, between the invariant before and after.
theorem sound_body3 (c : Dev nD) (t : Fin cfg3.N) :
    iprop(PhiS3 V c t.val (Nat.le_of_lt t.isLt) ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d))
      ∗ (∃ d, owns (c : Thread nD τ) (ms3_3 t) fullShare ((dat3 V c).before 3 t d))
      ∗ (∃ d, owns (c : Thread nD τ) (ms3_4 t) fullShare ((dat3 V c).before 4 t d))
      ∗ (∃ d, owns (c : Thread nD τ) (ms3_5 t) fullShare ((dat3 V c).before 5 t d)))
      ⊢ wp frame (wpE (defs₀ (F := F)) Variants.none c none) Set.univ (bodyAt3 t) (fun _ =>
        iprop(iprop(iprop(owns (c : Thread nD τ) scM3_0 fullShare (outsAt3 V c t.val t.isLt).2 ∗ restBut3 c) ∗ (∃ r, prngReg c r)) ∗ (dat3 V c).owesAt () t.castSucc
          ∗ owns (c : Thread nD τ) (ms3_0 t) fullShare (iblk3 V c 0 t)
          ∗ owns (c : Thread nD τ) (ms3_1 t) fullShare (iblk3 V c 1 t)
          ∗ owns (c : Thread nD τ) (ms3_2 t) fullShare (iblk3 V c 2 t)
          ∗ owns (c : Thread nD τ) (ms3_3 t) fullShare (iblk3 V c 3 t)
          ∗ owns (c : Thread nD τ) (ms3_4 t) fullShare (iblk3 V c 4 t)
          ∗ (dat3 V c).leavesExact 5 t)) := by
  unfold bodyAt3
  simp only [(before3_of V (dat3 V c)).1 rfl (after3_0 V c), (before3_of V (dat3 V c)).2.1 rfl (after3_1 V c), (before3_of V (dat3 V c)).2.2.1 rfl (after3_2 V c), (before3_of V (dat3 V c)).2.2.2.1 rfl (after3_3 V c), (before3_of V (dat3 V c)).2.2.2.2 rfl (after3_4 V c)]
  by_cases h0 : t.val % 293 = 0
  · have h1 : ¬t.val % 293 = 292 := by omega
    rw [Dat.leavesExact_idle (dat3 V c) 5 t (idleAt3_5 t fun h => h1 ((hcond3_1 t).mp h)) (noFlush3_5 t fun h => h1 ((hcond3_1 t).mp h)), outsAt3_A V c t h0 h1]
    unfold sout3_A_0; (try dsimp only)
    refine (sep_mono_left (PhiS3_weak V c _ _)).trans ?_
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    iframe Hrest Hg Ho H0 H1 H2 H3 H4
    isplitl [HS0]
    · unfold owns; iexists _; isplitr
      swap; · iexact HS0
      ipureintro; exact View.read_writes_of_cover _ _ _ _ _ (scover3_A_0 c _ _ _ _ _ _ _ _ _ _ _ _ _ _ _ _ _ _ _ _ _ _)
    iexists _; iexact H5
  · rw [PhiS3_pos V c _ _ fun hz => h0 (by rw [hz])]
    by_cases h1 : t.val % 293 = 292
    · rw [show (dat3 V c).leavesExact 5 t = owns (c : Thread nD τ) (ms3_5 t) fullShare ((dat3 V c).after 5 t) from by
        unfold Dat.leavesExact; rw [liveAt3_5 t ((hcond3_1 t).mpr h1)], after3_5, outsAt3_C V c t h0 h1]
      unfold out3_C_5 sout3_C_0; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      iframe Hrest Hg Ho H0 H1 H2 H3 H4
      isplitl [HS0]
      · unfold owns; iexists _; isplitr
        swap; · iexact HS0
        ipureintro; exact View.read_writes_of_cover _ _ _ _ _ (scover3_C_0 c _ _ _ _ _ _ _ _ _ _ _ _ _ _ _ _ _ _ _ _ _ _ _)
      unfold owns; iexists _; isplitr
      swap; · iexact H5
      ipureintro; exact View.read_writes_of_cover _ _ _ _ _ (cover3_C_5 c _ _ _ _ _ _ _ _ _ _ _ _ _ _ _ _ _ _ _ _ _ _ _)
    · rw [Dat.leavesExact_idle (dat3 V c) 5 t (idleAt3_5 t fun h => h1 ((hcond3_1 t).mp h)) (noFlush3_5 t fun h => h1 ((hcond3_1 t).mp h)), outsAt3_B V c t h0 h1]
      unfold sout3_B_0; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      iframe Hrest Hg Ho H0 H1 H2 H3 H4
      isplitl [HS0]
      · unfold owns; iexists _; isplitr
        swap; · iexact HS0
        ipureintro; exact View.read_writes_of_cover _ _ _ _ _ (scover3_B_0 c _ _ _ _ _ _ _ _ _ _ _ _ _ _ _ _ _ _ _ _ _ _ _)
      iexists _; iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c :=
  (PhiS3_weak V c cfg3.N (Nat.le_refl _)).trans (Entails.of_eq (PhiA3_eq c).symm)

end Cert.KernelIdeal.Fr

end
-- ==== Proof.KI.R4.Runs.lean ====
import proofs.«404853_j60129542534_1_alg».proof.Proof.Gen.KernelIdeal.Launch
import proofs.«404853_j60129542534_1_alg».proof.Proof.Gen.KernelIdeal.Skeleton
import proofs.«404853_j60129542534_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_of {c : Dev nD} (dat : Dat τ (Elt F) Unit ℕ (UR sig nD τ) ℕ cfg4 c) :
    (dat.A 0 = V c (Pipeline.arrRef spec4 0) → (∀ t, dat.after 0 t = iblk4 V c 0 t) → ∀ t d, dat.before 0 t d = iblk4 V c 0 t)
      ∧ (dat.A 1 = V c (Pipeline.arrRef spec4 1) → (∀ t, dat.after 1 t = iblk4 V c 1 t) → ∀ t d, dat.before 1 t d = iblk4 V c 1 t)
      ∧ (dat.A 2 = V c (Pipeline.arrRef spec4 2) → (∀ t, dat.after 2 t = iblk4 V c 2 t) → ∀ t d, dat.before 2 t d = iblk4 V c 2 t) := by
  refine ⟨?_, ?_, ?_⟩ <;> intro hA hafter t d <;>
    exact (dat.before_in_eq_fetched _ rfl (fun _ => rfl) (fun _ _ _ => rfl) (fun t => by rw [hafter]; unfold Dat.blockOf iblk4; rw [hA]; try rfl) t d).trans
      (by unfold Dat.fetched Dat.blockOf iblk4; rw [hA]; try rfl)

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 25 = 0 :=
  (by decide +kernel : ∀ t : Fin grid4.N, cond4_0 (grid4.coords t) ↔ t.val % 25 = 0)
abbrev cond4_1 (i : grid4.Coords) : Prop := k4_cond2 i = 1#1
theorem hcond4_1 : ∀ t : Fin cfg4.N, cond4_1 (grid4.coords t) ↔ t.val % 25 = 24 :=
  (by decide +kernel : ∀ t : Fin grid4.N, cond4_1 (grid4.coords t) ↔ t.val % 25 = 24)

theorem idleAt4_3 (t : Fin cfg4.N) (h : ¬cond4_1 (grid4.coords t)) : cfg4.idle 3 (grid4.coords t) = true := by
  show (!(k4_cond2 (grid4.coords t) == 1#1)) = true
  simp only [Bool.not_eq_true', beq_eq_false_iff_ne, ne_eq]; exact h
theorem noFlush4_3 (t : Fin cfg4.N) (h : ¬cond4_1 (grid4.coords t)) : (cfg4.win 3).flush t = false :=
  Bool.eq_false_iff.mpr fun hf => h ((hcond4_1 t).mpr ((flush4_3 t).mp hf))
theorem liveAt4_3 (t : Fin cfg4.N) (h : cond4_1 (grid4.coords t)) : cfg4.idle 3 (grid4.coords t) = false := by
  show (!(k4_cond2 (grid4.coords t) == 1#1)) = false
  simp only [Bool.not_eq_false', beq_iff_eq]; exact h

abbrev VO4_3 : View sig .tc .vmem S2048x128 .bf16 := (Memref.whole cc4_stg3_0 : Memref sig .tc .vmem S2048x128 .bf16).view
abbrev ms4_0 (t : Fin cfg4.N) : Memref sig .tc .vmem S2048x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x128 .bf16 := win4_3.stage (cfg4.slots t 3)
abbrev hs4_3 (t : Fin cfg4.N) : (ms4_3 t).IsWhole := hstage4_3 ((cfg4.slots t 3).cast nbuf4_3)
abbrev scM4_0 : Memref sig .tc .vmem S2048x128 .f32 := Memref.whole cc4_scratch0
abbrev VS4_0 : View sig .tc .vmem S2048x128 .f32 := scM4_0.view

abbrev restBut4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop((∃ d, owns (c : Thread nD τ) scM4_0 fullShare d) ∗ restBut4 c) ∗ (∃ r, prngReg c r)) := by
  unfold Pipeline.ΦA; rw [scopedRest4_split]; simp only [scM4_0, owns_whole]; try rfl

end Cert.KernelIdeal.Fr

end
-- ==== Proof.KI.R4.RunA.lean ====
import proofs.«404853_j60129542534_1_alg».proof.Proof.KI.R4.Runs

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun4_A (c : Dev nD) (i : grid4.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : cond4_0 i) (hc1 : ¬cond4_1 i)
    (x0 : Vec F S2048x1 .i32) (x1 : Vec F S2048x128 .f32) (x2 : Vec F S2048x1 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__kernelA_body i arg2 harg2 arg3 harg3 arg4 harg4 arg5 harg5 arg6 harg6) K } := by
  refine ⟨[], ?_, fun xi3 E K => ?run⟩
  case run =>
    simp only [cc4__kernelA_body_eq_skeleton]; unfold cc4__kernelA_body_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R4.RunB.lean ====
import proofs.«404853_j60129542534_1_alg».proof.Proof.KI.R4.RunA

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun4_B (c : Dev nD) (i : grid4.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : ¬cond4_0 i) (hc1 : ¬cond4_1 i)
    (x0 : Vec F S2048x1 .i32) (x1 : Vec F S2048x128 .f32) (x2 : Vec F S2048x1 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__kernelA_body i arg2 harg2 arg3 harg3 arg4 harg4 arg5 harg5 arg6 harg6) K } := by
  refine ⟨[], ?_, fun xi3 E K => ?run⟩
  case run =>
    simp only [cc4__kernelA_body_eq_skeleton]; unfold cc4__kernelA_body_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R4.RunC.lean ====
import proofs.«404853_j60129542534_1_alg».proof.Proof.KI.R4.RunB

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun4_C (c : Dev nD) (i : grid4.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole) (hc0 : ¬cond4_0 i) (hc1 : cond4_1 i)
    (x0 : Vec F S2048x1 .i32) (x1 : Vec F S2048x128 .f32) (x2 : Vec F S2048x1 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__kernelA_body i arg2 harg2 arg3 harg3 arg4 harg4 arg5 harg5 arg6 harg6) K } := by
  refine ⟨?_, ?_, fun E K => ?run⟩
  case run =>
    simp only [cc4__kernelA_body_eq_skeleton]; unfold cc4__kernelA_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.R4.Region.lean ====
import proofs.«404853_j60129542534_1_alg».proof.Proof.KI.R4.RunC

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid4.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole)

section
variable (hc0 : cond4_0 i) (hc1 : ¬cond4_1 i) (x0 : Vec F S2048x1 .i32) (x1 : Vec F S2048x128 .f32) (x2 : Vec F S2048x1 .f32)

def out4_A_3 : Vec F S2048x128 .bf16 :=
  VO4_3.read (Elt F) (VO4_3.writes (Elt F) VO4_3.junk (kernelRun4_A c i arg2 harg2 arg3 harg3 arg4 harg4 arg5 harg5 arg6 harg6 hc0 hc1 x0 x1 x2).1)

theorem scover4_A_0 (y : S2048x128.Idx) : ∃ pc ∈ (kernelRun4_A c i arg2 harg2 arg3 harg3 arg4 harg4 arg5 harg5 arg6 harg6 hc0 hc1 x0 x1 x2).2.1, y ∈ pc.1.set :=
  View.cover_of_tiledL _ S2048x128.size (by sl_kernel_rfl) y

def sout4_A_0 : Vec F S2048x128 .f32 :=
  VS4_0.read (Elt F) (VS4_0.writes (Elt F) VS4_0.junk (kernelRun4_A c i arg2 harg2 arg3 harg3 arg4 harg4 arg5 harg5 arg6 harg6 hc0 hc1 x0 x1 x2).2.1)

def pair4_A : Vec F S2048x128 .bf16 × Vec F S2048x128 .f32 :=
  (out4_A_3 c i arg2 harg2 arg3 harg3 arg4 harg4 arg5 harg5 arg6 harg6 hc0 hc1 x0 x1 x2, sout4_A_0 c i arg2 harg2 arg3 harg3 arg4 harg4 arg5 harg5 arg6 harg6 hc0 hc1 x0 x1 x2)

end

section
variable (hc0 : ¬cond4_0 i) (hc1 : ¬cond4_1 i) (x0 : Vec F S2048x1 .i32) (x1 : Vec F S2048x128 .f32) (x2 : Vec F S2048x1 .f32) (xs0 : Vec F S2048x128 .f32)

def out4_B_3 : Vec F S2048x128 .bf16 :=
  VO4_3.read (Elt F) (VO4_3.writes (Elt F) VO4_3.junk (kernelRun4_B c i arg2 harg2 arg3 harg3 arg4 harg4 arg5 harg5 arg6 harg6 hc0 hc1 x0 x1 x2 xs0).1)

theorem scover4_B_0 (y : S2048x128.Idx) : ∃ pc ∈ (kernelRun4_B c i arg2 harg2 arg3 harg3 arg4 harg4 arg5 harg5 arg6 harg6 hc0 hc1 x0 x1 x2 xs0).2.1, y ∈ pc.1.set :=
  View.cover_of_tiledL _ S2048x128.size (by sl_kernel_rfl) y

def sout4_B_0 : Vec F S2048x128 .f32 :=
  VS4_0.read (Elt F) (VS4_0.writes (Elt F) VS4_0.junk (kernelRun4_B c i arg2 harg2 arg3 harg3 arg4 harg4 arg5 harg5 arg6 harg6 hc0 hc1 x0 x1 x2 xs0).2.1)

def pair4_B : Vec F S2048x128 .bf16 × Vec F S2048x128 .f32 :=
  (out4_B_3 c i arg2 harg2 arg3 harg3 arg4 harg4 arg5 harg5 arg6 harg6 hc0 hc1 x0 x1 x2 xs0, sout4_B_0 c i arg2 harg2 arg3 harg3 arg4 harg4 arg5 harg5 arg6 harg6 hc0 hc1 x0 x1 x2 xs0)

end

section
variable (hc0 : ¬cond4_0 i) (hc1 : cond4_1 i) (x0 : Vec F S2048x1 .i32) (x1 : Vec F S2048x128 .f32) (x2 : Vec F S2048x1 .f32) (xs0 : Vec F S2048x128 .f32)

theorem cover4_C_3 (y : S2048x128.Idx) : ∃ pc ∈ (kernelRun4_C c i arg2 harg2 arg3 harg3 arg4 harg4 arg5 harg5 arg6 harg6 hc0 hc1 x0 x1 x2 xs0).1, y ∈ pc.1.set :=
  View.cover_of_tiledL _ S2048x128.size (by sl_kernel_rfl) y

def out4_C_3 : Vec F S2048x128 .bf16 :=
  VO4_3.read (Elt F) (VO4_3.writes (Elt F) VO4_3.junk (kernelRun4_C c i arg2 harg2 arg3 harg3 arg4 harg4 arg5 harg5 arg6 harg6 hc0 hc1 x0 x1 x2 xs0).1)

theorem scover4_C_0 (y : S2048x128.Idx) : ∃ pc ∈ (kernelRun4_C c i arg2 harg2 arg3 harg3 arg4 harg4 arg5 harg5 arg6 harg6 hc0 hc1 x0 x1 x2 xs0).2.1, y ∈ pc.1.set :=
  View.cover_of_tiledL _ S2048x128.size (by sl_kernel_rfl) y

def sout4_C_0 : Vec F S2048x128 .f32 :=
  VS4_0.read (Elt F) (VS4_0.writes (Elt F) VS4_0.junk (kernelRun4_C c i arg2 harg2 arg3 harg3 arg4 harg4 arg5 harg5 arg6 harg6 hc0 hc1 x0 x1 x2 xs0).2.1)

def pair4_C : Vec F S2048x128 .bf16 × Vec F S2048x128 .f32 :=
  (out4_C_3 c i arg2 harg2 arg3 harg3 arg4 harg4 arg5 harg5 arg6 harg6 hc0 hc1 x0 x1 x2 xs0, sout4_C_0 c i arg2 harg2 arg3 harg3 arg4 harg4 arg5 harg5 arg6 harg6 hc0 hc1 x0 x1 x2 xs0)

end

end

-- The output block and the accumulator after position n, by recursion on n: the residue mod 25 selects the case.
def outsAt4 (c : Dev nD) : (n : ℕ) → n < cfg4.N → Vec F S2048x128 .bf16 × Vec F S2048x128 .f32
  | 0, hn => pair4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩)
  | n + 1, hn =>
    if h0 : (n + 1) % 25 = 0 then
      if h1 : (n + 1) % 25 = 24 then
        False.elim (by omega)
      else
        pair4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩)
    else
      if h1 : (n + 1) % 25 = 24 then
        pair4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2
      else
        pair4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2

theorem outsAt4_A (c : Dev nD) (t : Fin cfg4.N) (h0 : t.val % 25 = 0) (h1 : ¬t.val % 25 = 24) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 25 = 0) (h1 : ¬t.val % 25 = 24) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt4_C (c : Dev nD) (t : Fin cfg4.N) (h0 : ¬t.val % 25 = 0) (h1 : t.val % 25 = 24) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ restBut4 c) ∗ (∃ r, prngReg c r))

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ restBut4 c) ∗ (∃ r, prngReg c r)) := by
  cases n with
  | zero => exact absurd rfl hz
  | succ n => rfl

-- At every position the invariant gives the accumulator at some contents.
theorem PhiS4_weak (c : Dev nD) (n : ℕ) (h : n ≤ cfg4.N) :
    PhiS4 V c n h ⊢ iprop(iprop((∃ d, owns (c : Thread nD τ) scM4_0 fullShare d) ∗ restBut4 c) ∗ (∃ r, prngReg c r)) := by
  by_cases hz : n = 0
  · subst hz; exact Entails.of_eq (PhiA4_eq c)
  · rw [PhiS4_pos V c n h hz]
    iintro ⟨⟨HS0, Hrest⟩, Hg⟩
    iframe Hrest Hg
    iexists _; iexact HS0

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = iblk4 V c 2 t := rfl
theorem after4_3 (c : Dev nD) (t : Fin cfg4.N) : (dat4 V c).after 3 t = (outsAt4 V c t.val t.isLt).1 := rfl

set_option maxHeartbeats 4800000 in
-- The residue of the position mod 25 says which case the point is in; that case's run applies, between the invariant before and after.
theorem sound_body4 (c : Dev nD) (t : Fin cfg4.N) :
    iprop(PhiS4 V c t.val (Nat.le_of_lt t.isLt) ∗ (dat4 V c).owesAt () t.castSucc
      ∗ (∃ d, owns (c : Thread nD τ) (ms4_0 t) fullShare ((dat4 V c).before 0 t d))
      ∗ (∃ d, owns (c : Thread nD τ) (ms4_1 t) fullShare ((dat4 V c).before 1 t d))
      ∗ (∃ d, owns (c : Thread nD τ) (ms4_2 t) fullShare ((dat4 V c).before 2 t d))
      ∗ (∃ d, owns (c : Thread nD τ) (ms4_3 t) fullShare ((dat4 V c).before 3 t d)))
      ⊢ wp frame (wpE (defs₀ (F := F)) Variants.none c none) Set.univ (bodyAt4 t) (fun _ =>
        iprop(iprop(iprop(owns (c : Thread nD τ) scM4_0 fullShare (outsAt4 V c t.val t.isLt).2 ∗ restBut4 c) ∗ (∃ r, prngReg c r)) ∗ (dat4 V c).owesAt () t.castSucc
          ∗ owns (c : Thread nD τ) (ms4_0 t) fullShare (iblk4 V c 0 t)
          ∗ owns (c : Thread nD τ) (ms4_1 t) fullShare (iblk4 V c 1 t)
          ∗ owns (c : Thread nD τ) (ms4_2 t) fullShare (iblk4 V c 2 t)
          ∗ (dat4 V c).leavesExact 3 t)) := by
  unfold bodyAt4
  simp only [(before4_of V (dat4 V c)).1 rfl (after4_0 V c), (before4_of V (dat4 V c)).2.1 rfl (after4_1 V c), (before4_of V (dat4 V c)).2.2 rfl (after4_2 V c)]
  by_cases h0 : t.val % 25 = 0
  · have h1 : ¬t.val % 25 = 24 := by omega
    rw [Dat.leavesExact_idle (dat4 V c) 3 t (idleAt4_3 t fun h => h1 ((hcond4_1 t).mp h)) (noFlush4_3 t fun h => h1 ((hcond4_1 t).mp h)), outsAt4_A V c t h0 h1]
    unfold sout4_A_0; (try dsimp only)
    refine (sep_mono_left (PhiS4_weak V c _ _)).trans ?_
    iintro ⟨⟨⟨HS0, Hrest⟩, Hg⟩, Ho, ⟨%d0, H0⟩, ⟨%d1, H1⟩, ⟨%d2, H2⟩, ⟨%d3, H3⟩⟩
    iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    iframe Hrest Hg Ho H0 H1 H2
    isplitl [HS0]
    · unfold owns; iexists _; isplitr
      swap; · iexact HS0
      ipureintro; exact View.read_writes_of_cover _ _ _ _ _ (scover4_A_0 c _ _ _ _ _ _ _ _ _ _ _ _ _ _ _ _)
    iexists _; iexact H3
  · rw [PhiS4_pos V c _ _ fun hz => h0 (by rw [hz])]
    by_cases h1 : t.val % 25 = 24
    · rw [show (dat4 V c).leavesExact 3 t = owns (c : Thread nD τ) (ms4_3 t) fullShare ((dat4 V c).after 3 t) from by
        unfold Dat.leavesExact; rw [liveAt4_3 t ((hcond4_1 t).mpr h1)], after4_3, outsAt4_C V c t h0 h1]
      unfold out4_C_3 sout4_C_0; (try dsimp only)
      iintro ⟨⟨⟨HS0, Hrest⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      iframe Hrest Hg Ho H0 H1 H2
      isplitl [HS0]
      · unfold owns; iexists _; isplitr
        swap; · iexact HS0
        ipureintro; exact View.read_writes_of_cover _ _ _ _ _ (scover4_C_0 c _ _ _ _ _ _ _ _ _ _ _ _ _ _ _ _ _)
      unfold owns; iexists _; isplitr
      swap; · iexact H3
      ipureintro; exact View.read_writes_of_cover _ _ _ _ _ (cover4_C_3 c _ _ _ _ _ _ _ _ _ _ _ _ _ _ _ _ _)
    · rw [Dat.leavesExact_idle (dat4 V c) 3 t (idleAt4_3 t fun h => h1 ((hcond4_1 t).mp h)) (noFlush4_3 t fun h => h1 ((hcond4_1 t).mp h)), outsAt4_B V c t h0 h1]
      unfold sout4_B_0; (try dsimp only)
      iintro ⟨⟨⟨HS0, Hrest⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      iframe Hrest Hg Ho H0 H1 H2
      isplitl [HS0]
      · unfold owns; iexists _; isplitr
        swap; · iexact HS0
        ipureintro; exact View.read_writes_of_cover _ _ _ _ _ (scover4_B_0 c _ _ _ _ _ _ _ _ _ _ _ _ _ _ _ _ _)
      iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem hout4 (c : Dev nD) : (dat4 V c).Φ (Fin.last cfg4.N) ⊢ Pipeline.ΦA spec4 c :=
  (PhiS4_weak V c cfg4.N (Nat.le_refl _)).trans (Entails.of_eq (PhiA4_eq c).symm)

end Cert.KernelIdeal.Fr

end
-- ==== Proof.KI.R5.Runs.lean ====
import proofs.«404853_j60129542534_1_alg».proof.Proof.Gen.KernelIdeal.Launch
import proofs.«404853_j60129542534_1_alg».proof.Proof.Gen.KernelIdeal.Skeleton
import proofs.«404853_j60129542534_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_of {c : Dev nD} (dat : Dat τ (Elt F) Unit ℕ (UR sig nD τ) ℕ cfg5 c) :
    (dat.A 0 = V c (Pipeline.arrRef spec5 0) → (∀ t, dat.after 0 t = iblk5 V c 0 t) → ∀ t d, dat.before 0 t d = iblk5 V c 0 t)
      ∧ (dat.A 1 = V c (Pipeline.arrRef spec5 1) → (∀ t, dat.after 1 t = iblk5 V c 1 t) → ∀ t d, dat.before 1 t d = iblk5 V c 1 t)
      ∧ (dat.A 2 = V c (Pipeline.arrRef spec5 2) → (∀ t, dat.after 2 t = iblk5 V c 2 t) → ∀ t d, dat.before 2 t d = iblk5 V c 2 t)
      ∧ (dat.A 3 = V c (Pipeline.arrRef spec5 3) → (∀ t, dat.after 3 t = iblk5 V c 3 t) → ∀ t d, dat.before 3 t d = iblk5 V c 3 t)
      ∧ (dat.A 4 = V c (Pipeline.arrRef spec5 4) → (∀ t, dat.after 4 t = iblk5 V c 4 t) → ∀ t d, dat.before 4 t d = iblk5 V c 4 t) := by
  refine ⟨?_, ?_, ?_, ?_, ?_⟩ <;> intro hA hafter t d <;>
    exact (dat.before_in_eq_fetched _ rfl (fun _ => rfl) (fun _ _ _ => rfl) (fun t => by rw [hafter]; unfold Dat.blockOf iblk5; rw [hA]; try rfl) t d).trans
      (by unfold Dat.fetched Dat.blockOf iblk5; rw [hA]; try rfl)

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 293 = 0 :=
  (by decide +kernel : ∀ t : Fin grid5.N, cond5_0 (grid5.coords t) ↔ t.val % 293 = 0)
abbrev cond5_1 (i : grid5.Coords) : Prop := k5_cond2 i = 1#1
theorem hcond5_1 : ∀ t : Fin cfg5.N, cond5_1 (grid5.coords t) ↔ t.val % 293 = 292 :=
  (by decide +kernel : ∀ t : Fin grid5.N, cond5_1 (grid5.coords t) ↔ t.val % 293 = 292)

theorem idleAt5_5 (t : Fin cfg5.N) (h : ¬cond5_1 (grid5.coords t)) : cfg5.idle 5 (grid5.coords t) = true := by
  show (!(k5_cond2 (grid5.coords t) == 1#1)) = true
  simp only [Bool.not_eq_true', beq_eq_false_iff_ne, ne_eq]; exact h
theorem noFlush5_5 (t : Fin cfg5.N) (h : ¬cond5_1 (grid5.coords t)) : (cfg5.win 5).flush t = false :=
  Bool.eq_false_iff.mpr fun hf => h ((hcond5_1 t).mpr ((flush5_5 t).mp hf))
theorem liveAt5_5 (t : Fin cfg5.N) (h : cond5_1 (grid5.coords t)) : cfg5.idle 5 (grid5.coords t) = false := by
  show (!(k5_cond2 (grid5.coords t) == 1#1)) = false
  simp only [Bool.not_eq_false', beq_iff_eq]; exact h

abbrev VO5_5 : View sig .tc .vmem S2048x16 .f32 := (Memref.whole cc5_stg5_0 : Memref sig .tc .vmem S2048x16 .f32).view
abbrev ms5_0 (t : Fin cfg5.N) : Memref sig .tc .vmem S1x2048 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S128x16 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x16 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S2048x16 .f32 := win5_5.stage (cfg5.slots t 5)
abbrev hs5_5 (t : Fin cfg5.N) : (ms5_5 t).IsWhole := hstage5_5 ((cfg5.slots t 5).cast nbuf5_5)
abbrev scM5_0 : Memref sig .tc .vmem S2048x128 .f32 := Memref.whole cc5_scratch0
abbrev VS5_0 : View sig .tc .vmem S2048x128 .f32 := scM5_0.view

abbrev restBut5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop((∃ d, owns (c : Thread nD τ) scM5_0 fullShare d) ∗ restBut5 c) ∗ (∃ r, prngReg c r)) := by
  unfold Pipeline.ΦA; rw [scopedRest5_split]; simp only [scM5_0, owns_whole]; try rfl

end Cert.KernelIdeal.Fr

end
-- ==== Proof.KI.R5.RunA.lean ====
import proofs.«404853_j60129542534_1_alg».proof.Proof.KI.R5.Runs

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun5_A (c : Dev nD) (i : grid5.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x16 .f32) (harg5 : arg5.IsWhole) (arg6 : Memref sig .tc .vmem S1x16 .f32) (harg6 : arg6.IsWhole)
    (arg7 : Memref sig .tc .vmem S2048x16 .f32) (harg7 : arg7.IsWhole)
    (arg8 : Memref sig .tc .vmem S2048x128 .f32) (harg8 : arg8.IsWhole) (hc0 : cond5_0 i) (hc1 : ¬cond5_1 i)
    (x0 : Vec F S1x2048 .i32) (x1 : Vec F S2048x128 .bf16) (x2 : Vec F S2048x1 .f32) (x3 : Vec F S128x16 .f32) (x4 : Vec F S1x16 .f32) :
    Σ' (L5 : List (View.Piece (Elt F) S2048x16 .f32)),
      { LS0 : List (View.Piece (Elt F) S2048x128 .f32) //
      ∀ (xi5 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc5_body i arg2 harg2 arg3 harg3 arg4 harg4 arg5 harg5 arg6 harg6 arg7 harg7 arg8 harg8) K } := by
  refine ⟨[], ?_, fun xi5 E K => ?run⟩
  case run =>
    simp only [cc5_body_eq_skeleton]; unfold cc5_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.R5.RunB.lean ====
import proofs.«404853_j60129542534_1_alg».proof.Proof.KI.R5.RunA

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun5_B (c : Dev nD) (i : grid5.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x16 .f32) (harg5 : arg5.IsWhole) (arg6 : Memref sig .tc .vmem S1x16 .f32) (harg6 : arg6.IsWhole)
    (arg7 : Memref sig .tc .vmem S2048x16 .f32) (harg7 : arg7.IsWhole)
    (arg8 : Memref sig .tc .vmem S2048x128 .f32) (harg8 : arg8.IsWhole) (hc0 : ¬cond5_0 i) (hc1 : ¬cond5_1 i)
    (x0 : Vec F S1x2048 .i32) (x1 : Vec F S2048x128 .bf16) (x2 : Vec F S2048x1 .f32) (x3 : Vec F S128x16 .f32) (x4 : Vec F S1x16 .f32) (xs0 : Vec F S2048x128 .f32) :
    Σ' (L5 : List (View.Piece (Elt F) S2048x16 .f32)),
      { LS0 : List (View.Piece (Elt F) S2048x128 .f32) //
      ∀ (xi5 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc5_body i arg2 harg2 arg3 harg3 arg4 harg4 arg5 harg5 arg6 harg6 arg7 harg7 arg8 harg8) K } := by
  refine ⟨[], ?_, fun xi5 E K => ?run⟩
  case run =>
    simp only [cc5_body_eq_skeleton]; unfold cc5_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.R5.RunC.lean ====
import proofs.«404853_j60129542534_1_alg».proof.Proof.KI.R5.RunB

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun5_C (c : Dev nD) (i : grid5.Coords)
    (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x16 .f32) (harg5 : arg5.IsWhole) (arg6 : Memref sig .tc .vmem S1x16 .f32) (harg6 : arg6.IsWhole)
    (arg7 : Memref sig .tc .vmem S2048x16 .f32) (harg7 : arg7.IsWhole)
    (arg8 : Memref sig .tc .vmem S2048x128 .f32) (harg8 : arg8.IsWhole) (hc0 : ¬cond5_0 i) (hc1 : cond5_1 i)
    (x0 : Vec F S1x2048 .i32) (x1 : Vec F S2048x128 .bf16) (x2 : Vec F S2048x1 .f32) (x3 : Vec F S128x16 .f32) (x4 : Vec F S1x16 .f32) (xs0 : Vec F S2048x128 .f32) :
    Σ' (L5 : List (View.Piece (Elt F) S2048x16 .f32)),
      { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc5_body i arg2 harg2 arg3 harg3 arg4 harg4 arg5 harg5 arg6 harg6 arg7 harg7 arg8 harg8) K } := by
  refine ⟨?_, ?_, fun E K => ?run⟩
  case run =>
    simp only [cc5_body_eq_skeleton]; unfold cc5_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fr

end
-- ==== Proof.KI.R5.Region.lean ====
import proofs.«404853_j60129542534_1_alg».proof.Proof.KI.R5.RunC

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid5.Coords) (arg2 : Memref sig .tc .vmem S1x2048 .i32) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S128x16 .f32) (harg5 : arg5.IsWhole) (arg6 : Memref sig .tc .vmem S1x16 .f32) (harg6 : arg6.IsWhole) (arg7 : Memref sig .tc .vmem S2048x16 .f32) (harg7 : arg7.IsWhole) (arg8 : Memref sig .tc .vmem S2048x128 .f32) (harg8 : arg8.IsWhole)

section
variable (hc0 : cond5_0 i) (hc1 : ¬cond5_1 i) (x0 : Vec F S1x2048 .i32) (x1 : Vec F S2048x128 .bf16) (x2 : Vec F S2048x1 .f32) (x3 : Vec F S128x16 .f32) (x4 : Vec F S1x16 .f32)

def out5_A_5 : Vec F S2048x16 .f32 :=
  VO5_5.read (Elt F) (VO5_5.writes (Elt F) VO5_5.junk (kernelRun5_A c i arg2 harg2 arg3 harg3 arg4 harg4 arg5 harg5 arg6 harg6 arg7 harg7 arg8 harg8 hc0 hc1 x0 x1 x2 x3 x4).1)

theorem scover5_A_0 (y : S2048x128.Idx) : ∃ pc ∈ (kernelRun5_A c i arg2 harg2 arg3 harg3 arg4 harg4 arg5 harg5 arg6 harg6 arg7 harg7 arg8 harg8 hc0 hc1 x0 x1 x2 x3 x4).2.1, y ∈ pc.1.set :=
  View.cover_of_tiledL _ S2048x128.size (by sl_kernel_rfl) y

def sout5_A_0 : Vec F S2048x128 .f32 :=
  VS5_0.read (Elt F) (VS5_0.writes (Elt F) VS5_0.junk (kernelRun5_A c i arg2 harg2 arg3 harg3 arg4 harg4 arg5 harg5 arg6 harg6 arg7 harg7 arg8 harg8 hc0 hc1 x0 x1 x2 x3 x4).2.1)

def pair5_A : Vec F S2048x16 .f32 × Vec F S2048x128 .f32 :=
  (out5_A_5 c i arg2 harg2 arg3 harg3 arg4 harg4 arg5 harg5 arg6 harg6 arg7 harg7 arg8 harg8 hc0 hc1 x0 x1 x2 x3 x4, sout5_A_0 c i arg2 harg2 arg3 harg3 arg4 harg4 arg5 harg5 arg6 harg6 arg7 harg7 arg8 harg8 hc0 hc1 x0 x1 x2 x3 x4)

end

section
variable (hc0 : ¬cond5_0 i) (hc1 : ¬cond5_1 i) (x0 : Vec F S1x2048 .i32) (x1 : Vec F S2048x128 .bf16) (x2 : Vec F S2048x1 .f32) (x3 : Vec F S128x16 .f32) (x4 : Vec F S1x16 .f32) (xs0 : Vec F S2048x128 .f32)

def out5_B_5 : Vec F S2048x16 .f32 :=
  VO5_5.read (Elt F) (VO5_5.writes (Elt F) VO5_5.junk (kernelRun5_B c i arg2 harg2 arg3 harg3 arg4 harg4 arg5 harg5 arg6 harg6 arg7 harg7 arg8 harg8 hc0 hc1 x0 x1 x2 x3 x4 xs0).1)

theorem scover5_B_0 (y : S2048x128.Idx) : ∃ pc ∈ (kernelRun5_B c i arg2 harg2 arg3 harg3 arg4 harg4 arg5 harg5 arg6 harg6 arg7 harg7 arg8 harg8 hc0 hc1 x0 x1 x2 x3 x4 xs0).2.1, y ∈ pc.1.set :=
  View.cover_of_tiledL _ S2048x128.size (by sl_kernel_rfl) y

def sout5_B_0 : Vec F S2048x128 .f32 :=
  VS5_0.read (Elt F) (VS5_0.writes (Elt F) VS5_0.junk (kernelRun5_B c i arg2 harg2 arg3 harg3 arg4 harg4 arg5 harg5 arg6 harg6 arg7 harg7 arg8 harg8 hc0 hc1 x0 x1 x2 x3 x4 xs0).2.1)

def pair5_B : Vec F S2048x16 .f32 × Vec F S2048x128 .f32 :=
  (out5_B_5 c i arg2 harg2 arg3 harg3 arg4 harg4 arg5 harg5 arg6 harg6 arg7 harg7 arg8 harg8 hc0 hc1 x0 x1 x2 x3 x4 xs0, sout5_B_0 c i arg2 harg2 arg3 harg3 arg4 harg4 arg5 harg5 arg6 harg6 arg7 harg7 arg8 harg8 hc0 hc1 x0 x1 x2 x3 x4 xs0)

end

section
variable (hc0 : ¬cond5_0 i) (hc1 : cond5_1 i) (x0 : Vec F S1x2048 .i32) (x1 : Vec F S2048x128 .bf16) (x2 : Vec F S2048x1 .f32) (x3 : Vec F S128x16 .f32) (x4 : Vec F S1x16 .f32) (xs0 : Vec F S2048x128 .f32)

theorem cover5_C_5 (y : S2048x16.Idx) : ∃ pc ∈ (kernelRun5_C c i arg2 harg2 arg3 harg3 arg4 harg4 arg5 harg5 arg6 harg6 arg7 harg7 arg8 harg8 hc0 hc1 x0 x1 x2 x3 x4 xs0).1, y ∈ pc.1.set :=
  View.cover_of_tiledL _ S2048x16.size (by sl_kernel_rfl) y

def out5_C_5 : Vec F S2048x16 .f32 :=
  VO5_5.read (Elt F) (VO5_5.writes (Elt F) VO5_5.junk (kernelRun5_C c i arg2 harg2 arg3 harg3 arg4 harg4 arg5 harg5 arg6 harg6 arg7 harg7 arg8 harg8 hc0 hc1 x0 x1 x2 x3 x4 xs0).1)

theorem scover5_C_0 (y : S2048x128.Idx) : ∃ pc ∈ (kernelRun5_C c i arg2 harg2 arg3 harg3 arg4 harg4 arg5 harg5 arg6 harg6 arg7 harg7 arg8 harg8 hc0 hc1 x0 x1 x2 x3 x4 xs0).2.1, y ∈ pc.1.set :=
  View.cover_of_tiledL _ S2048x128.size (by sl_kernel_rfl) y

def sout5_C_0 : Vec F S2048x128 .f32 :=
  VS5_0.read (Elt F) (VS5_0.writes (Elt F) VS5_0.junk (kernelRun5_C c i arg2 harg2 arg3 harg3 arg4 harg4 arg5 harg5 arg6 harg6 arg7 harg7 arg8 harg8 hc0 hc1 x0 x1 x2 x3 x4 xs0).2.1)

def pair5_C : Vec F S2048x16 .f32 × Vec F S2048x128 .f32 :=
  (out5_C_5 c i arg2 harg2 arg3 harg3 arg4 harg4 arg5 harg5 arg6 harg6 arg7 harg7 arg8 harg8 hc0 hc1 x0 x1 x2 x3 x4 xs0, sout5_C_0 c i arg2 harg2 arg3 harg3 arg4 harg4 arg5 harg5 arg6 harg6 arg7 harg7 arg8 harg8 hc0 hc1 x0 x1 x2 x3 x4 xs0)

end

end

-- The output block and the accumulator after position n, by recursion on n: the residue mod 293 selects the case.
def outsAt5 (c : Dev nD) : (n : ℕ) → n < cfg5.N → Vec F S2048x16 .f32 × Vec F S2048x128 .f32
  | 0, hn => pair5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩)
  | n + 1, hn =>
    if h0 : (n + 1) % 293 = 0 then
      if h1 : (n + 1) % 293 = 292 then
        False.elim (by omega)
      else
        pair5_A c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩)
    else
      if h1 : (n + 1) % 293 = 292 then
        pair5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2
      else
        pair5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2

theorem outsAt5_A (c : Dev nD) (t : Fin cfg5.N) (h0 : t.val % 293 = 0) (h1 : ¬t.val % 293 = 292) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans ((dif_neg h1).trans rfl)

theorem outsAt5_B (c : Dev nD) (t : Fin cfg5.N) (h0 : ¬t.val % 293 = 0) (h1 : ¬t.val % 293 = 292) :
    outsAt5 V c t.val t.isLt = (out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt5_C (c : Dev nD) (t : Fin cfg5.N) (h0 : ¬t.val % 293 = 0) (h1 : t.val % 293 = 292) :
    outsAt5 V c t.val t.isLt = (out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ restBut5 c) ∗ (∃ r, prngReg c r))

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ restBut5 c) ∗ (∃ r, prngReg c r)) := by
  cases n with
  | zero => exact absurd rfl hz
  | succ n => rfl

-- At every position the invariant gives the accumulator at some contents.
theorem PhiS5_weak (c : Dev nD) (n : ℕ) (h : n ≤ cfg5.N) :
    PhiS5 V c n h ⊢ iprop(iprop((∃ d, owns (c : Thread nD τ) scM5_0 fullShare d) ∗ restBut5 c) ∗ (∃ r, prngReg c r)) := by
  by_cases hz : n = 0
  · subst hz; exact Entails.of_eq (PhiA5_eq c)
  · rw [PhiS5_pos V c n h hz]
    iintro ⟨⟨HS0, Hrest⟩, Hg⟩
    iframe Hrest Hg
    iexists _; iexact HS0

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_0 (c : Dev nD) (t : Fin cfg5.N) : (dat5 V c).after 0 t = iblk5 V c 0 t := rfl
theorem after5_1 (c : Dev nD) (t : Fin cfg5.N) : (dat5 V c).after 1 t = iblk5 V c 1 t := rfl
theorem after5_2 (c : Dev nD) (t : Fin cfg5.N) : (dat5 V c).after 2 t = iblk5 V c 2 t := rfl
theorem after5_3 (c : Dev nD) (t : Fin cfg5.N) : (dat5 V c).after 3 t = iblk5 V c 3 t := rfl
theorem after5_4 (c : Dev nD) (t : Fin cfg5.N) : (dat5 V c).after 4 t = iblk5 V c 4 t := rfl
theorem after5_5 (c : Dev nD) (t : Fin cfg5.N) : (dat5 V c).after 5 t = (outsAt5 V c t.val t.isLt).1 := rfl

set_option maxHeartbeats 4800000 in
-- The residue of the position mod 293 says which case the point is in; that case's run applies, between the invariant before and after.
theorem sound_body5 (c : Dev nD) (t : Fin cfg5.N) :
    iprop(PhiS5 V c t.val (Nat.le_of_lt t.isLt) ∗ (dat5 V c).owesAt () t.castSucc
      ∗ (∃ d, owns (c : Thread nD τ) (ms5_0 t) fullShare ((dat5 V c).before 0 t d))
      ∗ (∃ d, owns (c : Thread nD τ) (ms5_1 t) fullShare ((dat5 V c).before 1 t d))
      ∗ (∃ d, owns (c : Thread nD τ) (ms5_2 t) fullShare ((dat5 V c).before 2 t d))
      ∗ (∃ d, owns (c : Thread nD τ) (ms5_3 t) fullShare ((dat5 V c).before 3 t d))
      ∗ (∃ d, owns (c : Thread nD τ) (ms5_4 t) fullShare ((dat5 V c).before 4 t d))
      ∗ (∃ d, owns (c : Thread nD τ) (ms5_5 t) fullShare ((dat5 V c).before 5 t d)))
      ⊢ wp frame (wpE (defs₀ (F := F)) Variants.none c none) Set.univ (bodyAt5 t) (fun _ =>
        iprop(iprop(iprop(owns (c : Thread nD τ) scM5_0 fullShare (outsAt5 V c t.val t.isLt).2 ∗ restBut5 c) ∗ (∃ r, prngReg c r)) ∗ (dat5 V c).owesAt () t.castSucc
          ∗ owns (c : Thread nD τ) (ms5_0 t) fullShare (iblk5 V c 0 t)
          ∗ owns (c : Thread nD τ) (ms5_1 t) fullShare (iblk5 V c 1 t)
          ∗ owns (c : Thread nD τ) (ms5_2 t) fullShare (iblk5 V c 2 t)
          ∗ owns (c : Thread nD τ) (ms5_3 t) fullShare (iblk5 V c 3 t)
          ∗ owns (c : Thread nD τ) (ms5_4 t) fullShare (iblk5 V c 4 t)
          ∗ (dat5 V c).leavesExact 5 t)) := by
  unfold bodyAt5
  simp only [(before5_of V (dat5 V c)).1 rfl (after5_0 V c), (before5_of V (dat5 V c)).2.1 rfl (after5_1 V c), (before5_of V (dat5 V c)).2.2.1 rfl (after5_2 V c), (before5_of V (dat5 V c)).2.2.2.1 rfl (after5_3 V c), (before5_of V (dat5 V c)).2.2.2.2 rfl (after5_4 V c)]
  by_cases h0 : t.val % 293 = 0
  · have h1 : ¬t.val % 293 = 292 := by omega
    rw [Dat.leavesExact_idle (dat5 V c) 5 t (idleAt5_5 t fun h => h1 ((hcond5_1 t).mp h)) (noFlush5_5 t fun h => h1 ((hcond5_1 t).mp h)), outsAt5_A V c t h0 h1]
    unfold sout5_A_0; (try dsimp only)
    refine (sep_mono_left (PhiS5_weak V c _ _)).trans ?_
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun5_A c (grid5.coords t) _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    iframe Hrest Hg Ho H0 H1 H2 H3 H4
    isplitl [HS0]
    · unfold owns; iexists _; isplitr
      swap; · iexact HS0
      ipureintro; exact View.read_writes_of_cover _ _ _ _ _ (scover5_A_0 c _ _ _ _ _ _ _ _ _ _ _ _ _ _ _ _ _ _ _ _ _ _)
    iexists _; iexact H5
  · rw [PhiS5_pos V c _ _ fun hz => h0 (by rw [hz])]
    by_cases h1 : t.val % 293 = 292
    · rw [show (dat5 V c).leavesExact 5 t = owns (c : Thread nD τ) (ms5_5 t) fullShare ((dat5 V c).after 5 t) from by
        unfold Dat.leavesExact; rw [liveAt5_5 t ((hcond5_1 t).mpr h1)], after5_5, outsAt5_C V c t h0 h1]
      unfold out5_C_5 sout5_C_0; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun5_C c (grid5.coords t) _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      iframe Hrest Hg Ho H0 H1 H2 H3 H4
      isplitl [HS0]
      · unfold owns; iexists _; isplitr
        swap; · iexact HS0
        ipureintro; exact View.read_writes_of_cover _ _ _ _ _ (scover5_C_0 c _ _ _ _ _ _ _ _ _ _ _ _ _ _ _ _ _ _ _ _ _ _ _)
      unfold owns; iexists _; isplitr
      swap; · iexact H5
      ipureintro; exact View.read_writes_of_cover _ _ _ _ _ (cover5_C_5 c _ _ _ _ _ _ _ _ _ _ _ _ _ _ _ _ _ _ _ _ _ _ _)
    · rw [Dat.leavesExact_idle (dat5 V c) 5 t (idleAt5_5 t fun h => h1 ((hcond5_1 t).mp h)) (noFlush5_5 t fun h => h1 ((hcond5_1 t).mp h)), outsAt5_B V c t h0 h1]
      unfold sout5_B_0; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun5_B c (grid5.coords t) _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      iframe Hrest Hg Ho H0 H1 H2 H3 H4
      isplitl [HS0]
      · unfold owns; iexists _; isplitr
        swap; · iexact HS0
        ipureintro; exact View.read_writes_of_cover _ _ _ _ _ (scover5_B_0 c _ _ _ _ _ _ _ _ _ _ _ _ _ _ _ _ _ _ _ _ _ _ _)
      iexists _; iexact H5

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl

theorem hout5 (c : Dev nD) : (dat5 V c).Φ (Fin.last cfg5.N) ⊢ Pipeline.ΦA spec5 c :=
  (PhiS5_weak V c cfg5.N (Nat.le_refl _)).trans (Entails.of_eq (PhiA5_eq c).symm)

end Cert.KernelIdeal.Fr

end
-- ==== Proof.KI.Segs.lean ====
import proofs.«404853_j60129542534_1_alg».proof.Proof.KI.R0.Region
import proofs.«404853_j60129542534_1_alg».proof.Proof.KI.R1.Region
import proofs.«404853_j60129542534_1_alg».proof.Proof.KI.R2.Region
import proofs.«404853_j60129542534_1_alg».proof.Proof.KI.R3.Region
import proofs.«404853_j60129542534_1_alg».proof.Proof.KI.R4.Region
import proofs.«404853_j60129542534_1_alg».proof.Proof.KI.R5.Region
import proofs.«404853_j60129542534_1_alg».proof.Proof.Gen.KernelIdeal.Regions
import proofs.«404853_j60129542534_1_alg».proof.Proof.KI.RunCond
import Idealize.ShloMosaic.Lib.Pipeline.RegionsLoop

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat Cfg BodyObligation)

variable {F : FTy → Type} [FloatOps F]

local notation "𝕄" => MT nD τ sig Unit (Elt F) ℕ (UR sig nD τ) ℕ

/-- Updating equal contents by what an update holds at the updated place is that update. -/
theorem update_read {V Y : Valuation τ sig (Elt F)} (h : V = Y) (o : DevRef τ sig) (X : o.ty.Contents (Elt F)) :
    Function.update V o (Function.update Y o X o) = Function.update Y o X := by
  rw [h, Function.update_self]

section Wrote

variable {cfg : Cfg sig Λ₀} {c : Dev nD} (dat : Dat τ (Elt F) Unit ℕ (UR sig nD τ) ℕ cfg c)
  (V : Valuation τ sig (Elt F)) (wo : Fin cfg.W)

/-- The contents `V` changed only at window `wo`'s array, to that window's final contents. -/
abbrev wrote : Valuation τ sig (Elt F) :=
  Function.update V (Proc.devRef .tc (Pipeline.arrRef cfg.spec wo)) (dat.arrAt wo cfg.N)

/-- An input window's array keeps its entry contents and is not the output's; the output's is read back off the update. -/
theorem arrAt_wrote (hw : Pipeline.WinFacts cfg.spec) (hA : ∀ w, dat.A w = V (Proc.devRef .tc (Pipeline.arrRef cfg.spec w)))
    (hins : ∀ w, w ≠ wo → (cfg.win w).isOut = false) (w : Fin cfg.W) :
    dat.arrAt w cfg.N = wrote dat V wo (Proc.devRef .tc (Pipeline.arrRef cfg.spec w)) := by
  obtain rfl | h := eq_or_ne w wo
  · unfold wrote; rw [Function.update_self]
  · exact (dat.arrAt_in w (hins w h) _).trans ((hA w).trans (Function.update_of_ne (StableHlo.devRef_ne_of_ne (hw.arr_inj.ne h)) _ _).symm)

/-- A buffer that is no window's array is not the output's. -/
theorem wrote_rest (b : Ref sig .tc) (hb : b ∉ Finset.univ.image (Pipeline.arrRef cfg.spec)) :
    wrote dat V wo (Proc.devRef .tc b) = V (Proc.devRef .tc b) :=
  Function.update_of_ne (StableHlo.devRef_ne_of_ne fun e => hb (Finset.mem_image.mpr ⟨wo, Finset.mem_univ _, e.symm⟩)) _ _

end Wrote

variable (m : (ℓ : Loc nD τ sig) → Buf (Elt F) ℓ)

abbrev rd (W : Dev nD → Valuation τ sig (Elt F)) : (c : Dev nD) → (b : Ref sig .tc) → Buf (Elt F) ((c : Thread nD τ).loc b) := fun c b => W c b

abbrev Y10 (c : Dev nD) : Valuation τ sig (Elt F) := V10 m c
def Y11 (c : Dev nD) : Valuation τ sig (Elt F) := Function.update (Y10 m c) main_v24 ((dat0 (rd (Y10 m)) c).arrAt 3 cfg0.N)
abbrev Y12 (c : Dev nD) : Valuation τ sig (Elt F) := StableHlo.after hostOps1 (Y11 m c)
def Y13 (c : Dev nD) : Valuation τ sig (Elt F) := Function.update (Y12 m c) main_v26 ((dat1 (rd (Y12 m)) c).arrAt 5 cfg1.N)
def Y14 (c : Dev nD) : Valuation τ sig (Elt F) := Function.update (Y13 m c) main_v27 ((dat2 (rd (Y13 m)) c).arrAt 3 cfg2.N)
abbrev Y15 (c : Dev nD) : Valuation τ sig (Elt F) := StableHlo.after hostOps3 (Y14 m c)
def Y16 (c : Dev nD) : Valuation τ sig (Elt F) := Function.update (Y15 m c) main_v29 ((dat3 (rd (Y15 m)) c).arrAt 5 cfg3.N)
def Y17 (c : Dev nD) : Valuation τ sig (Elt F) := Function.update (Y16 m c) main_v30 ((dat4 (rd (Y16 m)) c).arrAt 3 cfg4.N)
abbrev Y18 (c : Dev nD) : Valuation τ sig (Elt F) := StableHlo.after hostOps5 (Y17 m c)
def Y19 (c : Dev nD) : Valuation τ sig (Elt F) := Function.update (Y18 m c) main_v32 ((dat5 (rd (Y18 m)) c).arrAt 5 cfg5.N)
abbrev Y20 (c : Dev nD) : Valuation τ sig (Elt F) := StableHlo.after hostOps6 (Y19 m c)

def outs : Outs (F := F) := fun J r c => match J with
  | 11 => Y11 m c r
  | 13 => Y13 m c r
  | 14 => Y14 m c r
  | 16 => Y16 m c r
  | 17 => Y17 m c r
  | 19 => Y19 m c r
  | _ => Y10 m c r

theorem hV11 (c : Dev nD) : V11 m (outs m) c = Y11 m c := update_read rfl _ _
theorem hV12 (c : Dev nD) : V12 m (outs m) c = Y12 m c := congrArg (StableHlo.after hostOps1) (hV11 m c)
theorem hV13 (c : Dev nD) : V13 m (outs m) c = Y13 m c := update_read (hV12 m c) _ _
theorem hV14 (c : Dev nD) : V14 m (outs m) c = Y14 m c := update_read (hV13 m c) _ _
theorem hV15 (c : Dev nD) : V15 m (outs m) c = Y15 m c := congrArg (StableHlo.after hostOps3) (hV14 m c)
theorem hV16 (c : Dev nD) : V16 m (outs m) c = Y16 m c := update_read (hV15 m c) _ _
theorem hV17 (c : Dev nD) : V17 m (outs m) c = Y17 m c := update_read (hV16 m c) _ _
theorem hV18 (c : Dev nD) : V18 m (outs m) c = Y18 m c := congrArg (StableHlo.after hostOps5) (hV17 m c)
theorem hV19 (c : Dev nD) : V19 m (outs m) c = Y19 m c := update_read (hV18 m c) _ _
theorem hV20 (c : Dev nD) : V20 m (outs m) c = Y20 m c := congrArg (StableHlo.after hostOps6) (hV19 m c)

def pdats : (p : Fin 6) → (c : Dev nD) → Dat τ (Elt F) Unit ℕ (UR sig nD τ) ℕ (cfgs p) c
  | ⟨0, _⟩ => fun c => dat0 (rd (Y10 m)) c
  | ⟨1, _⟩ => fun c => dat1 (rd (Y12 m)) c
  | ⟨2, _⟩ => fun c => dat2 (rd (Y13 m)) c
  | ⟨3, _⟩ => fun c => dat3 (rd (Y15 m)) c
  | ⟨4, _⟩ => fun c => dat4 (rd (Y16 m)) c
  | ⟨5, _⟩ => fun c => dat5 (rd (Y18 m)) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 7 → Dev nD → sProp 𝕄 := fun _ c => R c

def regOf (p : Fin 6) (lf : Pipeline.LaunchFacts (nD := nD) (τ := τ) cfgs p) (wo : Fin (cfgs p).W)
    (W W' V : Dev nD → Valuation τ sig (Elt F)) (hW : ∀ c, W c = V c) (hW' : ∀ c, W' c = wrote (pdats m p c) (V c) wo)
    (hb : ∀ c, BodyObligation (pdats m p c) (defs₀ (F := F)) Variants.none () Set.univ)
    (hq : ∀ c w, (pdats m p c).q w = fullShare) (howed : ∀ c t, (pdats m p c).owed t = 0)
    (hrec : ∀ c x, x ∈ (pdats m p c).recorded 0)
    (hΦ0 : ∀ c, Pipeline.ΦA (cfgs p).spec c ⊢ (pdats m p c).Φ 0)
    (hΦN : ∀ c, (pdats m p c).Φ (Fin.last (cfgs p).N) ⊢ Pipeline.ΦA (cfgs p).spec c)
    (hA : ∀ c w, (pdats m p c).A w = V c (Proc.devRef .tc (Pipeline.arrRef (cfgs p).spec w)))
    (hins : ∀ w, w ≠ wo → ((cfgs p).win w).isOut = false) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (rd V c)
  hentry c := by
    rw [Pipeline.ownSems0_none, hW c]
    have hsplit := Pipeline.arrays_of_unscopedBufs (p := p) (pcfgs (F := F)) adm (pdats m) lf.win lf.arr_whole c
      ((pdats m p c).share_full (hq c)) (rd V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    rw [hW' c]
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd V c) (fun b => wrote (pdats m p c) (V c) wo b) ((pdats m p c).arrAt · (cfgs p).N)
      (arrAt_wrote _ _ wo lf.win (hA c) hins) (wrote_rest _ _ wo)
    rw [Pipeline.unscopedBufs_held] at hjoin
    unfold Pipeline.Dat.owesAt Pipeline.owesWithin
    rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 : Pipeline.RegionSeg (pcfgs (F := F)) adm (pdats m) () defs₀ 𝒱₀ L lv 0 :=
  regOf m 0 launch0 (3 : Fin 4) (V10 m) (V11 m (outs m)) (Y10 m) (fun _ => rfl) (hV11 m) (body_obligation0 _)
    (fun _ _ => rfl) (fun _ _ => rfl) (fun _ _ => trivial) (hin0 _) (hout0 _) (A_eq0 _) (by decide)
def reg1 : Pipeline.RegionSeg (pcfgs (F := F)) adm (pdats m) () defs₀ 𝒱₀ L lv 1 :=
  regOf m 1 launch1 (5 : Fin 6) (V12 m (outs m)) (V13 m (outs m)) (Y12 m) (hV12 m) (hV13 m) (body_obligation1 _)
    (fun _ _ => rfl) (fun _ _ => rfl) (fun _ _ => trivial) (hin1 _) (hout1 _) (A_eq1 _) (by decide)
def reg2 : Pipeline.RegionSeg (pcfgs (F := F)) adm (pdats m) () defs₀ 𝒱₀ L lv 2 :=
  regOf m 2 launch2 (3 : Fin 4) (V13 m (outs m)) (V14 m (outs m)) (Y13 m) (hV13 m) (hV14 m) (body_obligation2 _)
    (fun _ _ => rfl) (fun _ _ => rfl) (fun _ _ => trivial) (hin2 _) (hout2 _) (A_eq2 _) (by decide)
def reg3 : Pipeline.RegionSeg (pcfgs (F := F)) adm (pdats m) () defs₀ 𝒱₀ L lv 3 :=
  regOf m 3 launch3 (5 : Fin 6) (V15 m (outs m)) (V16 m (outs m)) (Y15 m) (hV15 m) (hV16 m) (body_obligation3 _)
    (fun _ _ => rfl) (fun _ _ => rfl) (fun _ _ => trivial) (hin3 _) (hout3 _) (A_eq3 _) (by decide)
def reg4 : Pipeline.RegionSeg (pcfgs (F := F)) adm (pdats m) () defs₀ 𝒱₀ L lv 4 :=
  regOf m 4 launch4 (3 : Fin 4) (V16 m (outs m)) (V17 m (outs m)) (Y16 m) (hV16 m) (hV17 m) (body_obligation4 _)
    (fun _ _ => rfl) (fun _ _ => rfl) (fun _ _ => trivial) (hin4 _) (hout4 _) (A_eq4 _) (by decide)
def reg5 : Pipeline.RegionSeg (pcfgs (F := F)) adm (pdats m) () defs₀ 𝒱₀ L lv 5 :=
  regOf m 5 launch5 (5 : Fin 6) (V18 m (outs m)) (V19 m (outs m)) (Y18 m) (hV18 m) (hV19 m) (body_obligation5 _)
    (fun _ _ => rfl) (fun _ _ => rfl) (fun _ _ => trivial) (hin5 _) (hout5 _) (A_eq5 _) (by decide)

theorem hu₀ (u : UR sig nD τ) : (ownU u : sProp 𝕄)
    ⊢ |={Set.univ}=> iprop(BI.own (emb₁ u) ∗ bigSep Finset.univ (fun _ : Dev nD => (BI.emp : sProp 𝕄))) := by
  iintro Hu; imodintro
  isplitl [Hu]
  · iapply (show (ownU u : sProp 𝕄) ⊢ BI.own (emb₁ u) from .rfl); iexact Hu
  iapply (show (BI.emp : sProp 𝕄) ⊢ bigSep Finset.univ (fun _ : Dev nD => (BI.emp : sProp 𝕄)) from by rw [BI.bigSep_emp_const]); iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : E (F := F) 6 c ⊢ (iprop(∃ W, owes (c : Thread nD τ) (0 : CellTallies nD τ sig Unit) W) : sProp 𝕄) := by
  iintro ⟨-, H⟩; iexact H

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m emb₁ () 𝒱₀ L lv (fun _ _ => rfl) ρ (outs m) (pdats m) 0 (fun _ => iprop(emp))
    (Rounds.initOf (Pipeline.cells cfgs cellOf_inj) (Pipeline.launchToks cfgs cellOf_inj)) (hu₀ _) E (hE0 ρ) hE6
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

theorem run_value (ρ : Dev nD → PrngReg) : θ_run defs (onTc (τ := τ) (main (F := F))) ⟨m, fun _ => 0, ρ⟩ (fun r => ∀ c : Dev nD,
      r.2.mem ((c.tc : Thread nD τ).loc main_v33) = Y20 m c main_v33
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (congrFun (hV20 m c) _), (h c).2⟩)
    (run_cond m emb₁ () 𝒱₀ L lv (fun _ _ => rfl) ρ (outs m) (pdats m) 0 (fun _ => iprop(emp))
      (Rounds.initOf (Pipeline.cells cfgs cellOf_inj) (Pipeline.launchToks cfgs cellOf_inj)) (hu₀ _) E (hE0 ρ) hE6
      (reg0 m) (fun _ => .rfl) (fun _ => .rfl) (reg1 m) (fun _ => .rfl) (fun _ => .rfl) (reg2 m) (fun _ => .rfl) (fun _ => .rfl)
      (reg3 m) (fun _ => .rfl) (fun _ => .rfl) (reg4 m) (fun _ => .rfl) (fun _ => .rfl) (reg5 m) (fun _ => .rfl) (fun _ => .rfl))

end Cert.KernelIdeal.Fr

end
-- ==== Proof.KI.KChain.lean ====
import proofs.«404853_j60129542534_1_alg».proof.Proof.Gen.KernelIdeal.Regions
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Fr

open Cert.KernelIdeal Cert.KernelIdeal.Gen Idealize.ShloMosaic Idealize.ShloMosaic.ValueIdx Idealize.ShloMosaic.TcCoe

variable (m : (ℓ : Loc nD τ sig) → Buf (Elt Ideal) ℓ) (o : Outs (F := Ideal)) (c : Dev nD)

abbrev laterW : List (Ref sig .tc) :=
  [main_v24, main_v25, main_v26, main_v27, main_v28, main_v29, main_v30, main_v31, main_v32, main_v33]

theorem not_mem_single {r a : Ref sig .tc} (h : r ∉ laterW) (ha : a ∈ laterW) : r ∉ ([a] : List (Ref sig .tc)) :=
  fun hm => h (by rw [List.mem_singleton.1 hm]; exact ha)

theorem keep11 (r : Ref sig .tc) (h : r ∉ laterW) : V11 m o c r = V10 m c r :=
  V11_of m o c r (not_mem_single h (by decide))
theorem keep12 (r : Ref sig .tc) (h : r ∉ laterW) : V12 m o c r = V10 m c r :=
  (V12_of m o c r (not_mem_single h (by decide))).trans (keep11 m o c r h)
theorem keep13 (r : Ref sig .tc) (h : r ∉ laterW) : V13 m o c r = V10 m c r :=
  (V13_of m o c r (not_mem_single h (by decide))).trans (keep12 m o c r h)
theorem keep14 (r : Ref sig .tc) (h : r ∉ laterW) : V14 m o c r = V10 m c r :=
  (V14_of m o c r (not_mem_single h (by decide))).trans (keep13 m o c r h)
theorem keep15 (r : Ref sig .tc) (h : r ∉ laterW) : V15 m o c r = V10 m c r :=
  (V15_of m o c r (not_mem_single h (by decide))).trans (keep14 m o c r h)
theorem keep16 (r : Ref sig .tc) (h : r ∉ laterW) : V16 m o c r = V10 m c r :=
  (V16_of m o c r (not_mem_single h (by decide))).trans (keep15 m o c r h)
theorem keep17 (r : Ref sig .tc) (h : r ∉ laterW) : V17 m o c r = V10 m c r :=
  (V17_of m o c r (not_mem_single h (by decide))).trans (keep16 m o c r h)
theorem keep18 (r : Ref sig .tc) (h : r ∉ laterW) : V18 m o c r = V10 m c r :=
  (V18_of m o c r (not_mem_single h (by decide))).trans (keep17 m o c r h)

theorem V11_v24 : V11 m o c main_v24 = o 11 main_v24 c := Function.update_self _ _ _
theorem V12_v24 : V12 m o c main_v24 = o 11 main_v24 c := (V12_of m o c main_v24 (by decide)).trans (V11_v24 m o c)
theorem V13_v26 : V13 m o c main_v26 = o 13 main_v26 c := Function.update_self _ _ _
theorem V14_v27 : V14 m o c main_v27 = o 14 main_v27 c := Function.update_self _ _ _
theorem V15_v27 : V15 m o c main_v27 = o 14 main_v27 c := (V15_of m o c main_v27 (by decide)).trans (V14_v27 m o c)
theorem V16_v29 : V16 m o c main_v29 = o 16 main_v29 c := Function.update_self _ _ _
theorem V17_v30 : V17 m o c main_v30 = o 17 main_v30 c := Function.update_self _ _ _
theorem V18_v30 : V18 m o c main_v30 = o 17 main_v30 c := (V18_of m o c main_v30 (by decide)).trans (V17_v30 m o c)
theorem V19_v32 : V19 m o c main_v32 = o 19 main_v32 c := Function.update_self _ _ _

theorem V12_v25_apply (u : Fin 1) (j : Fin 128) :
    (V12 m o c main_v25 : S1x128.Idx → EReal) (ix2 u j) = (V10 m c main_arg4 : S128.Idx → EReal) (ix1 j) := by
  have h : (V12 m o c main_v25 : S1x128.Idx → EReal)
      = shapeCast S1x128 (V11 m o c main_arg4 : S128.Idx → EReal) shapeCasts_S128_S1x128 := by
    show StableHlo.after hostOps1 (V11 m o c) (Proc.devRef .tc main_v25) = _
    after_results
    rfl
  rw [h, shapeCast_a_1a_apply, keep11 m o c main_arg4 (by decide)]

theorem V15_v28_apply (u : Fin 1) (j : Fin 128) :
    (V15 m o c main_v28 : S1x128.Idx → EReal) (ix2 u j) = (V10 m c main_arg6 : S128.Idx → EReal) (ix1 j) := by
  have h : (V15 m o c main_v28 : S1x128.Idx → EReal)
      = shapeCast S1x128 (V14 m o c main_arg6 : S128.Idx → EReal) shapeCasts_S128_S1x128 := by
    show StableHlo.after hostOps3 (V14 m o c) (Proc.devRef .tc main_v28) = _
    after_results
    rfl
  rw [h, shapeCast_a_1a_apply, keep14 m o c main_arg6 (by decide)]

theorem V18_v31_apply (u : Fin 1) (j : Fin 16) :
    (V18 m o c main_v31 : S1x16.Idx → EReal) (ix2 u j) = (V10 m c main_arg8 : S16.Idx → EReal) (ix1 j) := by
  have h : (V18 m o c main_v31 : S1x16.Idx → EReal)
      = shapeCast S1x16 (V17 m o c main_arg8 : S16.Idx → EReal) shapeCasts_S16_S1x16 := by
    show StableHlo.after hostOps5 (V17 m o c) (Proc.devRef .tc main_v31) = _
    after_results
    rfl
  rw [h, shapeCast_a_1a_apply, keep17 m o c main_arg8 (by decide)]

theorem V20_v33_apply (n : Fin 50000) (j : Fin 16) :
    (V20 m o c main_v33 : S50000x16.Idx → EReal) (ix2 n j)
      = (o 19 main_v32 c : S51200x16.Idx → EReal) (ix2 (⟨n.val, by omega⟩ : Fin 51200) j) := by
  have h : (V20 m o c main_v33 : S50000x16.Idx → EReal)
      = extractStridedSlice S50000x16 ![0, 0] (V19 m o c main_v32 : S51200x16.Idx → EReal) slices_S51200x16_S50000x16_0_0 := by
    show StableHlo.after hostOps6 (V19 m o c) (Proc.devRef .tc main_v33) = _
    after_results
  rw [h, V19_v32]
  exact slice2_axis0_apply 0 _ _ n j (⟨n.val, by omega⟩ : Fin 51200) (Nat.zero_add _).symm

end Cert.KernelIdeal.Fr

end
-- ==== Proof.KI.Glue.lean ====
import proofs.«404853_j60129542534_1_alg».proof.Proof.Gen.KernelIdeal.Regions
import Idealize.ShloMosaic.Lib.KernelVsHost
import Idealize.ShloMosaic.Lib.ValueIdx
import Idealize.ShloMosaic.Lib.IdealHost
import Idealize.ShloMosaic.Lib.Pipeline.Value
import Idealize.ShloMosaic.Lib.StableHlo.Run

noncomputable section

namespace Cert.KernelIdeal.Fr

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

def degOut : S50000.Idx → EReal :=
  (Host.powf
    (maximumf
      (Host.scatterAdd scatter_S50000_S600000x1_S600000_n_0_0_1
        (broadcastInDim S50000 ![] bcast_S_S50000 (constant (F := Ideal) S_ .f32 0x00000000#32))
        (broadcastInDim S600000x1 ![0] bcast_S600000_S600000x1_0 (m ((c : Thread nD τ).loc main_arg1) : S600000.Idx → BitVec 32))
        (broadcastInDim S600000 ![] bcast_S_S600000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))
    : (⟨S50000, .f32⟩ : BufTy).Contents (Elt Ideal))

def degIn : S50000.Idx → EReal :=
  (Host.powf
    (maximumf
      (Host.scatterAdd scatter_S50000_S600000x1_S600000_n_0_0_1
        (broadcastInDim S50000 ![] bcast_S_S50000 (constant (F := Ideal) S_ .f32 0x00000000#32))
        (broadcastInDim S600000x1 ![0] bcast_S600000_S600000x1_0 (m ((c : Thread nD τ).loc main_arg2) : S600000.Idx → BitVec 32))
        (broadcastInDim S600000 ![] bcast_S_S600000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))
    : (⟨S50000, .f32⟩ : BufTy).Contents (Elt Ideal))

theorem V1_v12 : (V1 m c main_v12 : S50000.Idx → EReal) = degOut m c := by
  show StableHlo.after hostOps0 (V0 m c) (Proc.devRef .tc main_v12) = _
  after_results
  rfl

theorem V1_v14 : (V1 m c main_v14 : S50000.Idx → EReal) = degIn m c := by
  show StableHlo.after hostOps0 (V0 m c) (Proc.devRef .tc main_v14) = _
  after_results
  rfl

theorem V10_v12 : (V10 m c main_v12 : S50000.Idx → EReal) = degOut m c :=
  (V10_of m c main_v12 (by decide)).trans <| (V9_of m c main_v12 (by decide)).trans <| (V8_of m c main_v12 (by decide)).trans <|
    (V7_of m c main_v12 (by decide)).trans <| (V6_of m c main_v12 (by decide)).trans <| (V5_of m c main_v12 (by decide)).trans <|
    (V4_of m c main_v12 (by decide)).trans <| (V3_of m c main_v12 (by decide)).trans <| (V2_of m c main_v12 (by decide)).trans <|
    V1_v12 m c

theorem V10_v14 : (V10 m c main_v14 : S50000.Idx → EReal) = degIn m c :=
  (V10_of m c main_v14 (by decide)).trans <| (V9_of m c main_v14 (by decide)).trans <| (V8_of m c main_v14 (by decide)).trans <|
    (V7_of m c main_v14 (by decide)).trans <| (V6_of m c main_v14 (by decide)).trans <| (V5_of m c main_v14 (by decide)).trans <|
    (V4_of m c main_v14 (by decide)).trans <| (V3_of m c main_v14 (by decide)).trans <| (V2_of m c main_v14 (by decide)).trans <|
    V1_v14 m c

theorem V5_arg1 : V5 m c main_arg1 = m ((c : Thread nD τ).loc main_arg1) :=
  (V5_of m c main_arg1 (by decide)).trans <| (V4_of m c main_arg1 (by decide)).trans <| (V3_of m c main_arg1 (by decide)).trans <|
    (V2_of m c main_arg1 (by decide)).trans <| (V1_of m c main_arg1 (by decide)).trans rfl

theorem V5_c : (V5 m c main_c : S_.Idx → BitVec 32) = constantI S_ 32 4294967295#32 := by
  show StableHlo.after hostOps0_4 (V4 m c) (Proc.devRef .tc main_c) = _
  after_results

theorem V6_v19 : (V6 m c main_v19 : S600064.Idx → BitVec 32)
    = pad S600064 ![0] ![64] ![0] (V5 m c main_arg1 : S600000.Idx → BitVec 32) (V5 m c main_c : S_.Idx → BitVec 32)
        pads_S600000_S600064_0640 h_S_ := by
  show StableHlo.after hostOps0_5 (V5 m c) (Proc.devRef .tc main_v19) = _
  after_results
  rfl

theorem V7_v20 : (V7 m c main_v20 : S600064x1.Idx → BitVec 32)
    = shapeCast S600064x1 (V6 m c main_v19 : S600064.Idx → BitVec 32) shapeCasts_S600064_S600064x1 := by
  show StableHlo.after hostOps0_6 (V6 m c) (Proc.devRef .tc main_v20) = _
  after_results
  rfl

theorem V10_v20_eq : V10 m c main_v20 = V7 m c main_v20 :=
  (V10_of m c main_v20 (by decide)).trans <| (V9_of m c main_v20 (by decide)).trans <| (V8_of m c main_v20 (by decide))

theorem pad_S600064_apply (x : S600000.Idx → BitVec 32) (v : S_.Idx → BitVec 32) (e : Fin 600064) :
    pad S600064 ![0] ![64] ![0] x v pads_S600000_S600064_0640 h_S_ (ix1 e)
      = if h : e.val < 600000 then x (ix1 ⟨e.val, h⟩) else v ix0 := by
  by_cases h : e.val < 600000
  · rw [dif_pos h]
    exact pad_apply_of_inside _ _ _ x v _ _ _ (ix1 (⟨e.val, h⟩ : Fin 600000)) (by
      intro a
      have ha : a = 0 := Subsingleton.elim _ _
      subst ha
      show e.val = 0 + e.val * (0 + 1); omega)
  · rw [dif_neg h]
    refine (pad_apply_of_not_inside _ _ _ x v _ _ _ (0 : Fin 1) (by
      intro hin
      have e3 : (e.val - 0) / (0 + 1) < 600000 := hin.2.2
      rw [Nat.sub_zero, Nat.div_one] at e3
      exact h e3)).trans ?_
    exact congrArg v (eq_ix0 _)

theorem V10_v20_apply (e : Fin 600064) :
    (V10 m c main_v20 : S600064x1.Idx → BitVec 32) (ix2 e 0)
      = if h : e.val < 600000 then (m ((c : Thread nD τ).loc main_arg1) : S600000.Idx → BitVec 32) (ix1 ⟨e.val, h⟩)
        else 4294967295#32 := by
  rw [V10_v20_eq, V7_v20, V6_v19, V5_arg1, V5_c]
  rw [shapeCast_apply _ _ (ix2 e (0 : Fin 1)) (ix1 e) (by
    rw [Shape.rowMajor_val_two, Shape.rowMajor_val_one]
    show e.val = e.val * 1 + 0; omega)]
  rw [pad_S600064_apply]
  rfl

theorem V7_arg2 : V7 m c main_arg2 = m ((c : Thread nD τ).loc main_arg2) :=
  (V7_of m c main_arg2 (by decide)).trans <| (V6_of m c main_arg2 (by decide)).trans <| (V5_of m c main_arg2 (by decide)).trans <|
    (V4_of m c main_arg2 (by decide)).trans <| (V3_of m c main_arg2 (by decide)).trans <| (V2_of m c main_arg2 (by decide)).trans <|
    (V1_of m c main_arg2 (by decide)).trans rfl

theorem V7_c_8 : (V7 m c main_c_8 : S_.Idx → BitVec 32) = constantI S_ 32 4294967295#32 := by
  show StableHlo.after hostOps0_6 (V6 m c) (Proc.devRef .tc main_c_8) = _
  after_results

theorem V8_v21 : (V8 m c main_v21 : S600064.Idx → BitVec 32)
    = pad S600064 ![0] ![64] ![0] (V7 m c main_arg2 : S600000.Idx → BitVec 32) (V7 m c main_c_8 : S_.Idx → BitVec 32)
        pads_S600000_S600064_0640 h_S_ := by
  show StableHlo.after hostOps0_7 (V7 m c) (Proc.devRef .tc main_v21) = _
  after_results
  rfl

theorem V9_v22 : (V9 m c main_v22 : S1x600064.Idx → BitVec 32)
    = shapeCast S1x600064 (V8 m c main_v21 : S600064.Idx → BitVec 32) shapeCasts_S600064_S1x600064 := by
  show StableHlo.after hostOps0_8 (V8 m c) (Proc.devRef .tc main_v22) = _
  after_results
  rfl

theorem V10_v22_eq : V10 m c main_v22 = V9 m c main_v22 := V10_of m c main_v22 (by decide)

theorem V10_v22_apply (e : Fin 600064) :
    (V10 m c main_v22 : S1x600064.Idx → BitVec 32) (ix2 0 e)
      = if h : e.val < 600000 then (m ((c : Thread nD τ).loc main_arg2) : S600000.Idx → BitVec 32) (ix1 ⟨e.val, h⟩)
        else 4294967295#32 := by
  rw [V10_v22_eq, V9_v22, V8_v21, V7_arg2, V7_c_8]
  rw [shapeCast_apply _ _ (ix2 (0 : Fin 1) e) (ix1 e) (by
    rw [Shape.rowMajor_val_two, Shape.rowMajor_val_one]
    show e.val = 0 * 600064 + e.val; omega)]
  rw [pad_S600064_apply]
  rfl

theorem V1_cst_6 : (V1 m c main_cst_6 : S_.Idx → EReal) = constant (F := Ideal) S_ .f32 0x3F800000#32 := by
  show StableHlo.after hostOps0 (V0 m c) (Proc.devRef .tc main_cst_6) = _
  after_results

theorem V2_v15 : (V2 m c main_v15 : S51200.Idx → EReal)
    = pad S51200 ![0] ![1200] ![0] (V1 m c main_v12 : S50000.Idx → EReal) (V1 m c main_cst_6 : S_.Idx → EReal)
        pads_S50000_S51200_012000 h_S_ := by
  show StableHlo.after hostOps0_1 (V1 m c) (Proc.devRef .tc main_v15) = _
  after_results
  rfl

theorem V3_v16 : (V3 m c main_v16 : S51200x1.Idx → EReal)
    = shapeCast S51200x1 (V2 m c main_v15 : S51200.Idx → EReal) shapeCasts_S51200_S51200x1 := by
  show StableHlo.after hostOps0_2 (V2 m c) (Proc.devRef .tc main_v16) = _
  after_results
  rfl

theorem V10_v16_eq : V10 m c main_v16 = V3 m c main_v16 :=
  (V10_of m c main_v16 (by decide)).trans <| (V9_of m c main_v16 (by decide)).trans <| (V8_of m c main_v16 (by decide)).trans <|
    (V7_of m c main_v16 (by decide)).trans <| (V6_of m c main_v16 (by decide)).trans <| (V5_of m c main_v16 (by decide)).trans <|
    (V4_of m c main_v16 (by decide))

theorem pad_S51200_apply {α : Type} (x : S50000.Idx → α) (v : S_.Idx → α) (n : Fin 51200) :
    pad S51200 ![0] ![1200] ![0] x v pads_S50000_S51200_012000 h_S_ (ix1 n)
      = if h : n.val < 50000 then x (ix1 ⟨n.val, h⟩) else v ix0 := by
  by_cases h : n.val < 50000
  · rw [dif_pos h]
    exact pad_apply_of_inside _ _ _ x v _ _ _ (ix1 (⟨n.val, h⟩ : Fin 50000)) (by
      intro a
      have ha : a = 0 := Subsingleton.elim _ _
      subst ha
      show n.val = 0 + n.val * (0 + 1); omega)
  · rw [dif_neg h]
    refine (pad_apply_of_not_inside _ _ _ x v _ _ _ (0 : Fin 1) (by
      intro hin
      have e3 : (n.val - 0) / (0 + 1) < 50000 := hin.2.2
      rw [Nat.sub_zero, Nat.div_one] at e3
      exact h e3)).trans ?_
    exact congrArg v (eq_ix0 _)

theorem V10_v16_apply (n : Fin 51200) :
    (V10 m c main_v16 : S51200x1.Idx → EReal) (ix2 n 0)
      = if h : n.val < 50000 then degOut m c (ix1 ⟨n.val, h⟩) else (1 : EReal) := by
  rw [V10_v16_eq, V3_v16, V2_v15, V1_v12, V1_cst_6]
  rw [shapeCast_apply _ _ (ix2 n (0 : Fin 1)) (ix1 n) (by
    rw [Shape.rowMajor_val_two, Shape.rowMajor_val_one]
    show n.val = n.val * 1 + 0; omega)]
  rw [pad_S51200_apply, constant_apply, Ideal.ofBits_one_f32]

theorem V3_cst_7 : (V3 m c main_cst_7 : S_.Idx → EReal) = constant (F := Ideal) S_ .f32 0x3F800000#32 := by
  show StableHlo.after hostOps0_2 (V2 m c) (Proc.devRef .tc main_cst_7) = _
  after_results

theorem V3_v14 : (V3 m c main_v14 : S50000.Idx → EReal) = degIn m c :=
  (V3_of m c main_v14 (by decide)).trans <| (V2_of m c main_v14 (by decide)).trans <| V1_v14 m c

theorem V4_v17 : (V4 m c main_v17 : S51200.Idx → EReal)
    = pad S51200 ![0] ![1200] ![0] (V3 m c main_v14 : S50000.Idx → EReal) (V3 m c main_cst_7 : S_.Idx → EReal)
        pads_S50000_S51200_012000 h_S_ := by
  show StableHlo.after hostOps0_3 (V3 m c) (Proc.devRef .tc main_v17) = _
  after_results
  rfl

theorem V5_v18 : (V5 m c main_v18 : S51200x1.Idx → EReal)
    = shapeCast S51200x1 (V4 m c main_v17 : S51200.Idx → EReal) shapeCasts_S51200_S51200x1 := by
  show StableHlo.after hostOps0_4 (V4 m c) (Proc.devRef .tc main_v18) = _
  after_results
  rfl

theorem V10_v18_eq : V10 m c main_v18 = V5 m c main_v18 :=
  (V10_of m c main_v18 (by decide)).trans <| (V9_of m c main_v18 (by decide)).trans <| (V8_of m c main_v18 (by decide)).trans <|
    (V7_of m c main_v18 (by decide)).trans <| (V6_of m c main_v18 (by decide))

theorem V10_v18_apply (n : Fin 51200) :
    (V10 m c main_v18 : S51200x1.Idx → EReal) (ix2 n 0)
      = if h : n.val < 50000 then degIn m c (ix1 ⟨n.val, h⟩) else (1 : EReal) := by
  rw [V10_v18_eq, V5_v18, V4_v17, V3_v14, V3_cst_7]
  rw [shapeCast_apply _ _ (ix2 n (0 : Fin 1)) (ix1 n) (by
    rw [Shape.rowMajor_val_two, Shape.rowMajor_val_one]
    show n.val = n.val * 1 + 0; omega)]
  rw [pad_S51200_apply, constant_apply, Ideal.ofBits_one_f32]

theorem V9_arg0 : V9 m c main_arg0 = m ((c : Thread nD τ).loc main_arg0) :=
  (V9_of m c main_arg0 (by decide)).trans <| (V8_of m c main_arg0 (by decide)).trans <| (V7_of m c main_arg0 (by decide)).trans <|
    (V6_of m c main_arg0 (by decide)).trans <| (V5_of m c main_arg0 (by decide)).trans <| (V4_of m c main_arg0 (by decide)).trans <|
    (V3_of m c main_arg0 (by decide)).trans <| (V2_of m c main_arg0 (by decide)).trans <| (V1_of m c main_arg0 (by decide)).trans rfl

theorem V9_c_9 : (V9 m c main_c_9 : S_.Idx → BitVec 32) = constantI S_ 32 0#32 := by
  show StableHlo.after hostOps0_8 (V8 m c) (Proc.devRef .tc main_c_9) = _
  after_results

theorem V10_v23 : (V10 m c main_v23 : S51200x128.Idx → EReal)
    = pad S51200x128 ![0, 0] ![1200, 0] ![0, 0] (V9 m c main_arg0 : S50000x128.Idx → EReal)
        (sitofp .f32 (V9 m c main_c_9 : S_.Idx → BitVec 32) : FVec Ideal S_ .f32)
        pads_S50000x128_S51200x128_012000_000 h_S_ := by
  show StableHlo.after hostOps0_9 (V9 m c) (Proc.devRef .tc main_v23) = _
  after_results
  rfl

theorem pad_S51200x128_apply {α : Type} (x : S50000x128.Idx → α) (v : S_.Idx → α) (n : Fin 51200) (f : Fin 128) :
    pad S51200x128 ![0, 0] ![1200, 0] ![0, 0] x v pads_S50000x128_S51200x128_012000_000 h_S_ (ix2 n f)
      = if h : n.val < 50000 then x (ix2 ⟨n.val, h⟩ f) else v ix0 := by
  by_cases h : n.val < 50000
  · rw [dif_pos h]
    exact pad_apply_of_inside _ _ _ x v _ _ _ (ix2 (⟨n.val, h⟩ : Fin 50000) f) (by
      intro a
      match a with
      | ⟨0, _⟩ => show n.val = 0 + n.val * (0 + 1); omega
      | ⟨1, _⟩ => show f.val = 0 + f.val * (0 + 1); omega)
  · rw [dif_neg h]
    refine (pad_apply_of_not_inside _ _ _ x v _ _ _ (0 : Fin 2) (by
      intro hin
      have e3 : (n.val - 0) / (0 + 1) < 50000 := hin.2.2
      rw [Nat.sub_zero, Nat.div_one] at e3
      exact h e3)).trans ?_
    exact congrArg v (eq_ix0 _)

theorem V10_v23_apply (n : Fin 51200) (f : Fin 128) :
    (V10 m c main_v23 : S51200x128.Idx → EReal) (ix2 n f)
      = if h : n.val < 50000 then (m ((c : Thread nD τ).loc main_arg0) : S50000x128.Idx → EReal) (ix2 ⟨n.val, h⟩ f)
        else (0 : EReal) := by
  rw [V10_v23, V9_arg0, V9_c_9, pad_S51200x128_apply]
  have hz : (sitofp .f32 (constantI S_ 32 0#32) : FVec Ideal S_ .f32) ix0 = 0 := sitofp_zero
  rw [hz]

theorem V10_arg0 : V10 m c main_arg0 = m ((c : Thread nD τ).loc main_arg0) :=
  (V10_of m c main_arg0 (by decide)).trans <| (V9_of m c main_arg0 (by decide)).trans <| (V8_of m c main_arg0 (by decide)).trans <|
    (V7_of m c main_arg0 (by decide)).trans <| (V6_of m c main_arg0 (by decide)).trans <| (V5_of m c main_arg0 (by decide)).trans <|
    (V4_of m c main_arg0 (by decide)).trans <| (V3_of m c main_arg0 (by decide)).trans <| (V2_of m c main_arg0 (by decide)).trans <|
    (V1_of m c main_arg0 (by decide)).trans rfl
theorem V10_arg1 : V10 m c main_arg1 = m ((c : Thread nD τ).loc main_arg1) :=
  (V10_of m c main_arg1 (by decide)).trans <| (V9_of m c main_arg1 (by decide)).trans <| (V8_of m c main_arg1 (by decide)).trans <|
    (V7_of m c main_arg1 (by decide)).trans <| (V6_of m c main_arg1 (by decide)).trans <| (V5_of m c main_arg1 (by decide)).trans <|
    (V4_of m c main_arg1 (by decide)).trans <| (V3_of m c main_arg1 (by decide)).trans <| (V2_of m c main_arg1 (by decide)).trans <|
    (V1_of m c main_arg1 (by decide)).trans rfl
theorem V10_arg2 : V10 m c main_arg2 = m ((c : Thread nD τ).loc main_arg2) :=
  (V10_of m c main_arg2 (by decide)).trans <| (V9_of m c main_arg2 (by decide)).trans <| (V8_of m c main_arg2 (by decide)).trans <|
    (V7_of m c main_arg2 (by decide)).trans <| (V6_of m c main_arg2 (by decide)).trans <| (V5_of m c main_arg2 (by decide)).trans <|
    (V4_of m c main_arg2 (by decide)).trans <| (V3_of m c main_arg2 (by decide)).trans <| (V2_of m c main_arg2 (by decide)).trans <|
    (V1_of m c main_arg2 (by decide)).trans rfl
theorem V10_arg3 : V10 m c main_arg3 = m ((c : Thread nD τ).loc main_arg3) :=
  (V10_of m c main_arg3 (by decide)).trans <| (V9_of m c main_arg3 (by decide)).trans <| (V8_of m c main_arg3 (by decide)).trans <|
    (V7_of m c main_arg3 (by decide)).trans <| (V6_of m c main_arg3 (by decide)).trans <| (V5_of m c main_arg3 (by decide)).trans <|
    (V4_of m c main_arg3 (by decide)).trans <| (V3_of m c main_arg3 (by decide)).trans <| (V2_of m c main_arg3 (by decide)).trans <|
    (V1_of m c main_arg3 (by decide)).trans rfl
theorem V10_arg4 : V10 m c main_arg4 = m ((c : Thread nD τ).loc main_arg4) :=
  (V10_of m c main_arg4 (by decide)).trans <| (V9_of m c main_arg4 (by decide)).trans <| (V8_of m c main_arg4 (by decide)).trans <|
    (V7_of m c main_arg4 (by decide)).trans <| (V6_of m c main_arg4 (by decide)).trans <| (V5_of m c main_arg4 (by decide)).trans <|
    (V4_of m c main_arg4 (by decide)).trans <| (V3_of m c main_arg4 (by decide)).trans <| (V2_of m c main_arg4 (by decide)).trans <|
    (V1_of m c main_arg4 (by decide)).trans rfl
theorem V10_arg5 : V10 m c main_arg5 = m ((c : Thread nD τ).loc main_arg5) :=
  (V10_of m c main_arg5 (by decide)).trans <| (V9_of m c main_arg5 (by decide)).trans <| (V8_of m c main_arg5 (by decide)).trans <|
    (V7_of m c main_arg5 (by decide)).trans <| (V6_of m c main_arg5 (by decide)).trans <| (V5_of m c main_arg5 (by decide)).trans <|
    (V4_of m c main_arg5 (by decide)).trans <| (V3_of m c main_arg5 (by decide)).trans <| (V2_of m c main_arg5 (by decide)).trans <|
    (V1_of m c main_arg5 (by decide)).trans rfl
theorem V10_arg6 : V10 m c main_arg6 = m ((c : Thread nD τ).loc main_arg6) :=
  (V10_of m c main_arg6 (by decide)).trans <| (V9_of m c main_arg6 (by decide)).trans <| (V8_of m c main_arg6 (by decide)).trans <|
    (V7_of m c main_arg6 (by decide)).trans <| (V6_of m c main_arg6 (by decide)).trans <| (V5_of m c main_arg6 (by decide)).trans <|
    (V4_of m c main_arg6 (by decide)).trans <| (V3_of m c main_arg6 (by decide)).trans <| (V2_of m c main_arg6 (by decide)).trans <|
    (V1_of m c main_arg6 (by decide)).trans rfl
theorem V10_arg7 : V10 m c main_arg7 = m ((c : Thread nD τ).loc main_arg7) :=
  (V10_of m c main_arg7 (by decide)).trans <| (V9_of m c main_arg7 (by decide)).trans <| (V8_of m c main_arg7 (by decide)).trans <|
    (V7_of m c main_arg7 (by decide)).trans <| (V6_of m c main_arg7 (by decide)).trans <| (V5_of m c main_arg7 (by decide)).trans <|
    (V4_of m c main_arg7 (by decide)).trans <| (V3_of m c main_arg7 (by decide)).trans <| (V2_of m c main_arg7 (by decide)).trans <|
    (V1_of m c main_arg7 (by decide)).trans rfl
theorem V10_arg8 : V10 m c main_arg8 = m ((c : Thread nD τ).loc main_arg8) :=
  (V10_of m c main_arg8 (by decide)).trans <| (V9_of m c main_arg8 (by decide)).trans <| (V8_of m c main_arg8 (by decide)).trans <|
    (V7_of m c main_arg8 (by decide)).trans <| (V6_of m c main_arg8 (by decide)).trans <| (V5_of m c main_arg8 (by decide)).trans <|
    (V4_of m c main_arg8 (by decide)).trans <| (V3_of m c main_arg8 (by decide)).trans <| (V2_of m c main_arg8 (by decide)).trans <|
    (V1_of m c main_arg8 (by decide)).trans rfl

end Cert.KernelIdeal.Fr
-- ==== Proof.Spec.lean ====
import Idealize.ShloMosaic.PureOps.Ideal
import Idealize.ShloMosaic.Lib.ValueIdx

noncomputable section

namespace Cert.Spec

open Idealize.ShloMosaic

def oh (a b : BitVec 32) : EReal := if a = b then 1 else 0

def gatherC (srcp : Fin 600064 → BitVec 32) (hp : Fin 51200 → Fin 128 → EReal) (dp : Fin 51200 → EReal)
    (e : Fin 600064) (f : Fin 128) : EReal :=
  ∑ n : Fin 51200, oh (srcp e) (BitVec.ofNat 32 n.val) * (hp n f * dp n)

def aggC (dstp : Fin 600064 → BitVec 32) (msg : Fin 600064 → Fin 128 → EReal) (n : Fin 51200) (k : Fin 128) : EReal :=
  ∑ e : Fin 600064, oh (BitVec.ofNat 32 n.val) (dstp e) * msg e k

def projC {D : ℕ} (agg : Fin 51200 → Fin 128 → EReal) (dip : Fin 51200 → EReal) (W : Fin 128 → Fin D → EReal) (b : Fin D → EReal)
    (n : Fin 51200) (j : Fin D) : EReal :=
  (∑ k : Fin 128, (agg n k * dip n) * W k j) + b j

def layerK {D : ℕ} (relu : Bool) (srcp dstp : Fin 600064 → BitVec 32) (hp : Fin 51200 → Fin 128 → EReal) (dop dip : Fin 51200 → EReal)
    (W : Fin 128 → Fin D → EReal) (b : Fin D → EReal) (n : Fin 51200) (j : Fin D) : EReal :=
  let v := projC (aggC dstp (gatherC srcp hp dop)) dip W b n j
  if relu then max v 0 else v

def layerR {D : ℕ} (relu : Bool) (src : Fin 600000 → Fin 50000) (dst : Fin 600000 → BitVec 32) (h : Fin 50000 → Fin 128 → EReal)
    (dout din : Fin 50000 → EReal) (W : Fin 128 → Fin D → EReal) (b : Fin D → EReal) (n : Fin 50000) (j : Fin D) : EReal :=
  let v := (∑ k : Fin 128, ((∑ e ∈ Finset.univ.filter (fun e : Fin 600000 => dst e = BitVec.ofNat 32 n.val), h (src e) k * dout (src e)) * din n) * W k j) + b j
  if relu then max v 0 else v

end Cert.Spec

end
-- ==== Proof.SpecLaw.lean ====
import proofs.«404853_j60129542534_1_alg».proof.Proof.Spec
import Mathlib.Data.EReal.Basic
import Mathlib.Algebra.BigOperators.Fin
import Mathlib.Algebra.BigOperators.Group.Finset.Defs
import Mathlib.Algebra.BigOperators.Group.Finset.Basic
import Mathlib.Data.Fintype.BigOperators
import Mathlib.Logic.Equiv.Fin.Basic

noncomputable section

namespace Cert.Spec

theorem oh_comm (a b : BitVec 32) : oh a b = oh b a := by
  unfold oh
  by_cases h : a = b
  · subst h; rfl
  · have h' : ¬ b = a := fun e => h e.symm
    rw [if_neg h, if_neg h']

theorem oh_self (a : BitVec 32) : oh a a = 1 := by
  unfold oh; rw [if_pos rfl]

theorem oh_ne {a b : BitVec 32} (h : a ≠ b) : oh a b = 0 := by
  unfold oh; rw [if_neg h]

theorem oh_mul (a b : BitVec 32) (x : EReal) : oh a b * x = if a = b then x else 0 := by
  unfold oh
  by_cases h : a = b
  · rw [if_pos h, if_pos h, one_mul]
  · rw [if_neg h, if_neg h, zero_mul]

theorem ofNat_inj_lt {a b : ℕ} (ha : a < 4294967296) (hb : b < 4294967296) :
    BitVec.ofNat 32 a = BitVec.ofNat 32 b ↔ a = b := by
  constructor
  · intro h
    have h2 := congrArg BitVec.toNat h
    rw [BitVec.toNat_ofNat, BitVec.toNat_ofNat] at h2
    have e : (2 : ℕ) ^ 32 = 4294967296 := by norm_num
    rw [e, Nat.mod_eq_of_lt ha, Nat.mod_eq_of_lt hb] at h2
    exact h2
  · intro h; rw [h]

theorem ofNat_block (kb r : ℕ) :
    BitVec.ofNat 32 kb * 2048#32 + BitVec.ofNat 32 r = BitVec.ofNat 32 (kb * 2048 + r) := by
  rw [BitVec.ofNat_add, BitVec.ofNat_mul]

theorem ones_ne_node (n : ℕ) (hn : n < 51200) : (4294967295#32 : BitVec 32) ≠ BitVec.ofNat 32 n := by
  intro h
  have := (ofNat_inj_lt (a := 4294967295) (b := n) (by norm_num) (by omega)).1 h
  omega

section Gather

variable (src : Fin 600000 → Fin 50000) (h : Fin 50000 → Fin 128 → EReal) (dout : Fin 50000 → EReal)
  (srcp : Fin 600064 → BitVec 32) (hp : Fin 51200 → Fin 128 → EReal) (dop : Fin 51200 → EReal)

theorem gatherC_eq_real
    (hs : ∀ e : Fin 600064, srcp e = if h' : e.val < 600000 then BitVec.ofNat 32 (src ⟨e.val, h'⟩).val else 4294967295#32)
    (hh : ∀ (n : Fin 51200) (h' : n.val < 50000) (f : Fin 128), hp n f = h ⟨n.val, h'⟩ f)
    (hdo : ∀ (n : Fin 51200) (h' : n.val < 50000), dop n = dout ⟨n.val, h'⟩)
    (e : Fin 600064) (he : e.val < 600000) (f : Fin 128) :
    gatherC srcp hp dop e f = h (src ⟨e.val, he⟩) f * dout (src ⟨e.val, he⟩) := by
  unfold gatherC
  have hlt : (src ⟨e.val, he⟩).val < 50000 := (src ⟨e.val, he⟩).isLt
  have hse : srcp e = BitVec.ofNat 32 (src ⟨e.val, he⟩).val := by rw [hs e, dif_pos he]
  rw [Finset.sum_eq_single (⟨(src ⟨e.val, he⟩).val, by omega⟩ : Fin 51200)]
  · rw [hse, oh_self, one_mul, hh _ hlt f, hdo _ hlt]
  · intro n _ hne
    have hw : srcp e ≠ BitVec.ofNat 32 n.val := by
      rw [hse]
      intro heq
      have hv := (ofNat_inj_lt (by omega) (by have := n.isLt; omega)).1 heq
      exact hne (Fin.ext hv.symm)
    rw [oh_ne hw, zero_mul]
  · intro hn; exact absurd (Finset.mem_univ _) hn

theorem gatherC_eq_pad
    (hs : ∀ e : Fin 600064, srcp e = if h' : e.val < 600000 then BitVec.ofNat 32 (src ⟨e.val, h'⟩).val else 4294967295#32)
    (e : Fin 600064) (he : ¬ e.val < 600000) (f : Fin 128) :
    gatherC srcp hp dop e f = 0 := by
  unfold gatherC
  apply Finset.sum_eq_zero
  intro n _
  have hw : srcp e ≠ BitVec.ofNat 32 n.val := by
    rw [hs e, dif_neg he]
    exact ones_ne_node n.val n.isLt
  rw [oh_ne hw, zero_mul]

end Gather

theorem sum_edges_trunc (g : Fin 600064 → EReal)
    (hz : ∀ e : Fin 600064, ¬ e.val < 600000 → g e = 0) :
    (∑ e : Fin 600064, g e) = ∑ i : Fin 600000, g ⟨i.val, by omega⟩ := by
  have key := Fin.sum_trunc (a := 600000) (b := 64) (M := EReal) g
    (fun j => hz (Fin.natAdd 600000 j) (by simp [Fin.natAdd]))
  exact key

section Layer

variable {D : ℕ} (relu : Bool) (src : Fin 600000 → Fin 50000) (dst : Fin 600000 → BitVec 32)
  (h : Fin 50000 → Fin 128 → EReal) (dout din : Fin 50000 → EReal) (W : Fin 128 → Fin D → EReal) (b : Fin D → EReal)
  (srcp dstp : Fin 600064 → BitVec 32) (hp : Fin 51200 → Fin 128 → EReal) (dop dip : Fin 51200 → EReal)

theorem aggC_gather_eq
    (hs : ∀ e : Fin 600064, srcp e = if h' : e.val < 600000 then BitVec.ofNat 32 (src ⟨e.val, h'⟩).val else 4294967295#32)
    (hd : ∀ e : Fin 600064, dstp e = if h' : e.val < 600000 then dst ⟨e.val, h'⟩ else 4294967295#32)
    (hh : ∀ (n : Fin 51200) (h' : n.val < 50000) (f : Fin 128), hp n f = h ⟨n.val, h'⟩ f)
    (hdo : ∀ (n : Fin 51200) (h' : n.val < 50000), dop n = dout ⟨n.val, h'⟩)
    (n : Fin 51200) (k : Fin 128) :
    aggC dstp (gatherC srcp hp dop) n k
      = ∑ e ∈ Finset.univ.filter (fun e : Fin 600000 => dst e = BitVec.ofNat 32 n.val), h (src e) k * dout (src e) := by
  unfold aggC
  rw [sum_edges_trunc _ (fun e he => by rw [gatherC_eq_pad src srcp hp dop hs e he k, mul_zero])]
  rw [Finset.sum_filter]
  apply Finset.sum_congr rfl
  intro i _
  have hi : (⟨i.val, by omega⟩ : Fin 600064).val < 600000 := i.isLt
  rw [gatherC_eq_real src h dout srcp hp dop hs hh hdo _ hi k, hd _, dif_pos hi, oh_mul]
  by_cases hc : dst i = BitVec.ofNat 32 n.val
  · rw [if_pos hc, if_pos hc.symm]
  · rw [if_neg hc, if_neg (fun e => hc e.symm)]

theorem layer_eq
    (hs : ∀ e : Fin 600064, srcp e = if h' : e.val < 600000 then BitVec.ofNat 32 (src ⟨e.val, h'⟩).val else 4294967295#32)
    (hd : ∀ e : Fin 600064, dstp e = if h' : e.val < 600000 then dst ⟨e.val, h'⟩ else 4294967295#32)
    (hh : ∀ (n : Fin 51200) (h' : n.val < 50000) (f : Fin 128), hp n f = h ⟨n.val, h'⟩ f)
    (hdo : ∀ (n : Fin 51200) (h' : n.val < 50000), dop n = dout ⟨n.val, h'⟩)
    (hdi : ∀ (n : Fin 51200) (h' : n.val < 50000), dip n = din ⟨n.val, h'⟩)
    (n : Fin 50000) (j : Fin D) :
    layerK relu srcp dstp hp dop dip W b ⟨n.val, by omega⟩ j = layerR relu src dst h dout din W b n j := by
  unfold layerK layerR projC
  have hag : ∀ k : Fin 128, aggC dstp (gatherC srcp hp dop) (⟨n.val, by omega⟩ : Fin 51200) k
      = ∑ e ∈ Finset.univ.filter (fun e : Fin 600000 => dst e = BitVec.ofNat 32 n.val), h (src e) k * dout (src e) :=
    fun k => aggC_gather_eq src dst h dout srcp dstp hp dop hs hd hh hdo _ k
  have hdn : dip (⟨n.val, by omega⟩ : Fin 51200) = din n := hdi _ n.isLt
  simp only [hag, hdn]

end Layer

theorem sum_blocks {M : Type*} [AddCommMonoid M] (m n : ℕ) (g : Fin (m * n) → M)
    (hlt : ∀ (i : Fin m) (j : Fin n), i.val * n + j.val < m * n) :
    (∑ i : Fin m, ∑ j : Fin n, g ⟨i.val * n + j.val, hlt i j⟩) = ∑ k : Fin (m * n), g k := by
  rw [← Fintype.sum_prod_type']
  apply Fintype.sum_equiv finProdFinEquiv
  intro x
  apply congrArg g
  apply Fin.ext
  show x.1.val * n + x.2.val = x.2.val + n * x.1.val
  rw [Nat.mul_comm, Nat.add_comm]

theorem sum_blocks_node (g : Fin 51200 → EReal) :
    (∑ kb : Fin 25, ∑ r : Fin 2048, g ⟨kb.val * 2048 + r.val, by omega⟩) = ∑ n : Fin 51200, g n :=
  sum_blocks 25 2048 g (fun i j => by omega)

theorem sum_blocks_edge (g : Fin 600064 → EReal) :
    (∑ eb : Fin 293, ∑ r : Fin 2048, g ⟨eb.val * 2048 + r.val, by omega⟩) = ∑ e : Fin 600064, g e :=
  sum_blocks 293 2048 g (fun i j => by omega)

theorem fold_eq_sum (P : ℕ → EReal) : ∀ k : ℕ,
    (@Nat.rec (fun _ => EReal) (P 0) (fun i acc => acc + P (i + 1)) k) = ∑ i ∈ Finset.range (k + 1), P i := by
  intro k
  induction k with
  | zero => rw [Finset.sum_range_one]; rfl
  | succ k ih =>
    rw [Finset.sum_range_succ _ (k + 1), ← ih]

theorem sum_range_node (P : ℕ → EReal) : (∑ i ∈ Finset.range 25, P i) = ∑ kb : Fin 25, P kb.val :=
  Finset.sum_range P

theorem sum_range_edge (P : ℕ → EReal) : (∑ i ∈ Finset.range 293, P i) = ∑ eb : Fin 293, P eb.val :=
  Finset.sum_range P

theorem fold_node (P : ℕ → EReal) :
    (@Nat.rec (fun _ => EReal) (P 0) (fun i acc => acc + P (i + 1)) 24) = ∑ kb : Fin 25, P kb.val := by
  rw [fold_eq_sum P 24, sum_range_node]

theorem fold_edge (P : ℕ → EReal) :
    (@Nat.rec (fun _ => EReal) (P 0) (fun i acc => acc + P (i + 1)) 292) = ∑ eb : Fin 293, P eb.val := by
  rw [fold_eq_sum P 292, sum_range_edge]

end Cert.Spec

end
-- ==== Proof.SpecNet.lean ====
import proofs.«404853_j60129542534_1_alg».proof.Proof.SpecLaw

noncomputable section

namespace Cert.Spec

theorem layerK_true {D : ℕ} (srcp dstp : Fin 600064 → BitVec 32) (hp : Fin 51200 → Fin 128 → EReal) (dop dip : Fin 51200 → EReal)
    (W : Fin 128 → Fin D → EReal) (b : Fin D → EReal) (n : Fin 51200) (j : Fin D) :
    layerK true srcp dstp hp dop dip W b n j = max (projC (aggC dstp (gatherC srcp hp dop)) dip W b n j) 0 := by
  unfold layerK
  exact if_pos rfl

theorem layerK_false {D : ℕ} (srcp dstp : Fin 600064 → BitVec 32) (hp : Fin 51200 → Fin 128 → EReal) (dop dip : Fin 51200 → EReal)
    (W : Fin 128 → Fin D → EReal) (b : Fin D → EReal) (n : Fin 51200) (j : Fin D) :
    layerK false srcp dstp hp dop dip W b n j = projC (aggC dstp (gatherC srcp hp dop)) dip W b n j := by
  unfold layerK
  exact if_neg Bool.false_ne_true

section Net

variable (src : Fin 600000 → Fin 50000) (dst : Fin 600000 → BitVec 32) (h : Fin 50000 → Fin 128 → EReal)
  (dout din : Fin 50000 → EReal)
  (W1 W2 : Fin 128 → Fin 128 → EReal) (b1 b2 : Fin 128 → EReal) (W3 : Fin 128 → Fin 16 → EReal) (b3 : Fin 16 → EReal)
  (srcp dstp : Fin 600064 → BitVec 32) (hp : Fin 51200 → Fin 128 → EReal) (dop dip : Fin 51200 → EReal)
  (G0 G2 G4 : Fin 600064 → Fin 128 → EReal) (A1 A3 : Fin 51200 → Fin 128 → EReal) (A5 : Fin 51200 → Fin 16 → EReal)

theorem pair_relu_eq (hin : Fin 50000 → Fin 128 → EReal) (hpin : Fin 51200 → Fin 128 → EReal)
    (W : Fin 128 → Fin 128 → EReal) (b : Fin 128 → EReal)
    (G : Fin 600064 → Fin 128 → EReal) (A : Fin 51200 → Fin 128 → EReal)
    (hs : ∀ e : Fin 600064, srcp e = if h' : e.val < 600000 then BitVec.ofNat 32 (src ⟨e.val, h'⟩).val else 4294967295#32)
    (hd : ∀ e : Fin 600064, dstp e = if h' : e.val < 600000 then dst ⟨e.val, h'⟩ else 4294967295#32)
    (hh : ∀ (n : Fin 51200) (h' : n.val < 50000) (f : Fin 128), hpin n f = hin ⟨n.val, h'⟩ f)
    (hdo : ∀ (n : Fin 51200) (h' : n.val < 50000), dop n = dout ⟨n.val, h'⟩)
    (hdi : ∀ (n : Fin 51200) (h' : n.val < 50000), dip n = din ⟨n.val, h'⟩)
    (hG : ∀ e f, G e f = gatherC srcp hpin dop e f)
    (hA : ∀ n j, A n j = max (projC (aggC dstp G) dip W b n j) 0)
    (n : Fin 51200) (h' : n.val < 50000) (f : Fin 128) :
    A n f = layerR true src dst hin dout din W b ⟨n.val, h'⟩ f := by
  have e0 : G = gatherC srcp hpin dop := funext fun e => funext fun f => hG e f
  rw [hA, e0, ← layerK_true]
  exact layer_eq true src dst hin dout din W b srcp dstp hpin dop dip hs hd hh hdo hdi ⟨n.val, h'⟩ f

theorem net_eq
    (hs : ∀ e : Fin 600064, srcp e = if h' : e.val < 600000 then BitVec.ofNat 32 (src ⟨e.val, h'⟩).val else 4294967295#32)
    (hd : ∀ e : Fin 600064, dstp e = if h' : e.val < 600000 then dst ⟨e.val, h'⟩ else 4294967295#32)
    (hh : ∀ (n : Fin 51200) (h' : n.val < 50000) (f : Fin 128), hp n f = h ⟨n.val, h'⟩ f)
    (hdo : ∀ (n : Fin 51200) (h' : n.val < 50000), dop n = dout ⟨n.val, h'⟩)
    (hdi : ∀ (n : Fin 51200) (h' : n.val < 50000), dip n = din ⟨n.val, h'⟩)
    (hG0 : ∀ e f, G0 e f = gatherC srcp hp dop e f)
    (hA1 : ∀ n j, A1 n j = max (projC (aggC dstp G0) dip W1 b1 n j) 0)
    (hG2 : ∀ e f, G2 e f = gatherC srcp A1 dop e f)
    (hA3 : ∀ n j, A3 n j = max (projC (aggC dstp G2) dip W2 b2 n j) 0)
    (hG4 : ∀ e f, G4 e f = gatherC srcp A3 dop e f)
    (hA5 : ∀ n j, A5 n j = projC (aggC dstp G4) dip W3 b3 n j)
    (n : Fin 50000) (j : Fin 16) :
    A5 ⟨n.val, by omega⟩ j
      = layerR false src dst (layerR true src dst (layerR true src dst h dout din W1 b1) dout din W2 b2) dout din W3 b3 n j := by
  have r1 := pair_relu_eq src dst dout din srcp dstp dop dip h hp W1 b1 G0 A1 hs hd hh hdo hdi hG0 hA1
  have r2 := pair_relu_eq src dst dout din srcp dstp dop dip (layerR true src dst h dout din W1 b1) A1 W2 b2 G2 A3
    hs hd r1 hdo hdi hG2 hA3
  have e4 : G4 = gatherC srcp A3 dop := funext fun e => funext fun f => hG4 e f
  rw [hA5, e4, ← layerK_false]
  exact layer_eq false src dst (layerR true src dst (layerR true src dst h dout din W1 b1) dout din W2 b2) dout din W3 b3
    srcp dstp A3 dop dip hs hd r2 hdo hdi n j

end Net

end Cert.Spec

end
-- ==== Proof.KI.KCore.lean ====
import proofs.«404853_j60129542534_1_alg».proof.Proof.KI.KChain
import proofs.«404853_j60129542534_1_alg».proof.Proof.KI.Glue
import proofs.«404853_j60129542534_1_alg».proof.Proof.SpecNet

noncomputable section

namespace Cert.KernelIdeal.Fr

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

def dstW (e : Fin 600000) : BitVec 32 := (m ((c : Thread nD τ).loc main_arg2) : S600000.Idx → BitVec 32) (ix1 e)

def feat (n : Fin 50000) (f : Fin 128) : EReal := (m ((c : Thread nD τ).loc main_arg0) : S50000x128.Idx → EReal) (ix2 n f)

def dOut (n : Fin 50000) : EReal := degOut m c (ix1 n)

def dIn (n : Fin 50000) : EReal := degIn m c (ix1 n)
def W1 (k j : Fin 128) : EReal := (m ((c : Thread nD τ).loc main_arg3) : S128x128.Idx → EReal) (ix2 k j)
def b1 (j : Fin 128) : EReal := (m ((c : Thread nD τ).loc main_arg4) : S128.Idx → EReal) (ix1 j)
def W2 (k j : Fin 128) : EReal := (m ((c : Thread nD τ).loc main_arg5) : S128x128.Idx → EReal) (ix2 k j)
def b2 (j : Fin 128) : EReal := (m ((c : Thread nD τ).loc main_arg6) : S128.Idx → EReal) (ix1 j)
def W3 (k : Fin 128) (j : Fin 16) : EReal := (m ((c : Thread nD τ).loc main_arg7) : S128x16.Idx → EReal) (ix2 k j)
def b3 (j : Fin 16) : EReal := (m ((c : Thread nD τ).loc main_arg8) : S16.Idx → EReal) (ix1 j)

def srcP (e : Fin 600064) : BitVec 32 := (V10 m c main_v20 : S600064x1.Idx → BitVec 32) (ix2 e 0)
def dstP (e : Fin 600064) : BitVec 32 := (V10 m c main_v22 : S1x600064.Idx → BitVec 32) (ix2 0 e)
def featP (n : Fin 51200) (f : Fin 128) : EReal := (V10 m c main_v23 : S51200x128.Idx → EReal) (ix2 n f)
def dOutP (n : Fin 51200) : EReal := (V10 m c main_v16 : S51200x1.Idx → EReal) (ix2 n 0)
def dInP (n : Fin 51200) : EReal := (V10 m c main_v18 : S51200x1.Idx → EReal) (ix2 n 0)

theorem srcP_eq (srcF : Fin 600000 → Fin 50000)
    (hsrc : ∀ e : Fin 600000, (m ((c : Thread nD τ).loc main_arg1) : S600000.Idx → BitVec 32) (ix1 e) = BitVec.ofNat 32 (srcF e).val)
    (e : Fin 600064) :
    srcP m c e = if h' : e.val < 600000 then BitVec.ofNat 32 (srcF ⟨e.val, h'⟩).val else 4294967295#32 := by
  unfold srcP
  rw [V10_v20_apply]
  by_cases h' : e.val < 600000
  · rw [dif_pos h', dif_pos h', hsrc]
  · rw [dif_neg h', dif_neg h']

theorem dstP_eq (e : Fin 600064) :
    dstP m c e = if h' : e.val < 600000 then dstW m c ⟨e.val, h'⟩ else 4294967295#32 := by
  unfold dstP dstW
  exact V10_v22_apply m c e

theorem featP_eq (n : Fin 51200) (h' : n.val < 50000) (f : Fin 128) : featP m c n f = feat m c ⟨n.val, h'⟩ f := by
  unfold featP feat
  rw [V10_v23_apply, dif_pos h']

theorem dOutP_eq (n : Fin 51200) (h' : n.val < 50000) : dOutP m c n = dOut m c ⟨n.val, h'⟩ := by
  unfold dOutP dOut
  rw [V10_v16_apply, dif_pos h']

theorem dInP_eq (n : Fin 51200) (h' : n.val < 50000) : dInP m c n = dIn m c ⟨n.val, h'⟩ := by
  unfold dInP dIn
  rw [V10_v18_apply, dif_pos h']

variable (o : Outs (F := Ideal))

def G0 (e : Fin 600064) (f : Fin 128) : EReal := (o 11 main_v24 c : S600064x128.Idx → EReal) (ix2 e f)
def G2 (e : Fin 600064) (f : Fin 128) : EReal := (o 14 main_v27 c : S600064x128.Idx → EReal) (ix2 e f)
def G4 (e : Fin 600064) (f : Fin 128) : EReal := (o 17 main_v30 c : S600064x128.Idx → EReal) (ix2 e f)

def A1 (n : Fin 51200) (j : Fin 128) : EReal := (o 13 main_v26 c : S51200x128.Idx → EReal) (ix2 n j)
def A3 (n : Fin 51200) (j : Fin 128) : EReal := (o 16 main_v29 c : S51200x128.Idx → EReal) (ix2 n j)
def A5 (n : Fin 51200) (j : Fin 16) : EReal := (o 19 main_v32 c : S51200x16.Idx → EReal) (ix2 n j)

theorem k_core
    (H0 : ∀ (e : Fin 600064) (f : Fin 128), (o 11 main_v24 c : S600064x128.Idx → EReal) (ix2 e f)
      = Cert.Spec.gatherC (fun e => (V10 m c main_v20 : S600064x1.Idx → BitVec 32) (ix2 e 0))
          (fun n f => (V10 m c main_v23 : S51200x128.Idx → EReal) (ix2 n f))
          (fun n => (V10 m c main_v16 : S51200x1.Idx → EReal) (ix2 n 0)) e f)
    (H1 : ∀ (n : Fin 51200) (j : Fin 128), (o 13 main_v26 c : S51200x128.Idx → EReal) (ix2 n j)
      = max (Cert.Spec.projC
          (Cert.Spec.aggC (fun e => (V12 m o c main_v22 : S1x600064.Idx → BitVec 32) (ix2 0 e))
            (fun e k => (V12 m o c main_v24 : S600064x128.Idx → EReal) (ix2 e k)))
          (fun n => (V12 m o c main_v18 : S51200x1.Idx → EReal) (ix2 n 0))
          (fun k j => (V12 m o c main_arg3 : S128x128.Idx → EReal) (ix2 k j))
          (fun j => (V12 m o c main_v25 : S1x128.Idx → EReal) (ix2 0 j)) n j) 0)
    (H2 : ∀ (e : Fin 600064) (f : Fin 128), (o 14 main_v27 c : S600064x128.Idx → EReal) (ix2 e f)
      = Cert.Spec.gatherC (fun e => (V13 m o c main_v20 : S600064x1.Idx → BitVec 32) (ix2 e 0))
          (fun n f => (V13 m o c main_v26 : S51200x128.Idx → EReal) (ix2 n f))
          (fun n => (V13 m o c main_v16 : S51200x1.Idx → EReal) (ix2 n 0)) e f)
    (H3 : ∀ (n : Fin 51200) (j : Fin 128), (o 16 main_v29 c : S51200x128.Idx → EReal) (ix2 n j)
      = max (Cert.Spec.projC
          (Cert.Spec.aggC (fun e => (V15 m o c main_v22 : S1x600064.Idx → BitVec 32) (ix2 0 e))
            (fun e k => (V15 m o c main_v27 : S600064x128.Idx → EReal) (ix2 e k)))
          (fun n => (V15 m o c main_v18 : S51200x1.Idx → EReal) (ix2 n 0))
          (fun k j => (V15 m o c main_arg5 : S128x128.Idx → EReal) (ix2 k j))
          (fun j => (V15 m o c main_v28 : S1x128.Idx → EReal) (ix2 0 j)) n j) 0)
    (H4 : ∀ (e : Fin 600064) (f : Fin 128), (o 17 main_v30 c : S600064x128.Idx → EReal) (ix2 e f)
      = Cert.Spec.gatherC (fun e => (V16 m o c main_v20 : S600064x1.Idx → BitVec 32) (ix2 e 0))
          (fun n f => (V16 m o c main_v29 : S51200x128.Idx → EReal) (ix2 n f))
          (fun n => (V16 m o c main_v16 : S51200x1.Idx → EReal) (ix2 n 0)) e f)
    (H5 : ∀ (n : Fin 51200) (j : Fin 16), (o 19 main_v32 c : S51200x16.Idx → EReal) (ix2 n j)
      = Cert.Spec.projC
          (Cert.Spec.aggC (fun e => (V18 m o c main_v22 : S1x600064.Idx → BitVec 32) (ix2 0 e))
            (fun e k => (V18 m o c main_v30 : S600064x128.Idx → EReal) (ix2 e k)))
          (fun n => (V18 m o c main_v18 : S51200x1.Idx → EReal) (ix2 n 0))
          (fun k j => (V18 m o c main_arg7 : S128x16.Idx → EReal) (ix2 k j))
          (fun j => (V18 m o c main_v31 : S1x16.Idx → EReal) (ix2 0 j)) n j)
    (srcF : Fin 600000 → Fin 50000)
    (hsrc : ∀ e : Fin 600000, (m ((c : Thread nD τ).loc main_arg1) : S600000.Idx → BitVec 32) (ix1 e) = BitVec.ofNat 32 (srcF e).val)
    (n : Fin 50000) (j : Fin 16) :
    (V20 m o c main_v33 : S50000x16.Idx → EReal) (ix2 n j)
      = Cert.Spec.layerR false srcF (dstW m c)
          (Cert.Spec.layerR true srcF (dstW m c)
            (Cert.Spec.layerR true srcF (dstW m c) (feat m c) (dOut m c) (dIn m c) (W1 m c) (b1 m c))
            (dOut m c) (dIn m c) (W2 m c) (b2 m c))
          (dOut m c) (dIn m c) (W3 m c) (b3 m c) n j := by
  have hG0 : ∀ e f, G0 c o e f = Cert.Spec.gatherC (srcP m c) (featP m c) (dOutP m c) e f := H0
  have hA1 : ∀ n j, A1 c o n j
      = max (Cert.Spec.projC (Cert.Spec.aggC (dstP m c) (G0 c o)) (dInP m c) (W1 m c) (b1 m c) n j) 0 := by
    intro n j
    unfold A1
    rw [H1 n j]
    simp only [keep12 m o c main_v22 (by decide), V12_v24 m o c, keep12 m o c main_v18 (by decide),
      keep12 m o c main_arg3 (by decide), V12_v25_apply m o c, V10_arg3 m c, V10_arg4 m c]
    rfl
  have hG2 : ∀ e f, G2 c o e f = Cert.Spec.gatherC (srcP m c) (A1 c o) (dOutP m c) e f := by
    intro e f
    unfold G2
    rw [H2 e f]
    simp only [keep13 m o c main_v20 (by decide), V13_v26 m o c, keep13 m o c main_v16 (by decide)]
    rfl
  have hA3 : ∀ n j, A3 c o n j
      = max (Cert.Spec.projC (Cert.Spec.aggC (dstP m c) (G2 c o)) (dInP m c) (W2 m c) (b2 m c) n j) 0 := by
    intro n j
    unfold A3
    rw [H3 n j]
    simp only [keep15 m o c main_v22 (by decide), V15_v27 m o c, keep15 m o c main_v18 (by decide),
      keep15 m o c main_arg5 (by decide), V15_v28_apply m o c, V10_arg5 m c, V10_arg6 m c]
    rfl
  have hG4 : ∀ e f, G4 c o e f = Cert.Spec.gatherC (srcP m c) (A3 c o) (dOutP m c) e f := by
    intro e f
    unfold G4
    rw [H4 e f]
    simp only [keep16 m o c main_v20 (by decide), V16_v29 m o c, keep16 m o c main_v16 (by decide)]
    rfl
  have hA5 : ∀ n j, A5 c o n j
      = Cert.Spec.projC (Cert.Spec.aggC (dstP m c) (G4 c o)) (dInP m c) (W3 m c) (b3 m c) n j := by
    intro n j
    unfold A5
    rw [H5 n j]
    simp only [keep18 m o c main_v22 (by decide), V18_v30 m o c, keep18 m o c main_v18 (by decide),
      keep18 m o c main_arg7 (by decide), V18_v31_apply m o c, V10_arg7 m c, V10_arg8 m c]
    rfl
  rw [V20_v33_apply m o c n j]
  exact Cert.Spec.net_eq srcF (dstW m c) (feat m c) (dOut m c) (dIn m c) (W1 m c) (W2 m c) (b1 m c) (b2 m c) (W3 m c) (b3 m c)
    (srcP m c) (dstP m c) (featP m c) (dOutP m c) (dInP m c) (G0 c o) (G2 c o) (G4 c o) (A1 c o) (A3 c o) (A5 c o)
    (srcP_eq m c srcF hsrc) (dstP_eq m c) (featP_eq m c) (dOutP_eq m c) (dInP_eq m c)
    hG0 hA1 hG2 hA3 hG4 hA5 n j

end Cert.KernelIdeal.Fr

end
-- ==== Proof.RefSideA.lean ====
import Idealize.ShloMosaic.PureOps.Ideal
import Idealize.ShloMosaic.Lib.ValueIdx
import Idealize.ShloMosaic.Lib.StableHlo.Predicate

noncomputable section

open scoped BigOperators

namespace Cert.ReferenceIdeal.RefV

open Idealize.ShloMosaic Idealize.ShloMosaic.ValueIdx

theorem toInt_eq_natCast_iff (w : BitVec 32) (n : ℕ) (hn : n < 2 ^ 31) :
    w.toInt = (n : ℤ) ↔ w = BitVec.ofNat 32 n := by
  rw [← StableHlo.Predicate.toInt_ofNat_small n hn, BitVec.toInt_inj]

theorem select_wrap_ofNat (k : ℕ) (hk : k < 2 ^ 31) (c : BitVec 32) :
    Scalar.select (IntOp.cmpi .slt (BitVec.ofNat 32 k) 0#32) (IntOp.addi (BitVec.ofNat 32 k) c) (BitVec.ofNat 32 k)
      = BitVec.ofNat 32 k := by
  unfold Scalar.select
  refine if_neg fun h => ?_
  have := (StableHlo.Predicate.slt_ofNat_iff k 0 hk (by decide)).mp h
  omega

theorem ix2_eq_iff {n0 n1 : ℕ} (a a' : Fin n0) (b b' : Fin n1) : ix2 a b = ix2 a' b' ↔ a = a' ∧ b = b' :=
  ⟨fun h => ⟨congrFun h 0, congrFun h 1⟩, fun ⟨ha, hb⟩ => by rw [ha, hb]⟩

section Take
variable {α : Type}

abbrev rowsTake (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowsTake_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsTake N E C wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (rowsTake N E C wf).start (ix2 e f) idx 0 + (rowsTake N E C wf).batchCoord (ix2 e f) 0
        + (rowsTake N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTake N E C wf).startIndexMap from List.mem_singleton.mpr rfl)]
    have hsi : (rowsTake N E C wf).siIdx (ix2 e f) ⟨List.idxOf (0 : Fin 2) (rowsTake N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsTake N E C wf).start (ix2 e f) idx 1 + (rowsTake N E C wf).batchCoord (ix2 e f) 1
        + (rowsTake N E C wf).offCoord (ix2 e f) 1 = f.val
    rw [GatherDims.batchCoord_eq_zero _ _ _ List.not_mem_nil]
    have hs : (rowsTake N E C wf).start (ix2 e f) idx 1 = 0 := by
      unfold GatherDims.start
      rw [dif_neg (show ¬(1 : Fin 2) ∈ (rowsTake N E C wf).startIndexMap from
        fun h => absurd (List.mem_singleton.mp h) (show ¬((1 : Fin 2) = 0) by decide))]
    have ho : (rowsTake N E C wf).offCoord (ix2 e f) 1 = f.val := by
      unfold GatherDims.offCoord
      rw [dif_pos (show (1 : Fin 2) ∈ (rowsTake N E C wf).sKept from
        (GatherDims.mem_sKept _ _).mpr ⟨fun h => absurd (List.mem_singleton.mp h) (show ¬((1 : Fin 2) = 0) by decide), List.not_mem_nil⟩)]
      rfl
    rw [hs, ho]
    omega

end Take

abbrev rowsAdd (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatter_mem_sKept {s si u : Shape} (d : ScatterDims s si u) (a : Fin s.rank) :
    a ∈ d.sKept ↔ a ∉ d.insertedWindowDims := by
  simp [ScatterDims.sKept, Shape.kept, List.mem_filter, List.mem_finRange]

section Add
variable {N E C w : ℕ} (wf : ScatterDims.WF ⟨2, ![N, C]⟩ ⟨2, ![E, 1]⟩ ⟨2, ![E, C]⟩ [1] [0] [0] 1)
  (idx : IVec ⟨2, ![E, 1]⟩ w) (e : Fin E) (f : Fin C)

theorem rowsAdd_start0 : (rowsAdd N E C wf).start (ix2 e f) idx 0 = (idx (ix2 e (0 : Fin 1))).toInt := by
  unfold ScatterDims.start
  rw [dif_pos (show (0 : Fin 2) ∈ (rowsAdd N E C wf).scatterDimsToOperandDims from List.mem_singleton.mpr rfl)]
  have hsi : (rowsAdd N E C wf).siIdx (ix2 e f) ⟨List.idxOf (0 : Fin 2) (rowsAdd N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowsAdd_start1 : (rowsAdd N E C wf).start (ix2 e f) idx 1 = 0 := by
  unfold ScatterDims.start
  rw [dif_neg (show ¬(1 : Fin 2) ∈ (rowsAdd N E C wf).scatterDimsToOperandDims from
    fun h => absurd (List.mem_singleton.mp h) (show ¬((1 : Fin 2) = 0) by decide))]

theorem rowsAdd_window0 : (rowsAdd N E C wf).window (ix2 e f) 0 = 0 := by
  unfold ScatterDims.window
  rw [dif_neg (show ¬(0 : Fin 2) ∈ (rowsAdd N E C wf).sKept from
    fun h => (scatter_mem_sKept _ _).mp h (List.mem_singleton.mpr rfl))]

theorem rowsAdd_window1 : (rowsAdd N E C wf).window (ix2 e f) 1 = f.val := by
  unfold ScatterDims.window
  rw [dif_pos (show (1 : Fin 2) ∈ (rowsAdd N E C wf).sKept from
    (scatter_mem_sKept _ _).mpr fun h => absurd (List.mem_singleton.mp h) (show ¬((1 : Fin 2) = 0) by decide))]
  rfl

theorem rowsAdd_resultIdx :
    (rowsAdd N E C wf).resultIdx? (ix2 e f) idx =
      if h : 0 ≤ (idx (ix2 e (0 : Fin 1))).toInt ∧ (idx (ix2 e (0 : Fin 1))).toInt < (N : ℤ) then
        some (ix2 ⟨(idx (ix2 e (0 : Fin 1))).toInt.toNat, by omega⟩ f)
      else none := by
  unfold ScatterDims.resultIdx?
  by_cases h : 0 ≤ (idx (ix2 e (0 : Fin 1))).toInt ∧ (idx (ix2 e (0 : Fin 1))).toInt < (N : ℤ)
  · have hall : ∀ a : Fin 2, 0 ≤ (rowsAdd N E C wf).start (ix2 e f) idx a + (rowsAdd N E C wf).window (ix2 e f) a ∧
        (rowsAdd N E C wf).start (ix2 e f) idx a + (rowsAdd N E C wf).window (ix2 e f) a
          < ((⟨2, ![N, C]⟩ : Shape).size a : ℤ) := fun a => by
      match a with
      | ⟨0, _⟩ =>
        show 0 ≤ (rowsAdd N E C wf).start (ix2 e f) idx 0 + ((rowsAdd N E C wf).window (ix2 e f) 0 : ℕ) ∧
          (rowsAdd N E C wf).start (ix2 e f) idx 0 + ((rowsAdd N E C wf).window (ix2 e f) 0 : ℕ) < (N : ℤ)
        rw [rowsAdd_start0, rowsAdd_window0]; omega
      | ⟨1, _⟩ =>
        show 0 ≤ (rowsAdd N E C wf).start (ix2 e f) idx 1 + ((rowsAdd N E C wf).window (ix2 e f) 1 : ℕ) ∧
          (rowsAdd N E C wf).start (ix2 e f) idx 1 + ((rowsAdd N E C wf).window (ix2 e f) 1 : ℕ) < (C : ℤ)
        rw [rowsAdd_start1, rowsAdd_window1]; have := f.isLt; omega
    rw [dif_pos hall, dif_pos h]
    congr 1
    funext a
    refine Fin.ext ?_
    match a with
    | ⟨0, _⟩ =>
      show ((rowsAdd N E C wf).start (ix2 e f) idx 0 + ((rowsAdd N E C wf).window (ix2 e f) 0 : ℕ)).toNat = _
      rw [rowsAdd_start0, rowsAdd_window0]; simp
    | ⟨1, _⟩ =>
      show ((rowsAdd N E C wf).start (ix2 e f) idx 1 + ((rowsAdd N E C wf).window (ix2 e f) 1 : ℕ)).toNat = f.val
      rw [rowsAdd_start1, rowsAdd_window1]; simp
  · rw [dif_neg h, dif_neg]
    intro hall
    have h0 := hall 0
    have e0 : (rowsAdd N E C wf).start (ix2 e f) idx 0 + ((rowsAdd N E C wf).window (ix2 e f) 0 : ℕ)
        = (idx (ix2 e (0 : Fin 1))).toInt := by
      rw [rowsAdd_start0, rowsAdd_window0]; simp
    have hN : (((⟨2, ![N, C]⟩ : Shape).size 0 : ℕ) : ℤ) = (N : ℤ) := rfl
    rw [e0, hN] at h0
    exact h h0

theorem rowsAdd_resultIdx_eq_some_iff (f' : Fin C) (n : Fin N) :
    (rowsAdd N E C wf).resultIdx? (ix2 e f') idx = some (ix2 n f)
      ↔ (idx (ix2 e (0 : Fin 1))).toInt = (n.val : ℤ) ∧ f' = f := by
  rw [rowsAdd_resultIdx]
  have hn := n.isLt
  split
  · rename_i h
    rw [Option.some.injEq, ix2_eq_iff, Fin.ext_iff]
    show (idx (ix2 e (0 : Fin 1))).toInt.toNat = n.val ∧ f' = f ↔ _
    constructor
    · rintro ⟨h1, h2⟩; exact ⟨by omega, h2⟩
    · rintro ⟨h1, h2⟩; exact ⟨by omega, h2⟩
  · rename_i h
    constructor
    · intro h'; exact absurd h' (by simp)
    · rintro ⟨h1, _⟩; exact absurd ⟨by omega, by omega⟩ h

theorem rowsAdd_apply (x : (⟨2, ![N, C]⟩ : Shape).Idx → EReal) (upd : (⟨2, ![E, C]⟩ : Shape).Idx → EReal) (n : Fin N) :
    Ideal.hostScatterAdd (rowsAdd N E C wf) x idx upd (ix2 n f)
      = x (ix2 n f) + ∑ e' ∈ Finset.univ.filter (fun e' : Fin E => (idx (ix2 e' (0 : Fin 1))).toInt = (n.val : ℤ)),
          upd (ix2 e' f) := by
  unfold Ideal.hostScatterAdd
  congr 1
  rw [Finset.sum_filter, sum_idx2, Finset.sum_filter]
  refine Finset.sum_congr rfl fun e' _ => ?_
  simp only [rowsAdd_resultIdx_eq_some_iff]
  by_cases he : (idx (ix2 e' (0 : Fin 1))).toInt = (n.val : ℤ)
  · simp [he]
  · simp [he]

end Add

end Cert.ReferenceIdeal.RefV

end
-- ==== Proof.RefSideB.lean ====
import proofs.«404853_j60129542534_1_alg».proof.Proof.Gen.ReferenceIdeal.Run
import proofs.«404853_j60129542534_1_alg».proof.Proof.Gen.ReferenceIdeal.Read
import proofs.«404853_j60129542534_1_alg».proof.Proof.Spec
import proofs.«404853_j60129542534_1_alg».proof.Proof.RefSideA

noncomputable section

open scoped BigOperators

namespace Cert.ReferenceIdeal.RefV

open Cert.ReferenceIdeal Cert.ReferenceIdeal.Gen Idealize.ShloMosaic Idealize.ShloMosaic.TcCoe Idealize.SL.Sem
  Idealize.ShloMosaic.StableHlo Idealize.ShloMosaic.ValueIdx

theorem take_dims : gather_S50000x128_S600000x1_S600000x128_1_0_n_n_0_1_1128
    = rowsTake 50000 600000 128 gather_S50000x128_S600000x1_S600000x128_1_0_n_n_0_1_1128_wf := rfl

theorem add_dims : scatter_S50000x128_S600000x1_S600000x128_1_0_0_1
    = rowsAdd 50000 600000 128 scatter_S50000x128_S600000x1_S600000x128_1_0_0_1_wf := rfl

theorem col_apply (x : S600000.Idx → BitVec 32) (e : Fin 600000) :
    broadcastInDim S600000x1 ![0] bcast_S600000_S600000x1_0 x (ix2 e (0 : Fin 1)) = x (ix1 e) :=
  broadcastInDim_apply _ bcast_S600000_S600000x1_0 x _ (ix1 e) (fun a => match a with
    | ⟨0, _⟩ => by show e.val = if (600000 : Nat) = 1 then 0 else e.val; rw [if_neg (by decide)])

theorem take_stage (hs : S50000x128.Idx → EReal) (x1 : S600000.Idx → BitVec 32) (srcF : Fin 600000 → Fin 50000)
    (hsrc : ∀ e : Fin 600000, x1 (ix1 e) = BitVec.ofNat 32 (srcF e).val) (e : Fin 600000) (f : Fin 128) :
    Host.gather gather_S50000x128_S600000x1_S600000x128_1_0_n_n_0_1_1128 hs
        (broadcastInDim S600000x1 ![0] bcast_S600000_S600000x1_0
          (select (cmpi .slt x1 (broadcastInDim S600000 ![] bcast_S_S600000 (constantI S_ 32 0#32)))
            (addi x1 (broadcastInDim S600000 ![] bcast_S_S600000 (constantI S_ 32 50000#32))) x1)) (ix2 e f)
      = hs (ix2 (srcF e) f) := by
  have hlt := (srcF e).isLt
  have hw : (select (cmpi .slt x1 (broadcastInDim S600000 ![] bcast_S_S600000 (constantI S_ 32 0#32)))
            (addi x1 (broadcastInDim S600000 ![] bcast_S_S600000 (constantI S_ 32 50000#32))) x1) (ix1 e) = BitVec.ofNat 32 (srcF e).val := by
    show Scalar.select (IntOp.cmpi .slt (x1 (ix1 e)) 0#32) (IntOp.addi (x1 (ix1 e)) 50000#32) (x1 (ix1 e)) = _
    rw [hsrc e]
    exact select_wrap_ofNat _ (by omega) _
  rw [take_dims, rowsTake_apply (by decide)]
  refine congrArg hs ((ix2_eq_iff _ _ _ _).mpr ⟨Fin.ext ?_, rfl⟩)
  show min (broadcastInDim S600000x1 ![0] bcast_S600000_S600000x1_0
      (select (cmpi .slt x1 (broadcastInDim S600000 ![] bcast_S_S600000 (constantI S_ 32 0#32)))
            (addi x1 (broadcastInDim S600000 ![] bcast_S_S600000 (constantI S_ 32 50000#32))) x1) (ix2 e (0 : Fin 1))).toInt.toNat (50000 - 1) = (srcF e).val
  rw [col_apply, hw, StableHlo.Predicate.toInt_ofNat_small _ (by omega)]
  omega

theorem add_stage (upd : S600000x128.Idx → EReal) (x2 : S600000.Idx → BitVec 32) (n : Fin 50000) (f : Fin 128) :
    Host.scatterAdd (F := Ideal) (φ := .f32) scatter_S50000x128_S600000x1_S600000x128_1_0_0_1
        (broadcastInDim S50000x128 ![] bcast_S_S50000x128 (constant (F := Ideal) S_ .f32 0x00000000#32))
        (broadcastInDim S600000x1 ![0] bcast_S600000_S600000x1_0 x2) upd (ix2 n f)
      = ∑ e ∈ Finset.univ.filter (fun e : Fin 600000 => x2 (ix1 e) = BitVec.ofNat 32 n.val), upd (ix2 e f) := by
  have hn := n.isLt
  show Ideal.hostScatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 x2) upd (ix2 n f) = _
  rw [add_dims, rowsAdd_apply]
  have hz : broadcastInDim S50000x128 ![] bcast_S_S50000x128 (constant (F := Ideal) S_ .f32 0x00000000#32) (ix2 n f)
      = (0 : EReal) := Ideal.ofBits_zero_f32
  rw [hz, zero_add]
  refine Finset.sum_congr (Finset.filter_congr fun e _ => ?_) fun _ _ => rfl
  rw [col_apply]
  exact toInt_eq_natCast_iff _ _ (by omega)

section Layer
variable {D : ℕ} (srcF : Fin 600000 → Fin 50000) (x1 x2 : S600000.Idx → BitVec 32)
  (hsrc : ∀ e : Fin 600000, x1 (ix1 e) = BitVec.ofNat 32 (srcF e).val)
  (h : S50000x128.Idx → EReal) (dO dI : S50000.Idx → EReal)
  (hs : S50000x128.Idx → EReal) (hhs : ∀ (r : Fin 50000) (k : Fin 128), hs (ix2 r k) = h (ix2 r k) * dO (ix1 r))
  (agg : S50000x128.Idx → EReal)
  (hagg : agg = Host.scatterAdd (F := Ideal) (φ := .f32) scatter_S50000x128_S600000x1_S600000x128_1_0_0_1
      (broadcastInDim S50000x128 ![] bcast_S_S50000x128 (constant (F := Ideal) S_ .f32 0x00000000#32))
      (broadcastInDim S600000x1 ![0] bcast_S600000_S600000x1_0 x2)
      (Host.gather gather_S50000x128_S600000x1_S600000x128_1_0_n_n_0_1_1128 hs
        (broadcastInDim S600000x1 ![0] bcast_S600000_S600000x1_0
          (select (cmpi .slt x1 (broadcastInDim S600000 ![] bcast_S_S600000 (constantI S_ 32 0#32)))
            (addi x1 (broadcastInDim S600000 ![] bcast_S_S600000 (constantI S_ 32 50000#32))) x1))))
  (sc : S50000x128.Idx → EReal) (hsc : ∀ (r : Fin 50000) (k : Fin 128), sc (ix2 r k) = agg (ix2 r k) * dI (ix1 r))
  (W : Fin 128 → Fin D → EReal) (b : Fin D → EReal) (n : Fin 50000) (j : Fin D)

include hsrc hhs hagg hsc in

theorem scaled_read (k : Fin 128) :
    sc (ix2 n k) = (∑ e ∈ Finset.univ.filter (fun e : Fin 600000 => x2 (ix1 e) = BitVec.ofNat 32 n.val),
        h (ix2 (srcF e) k) * dO (ix1 (srcF e))) * dI (ix1 n) := by
  rw [hsc, hagg, add_stage]
  refine congrArg (fun s => s * dI (ix1 n)) (Finset.sum_congr rfl fun e _ => ?_)
  rw [take_stage hs x1 srcF hsrc, hhs]

include hsrc hhs hagg hsc in

theorem layer_relu :
    max ((∑ k : Fin 128, sc (ix2 n k) * W k j) + b j) 0
      = Cert.Spec.layerR true srcF (fun e => x2 (ix1 e)) (fun r f => h (ix2 r f)) (fun r => dO (ix1 r))
          (fun r => dI (ix1 r)) W b n j := by
  simp only [scaled_read srcF x1 x2 hsrc h dO dI hs hhs agg hagg sc hsc n]
  rfl

include hsrc hhs hagg hsc in

theorem layer_lin :
    (∑ k : Fin 128, sc (ix2 n k) * W k j) + b j
      = Cert.Spec.layerR false srcF (fun e => x2 (ix1 e)) (fun r f => h (ix2 r f)) (fun r => dO (ix1 r))
          (fun r => dI (ix1 r)) W b n j := by
  simp only [scaled_read srcF x1 x2 hsrc h dO dI hs hhs agg hagg sc hsc n]
  rfl

end Layer

end Cert.ReferenceIdeal.RefV

end
-- ==== Proof.RefSide.lean ====
import proofs.«404853_j60129542534_1_alg».proof.Proof.Gen.ReferenceIdeal.Run
import proofs.«404853_j60129542534_1_alg».proof.Proof.Gen.ReferenceIdeal.Read
import proofs.«404853_j60129542534_1_alg».proof.Proof.Spec
import proofs.«404853_j60129542534_1_alg».proof.Proof.RefSideA
import proofs.«404853_j60129542534_1_alg».proof.Proof.RefSideB

noncomputable section

open scoped BigOperators

namespace Cert.ReferenceIdeal.RefV

open Cert.ReferenceIdeal Cert.ReferenceIdeal.Gen Idealize.ShloMosaic Idealize.ShloMosaic.TcCoe Idealize.SL.Sem
  Idealize.ShloMosaic.StableHlo Idealize.ShloMosaic.ValueIdx

section Layers
variable (x0 : (⟨S50000x128, .f32⟩ : BufTy).Contents (Elt Ideal)) (x1 x2 : (⟨S600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x16, .f32⟩ : BufTy).Contents (Elt Ideal)) (x8 : (⟨S16, .f32⟩ : BufTy).Contents (Elt Ideal))
  (srcF : Fin 600000 → Fin 50000) (hsrc : ∀ e : Fin 600000, x1 (ix1 e) = BitVec.ofNat 32 (srcF e).val)

include hsrc in

theorem layer1 (n : Fin 50000) (j : Fin 128) :
    Read.val_main_v33 (F := Ideal) x0 x1 x2 x3 x4 (ix2 n j)
      = Cert.Spec.layerR true srcF (fun e => x2 (ix1 e)) (fun r f => x0 (ix2 r f))
          (fun r => Read.val_main_v10 (F := Ideal) x1 (ix1 r)) (fun r => Read.val_main_v25 (F := Ideal) x2 (ix1 r))
          (fun k j => x3 (ix2 k j)) (fun j => x4 (ix1 j)) n j := by
  rw [Read.val_main_v33_apply, Read.val_main_v32_apply, Read.val_main_v29_apply, Read.val_main_v31_apply,
    Read.val_main_v30_apply, Read.val_main_call2_v0_apply, Read.val_main_call2_cst_apply]
  have el : ∀ k : Fin 128, Read.lidx_main_v29 (ix2 n j) k = ix2 n k := fun k => funext fun a => Fin.ext (by
    match a with
    | ⟨0, _⟩ => rfl
    | ⟨1, _⟩ => rfl)
  have er : ∀ k : Fin 128, Read.ridx_main_v29 (ix2 n j) k = ix2 k j := fun k => funext fun a => Fin.ext (by
    match a with
    | ⟨0, _⟩ => rfl
    | ⟨1, _⟩ => rfl)
  have eb : Read.idx_main_v30 (Read.idx_main_v31 (ix2 n j)) = ix1 j := funext fun a => Fin.ext (by
    match a with
    | ⟨0, _⟩ => rfl)
  refine Eq.trans ?_ (layer_relu srcF x1 x2 hsrc x0 (Read.val_main_v10 (F := Ideal) x1)
    (Read.val_main_v25 (F := Ideal) x2) (Read.val_main_v13 (F := Ideal) x0 x1) ?_
    (Read.val_main_v23 (F := Ideal) x0 x1 x2) rfl (Read.val_main_v28 (F := Ideal) x0 x1 x2) ?_
    (fun k j => x3 (ix2 k j)) (fun j => x4 (ix1 j)) n j)
  · rw [eb]
    simp only [Ideal.maximumf_def, Ideal.addf_def, Ideal.ofBits_def, Ideal.ofBits_zero_f32]
    refine congrArg₂ max (congrArg₂ (· + ·) (Finset.sum_congr rfl fun k _ => ?_) rfl) rfl
    rw [el k, er k]
  · intro r k
    rw [Read.val_main_v13_apply, Read.val_main_v12_apply, Read.val_main_v11_apply]
    have ei : Read.idx_main_v11 (Read.idx_main_v12 (ix2 r k)) = ix1 r := funext fun a => Fin.ext (by
      match a with
      | ⟨0, _⟩ => rfl)
    rw [ei]
    rfl
  · intro r k
    rw [Read.val_main_v28_apply, Read.val_main_v27_apply, Read.val_main_v26_apply]
    have ei : Read.idx_main_v26 (Read.idx_main_v27 (ix2 r k)) = ix1 r := funext fun a => Fin.ext (by
      match a with
      | ⟨0, _⟩ => rfl)
    rw [ei]
    rfl

include hsrc in

theorem layer2 (n : Fin 50000) (j : Fin 128) :
    Read.val_main_v67 (F := Ideal) x0 x1 x2 x3 x4 x5 x6 (ix2 n j)
      = Cert.Spec.layerR true srcF (fun e => x2 (ix1 e))
          (fun r f => Read.val_main_v33 (F := Ideal) x0 x1 x2 x3 x4 (ix2 r f))
          (fun r => Read.val_main_v44 (F := Ideal) x1 (ix1 r)) (fun r => Read.val_main_v59 (F := Ideal) x2 (ix1 r))
          (fun k j => x5 (ix2 k j)) (fun j => x6 (ix1 j)) n j := by
  rw [Read.val_main_v67_apply, Read.val_main_v66_apply, Read.val_main_v63_apply, Read.val_main_v65_apply,
    Read.val_main_v64_apply, Read.val_main_call5_v0_apply, Read.val_main_call5_cst_apply]
  have el : ∀ k : Fin 128, Read.lidx_main_v63 (ix2 n j) k = ix2 n k := fun k => funext fun a => Fin.ext (by
    match a with
    | ⟨0, _⟩ => rfl
    | ⟨1, _⟩ => rfl)
  have er : ∀ k : Fin 128, Read.ridx_main_v63 (ix2 n j) k = ix2 k j := fun k => funext fun a => Fin.ext (by
    match a with
    | ⟨0, _⟩ => rfl
    | ⟨1, _⟩ => rfl)
  have eb : Read.idx_main_v64 (Read.idx_main_v65 (ix2 n j)) = ix1 j := funext fun a => Fin.ext (by
    match a with
    | ⟨0, _⟩ => rfl)
  refine Eq.trans ?_ (layer_relu srcF x1 x2 hsrc (Read.val_main_v33 (F := Ideal) x0 x1 x2 x3 x4)
    (Read.val_main_v44 (F := Ideal) x1) (Read.val_main_v59 (F := Ideal) x2)
    (Read.val_main_v47 (F := Ideal) x0 x1 x2 x3 x4) ?_
    (Read.val_main_v57 (F := Ideal) x0 x1 x2 x3 x4) rfl (Read.val_main_v62 (F := Ideal) x0 x1 x2 x3 x4) ?_
    (fun k j => x5 (ix2 k j)) (fun j => x6 (ix1 j)) n j)
  · rw [eb]
    simp only [Ideal.maximumf_def, Ideal.addf_def, Ideal.ofBits_def, Ideal.ofBits_zero_f32]
    refine congrArg₂ max (congrArg₂ (· + ·) (Finset.sum_congr rfl fun k _ => ?_) rfl) rfl
    rw [el k, er k]
  · intro r k
    rw [Read.val_main_v47_apply, Read.val_main_v46_apply, Read.val_main_v45_apply]
    have ei : Read.idx_main_v45 (Read.idx_main_v46 (ix2 r k)) = ix1 r := funext fun a => Fin.ext (by
      match a with
      | ⟨0, _⟩ => rfl)
    rw [ei]
    rfl
  · intro r k
    rw [Read.val_main_v62_apply, Read.val_main_v61_apply, Read.val_main_v60_apply]
    have ei : Read.idx_main_v60 (Read.idx_main_v61 (ix2 r k)) = ix1 r := funext fun a => Fin.ext (by
      match a with
      | ⟨0, _⟩ => rfl)
    rw [ei]
    rfl

include hsrc in

theorem layer3 (n : Fin 50000) (j : Fin 16) :
    Read.val_main_v100 (F := Ideal) x0 x1 x2 x3 x4 x5 x6 x7 x8 (ix2 n j)
      = Cert.Spec.layerR false srcF (fun e => x2 (ix1 e))
          (fun r f => Read.val_main_v67 (F := Ideal) x0 x1 x2 x3 x4 x5 x6 (ix2 r f))
          (fun r => Read.val_main_v78 (F := Ideal) x1 (ix1 r)) (fun r => Read.val_main_v93 (F := Ideal) x2 (ix1 r))
          (fun k j => x7 (ix2 k j)) (fun j => x8 (ix1 j)) n j := by
  rw [Read.val_main_v100_apply, Read.val_main_v97_apply, Read.val_main_v99_apply, Read.val_main_v98_apply]
  have el : ∀ k : Fin 128, Read.lidx_main_v97 (ix2 n j) k = ix2 n k := fun k => funext fun a => Fin.ext (by
    match a with
    | ⟨0, _⟩ => rfl
    | ⟨1, _⟩ => rfl)
  have er : ∀ k : Fin 128, Read.ridx_main_v97 (ix2 n j) k = ix2 k j := fun k => funext fun a => Fin.ext (by
    match a with
    | ⟨0, _⟩ => rfl
    | ⟨1, _⟩ => rfl)
  have eb : Read.idx_main_v98 (Read.idx_main_v99 (ix2 n j)) = ix1 j := funext fun a => Fin.ext (by
    match a with
    | ⟨0, _⟩ => rfl)
  refine Eq.trans ?_ (layer_lin srcF x1 x2 hsrc (Read.val_main_v67 (F := Ideal) x0 x1 x2 x3 x4 x5 x6)
    (Read.val_main_v78 (F := Ideal) x1) (Read.val_main_v93 (F := Ideal) x2)
    (Read.val_main_v81 (F := Ideal) x0 x1 x2 x3 x4 x5 x6) ?_
    (Read.val_main_v91 (F := Ideal) x0 x1 x2 x3 x4 x5 x6) rfl (Read.val_main_v96 (F := Ideal) x0 x1 x2 x3 x4 x5 x6) ?_
    (fun k j => x7 (ix2 k j)) (fun j => x8 (ix1 j)) n j)
  · rw [eb]
    simp only [Ideal.addf_def]
    refine congrArg₂ (· + ·) (Finset.sum_congr rfl fun k _ => ?_) rfl
    rw [el k, er k]
  · intro r k
    rw [Read.val_main_v81_apply, Read.val_main_v80_apply, Read.val_main_v79_apply]
    have ei : Read.idx_main_v79 (Read.idx_main_v80 (ix2 r k)) = ix1 r := funext fun a => Fin.ext (by
      match a with
      | ⟨0, _⟩ => rfl)
    rw [ei]
    rfl
  · intro r k
    rw [Read.val_main_v96_apply, Read.val_main_v95_apply, Read.val_main_v94_apply]
    have ei : Read.idx_main_v94 (Read.idx_main_v95 (ix2 r k)) = ix1 r := funext fun a => Fin.ext (by
      match a with
      | ⟨0, _⟩ => rfl)
    rw [ei]
    rfl

end Layers

section Result
variable (m : (ℓ : Loc nD τ sig) → Buf (Elt Ideal) ℓ) (c : Dev nD)

def refDegOut : FVec Ideal S50000 .f32 :=
  Host.powf (F := Ideal)
    (maximumf (F := Ideal) (broadcastInDim S50000 ![] bcast_S_S50000 (id (constant (F := Ideal) S_ .f32 0x3F800000#32)))
      (Host.scatterAdd (F := Ideal) scatter_S50000_S600000x1_S600000_n_0_0_1
        (broadcastInDim S50000 ![] bcast_S_S50000 (constant (F := Ideal) S_ .f32 0x00000000#32))
        (broadcastInDim S600000x1 ![0] bcast_S600000_S600000x1_0 (m ((c.tc : Thread nD τ).loc main_arg1)))
        (broadcastInDim S600000 ![] bcast_S_S600000 (constant (F := Ideal) S_ .f32 0x3F800000#32))))
    (broadcastInDim S50000 ![] bcast_S_S50000 (constant (F := Ideal) S_ .f32 0xBF000000#32))

def refDegIn : FVec Ideal S50000 .f32 :=
  Host.powf (F := Ideal)
    (maximumf (F := Ideal) (broadcastInDim S50000 ![] bcast_S_S50000 (id (constant (F := Ideal) S_ .f32 0x3F800000#32)))
      (Host.scatterAdd (F := Ideal) scatter_S50000_S600000x1_S600000_n_0_0_1
        (broadcastInDim S50000 ![] bcast_S_S50000 (constant (F := Ideal) S_ .f32 0x00000000#32))
        (broadcastInDim S600000x1 ![0] bcast_S600000_S600000x1_0 (m ((c.tc : Thread nD τ).loc main_arg2)))
        (broadcastInDim S600000 ![] bcast_S_S600000 (constant (F := Ideal) S_ .f32 0x3F800000#32))))
    (broadcastInDim S50000 ![] bcast_S_S50000 (constant (F := Ideal) S_ .f32 0xBF000000#32))

abbrev dstW : Fin 600000 → BitVec 32 := fun e => ((m ((c.tc : Thread nD τ).loc main_arg2)) : S600000.Idx → BitVec 32) (ix1 e)

abbrev feat : Fin 50000 → Fin 128 → EReal := fun r f => ((m ((c.tc : Thread nD τ).loc main_arg0)) : S50000x128.Idx → EReal) (ix2 r f)
abbrev W1 : Fin 128 → Fin 128 → EReal := fun k j => ((m ((c.tc : Thread nD τ).loc main_arg3)) : S128x128.Idx → EReal) (ix2 k j)
abbrev b1 : Fin 128 → EReal := fun j => ((m ((c.tc : Thread nD τ).loc main_arg4)) : S128.Idx → EReal) (ix1 j)
abbrev W2 : Fin 128 → Fin 128 → EReal := fun k j => ((m ((c.tc : Thread nD τ).loc main_arg5)) : S128x128.Idx → EReal) (ix2 k j)
abbrev b2 : Fin 128 → EReal := fun j => ((m ((c.tc : Thread nD τ).loc main_arg6)) : S128.Idx → EReal) (ix1 j)
abbrev W3 : Fin 128 → Fin 16 → EReal := fun k j => ((m ((c.tc : Thread nD τ).loc main_arg7)) : S128x16.Idx → EReal) (ix2 k j)
abbrev b3 : Fin 16 → EReal := fun j => ((m ((c.tc : Thread nD τ).loc main_arg8)) : S16.Idx → EReal) (ix1 j)

abbrev dOut : Fin 50000 → EReal := fun r => refDegOut m c (ix1 r)
abbrev dIn : Fin 50000 → EReal := fun r => refDegIn m c (ix1 r)

theorem degOut_1 : Read.val_main_v10 (F := Ideal) (m ((c.tc : Thread nD τ).loc main_arg1)) = refDegOut m c := rfl
theorem degOut_2 : Read.val_main_v44 (F := Ideal) (m ((c.tc : Thread nD τ).loc main_arg1)) = refDegOut m c := rfl
theorem degOut_3 : Read.val_main_v78 (F := Ideal) (m ((c.tc : Thread nD τ).loc main_arg1)) = refDegOut m c := rfl

theorem degIn_1 : Read.val_main_v25 (F := Ideal) (m ((c.tc : Thread nD τ).loc main_arg2)) = refDegIn m c := rfl
theorem degIn_2 : Read.val_main_v59 (F := Ideal) (m ((c.tc : Thread nD τ).loc main_arg2)) = refDegIn m c := rfl
theorem degIn_3 : Read.val_main_v93 (F := Ideal) (m ((c.tc : Thread nD τ).loc main_arg2)) = refDegIn m c := rfl

theorem ref_result (srcF : Fin 600000 → Fin 50000)
    (hsrc : ∀ e : Fin 600000, ((m ((c.tc : Thread nD τ).loc main_arg1)) : S600000.Idx → BitVec 32) (ix1 e) = BitVec.ofNat 32 (srcF e).val)
    (n : Fin 50000) (j : Fin 16) :
    (Cert.ReferenceIdeal.Value.res_out0 (F := Ideal) m c : S50000x16.Idx → EReal) (ix2 n j)
      = Cert.Spec.layerR false srcF (dstW m c)
          (Cert.Spec.layerR true srcF (dstW m c)
            (Cert.Spec.layerR true srcF (dstW m c) (feat m c) (dOut m c) (dIn m c) (W1 m c) (b1 m c))
            (dOut m c) (dIn m c) (W2 m c) (b2 m c))
          (dOut m c) (dIn m c) (W3 m c) (b3 m c) n j := by
  have e1 : (fun r f => Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 r f))
      = Cert.Spec.layerR true srcF (dstW m c) (feat m c) (dOut m c) (dIn m c) (W1 m c) (b1 m c) :=
    funext fun r => funext fun f =>
      (layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) srcF hsrc r f).trans (by rw [degOut_1, degIn_1])
  have e2 : (fun r f => Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 r f))
      = Cert.Spec.layerR true srcF (dstW m c)
          (Cert.Spec.layerR true srcF (dstW m c) (feat m c) (dOut m c) (dIn m c) (W1 m c) (b1 m c))
          (dOut m c) (dIn m c) (W2 m c) (b2 m c) :=
    funext fun r => funext fun f =>
      (layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) srcF hsrc r f).trans (by rw [e1, degOut_2, degIn_2])
  show Cert.ReferenceIdeal.Value.res_main_v100 (F := Ideal) m c (ix2 n j) = _
  rw [Read.val_main_v100_eq]
  refine (layer3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) srcF hsrc n j).trans ?_
  rw [e2, degOut_3, degIn_3]

end Result

end Cert.ReferenceIdeal.RefV

end
-- ==== Proof.PreDecode.lean ====
import proofs.«404853_j60129542534_1_alg».proof.Pre_finite_inputs
import proofs.«404853_j60129542534_1_alg».proof.Proof.Gen.Pre_finite_inputs
import Idealize.ShloMosaic.Lib.ReduceAll
import Idealize.ShloMosaic.Lib.Affine
import Idealize.ShloMosaic.Lib.ValueIdx

noncomputable section

namespace Cert.PreDecode

open Idealize.ShloMosaic Idealize.ShloMosaic.ValueIdx Cert.Pre_finite_inputs

instance : Subsingleton S_.Idx := ⟨fun a b => funext fun d => d.elim0⟩

theorem toNat_of_toInt_range (w : BitVec 32) (n : Nat) (h0 : 0 ≤ w.toInt) (hn : w.toInt < (n : Int)) : w.toNat < n := by
  have h32 := w.isLt
  unfold BitVec.toInt at h0 hn
  split at h0 <;> omega

theorem src_range {F : FTy → Type} [FloatOps F] [Cert.Pre_finite_inputs.Facts]
    (a0 : FVec F S50000x128 .f32) (a1 : IVec S600000 32) (a2 : IVec S600000 32) (a3 : FVec F S128x128 .f32)
    (a4 : FVec F S128 .f32) (a5 : FVec F S128x128 .f32) (a6 : FVec F S128 .f32) (a7 : FVec F S128x16 .f32)
    (a8 : FVec F S16 .f32)
    (h : Cert.Pre_finite_inputs.fn (F := F) a0 a1 a2 a3 a4 a5 a6 a7 a8 = fun _ => 1#1) (e : Fin 600000) :
    0 ≤ (a1 (ix1 e)).toInt ∧ (a1 (ix1 e)).toInt < 50000 := by
  have h0 := congrFun h ix0
  dsimp only [fn, fn_part1, fn_part2] at h0

  have hred := (IntOp.andi_eq_one.1 h0).2

  have he := Host.reduce_andi_all _ _ _ _ _ hred (ix1 e)
  obtain ⟨hge, hlt⟩ := IntOp.andi_eq_one.1 he

  have hge' : (0#32 : BitVec 32).toInt ≤ (a1 (ix1 e)).toInt := IntOp.cmpi_sge.1 hge
  have hlt' : (a1 (ix1 e)).toInt < (50000#32 : BitVec 32).toInt := IntOp.cmpi_slt.1 hlt
  have z : (0#32 : BitVec 32).toInt = 0 := by decide
  have k : (50000#32 : BitVec 32).toInt = 50000 := by decide
  rw [z] at hge'
  rw [k] at hlt'
  exact ⟨hge', hlt'⟩

theorem src_fin {F : FTy → Type} [FloatOps F] [Cert.Pre_finite_inputs.Facts]
    (a0 : FVec F S50000x128 .f32) (a1 : IVec S600000 32) (a2 : IVec S600000 32) (a3 : FVec F S128x128 .f32)
    (a4 : FVec F S128 .f32) (a5 : FVec F S128x128 .f32) (a6 : FVec F S128 .f32) (a7 : FVec F S128x16 .f32)
    (a8 : FVec F S16 .f32)
    (h : Cert.Pre_finite_inputs.fn (F := F) a0 a1 a2 a3 a4 a5 a6 a7 a8 = fun _ => 1#1) :
    ∃ srcF : Fin 600000 → Fin 50000, ∀ e : Fin 600000, a1 (ix1 e) = BitVec.ofNat 32 (srcF e).val := by
  have hr := fun e => src_range a0 a1 a2 a3 a4 a5 a6 a7 a8 h e
  refine ⟨fun e => ⟨(a1 (ix1 e)).toNat, toNat_of_toInt_range _ 50000 (hr e).1 (hr e).2⟩, fun e => ?_⟩
  apply BitVec.eq_of_toNat_eq
  rw [BitVec.toNat_ofNat]
  exact (Nat.mod_eq_of_lt (a1 (ix1 e)).isLt).symm

end Cert.PreDecode

end
-- ==== Proof.DegBridge.lean ====
import proofs.«404853_j60129542534_1_alg».proof.Proof.KI.Glue
import proofs.«404853_j60129542534_1_alg».proof.ReferenceIdeal
import Idealize.ShloMosaic.Lib.ValueIdx

noncomputable section

namespace Cert.Bridge

open Idealize.ShloMosaic Idealize.ShloMosaic.ValueIdx Idealize.ShloMosaic.TcCoe

def degOf [Cert.KernelIdeal.Facts] (a : IVec Cert.KernelIdeal.S600000 32) : FVec Ideal Cert.KernelIdeal.S50000 .f32 :=
  Host.powf
    (maximumf
      (Host.scatterAdd Cert.KernelIdeal.scatter_S50000_S600000x1_S600000_n_0_0_1
        (broadcastInDim Cert.KernelIdeal.S50000 ![] Cert.KernelIdeal.Facts₀.bcast_S_S50000
          (constant (F := Ideal) Cert.KernelIdeal.S_ .f32 0x00000000#32))
        (broadcastInDim Cert.KernelIdeal.S600000x1 ![0] Cert.KernelIdeal.Facts₀.bcast_S600000_S600000x1_0 a)
        (broadcastInDim Cert.KernelIdeal.S600000 ![] Cert.KernelIdeal.Facts₀.bcast_S_S600000
          (constant (F := Ideal) Cert.KernelIdeal.S_ .f32 0x3F800000#32)))
      (broadcastInDim Cert.KernelIdeal.S50000 ![] Cert.KernelIdeal.Facts₀.bcast_S_S50000
        (constant (F := Ideal) Cert.KernelIdeal.S_ .f32 0x3F800000#32)))
    (broadcastInDim Cert.KernelIdeal.S50000 ![] Cert.KernelIdeal.Facts₀.bcast_S_S50000
      (constant (F := Ideal) Cert.KernelIdeal.S_ .f32 0xBF000000#32))

section Kernel
open Cert.KernelIdeal
variable (m : (ℓ : Loc nD τ sig) → Buf (Elt Ideal) ℓ) (c : Dev nD)

theorem degOut_eq [Cert.KernelIdeal.Facts] :
    Cert.KernelIdeal.Fr.degOut m c = degOf (m ((c : Thread nD τ).loc main_arg1) : S600000.Idx → BitVec 32) := rfl

theorem degIn_eq [Cert.KernelIdeal.Facts] :
    Cert.KernelIdeal.Fr.degIn m c = degOf (m ((c : Thread nD τ).loc main_arg2) : S600000.Idx → BitVec 32) := rfl

end Kernel

theorem deg_bridge [Cert.ReferenceIdeal.Facts] [Cert.KernelIdeal.Facts] (a : IVec Cert.KernelIdeal.S600000 32) :
    (Host.powf
      (maximumf
        (broadcastInDim Cert.ReferenceIdeal.S50000 ![] Cert.ReferenceIdeal.Facts₀.bcast_S_S50000
          (id (constant (F := Ideal) Cert.ReferenceIdeal.S_ .f32 0x3F800000#32)))
        (Host.scatterAdd Cert.ReferenceIdeal.scatter_S50000_S600000x1_S600000_n_0_0_1
          (broadcastInDim Cert.ReferenceIdeal.S50000 ![] Cert.ReferenceIdeal.Facts₀.bcast_S_S50000
            (constant (F := Ideal) Cert.ReferenceIdeal.S_ .f32 0x00000000#32))
          (broadcastInDim Cert.ReferenceIdeal.S600000x1 ![0] Cert.ReferenceIdeal.Facts₀.bcast_S600000_S600000x1_0 a)
          (broadcastInDim Cert.ReferenceIdeal.S600000 ![] Cert.ReferenceIdeal.Facts₀.bcast_S_S600000
            (constant (F := Ideal) Cert.ReferenceIdeal.S_ .f32 0x3F800000#32))))
      (broadcastInDim Cert.ReferenceIdeal.S50000 ![] Cert.ReferenceIdeal.Facts₀.bcast_S_S50000
        (constant (F := Ideal) Cert.ReferenceIdeal.S_ .f32 0xBF000000#32))
      : FVec Ideal Cert.ReferenceIdeal.S50000 .f32)
    = degOf a := by

  have hs : (Host.scatterAdd Cert.ReferenceIdeal.scatter_S50000_S600000x1_S600000_n_0_0_1
          (broadcastInDim Cert.ReferenceIdeal.S50000 ![] Cert.ReferenceIdeal.Facts₀.bcast_S_S50000
            (constant (F := Ideal) Cert.ReferenceIdeal.S_ .f32 0x00000000#32))
          (broadcastInDim Cert.ReferenceIdeal.S600000x1 ![0] Cert.ReferenceIdeal.Facts₀.bcast_S600000_S600000x1_0 a)
          (broadcastInDim Cert.ReferenceIdeal.S600000 ![] Cert.ReferenceIdeal.Facts₀.bcast_S_S600000
            (constant (F := Ideal) Cert.ReferenceIdeal.S_ .f32 0x3F800000#32))
          : FVec Ideal Cert.ReferenceIdeal.S50000 .f32)
      = Host.scatterAdd Cert.KernelIdeal.scatter_S50000_S600000x1_S600000_n_0_0_1
          (broadcastInDim Cert.KernelIdeal.S50000 ![] Cert.KernelIdeal.Facts₀.bcast_S_S50000
            (constant (F := Ideal) Cert.KernelIdeal.S_ .f32 0x00000000#32))
          (broadcastInDim Cert.KernelIdeal.S600000x1 ![0] Cert.KernelIdeal.Facts₀.bcast_S600000_S600000x1_0 a)
          (broadcastInDim Cert.KernelIdeal.S600000 ![] Cert.KernelIdeal.Facts₀.bcast_S_S600000
            (constant (F := Ideal) Cert.KernelIdeal.S_ .f32 0x3F800000#32)) := rfl
  unfold degOf
  rw [hs]
  refine congrArg (fun z : FVec Ideal Cert.KernelIdeal.S50000 .f32 => Host.powf z _) ?_
  funext i
  rw [maximumf_apply, maximumf_apply]
  exact max_comm _ _

end Cert.Bridge
-- ==== Proof.Bridge.lean ====
import proofs.«404853_j60129542534_1_alg».proof.Proof.KI.KCore
import proofs.«404853_j60129542534_1_alg».proof.Proof.RefSide
import proofs.«404853_j60129542534_1_alg».proof.Proof.PreDecode
import proofs.«404853_j60129542534_1_alg».proof.Proof.DegBridge
import Idealize.ShloMosaic.Lib.ValueIdx

noncomputable section

namespace Cert.Bridge

open Idealize.ShloMosaic Idealize.ShloMosaic.ValueIdx Idealize.ShloMosaic.TcCoe Idealize.SL.Sem

variable [Cert.KernelIdeal.Facts] [Cert.ReferenceIdeal.Facts] [Cert.Pre_finite_inputs.Facts]

theorem degOut_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) :
    Cert.ReferenceIdeal.RefV.refDegOut m' c = Cert.KernelIdeal.Fr.degOut m c := by
  unfold Cert.ReferenceIdeal.RefV.refDegOut
  rw [h1]
  exact (deg_bridge _).trans (degOut_eq m c).symm

theorem degIn_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) :
    Cert.ReferenceIdeal.RefV.refDegIn m' c = Cert.KernelIdeal.Fr.degIn m c := by
  unfold Cert.ReferenceIdeal.RefV.refDegIn
  rw [h2]
  exact (deg_bridge _).trans (degIn_eq m c).symm

theorem result_eq_core
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) = (fun _ => 1#1))
    (hag : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (X : Cert.KernelIdeal.S50000x16.Idx → EReal)
    (hK : ∀ (srcF : Fin 600000 → Fin 50000)
      (hsrc : ∀ e : Fin 600000, ((m ((c.tc : Thread Cert.KernelIdeal.nD Cert.KernelIdeal.τ).loc Cert.KernelIdeal.main_arg1)) : Cert.KernelIdeal.S600000.Idx → BitVec 32) (ix1 e) = BitVec.ofNat 32 (srcF e).val)
      (n : Fin 50000) (j : Fin 16),
      X (ix2 n j) = Cert.Spec.layerR false srcF (Cert.KernelIdeal.Fr.dstW m c)
          (Cert.Spec.layerR true srcF (Cert.KernelIdeal.Fr.dstW m c)
            (Cert.Spec.layerR true srcF (Cert.KernelIdeal.Fr.dstW m c) (Cert.KernelIdeal.Fr.feat m c) (Cert.KernelIdeal.Fr.dOut m c) (Cert.KernelIdeal.Fr.dIn m c) (Cert.KernelIdeal.Fr.W1 m c) (Cert.KernelIdeal.Fr.b1 m c))
            (Cert.KernelIdeal.Fr.dOut m c) (Cert.KernelIdeal.Fr.dIn m c) (Cert.KernelIdeal.Fr.W2 m c) (Cert.KernelIdeal.Fr.b2 m c))
          (Cert.KernelIdeal.Fr.dOut m c) (Cert.KernelIdeal.Fr.dIn m c) (Cert.KernelIdeal.Fr.W3 m c) (Cert.KernelIdeal.Fr.b3 m c) n j) :
    (Cert.ReferenceIdeal.Value.res_main_v100 (F := Ideal) m' c : Cert.KernelIdeal.S50000x16.Idx → EReal) = X := by
  obtain ⟨h0, h1, h2, h3, h4, h5, h6, h7, h8⟩ := hag
  obtain ⟨srcF, hs⟩ := Cert.PreDecode.src_fin _ _ _ _ _ _ _ _ _ hpre
  funext i
  obtain ⟨n, j, rfl⟩ : ∃ (n : Fin 50000) (j : Fin 16), i = ix2 n j := ⟨i 0, i 1, eq_ix2 i⟩
  have hR := Cert.ReferenceIdeal.RefV.ref_result m' c srcF (fun e => by rw [h1]; exact hs e) n j
  refine hR.trans (Eq.trans ?_ (hK srcF hs n j).symm)
  have e_dst : Cert.ReferenceIdeal.RefV.dstW m' c = Cert.KernelIdeal.Fr.dstW m c := by
    funext e; unfold Cert.KernelIdeal.Fr.dstW; show ((m' ((c.tc : Thread Cert.ReferenceIdeal.nD Cert.ReferenceIdeal.τ).loc Cert.ReferenceIdeal.main_arg2)) : Cert.KernelIdeal.S600000.Idx → BitVec 32) (ix1 e) = _; rw [h2]
  have e_feat : Cert.ReferenceIdeal.RefV.feat m' c = Cert.KernelIdeal.Fr.feat m c := by
    funext r f; unfold Cert.KernelIdeal.Fr.feat; show ((m' ((c.tc : Thread Cert.ReferenceIdeal.nD Cert.ReferenceIdeal.τ).loc Cert.ReferenceIdeal.main_arg0)) : Cert.KernelIdeal.S50000x128.Idx → EReal) (ix2 r f) = _; rw [h0]
  have e_W1 : Cert.ReferenceIdeal.RefV.W1 m' c = Cert.KernelIdeal.Fr.W1 m c := by
    funext k j; unfold Cert.KernelIdeal.Fr.W1; show ((m' ((c.tc : Thread Cert.ReferenceIdeal.nD Cert.ReferenceIdeal.τ).loc Cert.ReferenceIdeal.main_arg3)) : Cert.KernelIdeal.S128x128.Idx → EReal) (ix2 k j) = _; rw [h3]
  have e_b1 : Cert.ReferenceIdeal.RefV.b1 m' c = Cert.KernelIdeal.Fr.b1 m c := by
    funext j; unfold Cert.KernelIdeal.Fr.b1; show ((m' ((c.tc : Thread Cert.ReferenceIdeal.nD Cert.ReferenceIdeal.τ).loc Cert.ReferenceIdeal.main_arg4)) : Cert.KernelIdeal.S128.Idx → EReal) (ix1 j) = _; rw [h4]
  have e_W2 : Cert.ReferenceIdeal.RefV.W2 m' c = Cert.KernelIdeal.Fr.W2 m c := by
    funext k j; unfold Cert.KernelIdeal.Fr.W2; show ((m' ((c.tc : Thread Cert.ReferenceIdeal.nD Cert.ReferenceIdeal.τ).loc Cert.ReferenceIdeal.main_arg5)) : Cert.KernelIdeal.S128x128.Idx → EReal) (ix2 k j) = _; rw [h5]
  have e_b2 : Cert.ReferenceIdeal.RefV.b2 m' c = Cert.KernelIdeal.Fr.b2 m c := by
    funext j; unfold Cert.KernelIdeal.Fr.b2; show ((m' ((c.tc : Thread Cert.ReferenceIdeal.nD Cert.ReferenceIdeal.τ).loc Cert.ReferenceIdeal.main_arg6)) : Cert.KernelIdeal.S128.Idx → EReal) (ix1 j) = _; rw [h6]
  have e_W3 : Cert.ReferenceIdeal.RefV.W3 m' c = Cert.KernelIdeal.Fr.W3 m c := by
    funext k j; unfold Cert.KernelIdeal.Fr.W3; show ((m' ((c.tc : Thread Cert.ReferenceIdeal.nD Cert.ReferenceIdeal.τ).loc Cert.ReferenceIdeal.main_arg7)) : Cert.KernelIdeal.S128x16.Idx → EReal) (ix2 k j) = _; rw [h7]
  have e_b3 : Cert.ReferenceIdeal.RefV.b3 m' c = Cert.KernelIdeal.Fr.b3 m c := by
    funext j; unfold Cert.KernelIdeal.Fr.b3; show ((m' ((c.tc : Thread Cert.ReferenceIdeal.nD Cert.ReferenceIdeal.τ).loc Cert.ReferenceIdeal.main_arg8)) : Cert.KernelIdeal.S16.Idx → EReal) (ix1 j) = _; rw [h8]
  have e_do : Cert.ReferenceIdeal.RefV.dOut m' c = Cert.KernelIdeal.Fr.dOut m c := by
    funext r; unfold Cert.KernelIdeal.Fr.dOut; show Cert.ReferenceIdeal.RefV.refDegOut m' c (ix1 r) = _; rw [degOut_agree m m' c h1]
  have e_di : Cert.ReferenceIdeal.RefV.dIn m' c = Cert.KernelIdeal.Fr.dIn m c := by
    funext r; unfold Cert.KernelIdeal.Fr.dIn; show Cert.ReferenceIdeal.RefV.refDegIn m' c (ix1 r) = _; rw [degIn_agree m m' c h2]
  rw [e_dst, e_feat, e_W1, e_b1, e_W2, e_b2, e_W3, e_b3, e_do, e_di]

end Cert.Bridge

end
-- ==== Proof.KI.VShared.lean ====
import proofs.«404853_j60129542534_1_alg».proof.Proof.Gen.KernelIdeal
import proofs.«404853_j60129542534_1_alg».proof.Proof.SpecLaw
import Idealize.ShloMosaic.Lib.Pipeline.Value
import Idealize.ShloMosaic.Lib.ValueIdx
import Idealize.ShloMosaic.PureOps.Ideal.Laws

noncomputable section

namespace Cert.KernelIdeal.Fr

open Cert.KernelIdeal Cert.KernelIdeal.Gen
open Idealize.ShloMosaic Idealize.ShloMosaic.ValueIdx

theorem vg_hz : (![0, 0] : Fin 2 → Nat) = fun _ => 0 := funext fun a => by fin_cases a <;> rfl

/-- A rank-2 index is decided by its two coordinates. -/
theorem ix2_of_val {n0 n1 : ℕ} (z : (⟨2, ![n0, n1]⟩ : Shape).Idx) (a : Fin n0) (b : Fin n1)
    (h0 : (z 0).val = a.val) (h1 : (z 1).val = b.val) : z = ix2 a b :=
  funext fun d => Fin.ext (by match d with | ⟨0, _⟩ => exact h0 | ⟨1, _⟩ => exact h1)

/-- Two functions on a rank-2 index set that agree at every pair of coordinates are equal. -/
theorem ix2_ext {α : Type} {n0 n1 : ℕ} (X Y : (⟨2, ![n0, n1]⟩ : Shape).Idx → α) (h : ∀ (a : Fin n0) (b : Fin n1), X (ix2 a b) = Y (ix2 a b)) : X = Y :=
  funext fun y => by rw [eq_ix2 y]; exact h _ _

/-- The equality bit of two words, widened and converted, is 1 where they are equal and 0 elsewhere. -/
theorem sitofp_eq_bit (a b : BitVec 32) :
    (FloatOps.sitofp (F := Ideal) .f32 ((IntOp.cmpi .eq a b).setWidth 32) : EReal) = Cert.Spec.oh a b := by
  unfold Cert.Spec.oh
  show ((((BitVec.ofBool (a == b)).setWidth 32).toInt : ℝ) : EReal) = _
  by_cases h : a = b
  · have e : (a == b) = true := by rw [h]; exact beq_self_eq_true b
    have e1 : ((BitVec.ofBool true).setWidth 32).toInt = 1 := by decide
    rw [if_pos h, e, e1]; simp
  · have e : (a == b) = false := beq_eq_false_iff_ne.mpr h
    have e0 : ((BitVec.ofBool false).setWidth 32).toInt = 0 := by decide
    rw [if_neg h, e, e0]; simp

/-- A column broadcast along the rows reads the column's entry of the same row. -/
theorem bcast_col_apply {α : Type} {m n : ℕ} (x : (⟨2, ![m, 1]⟩ : Shape).Idx → α)
    (h : (⟨2, ![m, 1]⟩ : Shape).Broadcasts ⟨2, ![m, n]⟩) (r : Fin m) (j : Fin n) :
    broadcastTo ⟨2, ![m, n]⟩ x h (ix2 r j) = x (ix2 r 0) :=
  broadcastTo_apply x h (ix2 r j) (ix2 r 0) fun a => by
    match a with
    | ⟨0, _⟩ =>
      show r.val = if m = 1 then 0 else r.val
      by_cases hm : m = 1
      · rw [if_pos hm]; have := r.isLt; omega
      · rw [if_neg hm]
    | ⟨1, _⟩ => show 0 = if (1 : ℕ) = 1 then 0 else j.val; rw [if_pos rfl]

/-- Column j of the comparison block of node block kb holds the word of node row kb * 2048 + j. -/
theorem vg_colword (kb : ℕ) (j : Fin 2048) (r : Fin 2048) :
    (addi (broadcast S2048x2048 (Scalar.muli (BitVec.ofNat 32 kb) 2048#32)) (iota .tc S2048x2048 32 [1] iota_S2048x2048_d1_w32) : IVec S2048x2048 32) (ix2 r j)
      = BitVec.ofNat 32 (kb * 2048 + j.val) := by
  show IntOp.addi (Scalar.muli (BitVec.ofNat 32 kb) 2048#32) (iota .tc S2048x2048 32 [1] iota_S2048x2048_d1_w32 (ix2 r j)) = _
  rw [iota_single_apply]
  show BitVec.ofNat 32 kb * 2048#32 + BitVec.ofNat 32 j.val = _
  exact Cert.Spec.ofNat_block kb j.val

/-- A matrix product into the zero block, at (r, k), is the sum over the contracted axis j of the entries (r, j) and (j, k). -/
theorem matmul_rc_apply {m n p : ℕ} {φ₁ φ₂ : FTy} (D : DotDims ⟨2, ![m, n]⟩ ⟨2, ![n, p]⟩ ⟨2, ![m, p]⟩)
    (hr : D.contr.rank = 1) (hs : D.contr.size ⟨0, by omega⟩ = n)
    (hcl : D.lhsContracting = [(1 : Fin 2)]) (hcr : D.rhsContracting = [(0 : Fin 2)])
    (hl : ∀ i q, (D.lhsIdx i q (0 : Fin 2)).val = (i (0 : Fin 2)).val)
    (hrr : ∀ i q, (D.rhsIdx i q (1 : Fin 2)).val = (i (1 : Fin 2)).val)
    (L : FVec Ideal ⟨2, ![m, n]⟩ φ₁) (R : FVec Ideal ⟨2, ![n, p]⟩ φ₂) (r : Fin m) (k : Fin p) :
    matmul D none L R (constant ⟨2, ![m, p]⟩ .f32 0x00000000#32) (ix2 r k) = ∑ j : Fin n, L (ix2 r j) * R (ix2 j k) := by
  simp only [matmul]
  rw [Ideal.matmul_constant_zero_apply, ← Equiv.sum_comp (contrEquiv1 D n hr hs).symm]
  refine Finset.sum_congr rfl fun j _ => ?_
  have hk := contrEquiv1_symm_val D n hr hs j
  rw [ix2_of_val (D.lhsIdx (ix2 r k) _) r j (hl _ _) ((D.lhsIdx_val_of_single hcl _ _).trans hk),
    ix2_of_val (D.rhsIdx (ix2 r k) _) j k ((D.rhsIdx_val_of_single hcr _ _).trans hk) (hrr _ _)]

theorem matmul_oh_apply (lhs : FVec Ideal S2048x2048 .bf16) (rhs : FVec Ideal S2048x128 .bf16) (r : Fin 2048) (k : Fin 128) :
    matmul dot_S2048x2048_S2048x128_S2048x128_1_0_0_1_n_n none lhs rhs (constant S2048x128 .f32 0x00000000#32) (ix2 r k)
      = ∑ j : Fin 2048, lhs (ix2 r j) * rhs (ix2 j k) :=
  matmul_rc_apply dot_S2048x2048_S2048x128_S2048x128_1_0_0_1_n_n rfl rfl rfl rfl
    (fun _ _ => by unfold DotDims.lhsIdx; rw [dif_neg (by decide), dif_pos (by decide)]; rfl)
    (fun _ _ => by unfold DotDims.rhsIdx; rw [dif_neg (by decide), dif_pos (by decide)]; rfl) lhs rhs r k

theorem matmul_pj_apply (lhs : FVec Ideal S2048x128 .bf16) (rhs : FVec Ideal S128x128 .bf16) (r : Fin 2048) (j : Fin 128) :
    matmul dot_S2048x128_S128x128_S2048x128_1_0_0_1_n_n none lhs rhs
        (constant S2048x128 .f32 0x00000000#32)
        (ix2 r j)
      = ∑ k : Fin 128, lhs (ix2 r k) * rhs (ix2 k j) :=
  matmul_rc_apply dot_S2048x128_S128x128_S2048x128_1_0_0_1_n_n rfl rfl rfl rfl
    (fun _ _ => by unfold DotDims.lhsIdx; rw [dif_neg (by decide), dif_pos (by decide)]; rfl)
    (fun _ _ => by unfold DotDims.rhsIdx; rw [dif_neg (by decide), dif_pos (by decide)]; rfl) lhs rhs r j

theorem matmul_pj16_apply (lhs : FVec Ideal S2048x128 .bf16) (rhs : FVec Ideal S128x16 .bf16) (r : Fin 2048) (j : Fin 16) :
    matmul dot_S2048x128_S128x16_S2048x16_1_0_0_1_n_n none lhs rhs
        (constant S2048x16 .f32 0x00000000#32)
        (ix2 r j)
      = ∑ k : Fin 128, lhs (ix2 r k) * rhs (ix2 k j) :=
  matmul_rc_apply dot_S2048x128_S128x16_S2048x16_1_0_0_1_n_n rfl rfl rfl rfl
    (fun _ _ => by unfold DotDims.lhsIdx; rw [dif_neg (by decide), dif_pos (by decide)]; rfl)
    (fun _ _ => by unfold DotDims.rhsIdx; rw [dif_neg (by decide), dif_pos (by decide)]; rfl) lhs rhs r j

end Cert.KernelIdeal.Fr

end
-- ==== Proof.KI.V0a.lean ====
import proofs.«404853_j60129542534_1_alg».proof.Proof.Gen.KernelIdeal.Skeleton
import proofs.«404853_j60129542534_1_alg».proof.Proof.KI.VShared

noncomputable section

namespace Cert.KernelIdeal.Fr

open Cert.KernelIdeal Cert.KernelIdeal.Gen
open Idealize.ShloMosaic Idealize.ShloMosaic.ValueIdx
open Cert.Spec (oh)

theorem v0_pay1_apply (y : S2048x128.Idx) : (k0_pay1 (F := Ideal) : S2048x128.Idx → EReal) y = 0 := by
  unfold k0_pay1
  (try dsimp only)
  rw [shapeCast_self]
  show Ideal.ofBits .f32 0x00000000#32 = 0
  exact Ideal.ofBits_zero_f32

/-- The update adds, at row r and feature f, the one-hot weighted sum over the point's 2048 node rows. -/
theorem v0_pay2_apply (i : grid0.Coords) (x0 : Vec Ideal S2048x1 .i32) (x1 : Vec Ideal S2048x128 .f32) (x2 : Vec Ideal S2048x1 .f32)
    (acc : Vec Ideal S2048x128 .f32) (r : Fin 2048) (f : Fin 128) :
    (k0_pay2 (F := Ideal) i x0 x1 x2 acc : S2048x128.Idx → EReal) (ix2 r f)
      = (acc (ix2 r f) : EReal) + ∑ j : Fin 2048, oh (x0 (ix2 r 0)) (BitVec.ofNat 32 ((i 1).val * 2048 + j.val)) * ((x1 (ix2 j f) : EReal) * (x2 (ix2 j 0) : EReal)) := by
  unfold k0_pay2
  (try dsimp only)
  rw [shapeCast_self]
  show (acc (ix2 r f) : EReal) + _ = _
  refine congrArg (fun z : EReal => (acc (ix2 r f) : EReal) + z) ((matmul_oh_apply _ _ r f).trans (Finset.sum_congr rfl fun j _ => ?_))
  rw [shapeCast_self, shapeCast_self, shapeCast_self]
  show (FloatOps.sitofp (F := Ideal) .f32 ((IntOp.cmpi .eq (broadcastTo S2048x2048 x0 broadcasts_S2048x1_S2048x2048 (ix2 r j)) _).setWidth 32) : EReal) * ((x1 (ix2 j f) : EReal) * (broadcastTo S2048x128 x2 broadcasts_S2048x1_S2048x128 (ix2 j f) : EReal)) = _
  rw [bcast_col_apply x0, bcast_col_apply x2, vg_colword, sitofp_eq_bit]

theorem v0_pay3_eq (acc : Vec Ideal S2048x128 .f32) (y : S2048x128.Idx) :
    (k0_pay3 (F := Ideal) acc : S2048x128.Idx → EReal) y = (acc y : EReal) := rfl

end Cert.KernelIdeal.Fr

end
-- ==== Proof.KI.V0b.lean ====
import proofs.«404853_j60129542534_1_alg».proof.Proof.KI.R0.Region
import proofs.«404853_j60129542534_1_alg».proof.Proof.KI.VShared
import Idealize.ShloMosaic.Lib.Pipeline.Value

noncomputable section

namespace Cert.KernelIdeal.Fr

open Cert.KernelIdeal Cert.KernelIdeal.Gen
open Idealize.ShloMosaic Idealize.ShloMosaic.TcCoe Idealize.ShloMosaic.Tactic
open Idealize.SL.Sem

variable {F : FTy → Type} [FloatOps F]
variable (c : Dev nD) (i : grid0.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole)

/-- Each store covers its whole buffer, so a buffer ends at its last store and a load after a store reads that store's value. -/
theorem v0_sout_B (hc0 : ¬cond0_0 i) (hc1 : ¬cond0_1 i)
    (x0 : Vec F S2048x1 .i32) (x1 : Vec F S2048x128 .f32) (x2 : Vec F S2048x1 .f32) (xs0 : Vec F S2048x128 .f32) :
    sout0_B_0 c i arg2 harg2 arg3 harg3 arg4 harg4 arg5 harg5 arg6 harg6 hc0 hc1 x0 x1 x2 xs0 = k0_pay2 i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero vg_hz]
  simp only [View.readAt_eq_ld, harg2.read_unread, harg3.read_unread, harg4.read_unread, harg6.read_unread, View.ld_unit_zero (S := S2048x1) vg_hz, View.ld_unit_zero (S := S2048x128) vg_hz]

theorem v0_sout_A (hc0 : cond0_0 i) (hc1 : ¬cond0_1 i)
    (x0 : Vec F S2048x1 .i32) (x1 : Vec F S2048x128 .f32) (x2 : Vec F S2048x1 .f32) :
    sout0_A_0 c i arg2 harg2 arg3 harg3 arg4 harg4 arg5 harg5 arg6 harg6 hc0 hc1 x0 x1 x2 = k0_pay2 i x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S2048x128) vg_hz, View.readCov_unit_zero (S := S2048x128) _ vg_hz]
  simp only [View.readAt_eq_ld, harg2.read_unread, harg3.read_unread, harg4.read_unread, View.ld_unit_zero (S := S2048x1) vg_hz, View.ld_unit_zero (S := S2048x128) vg_hz]

theorem v0_sout_C (hc0 : ¬cond0_0 i) (hc1 : cond0_1 i)
    (x0 : Vec F S2048x1 .i32) (x1 : Vec F S2048x128 .f32) (x2 : Vec F S2048x1 .f32) (xs0 : Vec F S2048x128 .f32) :
    sout0_C_0 c i arg2 harg2 arg3 harg3 arg4 harg4 arg5 harg5 arg6 harg6 hc0 hc1 x0 x1 x2 xs0 = k0_pay2 i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero vg_hz]
  simp only [View.readAt_eq_ld, harg2.read_unread, harg3.read_unread, harg4.read_unread, harg6.read_unread, View.ld_unit_zero (S := S2048x1) vg_hz, View.ld_unit_zero (S := S2048x128) vg_hz]

theorem v0_out_C (hc0 : ¬cond0_0 i) (hc1 : cond0_1 i)
    (x0 : Vec F S2048x1 .i32) (x1 : Vec F S2048x128 .f32) (x2 : Vec F S2048x1 .f32) (xs0 : Vec F S2048x128 .f32) :
    out0_C_3 c i arg2 harg2 arg3 harg3 arg4 harg4 arg5 harg5 arg6 harg6 hc0 hc1 x0 x1 x2 xs0 = k0_pay3 (k0_pay2 i x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero vg_hz, View.readCov_unit_zero (S := S2048x128) _ vg_hz]
  simp only [View.readAt_eq_ld, harg2.read_unread, harg3.read_unread, harg4.read_unread, harg6.read_unread, View.ld_unit_zero (S := S2048x1) vg_hz, View.ld_unit_zero (S := S2048x128) vg_hz]

end Cert.KernelIdeal.Fr

end
-- ==== Proof.KI.V0c.lean ====
import proofs.«404853_j60129542534_1_alg».proof.Proof.KI.R0.Region
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.ValueIdx
open Idealize.SL.Sem

variable {F : FTy → Type} [FloatOps F] (V : (c : Dev nD) → (b : Ref sig .tc) → Buf (Elt F) ((c : Thread nD τ).loc b))

theorem v0_idx_0 : ∀ t : Fin cfg0.N, win0_0.index t (0 : Fin 2) = t.val / 25 ∧ win0_0.index t (1 : Fin 2) = 0 :=
  (by decide +kernel : ∀ t : Fin grid0.N, win0_0.index t (0 : Fin 2) = t.val / 25 ∧ win0_0.index t (1 : Fin 2) = 0)
theorem v0_idx_1 : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)
theorem v0_idx_2 : ∀ t : Fin cfg0.N, win0_2.index t (0 : Fin 2) = t.val % 25 ∧ win0_2.index t (1 : Fin 2) = 0 :=
  (by decide +kernel : ∀ t : Fin grid0.N, win0_2.index t (0 : Fin 2) = t.val % 25 ∧ win0_2.index t (1 : Fin 2) = 0)
theorem v0_idx_3 : ∀ t : Fin cfg0.N, win0_3.index t (0 : Fin 2) = t.val / 25 ∧ win0_3.index t (1 : Fin 2) = 0 :=
  (by decide +kernel : ∀ t : Fin grid0.N, win0_3.index t (0 : Fin 2) = t.val / 25 ∧ win0_3.index t (1 : Fin 2) = 0)
theorem v0_coord_1 : ∀ t : Fin cfg0.N, (grid0.coords t (1 : Fin 2)).val = t.val % 25 :=
  (by decide +kernel : ∀ t : Fin grid0.N, (grid0.coords t (1 : Fin 2)).val = t.val % 25)

abbrev srcArr0 (c : Dev nD) : Vec F S600064x1 .i32 := V c (Pipeline.arrRef spec0 0)
abbrev featArr0 (c : Dev nD) : Vec F S51200x128 .f32 := V c (Pipeline.arrRef spec0 1)
abbrev degArr0 (c : Dev nD) : Vec F S51200x1 .f32 := V c (Pipeline.arrRef spec0 2)
abbrev srcBlk0 (c : Dev nD) (t : Fin cfg0.N) : Vec F S2048x1 .i32 := iblk0 V c 0 t
abbrev featBlk0 (c : Dev nD) (t : Fin cfg0.N) : Vec F S2048x128 .f32 := iblk0 V c 1 t
abbrev degBlk0 (c : Dev nD) (t : Fin cfg0.N) : Vec F S2048x1 .f32 := iblk0 V c 2 t

/-- A block's coordinate in its array is the block index times the block length plus the coordinate inside the block. -/
theorem v0_srcBlk_apply (c : Dev nD) (t : Fin cfg0.N) (r : Fin 2048) (k : Fin 600064) (hk : k.val = t.val / 25 * 2048 + r.val) :
    srcBlk0 V c t (ix2 r 0) = srcArr0 V c (ix2 k 0) := by
  obtain ⟨e0, e1⟩ := v0_idx_0 t
  unfold srcBlk0 iblk0
  rw [View.read_apply]
  show V c (Pipeline.arrRef spec0 0) _ = V c (Pipeline.arrRef spec0 0) _
  congr 1
  funext a
  apply Fin.ext
  match a with
  | ⟨0, _⟩ => show win0_0.index t 0 * 2048 + 1 * r.val = k.val; rw [e0, hk]; omega
  | ⟨1, _⟩ => show win0_0.index t 1 * 1 + 1 * 0 = 0; rw [e1]

theorem v0_featBlk_apply (c : Dev nD) (t : Fin cfg0.N) (j : Fin 2048) (f : Fin 128) (k : Fin 51200) (hk : k.val = t.val % 25 * 2048 + j.val) :
    featBlk0 V c t (ix2 j f) = featArr0 V c (ix2 k f) := by
  obtain ⟨e0, e1⟩ := v0_idx_1 t
  unfold featBlk0 iblk0
  rw [View.read_apply]
  show V c (Pipeline.arrRef spec0 1) _ = V c (Pipeline.arrRef spec0 1) _
  congr 1
  funext a
  apply Fin.ext
  match a with
  | ⟨0, _⟩ => show win0_1.index t 0 * 2048 + 1 * j.val = k.val; rw [e0, hk]; omega
  | ⟨1, _⟩ => show win0_1.index t 1 * 128 + 1 * f.val = f.val; rw [e1]; omega

theorem v0_degBlk_apply (c : Dev nD) (t : Fin cfg0.N) (j : Fin 2048) (k : Fin 51200) (hk : k.val = t.val % 25 * 2048 + j.val) :
    degBlk0 V c t (ix2 j 0) = degArr0 V c (ix2 k 0) := by
  obtain ⟨e0, e1⟩ := v0_idx_2 t
  unfold degBlk0 iblk0
  rw [View.read_apply]
  show V c (Pipeline.arrRef spec0 2) _ = V c (Pipeline.arrRef spec0 2) _
  congr 1
  funext a
  apply Fin.ext
  match a with
  | ⟨0, _⟩ => show win0_2.index t 0 * 2048 + 1 * j.val = k.val; rw [e0, hk]; omega
  | ⟨1, _⟩ => show win0_2.index t 1 * 1 + 1 * 0 = 0; rw [e1]

end Cert.KernelIdeal.Fr

end
-- ==== Proof.KI.V0d.lean ====
import proofs.«404853_j60129542534_1_alg».proof.Proof.KI.V0a
import proofs.«404853_j60129542534_1_alg».proof.Proof.KI.V0b
import proofs.«404853_j60129542534_1_alg».proof.Proof.KI.V0c

noncomputable section

namespace Cert.KernelIdeal.Fr

open Cert.KernelIdeal Cert.KernelIdeal.Gen
open Idealize.ShloMosaic Idealize.ShloMosaic.TcCoe Idealize.ShloMosaic.ValueIdx
open Idealize.SL.Sem
open Cert.Spec (oh)

variable (V : (c : Dev nD) → (b : Ref sig .tc) → Buf (Elt Ideal) ((c : Thread nD τ).loc b))

/-- The one-hot weighted sum over node block kb for padded edge e and feature f (nothing beyond the 25 blocks). -/
def blockSum0 (c : Dev nD) (e : Fin 600064) (f : Fin 128) (kb : ℕ) : EReal :=
  if h : kb < 25 then
    ∑ j : Fin 2048, oh (srcArr0 V c (ix2 e 0)) (BitVec.ofNat 32 (kb * 2048 + j.val))
      * ((featArr0 V c (ix2 (⟨kb * 2048 + j.val, by have := j.isLt; omega⟩ : Fin 51200) f) : EReal)
          * (degArr0 V c (ix2 (⟨kb * 2048 + j.val, by have := j.isLt; omega⟩ : Fin 51200) 0) : EReal))
  else 0

/-- A running sum: the first term, then one more term per step. -/
abbrev fold0 (P : ℕ → EReal) (k : ℕ) : EReal := @Nat.rec (fun _ => EReal) (P 0) (fun i acc => acc + P (i + 1)) k

/-- Read off the arrays, what point t adds at row r is the sum over node block t % 25 for the edge (t / 25) * 2048 + r. -/
theorem v0_point_sum (c : Dev nD) (t : Fin cfg0.N) (r : Fin 2048) (f : Fin 128) (e : Fin 600064) (he : e.val = t.val / 25 * 2048 + r.val) :
    (∑ j : Fin 2048, oh (srcBlk0 V c t (ix2 r 0)) (BitVec.ofNat 32 ((grid0.coords t 1).val * 2048 + j.val))
        * ((featBlk0 V c t (ix2 j f) : EReal) * (degBlk0 V c t (ix2 j 0) : EReal)))
      = blockSum0 V c e f (t.val % 25) := by
  have hkb : t.val % 25 < 25 := Nat.mod_lt _ (by decide)
  unfold blockSum0
  rw [dif_pos hkb, v0_coord_1 t, v0_srcBlk_apply V c t r e he]
  refine Finset.sum_congr rfl fun j _ => ?_
  rw [v0_featBlk_apply V c t j f ⟨t.val % 25 * 2048 + j.val, by have := j.isLt; omega⟩ rfl,
    v0_degBlk_apply V c t j ⟨t.val % 25 * 2048 + j.val, by have := j.isLt; omega⟩ rfl]

/-- A reset point starts from the zero block, so the accumulator holds that point's sum. -/
theorem v0_acc_A (c : Dev nD) (t : Fin cfg0.N) (h0 : t.val % 25 = 0) (h1 : ¬t.val % 25 = 24) (r : Fin 2048) (f : Fin 128)
    (e : Fin 600064) (he : e.val = t.val / 25 * 2048 + r.val) :
    ((outsAt0 V c t.val t.isLt).2 : S2048x128.Idx → EReal) (ix2 r f) = blockSum0 V c e f (t.val % 25) := by
  rw [outsAt0_A V c t h0 h1]
  dsimp only
  rw [v0_sout_A, v0_pay2_apply, v0_pay1_apply, zero_add]
  exact v0_point_sum V c t r f e he

/-- Every other point adds its sum to what the point before left. -/
theorem v0_acc_step (c : Dev nD) (t : Fin cfg0.N) (h0 : ¬t.val % 25 = 0) (r : Fin 2048) (f : Fin 128)
    (e : Fin 600064) (he : e.val = t.val / 25 * 2048 + r.val) :
    ((outsAt0 V c t.val t.isLt).2 : S2048x128.Idx → EReal) (ix2 r f)
      = ((outsAt0 V c (t.val - 1) (Nat.lt_of_le_of_lt (Nat.sub_le _ _) t.isLt)).2 : S2048x128.Idx → EReal) (ix2 r f) + blockSum0 V c e f (t.val % 25) := by
  by_cases h1 : t.val % 25 = 24
  · rw [outsAt0_C V c t h0 h1]
    dsimp only
    rw [v0_sout_C, v0_pay2_apply, v0_point_sum V c t r f e he]
  · rw [outsAt0_B V c t h0 h1]
    dsimp only
    rw [v0_sout_B, v0_pay2_apply, v0_point_sum V c t r f e he]

/-- At a storing point the output block holds the same as the accumulator: the narrowing changes nothing. -/
theorem v0_out_C_apply (c : Dev nD) (t : Fin cfg0.N) (h0 : ¬t.val % 25 = 0) (h1 : t.val % 25 = 24) (r : Fin 2048) (f : Fin 128) :
    ((outsAt0 V c t.val t.isLt).1 : S2048x128.Idx → EReal) (ix2 r f) = ((outsAt0 V c t.val t.isLt).2 : S2048x128.Idx → EReal) (ix2 r f) := by
  rw [outsAt0_C V c t h0 h1]
  dsimp only
  rw [v0_out_C, v0_sout_C]
  exact v0_pay3_eq _ _

/-- By induction on the position: the accumulator holds the running sum of the block sums up to block n % 25. -/
theorem v0_acc_eq (c : Dev nD) : ∀ (n : ℕ) (hn : n < cfg0.N) (r : Fin 2048) (f : Fin 128) (e : Fin 600064), e.val = n / 25 * 2048 + r.val →
    ((outsAt0 V c n hn).2 : S2048x128.Idx → EReal) (ix2 r f) = fold0 (blockSum0 V c e f) (n % 25)
  | 0, hn, r, f, e, he => v0_acc_A V c ⟨0, hn⟩ rfl (by show ¬(0 : ℕ) % 25 = 24; omega) r f e he
  | n + 1, hn, r, f, e, he => by
    by_cases h0 : (n + 1) % 25 = 0
    · rw [h0]
      exact (v0_acc_A V c ⟨n + 1, hn⟩ h0 (by dsimp only; omega) r f e he).trans (congrArg (blockSum0 V c e f) h0)
    · refine (v0_acc_step V c ⟨n + 1, hn⟩ h0 r f e he).trans ?_
      show ((outsAt0 V c n _).2 : S2048x128.Idx → EReal) (ix2 r f) + blockSum0 V c e f ((n + 1) % 25) = _
      rw [v0_acc_eq c n (Nat.lt_of_succ_lt hn) r f e (by omega), show (n + 1) % 25 = n % 25 + 1 by omega]

/-- The running sum over all 25 node blocks is the gather's sum over all 51200 padded node rows. -/
theorem v0_fold_all (c : Dev nD) (e : Fin 600064) (f : Fin 128) :
    fold0 (blockSum0 V c e f) 24
      = Cert.Spec.gatherC (fun e => srcArr0 V c (ix2 e 0)) (fun n f => (featArr0 V c (ix2 n f) : EReal)) (fun n => (degArr0 V c (ix2 n 0) : EReal)) e f := by
  unfold fold0
  rw [Cert.Spec.fold_node (blockSum0 V c e f)]
  unfold Cert.Spec.gatherC
  rw [← Cert.Spec.sum_blocks_node (fun n : Fin 51200 => oh (srcArr0 V c (ix2 e 0)) (BitVec.ofNat 32 n.val) * ((featArr0 V c (ix2 n f) : EReal) * (degArr0 V c (ix2 n 0) : EReal)))]
  refine Finset.sum_congr rfl fun kb _ => ?_
  unfold blockSum0
  rw [dif_pos kb.isLt]

theorem v0_out_eq (c : Dev nD) (t : Fin cfg0.N) (h1 : t.val % 25 = 24) (r : Fin 2048) (f : Fin 128)
    (e : Fin 600064) (he : e.val = t.val / 25 * 2048 + r.val) :
    ((outsAt0 V c t.val t.isLt).1 : S2048x128.Idx → EReal) (ix2 r f)
      = Cert.Spec.gatherC (fun e => srcArr0 V c (ix2 e 0)) (fun n f => (featArr0 V c (ix2 n f) : EReal)) (fun n => (degArr0 V c (ix2 n 0) : EReal)) e f := by
  rw [v0_out_C_apply V c t (by omega) h1 r f, v0_acc_eq V c t.val t.isLt r f e he, h1]
  exact v0_fold_all V c e f

end Cert.KernelIdeal.Fr

end
-- ==== Proof.KI.V0.lean ====
import proofs.«404853_j60129542534_1_alg».proof.Proof.KI.V0d

noncomputable section

namespace Cert.KernelIdeal.Fr

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

abbrev gatherArr0 (c : Dev nD) : Vec Ideal S600064x128 .bf16 := fun i =>
  Cert.Spec.gatherC (fun e => srcArr0 V c (ix2 e 0)) (fun n f => (featArr0 V c (ix2 n f) : EReal)) (fun n => (degArr0 V c (ix2 n 0) : EReal))
    ⟨(i 0).val, idx2_lt0 i⟩ ⟨(i 1).val, idx2_lt1 i⟩

/-- The output's block lies inside the array, so the part of a block that is written back is the block. -/
theorem v0_cut3 (X : Vec Ideal S2048x128 .bf16) (i : grid0.Coords) : (cfg0.win 3).cut i X = X :=
  funext fun j => congrArg X (funext fun a => Fin.ext rfl)

theorem v0_outBlk_apply (G : Vec Ideal S600064x128 .bf16) (t : Fin cfg0.N) (r : Fin 2048) (f : Fin 128) (k : Fin 600064)
    (hk : k.val = t.val / 25 * 2048 + r.val) :
    ((cfg0.win 3).blk t).view.read (Elt Ideal) G (ix2 r f) = G (ix2 k f) := by
  obtain ⟨e0, e1⟩ := v0_idx_3 t
  rw [View.read_apply]
  show G _ = G _
  congr 1
  funext a
  apply Fin.ext
  match a with
  | ⟨0, _⟩ => show win0_3.index t 0 * 2048 + 1 * r.val = k.val; rw [e0, hk]; omega
  | ⟨1, _⟩ => show win0_3.index t 1 * 128 + 1 * f.val = f.val; rw [e1]; omega

/-- What a storing point t writes back is block t / 25 of the gather's result. -/
theorem v0_flushed_eq (c : Dev nD) (t : Fin cfg0.N) (hf : (cfg0.win 3).flush t = true) :
    (dat0 V c).flushed 3 t = ((cfg0.win 3).blk t).view.read (Elt Ideal) (gatherArr0 V c) := by
  have h24 : t.val % 25 = 24 := (flush0_3 t).mp hf
  have hN : t.val < 7325 := lt_of_lt_of_eq t.isLt (show cfg0.N = 7325 from N_0)
  show (cfg0.win 3).cut (grid0.coords t) ((dat0 V c).after 3 t) = _
  rw [after0_3]
  refine (v0_cut3 (outsAt0 V c t.val t.isLt).1 (grid0.coords t)).trans (ix2_ext _ _ fun r f => ?_)
  refine (v0_out_eq V c t h24 r f ⟨t.val / 25 * 2048 + r.val, by have := r.isLt; omega⟩ rfl).trans ?_
  exact (v0_outBlk_apply (gatherArr0 V c) t r f ⟨t.val / 25 * 2048 + r.val, by have := r.isLt; omega⟩ rfl).symm

theorem v0_mem_blk3 (t : Fin cfg0.N) (i : S600064x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole (Pipeline.arrRef spec0 3)).slice (win0_3.rect t)).set ↔ _
  rw [View.set_slice_whole, Rect.mem_set_unit]
  exact Iff.rfl

/-- Row e of the output array is in the block of the storing point (e / 2048) * 25 + 24. -/
theorem v0_cover (i : S600064x128.Idx) : ∃ t : Fin cfg0.N, (cfg0.win 3).flush t = true ∧ i ∈ ((cfg0.win 3).blk t).view.set := by
  have hi0 : (i 0).val < 600064 := idx2_lt0 i
  have hi1 : (i 1).val < 128 := idx2_lt1 i
  obtain ⟨t, ht⟩ : ∃ t : Fin cfg0.N, t.val = (i 0).val / 2048 * 25 + 24 :=
    ⟨⟨_, by rw [show cfg0.N = 7325 from N_0]; omega⟩, rfl⟩
  obtain ⟨e0, e1⟩ := v0_idx_3 t
  refine ⟨t, (flush0_3 t).mpr (by omega), (v0_mem_blk3 t i).mpr fun a => ?_⟩
  match a with
  | ⟨0, _⟩ =>
    show win0_3.index t (0 : Fin 2) * 2048 ≤ (i 0).val ∧ (i 0).val < win0_3.index t (0 : Fin 2) * 2048 + 2048
    rw [e0]; omega
  | ⟨1, _⟩ =>
    show win0_3.index t (1 : Fin 2) * 128 ≤ (i 1).val ∧ (i 1).val < win0_3.index t (1 : Fin 2) * 128 + 128
    rw [e1]; omega

/-- The blocks written back at the storing points cover the output array, so it ends holding the gather's result. -/
theorem arr0_eq (c : Dev nD) : (dat0 V c).arrAt 3 cfg0.N = gatherArr0 V c :=
  (dat0 V c).arrAt_eq_of_cover 3 (gatherArr0 V c) (v0_flushed_eq V c) v0_cover

theorem arr0_apply (c : Dev nD) (e : Fin 600064) (f : Fin 128) :
    ((dat0 V c).arrAt 3 cfg0.N : S600064x128.Idx → EReal) (ix2 e f)
      = Cert.Spec.gatherC (fun e => (V c (Pipeline.arrRef spec0 0) : S600064x1.Idx → BitVec 32) (ix2 e 0))
          (fun n f => (V c (Pipeline.arrRef spec0 1) : S51200x128.Idx → EReal) (ix2 n f))
          (fun n => (V c (Pipeline.arrRef spec0 2) : S51200x1.Idx → EReal) (ix2 n 0)) e f :=
  (congrFun (arr0_eq V c) (ix2 e f)).trans rfl

end Cert.KernelIdeal.Fr

end
-- ==== Proof.KI.V1a.lean ====
import proofs.«404853_j60129542534_1_alg».proof.Proof.KI.R1.Region
import proofs.«404853_j60129542534_1_alg».proof.Proof.KI.VShared
import Idealize.ShloMosaic.Lib.Pipeline.Value
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic

variable {F : FTy → Type} [FloatOps F] {c : Dev nD} {i : grid1.Coords}
  {arg2 : Memref sig .tc .vmem S1x2048 .i32} {harg2 : arg2.IsWhole} {arg3 : Memref sig .tc .vmem S2048x128 .bf16} {harg3 : arg3.IsWhole}
  {arg4 : Memref sig .tc .vmem S2048x1 .f32} {harg4 : arg4.IsWhole} {arg5 : Memref sig .tc .vmem S128x128 .f32} {harg5 : arg5.IsWhole}
  {arg6 : Memref sig .tc .vmem S1x128 .f32} {harg6 : arg6.IsWhole} {arg7 : Memref sig .tc .vmem S2048x128 .f32} {harg7 : arg7.IsWhole}
  {arg8 : Memref sig .tc .vmem S2048x128 .f32} {harg8 : arg8.IsWhole}
  {x0 : Vec F S1x2048 .i32} {x1 : Vec F S2048x128 .bf16} {x2 : Vec F S2048x1 .f32} {x3 : Vec F S128x128 .f32} {x4 : Vec F S1x128 .f32}
  {xs0 : Vec F S2048x128 .f32}

-- A reset point leaves in the accumulator its payload over the zero block.
theorem sout1_A_0_eq {hc0 : cond1_0 i} {hc1 : ¬cond1_1 i} :
    sout1_A_0 c i arg2 harg2 arg3 harg3 arg4 harg4 arg5 harg5 arg6 harg6 arg7 harg7 arg8 harg8 hc0 hc1 x0 x1 x2 x3 x4 = k1_pay2 i x0 (k1_pay1 (F := F)) x1 := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S2048x128) vg_hz, View.readCov_unit_zero (S := S2048x128) _ vg_hz]
  simp only [View.readAt_eq_ld, harg2.read_unread, harg3.read_unread,
    View.ld_unit_zero (S := S1x2048) vg_hz, View.ld_unit_zero (S := S2048x128) vg_hz]

-- A middle point leaves in the accumulator its payload over what the accumulator held.
theorem sout1_B_0_eq {hc0 : ¬cond1_0 i} {hc1 : ¬cond1_1 i} :
    sout1_B_0 c i arg2 harg2 arg3 harg3 arg4 harg4 arg5 harg5 arg6 harg6 arg7 harg7 arg8 harg8 hc0 hc1 x0 x1 x2 x3 x4 xs0 = k1_pay2 i x0 xs0 x1 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  sl_unfold_words
  rw [View.canon_unit_zero (S := S2048x128) vg_hz]
  simp only [View.readAt_eq_ld, harg2.read_unread, harg3.read_unread, harg8.read_unread,
    View.ld_unit_zero (S := S1x2048) vg_hz, View.ld_unit_zero (S := S2048x128) vg_hz]

-- A storing point does the same,
theorem sout1_C_0_eq {hc0 : ¬cond1_0 i} {hc1 : cond1_1 i} :
    sout1_C_0 c i arg2 harg2 arg3 harg3 arg4 harg4 arg5 harg5 arg6 harg6 arg7 harg7 arg8 harg8 hc0 hc1 x0 x1 x2 x3 x4 xs0 = k1_pay2 i x0 xs0 x1 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero (S := S2048x128) vg_hz]
  simp only [View.readAt_eq_ld, harg2.read_unread, harg3.read_unread, harg8.read_unread,
    View.ld_unit_zero (S := S1x2048) vg_hz, View.ld_unit_zero (S := S2048x128) vg_hz]

-- and leaves in the output block the projection of the accumulator it has just written.
theorem out1_C_5_eq {hc0 : ¬cond1_0 i} {hc1 : cond1_1 i} :
    out1_C_5 c i arg2 harg2 arg3 harg3 arg4 harg4 arg5 harg5 arg6 harg6 arg7 harg7 arg8 harg8 hc0 hc1 x0 x1 x2 x3 x4 xs0 = k1_pay3 (k1_pay2 i x0 xs0 x1) x2 x3 x4 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero (S := S2048x128) vg_hz, View.readCov_unit_zero (S := S2048x128) _ vg_hz]
  simp only [View.readAt_eq_ld, harg2.read_unread, harg3.read_unread, harg4.read_unread, harg5.read_unread, harg6.read_unread,
    harg8.read_unread, View.ld_unit_zero (S := S1x2048) vg_hz, View.ld_unit_zero (S := S2048x128) vg_hz,
    View.ld_unit_zero (S := S2048x1) vg_hz, View.ld_unit_zero (S := S128x128) vg_hz, View.ld_unit_zero (S := S1x128) vg_hz]

end Cert.KernelIdeal.Fr

end
-- ==== Proof.KI.VScatterLib.lean ====
import proofs.«404853_j60129542534_1_alg».proof.Proof.KI.VShared

noncomputable section

namespace Cert.KernelIdeal.Fr

open Cert.KernelIdeal Cert.KernelIdeal.Gen
open Idealize.ShloMosaic Idealize.ShloMosaic.ValueIdx

-- A maximum with the broadcast zero is, entry by entry, the maximum with zero.
theorem vg_relu_apply {s : Shape} (x : FVec Ideal s .f32) (y : s.Idx) :
    maximumf x (broadcast s (Scalar.ofBits .f32 0x00000000#32)) y = max (x y) 0 := by
  show max (x y) (Ideal.ofBits .f32 0x00000000#32) = max (x y) 0
  rw [Ideal.ofBits_zero_f32]

-- A sequence that restarts at every multiple of 293 and otherwise adds one term is the sum of the terms since the restart.
theorem vg_sum_since {N : ℕ} (a : (n : ℕ) → n < N → EReal) (p : ℕ → ℕ → EReal)
    (ha : ∀ n hn, a n hn
      = (if n % 293 = 0 then 0 else a (n - 1) (Nat.lt_of_le_of_lt (Nat.sub_le _ _) hn)) + p (n / 293) (n % 293)) :
    ∀ n hn, a n hn = ∑ s ∈ Finset.range (n % 293 + 1), p (n / 293) s := by
  intro n
  induction n with
  | zero =>
    intro hn
    rw [ha 0 hn, if_pos (Nat.zero_mod _), zero_add]
    exact (Finset.sum_range_one (p (0 / 293))).symm
  | succ n ih =>
    intro hn
    rw [ha (n + 1) hn]
    by_cases h0 : (n + 1) % 293 = 0
    · rw [if_pos h0, zero_add, h0]
      exact (Finset.sum_range_one (p ((n + 1) / 293))).symm
    · rw [if_neg h0]
      show a n (Nat.lt_of_succ_lt hn) + _ = _
      rw [ih, show (n + 1) / 293 = n / 293 by omega, show (n + 1) % 293 = n % 293 + 1 by omega]
      exact (Finset.sum_range_succ (p (n / 293)) (n % 293 + 1)).symm

variable (dst : S1x600064.Idx → BitVec 32) (msg : S600064x128.Idx → EReal)

-- The one-hot product of node block nb with edge block eb, at row r and feature k; zero past the last edge block.
def vgPart (nb eb : ℕ) (r : Fin 2048) (k : Fin 128) : EReal :=
  if h : eb < 293 then
    ∑ j : Fin 2048, Cert.Spec.oh (BitVec.ofNat 32 (nb * 2048 + r.val))
        (dst (ix2 0 ⟨eb * 2048 + j.val, by have := j.isLt; omega⟩))
      * msg (ix2 ⟨eb * 2048 + j.val, by have := j.isLt; omega⟩ k)
  else 0

-- An accumulator that restarts at the first edge block of a node block and adds every edge block's one-hot product
-- holds, after the last edge block, the scatter sum of its rows over all edges.
theorem vg_acc_last {N : ℕ} (a : (n : ℕ) → n < N → S2048x128.Idx → EReal)
    (d : (n : ℕ) → n < N → S1x2048.Idx → BitVec 32) (mb : (n : ℕ) → n < N → S2048x128.Idx → EReal)
    (ha : ∀ n hn r k, a n hn (ix2 r k)
      = (if n % 293 = 0 then 0 else a (n - 1) (Nat.lt_of_le_of_lt (Nat.sub_le _ _) hn) (ix2 r k))
        + ∑ j : Fin 2048, Cert.Spec.oh (BitVec.ofNat 32 (n / 293 * 2048 + r.val)) (d n hn (ix2 0 j)) * mb n hn (ix2 j k))
    (hd : ∀ n hn (j : Fin 2048) (e : Fin 600064), e.val = n % 293 * 2048 + j.val → d n hn (ix2 0 j) = dst (ix2 0 e))
    (hm : ∀ n hn (j : Fin 2048) (k : Fin 128) (e : Fin 600064), e.val = n % 293 * 2048 + j.val →
      mb n hn (ix2 j k) = msg (ix2 e k))
    (n : ℕ) (hn : n < N) (h1 : n % 293 = 292) (r : Fin 2048) (k : Fin 128) (nd : Fin 51200)
    (hnd : nd.val = n / 293 * 2048 + r.val) :
    a n hn (ix2 r k) = Cert.Spec.aggC (fun e => dst (ix2 0 e)) (fun e k => msg (ix2 e k)) nd k := by
  have hp : ∀ n hn, (∑ j : Fin 2048, Cert.Spec.oh (BitVec.ofNat 32 (n / 293 * 2048 + r.val)) (d n hn (ix2 0 j))
      * mb n hn (ix2 j k)) = vgPart dst msg (n / 293) (n % 293) r k := fun n hn => by
    unfold vgPart
    rw [dif_pos (show n % 293 < 293 by omega)]
    exact Finset.sum_congr rfl fun j _ =>
      congrArg₂ (fun x y => Cert.Spec.oh (BitVec.ofNat 32 (n / 293 * 2048 + r.val)) x * y)
        (hd n hn j ⟨n % 293 * 2048 + j.val, by have := j.isLt; omega⟩ rfl)
        (hm n hn j k ⟨n % 293 * 2048 + j.val, by have := j.isLt; omega⟩ rfl)
  refine (vg_sum_since (fun n hn => a n hn (ix2 r k)) (fun m s => vgPart dst msg m s r k)
    (fun n hn => (ha n hn r k).trans (congrArg (HAdd.hAdd _) (hp n hn))) n hn).trans ?_
  show ∑ s ∈ Finset.range (n % 293 + 1), vgPart dst msg (n / 293) s r k = _
  rw [show n % 293 + 1 = 293 by omega, Cert.Spec.sum_range_edge]
  unfold Cert.Spec.aggC
  refine Eq.trans ?_
    (Cert.Spec.sum_blocks_edge fun e => Cert.Spec.oh (BitVec.ofNat 32 nd.val) (dst (ix2 0 e)) * msg (ix2 e k))
  refine Finset.sum_congr rfl fun eb _ => ?_
  unfold vgPart
  rw [dif_pos eb.isLt, hnd]

end Cert.KernelIdeal.Fr

end
-- ==== Proof.KI.V1b.lean ====
import proofs.«404853_j60129542534_1_alg».proof.Proof.Gen.KernelIdeal.Skeleton
import proofs.«404853_j60129542534_1_alg».proof.Proof.KI.VScatterLib
import Idealize.ShloMosaic.Lib.ValueLayout

noncomputable section

namespace Cert.KernelIdeal.Fr

open Cert.KernelIdeal Cert.KernelIdeal.Gen
open Idealize.ShloMosaic Idealize.ShloMosaic.ValueIdx

theorem k1_pay1_apply (y : S2048x128.Idx) : (k1_pay1 (F := Ideal)) y = 0 := by
  unfold k1_pay1
  exact (congrFun (shapeCast_self _ _) y).trans Ideal.ofBits_zero_f32

-- A point adds to the accumulator the product of its one-hot matrix (node row against edge target) with the message block.
theorem k1_pay2_apply (i : grid1.Coords) (v7 : Vec Ideal S1x2048 .i32) (v14 : Vec Ideal S2048x128 .f32) (v15 : Vec Ideal S2048x128 .bf16)
    (r : Fin 2048) (k : Fin 128) :
    k1_pay2 (F := Ideal) i v7 v14 v15 (ix2 r k)
      = v14 (ix2 r k) + ∑ j : Fin 2048, Cert.Spec.oh (BitVec.ofNat 32 ((i 0).val * 2048 + r.val)) (v7 (ix2 0 j)) * v15 (ix2 j k) := by
  unfold k1_pay2
  dsimp only
  refine (congrFun (shapeCast_self _ _) (ix2 r k)).trans ?_
  refine (addf_apply _ _ _).trans (congrArg (v14 (ix2 r k) + ·) ?_)
  refine (matmul_oh_apply _ _ r k).trans (Finset.sum_congr rfl fun j _ => ?_)
  refine congrArg₂ (· * ·) ?_ (congrFun (shapeCast_self _ _) (ix2 j k))
  show FloatOps.sitofp (F := Ideal) .f32 ((IntOp.cmpi .eq
      (IntOp.addi (Scalar.muli (BitVec.ofNat 32 (i 0).val) 2048#32) (iota .tc S2048x2048 32 [0] iota_S2048x2048_d0_w32 (ix2 r j)))
      (broadcastTo S2048x2048 (shapeCast S1x2048 v7 shapeCasts_S1x2048_S1x2048) broadcasts_S1x2048_S2048x2048 (ix2 r j))).setWidth 32) = _
  rw [iota_single_apply, (broadcastTo_1b_ab_apply _ broadcasts_S1x2048_S2048x2048 r j :
    broadcastTo S2048x2048 (shapeCast S1x2048 v7 shapeCasts_S1x2048_S1x2048) _ (ix2 r j) = _), shapeCast_self, sitofp_eq_bit]
  show Cert.Spec.oh (BitVec.ofNat 32 (i 0).val * 2048#32 + BitVec.ofNat 32 r.val) (v7 (ix2 0 j)) = _
  rw [Cert.Spec.ofNat_block]

-- The last step of the layer: the rectifier.
def act1 (x : EReal) : EReal := max x 0

-- A storing point stores the row's scatter sums scaled by its in-degree factor, times W, plus the bias, through the last step.
theorem k1_pay3_apply (v25 : Vec Ideal S2048x128 .f32) (v26 : Vec Ideal S2048x1 .f32)
    (v31 : Vec Ideal S128x128 .f32) (v34 : Vec Ideal S1x128 .f32) (r : Fin 2048) (j : Fin 128) :
    k1_pay3 (F := Ideal) v25 v26 v31 v34 (ix2 r j)
      = act1 ((∑ k : Fin 128, (v25 (ix2 r k) * v26 (ix2 r 0)) * v31 (ix2 k j)) + v34 (ix2 0 j)) := by
  unfold k1_pay3
  refine (vg_relu_apply _ _).trans (congrArg act1 ?_)
  refine (addf_apply _ _ _).trans (congrArg₂ (· + ·) ?_ ?_)
  · refine (matmul_pj_apply _ _ r j).trans (Finset.sum_congr rfl fun k _ => ?_)
    exact congrArg₂ (· * ·) (congrArg (v25 (ix2 r k) * ·)
      ((bcast_col_apply _ broadcasts_S2048x1_S2048x128 r k).trans (congrFun (shapeCast_self _ _) (ix2 r 0)))) rfl
  · exact (broadcastTo_1b_ab_apply _ broadcasts_S1x128_S2048x128 r j).trans (congrFun (shapeCast_self _ _) (ix2 0 j))

end Cert.KernelIdeal.Fr

end
-- ==== Proof.KI.V1c.lean ====
import proofs.«404853_j60129542534_1_alg».proof.Proof.KI.R1.Runs
import proofs.«404853_j60129542534_1_alg».proof.Proof.KI.VShared
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.Tactic Idealize.ShloMosaic.ValueIdx

variable {F : FTy → Type} [FloatOps F]

variable (V : (c : Dev nD) → (b : Ref sig .tc) → Buf (Elt F) ((c : Thread nD τ).loc b))

theorem coords1 : ∀ t : Fin grid1.N, ((grid1.coords t) 0).val = t.val / 293 ∧ ((grid1.coords t) 1).val = t.val % 293 := by
  decide +kernel
theorem idx1_0 : ∀ t : Fin grid1.N, win1_0.index t (0 : Fin 2) = 0 ∧ win1_0.index t (1 : Fin 2) = t.val % 293 := by
  decide +kernel
theorem idx1_1 : ∀ t : Fin grid1.N, win1_1.index t (0 : Fin 2) = t.val % 293 ∧ win1_1.index t (1 : Fin 2) = 0 := by
  decide +kernel
theorem idx1_2 : ∀ t : Fin grid1.N, win1_2.index t (0 : Fin 2) = t.val / 293 ∧ win1_2.index t (1 : Fin 2) = 0 := by
  decide +kernel
theorem idx1_3 : ∀ t : Fin grid1.N, win1_3.index t (0 : Fin 2) = 0 ∧ win1_3.index t (1 : Fin 2) = 0 := by
  decide +kernel
theorem idx1_4 : ∀ t : Fin grid1.N, win1_4.index t (0 : Fin 2) = 0 ∧ win1_4.index t (1 : Fin 2) = 0 := by
  decide +kernel
theorem idx1_5 : ∀ t : Fin grid1.N, win1_5.index t (0 : Fin 2) = t.val / 293 ∧ win1_5.index t (1 : Fin 2) = 0 := by
  decide +kernel

variable (c : Dev nD) (t : Fin cfg1.N)

-- Each block, at an index, is its array at the block's offset plus the index.
theorem iblk1_0_apply (j : Fin 2048) (e : Fin 600064) (he : e.val = t.val % 293 * 2048 + j.val) :
    (iblk1 V c 0 t : Vec F S1x2048 .i32) (ix2 0 j) = (V c (Pipeline.arrRef spec1 0) : S1x600064.Idx → Elt F .i32) (ix2 0 e) :=
  congrArg (V c (Pipeline.arrRef spec1 0) : S1x600064.Idx → Elt F .i32) (ix2_of_val _ _ _
    (by show win1_0.index t (0 : Fin 2) * 1 + 1 * 0 = 0; rw [(idx1_0 t).1])
    (by show win1_0.index t (1 : Fin 2) * 2048 + 1 * j.val = e.val; rw [(idx1_0 t).2, he]; omega))

theorem iblk1_1_apply (j : Fin 2048) (k : Fin 128) (e : Fin 600064) (he : e.val = t.val % 293 * 2048 + j.val) :
    (iblk1 V c 1 t : Vec F S2048x128 .bf16) (ix2 j k) = (V c (Pipeline.arrRef spec1 1) : S600064x128.Idx → Elt F .bf16) (ix2 e k) :=
  congrArg (V c (Pipeline.arrRef spec1 1) : S600064x128.Idx → Elt F .bf16) (ix2_of_val _ _ _
    (by show win1_1.index t (0 : Fin 2) * 2048 + 1 * j.val = e.val; rw [(idx1_1 t).1, he]; omega)
    (by show win1_1.index t (1 : Fin 2) * 128 + 1 * k.val = k.val; rw [(idx1_1 t).2]; omega))

theorem iblk1_2_apply (r : Fin 2048) (n : Fin 51200) (hn : n.val = t.val / 293 * 2048 + r.val) :
    (iblk1 V c 2 t : Vec F S2048x1 .f32) (ix2 r 0) = (V c (Pipeline.arrRef spec1 2) : S51200x1.Idx → Elt F .f32) (ix2 n 0) :=
  congrArg (V c (Pipeline.arrRef spec1 2) : S51200x1.Idx → Elt F .f32) (ix2_of_val _ _ _
    (by show win1_2.index t (0 : Fin 2) * 2048 + 1 * r.val = n.val; rw [(idx1_2 t).1, hn]; omega)
    (by show win1_2.index t (1 : Fin 2) * 1 + 1 * 0 = 0; rw [(idx1_2 t).2]))

theorem iblk1_3_apply (k : Fin 128) (j : Fin 128) :
    (iblk1 V c 3 t : Vec F S128x128 .f32) (ix2 k j) = (V c (Pipeline.arrRef spec1 3) : S128x128.Idx → Elt F .f32) (ix2 k j) :=
  congrArg (V c (Pipeline.arrRef spec1 3) : S128x128.Idx → Elt F .f32) (ix2_of_val _ _ _
    (by show win1_3.index t (0 : Fin 2) * 128 + 1 * k.val = k.val; rw [(idx1_3 t).1]; omega)
    (by show win1_3.index t (1 : Fin 2) * 128 + 1 * j.val = j.val; rw [(idx1_3 t).2]; omega))

theorem iblk1_4_apply (j : Fin 128) :
    (iblk1 V c 4 t : Vec F S1x128 .f32) (ix2 0 j) = (V c (Pipeline.arrRef spec1 4) : S1x128.Idx → Elt F .f32) (ix2 0 j) :=
  congrArg (V c (Pipeline.arrRef spec1 4) : S1x128.Idx → Elt F .f32) (ix2_of_val _ _ _
    (by show win1_4.index t (0 : Fin 2) * 1 + 1 * 0 = 0; rw [(idx1_4 t).1])
    (by show win1_4.index t (1 : Fin 2) * 128 + 1 * j.val = j.val; rw [(idx1_4 t).2]; omega))

end Cert.KernelIdeal.Fr

end
-- ==== Proof.KI.V1d.lean ====
import proofs.«404853_j60129542534_1_alg».proof.Proof.KI.V1a
import proofs.«404853_j60129542534_1_alg».proof.Proof.KI.V1b
import proofs.«404853_j60129542534_1_alg».proof.Proof.KI.V1c

noncomputable section

namespace Cert.KernelIdeal.Fr

open Cert.KernelIdeal Cert.KernelIdeal.Gen
open Idealize.ShloMosaic Idealize.ShloMosaic.TcCoe Idealize.ShloMosaic.Tactic Idealize.ShloMosaic.ValueIdx

variable (V : (c : Dev nD) → (b : Ref sig .tc) → Buf (Elt Ideal) ((c : Thread nD τ).loc b)) (c : Dev nD)

abbrev dblk1 (t : Fin cfg1.N) : Vec Ideal S1x2048 .i32 := iblk1 V c 0 t
abbrev mblk1 (t : Fin cfg1.N) : Vec Ideal S2048x128 .bf16 := iblk1 V c 1 t
abbrev acc1 (n : ℕ) (hn : n < cfg1.N) : Vec Ideal S2048x128 .f32 := (outsAt1 V c n hn).2

abbrev dstA1 : S1x600064.Idx → BitVec 32 := V c (Pipeline.arrRef spec1 0)
abbrev msgA1 : S600064x128.Idx → EReal := V c (Pipeline.arrRef spec1 1)
abbrev degA1 : S51200x1.Idx → EReal := V c (Pipeline.arrRef spec1 2)
abbrev wA1 : S128x128.Idx → EReal := V c (Pipeline.arrRef spec1 3)
abbrev bA1 : S1x128.Idx → EReal := V c (Pipeline.arrRef spec1 4)

variable (t : Fin cfg1.N)

-- After a point that is not a reset the accumulator is the payload over what the point before left.
theorem acc1_step (h0 : ¬t.val % 293 = 0) :
    acc1 V c t.val t.isLt
      = k1_pay2 (grid1.coords t) (dblk1 V c t) (acc1 V c (t.val - 1) (Nat.lt_of_le_of_lt (Nat.sub_le _ _) t.isLt)) (mblk1 V c t) := by
  by_cases h1 : t.val % 293 = 292
  · show (outsAt1 V c t.val t.isLt).2 = _
    rw [outsAt1_C V c t h0 h1]
    dsimp only
    exact sout1_C_0_eq (c := c) (i := grid1.coords t) (arg2 := ms1_0 t) (harg2 := hs1_0 t) (arg3 := ms1_1 t) (harg3 := hs1_1 t) (arg4 := ms1_2 t) (harg4 := hs1_2 t) (arg5 := ms1_3 t) (harg5 := hs1_3 t) (arg6 := ms1_4 t) (harg6 := hs1_4 t) (arg7 := ms1_5 t) (harg7 := hs1_5 t) (arg8 := scM1_0) (harg8 := Memref.isWhole_whole _) (hc0 := fun h => h0 ((hcond1_0 t).mp h)) (hc1 := (hcond1_1 t).mpr h1) (x0 := iblk1 V c 0 t) (x1 := iblk1 V c 1 t) (x2 := iblk1 V c 2 t) (x3 := iblk1 V c 3 t) (x4 := iblk1 V c 4 t) (xs0 := (outsAt1 V c (t.val - 1) (Nat.lt_of_le_of_lt (Nat.sub_le _ _) t.isLt)).2)
  · show (outsAt1 V c t.val t.isLt).2 = _
    rw [outsAt1_B V c t h0 h1]
    dsimp only
    exact sout1_B_0_eq (c := c) (i := grid1.coords t) (arg2 := ms1_0 t) (harg2 := hs1_0 t) (arg3 := ms1_1 t) (harg3 := hs1_1 t) (arg4 := ms1_2 t) (harg4 := hs1_2 t) (arg5 := ms1_3 t) (harg5 := hs1_3 t) (arg6 := ms1_4 t) (harg6 := hs1_4 t) (arg7 := ms1_5 t) (harg7 := hs1_5 t) (arg8 := scM1_0) (harg8 := Memref.isWhole_whole _) (hc0 := fun h => h0 ((hcond1_0 t).mp h)) (hc1 := fun h => h1 ((hcond1_1 t).mp h)) (x0 := iblk1 V c 0 t) (x1 := iblk1 V c 1 t) (x2 := iblk1 V c 2 t) (x3 := iblk1 V c 3 t) (x4 := iblk1 V c 4 t) (xs0 := (outsAt1 V c (t.val - 1) (Nat.lt_of_le_of_lt (Nat.sub_le _ _) t.isLt)).2)

-- Every point adds its edge block's one-hot product, to zero at a reset and else to what the point before left.
theorem acc1_rec (r : Fin 2048) (k : Fin 128) :
    acc1 V c t.val t.isLt (ix2 r k)
      = (if t.val % 293 = 0 then (0 : EReal) else acc1 V c (t.val - 1) (Nat.lt_of_le_of_lt (Nat.sub_le _ _) t.isLt) (ix2 r k))
        + ∑ j : Fin 2048, Cert.Spec.oh (BitVec.ofNat 32 (t.val / 293 * 2048 + r.val)) (dblk1 V c t (ix2 0 j)) * mblk1 V c t (ix2 j k) := by
  rw [← (coords1 t).1]
  by_cases h0 : t.val % 293 = 0
  · rw [if_pos h0]
    have h1 : ¬t.val % 293 = 292 := by omega
    have hA : acc1 V c t.val t.isLt = k1_pay2 (grid1.coords t) (dblk1 V c t) (k1_pay1 (F := Ideal)) (mblk1 V c t) := by
      show (outsAt1 V c t.val t.isLt).2 = _
      rw [outsAt1_A V c t h0 h1]
      dsimp only
      exact sout1_A_0_eq (c := c) (i := grid1.coords t) (arg2 := ms1_0 t) (harg2 := hs1_0 t) (arg3 := ms1_1 t) (harg3 := hs1_1 t) (arg4 := ms1_2 t) (harg4 := hs1_2 t) (arg5 := ms1_3 t) (harg5 := hs1_3 t) (arg6 := ms1_4 t) (harg6 := hs1_4 t) (arg7 := ms1_5 t) (harg7 := hs1_5 t) (arg8 := scM1_0) (harg8 := Memref.isWhole_whole _) (hc0 := (hcond1_0 t).mpr h0) (hc1 := fun h => h1 ((hcond1_1 t).mp h)) (x0 := iblk1 V c 0 t) (x1 := iblk1 V c 1 t) (x2 := iblk1 V c 2 t) (x3 := iblk1 V c 3 t) (x4 := iblk1 V c 4 t)
    exact (congrFun hA _).trans
      ((k1_pay2_apply _ _ _ _ r k).trans (congrArg₂ HAdd.hAdd (k1_pay1_apply _) rfl))
  · rw [if_neg h0]
    exact (congrFun (acc1_step V c t h0) _).trans (k1_pay2_apply _ _ _ _ r k)

-- After the last point of a row of points the accumulator holds the scatter sums of the row's nodes.
theorem acc1_last (h1 : t.val % 293 = 292) (r : Fin 2048) (k : Fin 128) (n : Fin 51200) (hn : n.val = t.val / 293 * 2048 + r.val) :
    acc1 V c t.val t.isLt (ix2 r k)
      = Cert.Spec.aggC (fun e => dstA1 V c (ix2 0 e)) (fun e k => msgA1 V c (ix2 e k)) n k :=
  vg_acc_last (dstA1 V c) (msgA1 V c) (fun n hn => acc1 V c n hn) (fun n hn => dblk1 V c ⟨n, hn⟩) (fun n hn => mblk1 V c ⟨n, hn⟩)
    (fun n hn => acc1_rec V c ⟨n, hn⟩) (fun n hn => iblk1_0_apply V c ⟨n, hn⟩) (fun n hn => iblk1_1_apply V c ⟨n, hn⟩)
    t.val t.isLt h1 r k n hn

-- What the region leaves in its output array: the last step of the projection of the scatter sums.
def G1 : S51200x128.Idx → EReal := fun i =>
  act1 (Cert.Spec.projC (Cert.Spec.aggC (fun e => dstA1 V c (ix2 0 e)) (fun e k => msgA1 V c (ix2 e k)))
    (fun n => degA1 V c (ix2 n 0)) (fun k j => wA1 V c (ix2 k j)) (fun j => bA1 V c (ix2 0 j))
    ⟨(i 0).val, idx2_lt0 i⟩ ⟨(i 1).val, idx2_lt1 i⟩)

-- A storing point stores the rows of that function its block covers.
theorem out1_last (h1 : t.val % 293 = 292) (r : Fin 2048) (j : Fin 128) (n : Fin 51200) (hn : n.val = t.val / 293 * 2048 + r.val) :
    ((outsAt1 V c t.val t.isLt).1 : Vec Ideal S2048x128 .f32) (ix2 r j) = G1 V c (ix2 n j) := by
  have h0 : ¬t.val % 293 = 0 := by omega
  have hs : (outsAt1 V c t.val t.isLt).1 = k1_pay3 (acc1 V c t.val t.isLt) (iblk1 V c 2 t) (iblk1 V c 3 t) (iblk1 V c 4 t) := by
    rw [acc1_step V c t h0]
    rw [outsAt1_C V c t h0 h1]
    dsimp only
    exact out1_C_5_eq (c := c) (i := grid1.coords t) (arg2 := ms1_0 t) (harg2 := hs1_0 t) (arg3 := ms1_1 t) (harg3 := hs1_1 t) (arg4 := ms1_2 t) (harg4 := hs1_2 t) (arg5 := ms1_3 t) (harg5 := hs1_3 t) (arg6 := ms1_4 t) (harg6 := hs1_4 t) (arg7 := ms1_5 t) (harg7 := hs1_5 t) (arg8 := scM1_0) (harg8 := Memref.isWhole_whole _) (hc0 := fun h => h0 ((hcond1_0 t).mp h)) (hc1 := (hcond1_1 t).mpr h1) (x0 := iblk1 V c 0 t) (x1 := iblk1 V c 1 t) (x2 := iblk1 V c 2 t) (x3 := iblk1 V c 3 t) (x4 := iblk1 V c 4 t) (xs0 := (outsAt1 V c (t.val - 1) (Nat.lt_of_le_of_lt (Nat.sub_le _ _) t.isLt)).2)
  refine (congrFun hs _).trans ((k1_pay3_apply _ _ _ _ r j).trans (congrArg act1 ?_))
  unfold Cert.Spec.projC
  refine congrArg₂ (· + ·) (Finset.sum_congr rfl fun k _ => ?_) (iblk1_4_apply V c t j)
  exact congrArg₂ (· * ·) (congrArg₂ (· * ·) (acc1_last V c t h1 r k n hn) (iblk1_2_apply V c t r n hn)) (iblk1_3_apply V c t k j)

end Cert.KernelIdeal.Fr

end
-- ==== Proof.KI.V1e.lean ====
import proofs.«404853_j60129542534_1_alg».proof.Proof.KI.V1d

noncomputable section

namespace Cert.KernelIdeal.Fr

open Cert.KernelIdeal Cert.KernelIdeal.Gen
open Idealize.ShloMosaic Idealize.ShloMosaic.TcCoe Idealize.ShloMosaic.Tactic Idealize.ShloMosaic.ValueIdx

variable (V : (c : Dev nD) → (b : Ref sig .tc) → Buf (Elt Ideal) ((c : Thread nD τ).loc b)) (c : Dev nD)

-- What a storing point writes back is its block of the function the region leaves.
theorem flushed1_eq (t : Fin cfg1.N) (hf : (cfg1.win 5).flush t = true) :
    (dat1 V c).flushed 5 t = ((cfg1.win 5).blk t).view.read (Elt Ideal) (G1 V c) := by
  have hN : cfg1.N = 7325 := N_1
  show (cfg1.win 5).cut (grid1.coords t) ((dat1 V c).after 5 t) = _
  rw [after1_5]
  funext y
  obtain ⟨r, j, rfl⟩ : ∃ (r : Fin 2048) (j : Fin 128), y = ix2 r j := ⟨y 0, y 1, eq_ix2 (n0 := 2048) (n1 := 128) y⟩
  have hnlt : t.val / 293 * 2048 + r.val < 51200 := by have := t.isLt; have := r.isLt; omega
  show ((outsAt1 V c t.val t.isLt).1 : Vec Ideal S2048x128 .f32) (ix2 r j) = G1 V c (((cfg1.win 5).blk t).view.emb (ix2 r j))
  refine (out1_last V c t ((flush1_5 t).mp hf) r j ⟨_, hnlt⟩ rfl).trans (congrArg (G1 V c) (ix2_of_val _ _ _ ?_ ?_).symm)
  · show win1_5.index t (0 : Fin 2) * 2048 + 1 * r.val = t.val / 293 * 2048 + r.val
    rw [(idx1_5 t).1]; omega
  · show win1_5.index t (1 : Fin 2) * 128 + 1 * j.val = j.val
    rw [(idx1_5 t).2]; omega

-- Every node row lies in the block some storing point writes back: row n in that of point (n / 2048) * 293 + 292.
theorem cover1_5 (i : S51200x128.Idx) :
    ∃ t : Fin cfg1.N, (cfg1.win 5).flush t = true ∧ i ∈ ((cfg1.win 5).blk t).view.set := by
  have hN : cfg1.N = 7325 := N_1
  have hi0 : (i 0).val < 51200 := idx2_lt0 i
  have hi1 : (i 1).val < 128 := idx2_lt1 i
  obtain ⟨t, ht⟩ : ∃ t : Fin cfg1.N, t.val = (i 0).val / 2048 * 293 + 292 := ⟨⟨_, by rw [hN]; omega⟩, rfl⟩
  refine ⟨t, (flush1_5 t).mpr (by omega), ?_⟩
  show i ∈ ((View.whole (Pipeline.arrRef spec1 5)).slice (win1_5.rect t)).set
  rw [View.set_slice_whole, Rect.mem_set_unit]
  intro a
  match a with
  | ⟨0, _⟩ =>
    show win1_5.index t (0 : Fin 2) * 2048 ≤ (i 0).val ∧ (i 0).val < win1_5.index t (0 : Fin 2) * 2048 + 2048
    rw [(idx1_5 t).1]; omega
  | ⟨1, _⟩ =>
    show win1_5.index t (1 : Fin 2) * 128 ≤ (i 1).val ∧ (i 1).val < win1_5.index t (1 : Fin 2) * 128 + 128
    rw [(idx1_5 t).2]; omega

-- The output array after the region: the covering blocks carry the function.
theorem arr1_apply (n : Fin 51200) (j : Fin 128) :
    ((dat1 V c).arrAt 5 cfg1.N : S51200x128.Idx → EReal) (ix2 n j)
      = max (Cert.Spec.projC (Cert.Spec.aggC (fun e => (V c (Pipeline.arrRef spec1 0) : S1x600064.Idx → BitVec 32) (ix2 0 e))
            (fun e k => (V c (Pipeline.arrRef spec1 1) : S600064x128.Idx → EReal) (ix2 e k)))
          (fun n => (V c (Pipeline.arrRef spec1 2) : S51200x1.Idx → EReal) (ix2 n 0))
          (fun k j => (V c (Pipeline.arrRef spec1 3) : S128x128.Idx → EReal) (ix2 k j))
          (fun j => (V c (Pipeline.arrRef spec1 4) : S1x128.Idx → EReal) (ix2 0 j)) n j) 0 :=
  congrFun ((dat1 V c).arrAt_eq_of_cover 5 (G1 V c) (flushed1_eq V c) cover1_5) (ix2 n j)

end Cert.KernelIdeal.Fr

end
-- ==== Proof.KI.V2a.lean ====
import proofs.«404853_j60129542534_1_alg».proof.Proof.Gen.KernelIdeal.Skeleton
import proofs.«404853_j60129542534_1_alg».proof.Proof.KI.VShared

noncomputable section

namespace Cert.KernelIdeal.Fr

open Cert.KernelIdeal Cert.KernelIdeal.Gen
open Idealize.ShloMosaic Idealize.ShloMosaic.ValueIdx
open Cert.Spec (oh)

theorem v2_pay1_apply (y : S2048x128.Idx) : (k2_pay1 (F := Ideal) : S2048x128.Idx → EReal) y = 0 := by
  unfold k2_pay1
  (try dsimp only)
  rw [shapeCast_self]
  show Ideal.ofBits .f32 0x00000000#32 = 0
  exact Ideal.ofBits_zero_f32

/-- The update adds, at row r and feature f, the one-hot weighted sum over the point's 2048 node rows. -/
theorem v2_pay2_apply (i : grid2.Coords) (x0 : Vec Ideal S2048x1 .i32) (x1 : Vec Ideal S2048x128 .f32) (x2 : Vec Ideal S2048x1 .f32)
    (acc : Vec Ideal S2048x128 .f32) (r : Fin 2048) (f : Fin 128) :
    (k2_pay2 (F := Ideal) i x0 x1 x2 acc : S2048x128.Idx → EReal) (ix2 r f)
      = (acc (ix2 r f) : EReal) + ∑ j : Fin 2048, oh (x0 (ix2 r 0)) (BitVec.ofNat 32 ((i 1).val * 2048 + j.val)) * ((x1 (ix2 j f) : EReal) * (x2 (ix2 j 0) : EReal)) := by
  unfold k2_pay2
  (try dsimp only)
  rw [shapeCast_self]
  show (acc (ix2 r f) : EReal) + _ = _
  refine congrArg (fun z : EReal => (acc (ix2 r f) : EReal) + z) ((matmul_oh_apply _ _ r f).trans (Finset.sum_congr rfl fun j _ => ?_))
  rw [shapeCast_self, shapeCast_self, shapeCast_self]
  show (FloatOps.sitofp (F := Ideal) .f32 ((IntOp.cmpi .eq (broadcastTo S2048x2048 x0 broadcasts_S2048x1_S2048x2048 (ix2 r j)) _).setWidth 32) : EReal) * ((x1 (ix2 j f) : EReal) * (broadcastTo S2048x128 x2 broadcasts_S2048x1_S2048x128 (ix2 j f) : EReal)) = _
  rw [bcast_col_apply x0, bcast_col_apply x2, vg_colword, sitofp_eq_bit]

theorem v2_pay3_eq (acc : Vec Ideal S2048x128 .f32) (y : S2048x128.Idx) :
    (k2_pay3 (F := Ideal) acc : S2048x128.Idx → EReal) y = (acc y : EReal) := rfl

end Cert.KernelIdeal.Fr

end
-- ==== Proof.KI.V2b.lean ====
import proofs.«404853_j60129542534_1_alg».proof.Proof.KI.R2.Region
import proofs.«404853_j60129542534_1_alg».proof.Proof.KI.VShared
import Idealize.ShloMosaic.Lib.Pipeline.Value

noncomputable section

namespace Cert.KernelIdeal.Fr

open Cert.KernelIdeal Cert.KernelIdeal.Gen
open Idealize.ShloMosaic Idealize.ShloMosaic.TcCoe Idealize.ShloMosaic.Tactic
open Idealize.SL.Sem

variable {F : FTy → Type} [FloatOps F]
variable (c : Dev nD) (i : grid2.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole)

/-- Each store covers its whole buffer, so a buffer ends at its last store and a load after a store reads that store's value. -/
theorem v2_sout_B (hc0 : ¬cond2_0 i) (hc1 : ¬cond2_1 i)
    (x0 : Vec F S2048x1 .i32) (x1 : Vec F S2048x128 .f32) (x2 : Vec F S2048x1 .f32) (xs0 : Vec F S2048x128 .f32) :
    sout2_B_0 c i arg2 harg2 arg3 harg3 arg4 harg4 arg5 harg5 arg6 harg6 hc0 hc1 x0 x1 x2 xs0 = k2_pay2 i x0 x1 x2 xs0 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  sl_unfold_words
  rw [View.canon_unit_zero vg_hz]
  simp only [View.readAt_eq_ld, harg2.read_unread, harg3.read_unread, harg4.read_unread, harg6.read_unread, View.ld_unit_zero (S := S2048x1) vg_hz, View.ld_unit_zero (S := S2048x128) vg_hz]

theorem v2_sout_A (hc0 : cond2_0 i) (hc1 : ¬cond2_1 i)
    (x0 : Vec F S2048x1 .i32) (x1 : Vec F S2048x128 .f32) (x2 : Vec F S2048x1 .f32) :
    sout2_A_0 c i arg2 harg2 arg3 harg3 arg4 harg4 arg5 harg5 arg6 harg6 hc0 hc1 x0 x1 x2 = k2_pay2 i x0 x1 x2 (k2_pay1 (F := F)) := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  sl_unfold_words
  rw [View.canon_cons_unit_zero (S := S2048x128) vg_hz, View.readCov_unit_zero (S := S2048x128) _ vg_hz]
  simp only [View.readAt_eq_ld, harg2.read_unread, harg3.read_unread, harg4.read_unread, View.ld_unit_zero (S := S2048x1) vg_hz, View.ld_unit_zero (S := S2048x128) vg_hz]

theorem v2_sout_C (hc0 : ¬cond2_0 i) (hc1 : cond2_1 i)
    (x0 : Vec F S2048x1 .i32) (x1 : Vec F S2048x128 .f32) (x2 : Vec F S2048x1 .f32) (xs0 : Vec F S2048x128 .f32) :
    sout2_C_0 c i arg2 harg2 arg3 harg3 arg4 harg4 arg5 harg5 arg6 harg6 hc0 hc1 x0 x1 x2 xs0 = k2_pay2 i x0 x1 x2 xs0 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  sl_unfold_words
  rw [View.canon_unit_zero vg_hz]
  simp only [View.readAt_eq_ld, harg2.read_unread, harg3.read_unread, harg4.read_unread, harg6.read_unread, View.ld_unit_zero (S := S2048x1) vg_hz, View.ld_unit_zero (S := S2048x128) vg_hz]

theorem v2_out_C (hc0 : ¬cond2_0 i) (hc1 : cond2_1 i)
    (x0 : Vec F S2048x1 .i32) (x1 : Vec F S2048x128 .f32) (x2 : Vec F S2048x1 .f32) (xs0 : Vec F S2048x128 .f32) :
    out2_C_3 c i arg2 harg2 arg3 harg3 arg4 harg4 arg5 harg5 arg6 harg6 hc0 hc1 x0 x1 x2 xs0 = k2_pay3 (k2_pay2 i x0 x1 x2 xs0) := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  sl_unfold_words
  rw [View.canon_unit_zero vg_hz, View.readCov_unit_zero (S := S2048x128) _ vg_hz]
  simp only [View.readAt_eq_ld, harg2.read_unread, harg3.read_unread, harg4.read_unread, harg6.read_unread, View.ld_unit_zero (S := S2048x1) vg_hz, View.ld_unit_zero (S := S2048x128) vg_hz]

end Cert.KernelIdeal.Fr

end
-- ==== Proof.KI.V2c.lean ====
import proofs.«404853_j60129542534_1_alg».proof.Proof.KI.R2.Region
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.ValueIdx
open Idealize.SL.Sem

variable {F : FTy → Type} [FloatOps F] (V : (c : Dev nD) → (b : Ref sig .tc) → Buf (Elt F) ((c : Thread nD τ).loc b))

theorem v2_idx_0 : ∀ t : Fin cfg2.N, win2_0.index t (0 : Fin 2) = t.val / 25 ∧ win2_0.index t (1 : Fin 2) = 0 :=
  (by decide +kernel : ∀ t : Fin grid2.N, win2_0.index t (0 : Fin 2) = t.val / 25 ∧ win2_0.index t (1 : Fin 2) = 0)
theorem v2_idx_1 : ∀ t : Fin cfg2.N, win2_1.index t (0 : Fin 2) = t.val % 25 ∧ win2_1.index t (1 : Fin 2) = 0 :=
  (by decide +kernel : ∀ t : Fin grid2.N, win2_1.index t (0 : Fin 2) = t.val % 25 ∧ win2_1.index t (1 : Fin 2) = 0)
theorem v2_idx_2 : ∀ t : Fin cfg2.N, win2_2.index t (0 : Fin 2) = t.val % 25 ∧ win2_2.index t (1 : Fin 2) = 0 :=
  (by decide +kernel : ∀ t : Fin grid2.N, win2_2.index t (0 : Fin 2) = t.val % 25 ∧ win2_2.index t (1 : Fin 2) = 0)
theorem v2_idx_3 : ∀ t : Fin cfg2.N, win2_3.index t (0 : Fin 2) = t.val / 25 ∧ win2_3.index t (1 : Fin 2) = 0 :=
  (by decide +kernel : ∀ t : Fin grid2.N, win2_3.index t (0 : Fin 2) = t.val / 25 ∧ win2_3.index t (1 : Fin 2) = 0)
theorem v2_coord_1 : ∀ t : Fin cfg2.N, (grid2.coords t (1 : Fin 2)).val = t.val % 25 :=
  (by decide +kernel : ∀ t : Fin grid2.N, (grid2.coords t (1 : Fin 2)).val = t.val % 25)

abbrev srcArr2 (c : Dev nD) : Vec F S600064x1 .i32 := V c (Pipeline.arrRef spec2 0)
abbrev featArr2 (c : Dev nD) : Vec F S51200x128 .f32 := V c (Pipeline.arrRef spec2 1)
abbrev degArr2 (c : Dev nD) : Vec F S51200x1 .f32 := V c (Pipeline.arrRef spec2 2)
abbrev srcBlk2 (c : Dev nD) (t : Fin cfg2.N) : Vec F S2048x1 .i32 := iblk2 V c 0 t
abbrev featBlk2 (c : Dev nD) (t : Fin cfg2.N) : Vec F S2048x128 .f32 := iblk2 V c 1 t
abbrev degBlk2 (c : Dev nD) (t : Fin cfg2.N) : Vec F S2048x1 .f32 := iblk2 V c 2 t

/-- A block's coordinate in its array is the block index times the block length plus the coordinate inside the block. -/
theorem v2_srcBlk_apply (c : Dev nD) (t : Fin cfg2.N) (r : Fin 2048) (k : Fin 600064) (hk : k.val = t.val / 25 * 2048 + r.val) :
    srcBlk2 V c t (ix2 r 0) = srcArr2 V c (ix2 k 0) := by
  obtain ⟨e0, e1⟩ := v2_idx_0 t
  unfold srcBlk2 iblk2
  rw [View.read_apply]
  show V c (Pipeline.arrRef spec2 0) _ = V c (Pipeline.arrRef spec2 0) _
  congr 1
  funext a
  apply Fin.ext
  match a with
  | ⟨0, _⟩ => show win2_0.index t 0 * 2048 + 1 * r.val = k.val; rw [e0, hk]; omega
  | ⟨1, _⟩ => show win2_0.index t 1 * 1 + 1 * 0 = 0; rw [e1]

theorem v2_featBlk_apply (c : Dev nD) (t : Fin cfg2.N) (j : Fin 2048) (f : Fin 128) (k : Fin 51200) (hk : k.val = t.val % 25 * 2048 + j.val) :
    featBlk2 V c t (ix2 j f) = featArr2 V c (ix2 k f) := by
  obtain ⟨e0, e1⟩ := v2_idx_1 t
  unfold featBlk2 iblk2
  rw [View.read_apply]
  show V c (Pipeline.arrRef spec2 1) _ = V c (Pipeline.arrRef spec2 1) _
  congr 1
  funext a
  apply Fin.ext
  match a with
  | ⟨0, _⟩ => show win2_1.index t 0 * 2048 + 1 * j.val = k.val; rw [e0, hk]; omega
  | ⟨1, _⟩ => show win2_1.index t 1 * 128 + 1 * f.val = f.val; rw [e1]; omega

theorem v2_degBlk_apply (c : Dev nD) (t : Fin cfg2.N) (j : Fin 2048) (k : Fin 51200) (hk : k.val = t.val % 25 * 2048 + j.val) :
    degBlk2 V c t (ix2 j 0) = degArr2 V c (ix2 k 0) := by
  obtain ⟨e0, e1⟩ := v2_idx_2 t
  unfold degBlk2 iblk2
  rw [View.read_apply]
  show V c (Pipeline.arrRef spec2 2) _ = V c (Pipeline.arrRef spec2 2) _
  congr 1
  funext a
  apply Fin.ext
  match a with
  | ⟨0, _⟩ => show win2_2.index t 0 * 2048 + 1 * j.val = k.val; rw [e0, hk]; omega
  | ⟨1, _⟩ => show win2_2.index t 1 * 1 + 1 * 0 = 0; rw [e1]

end Cert.KernelIdeal.Fr

end
-- ==== Proof.KI.V2d.lean ====
import proofs.«404853_j60129542534_1_alg».proof.Proof.KI.V2a
import proofs.«404853_j60129542534_1_alg».proof.Proof.KI.V2b
import proofs.«404853_j60129542534_1_alg».proof.Proof.KI.V2c

noncomputable section

namespace Cert.KernelIdeal.Fr

open Cert.KernelIdeal Cert.KernelIdeal.Gen
open Idealize.ShloMosaic Idealize.ShloMosaic.TcCoe Idealize.ShloMosaic.ValueIdx
open Idealize.SL.Sem
open Cert.Spec (oh)

variable (V : (c : Dev nD) → (b : Ref sig .tc) → Buf (Elt Ideal) ((c : Thread nD τ).loc b))

/-- The one-hot weighted sum over node block kb for padded edge e and feature f (nothing beyond the 25 blocks). -/
def blockSum2 (c : Dev nD) (e : Fin 600064) (f : Fin 128) (kb : ℕ) : EReal :=
  if h : kb < 25 then
    ∑ j : Fin 2048, oh (srcArr2 V c (ix2 e 0)) (BitVec.ofNat 32 (kb * 2048 + j.val))
      * ((featArr2 V c (ix2 (⟨kb * 2048 + j.val, by have := j.isLt; omega⟩ : Fin 51200) f) : EReal)
          * (degArr2 V c (ix2 (⟨kb * 2048 + j.val, by have := j.isLt; omega⟩ : Fin 51200) 0) : EReal))
  else 0

/-- A running sum: the first term, then one more term per step. -/
abbrev fold2 (P : ℕ → EReal) (k : ℕ) : EReal := @Nat.rec (fun _ => EReal) (P 0) (fun i acc => acc + P (i + 1)) k

/-- Read off the arrays, what point t adds at row r is the sum over node block t % 25 for the edge (t / 25) * 2048 + r. -/
theorem v2_point_sum (c : Dev nD) (t : Fin cfg2.N) (r : Fin 2048) (f : Fin 128) (e : Fin 600064) (he : e.val = t.val / 25 * 2048 + r.val) :
    (∑ j : Fin 2048, oh (srcBlk2 V c t (ix2 r 0)) (BitVec.ofNat 32 ((grid2.coords t 1).val * 2048 + j.val))
        * ((featBlk2 V c t (ix2 j f) : EReal) * (degBlk2 V c t (ix2 j 0) : EReal)))
      = blockSum2 V c e f (t.val % 25) := by
  have hkb : t.val % 25 < 25 := Nat.mod_lt _ (by decide)
  unfold blockSum2
  rw [dif_pos hkb, v2_coord_1 t, v2_srcBlk_apply V c t r e he]
  refine Finset.sum_congr rfl fun j _ => ?_
  rw [v2_featBlk_apply V c t j f ⟨t.val % 25 * 2048 + j.val, by have := j.isLt; omega⟩ rfl,
    v2_degBlk_apply V c t j ⟨t.val % 25 * 2048 + j.val, by have := j.isLt; omega⟩ rfl]

/-- A reset point starts from the zero block, so the accumulator holds that point's sum. -/
theorem v2_acc_A (c : Dev nD) (t : Fin cfg2.N) (h0 : t.val % 25 = 0) (h1 : ¬t.val % 25 = 24) (r : Fin 2048) (f : Fin 128)
    (e : Fin 600064) (he : e.val = t.val / 25 * 2048 + r.val) :
    ((outsAt2 V c t.val t.isLt).2 : S2048x128.Idx → EReal) (ix2 r f) = blockSum2 V c e f (t.val % 25) := by
  rw [outsAt2_A V c t h0 h1]
  dsimp only
  rw [v2_sout_A, v2_pay2_apply, v2_pay1_apply, zero_add]
  exact v2_point_sum V c t r f e he

/-- Every other point adds its sum to what the point before left. -/
theorem v2_acc_step (c : Dev nD) (t : Fin cfg2.N) (h0 : ¬t.val % 25 = 0) (r : Fin 2048) (f : Fin 128)
    (e : Fin 600064) (he : e.val = t.val / 25 * 2048 + r.val) :
    ((outsAt2 V c t.val t.isLt).2 : S2048x128.Idx → EReal) (ix2 r f)
      = ((outsAt2 V c (t.val - 1) (Nat.lt_of_le_of_lt (Nat.sub_le _ _) t.isLt)).2 : S2048x128.Idx → EReal) (ix2 r f) + blockSum2 V c e f (t.val % 25) := by
  by_cases h1 : t.val % 25 = 24
  · rw [outsAt2_C V c t h0 h1]
    dsimp only
    rw [v2_sout_C, v2_pay2_apply, v2_point_sum V c t r f e he]
  · rw [outsAt2_B V c t h0 h1]
    dsimp only
    rw [v2_sout_B, v2_pay2_apply, v2_point_sum V c t r f e he]

/-- At a storing point the output block holds the same as the accumulator: the narrowing changes nothing. -/
theorem v2_out_C_apply (c : Dev nD) (t : Fin cfg2.N) (h0 : ¬t.val % 25 = 0) (h1 : t.val % 25 = 24) (r : Fin 2048) (f : Fin 128) :
    ((outsAt2 V c t.val t.isLt).1 : S2048x128.Idx → EReal) (ix2 r f) = ((outsAt2 V c t.val t.isLt).2 : S2048x128.Idx → EReal) (ix2 r f) := by
  rw [outsAt2_C V c t h0 h1]
  dsimp only
  rw [v2_out_C, v2_sout_C]
  exact v2_pay3_eq _ _

/-- By induction on the position: the accumulator holds the running sum of the block sums up to block n % 25. -/
theorem v2_acc_eq (c : Dev nD) : ∀ (n : ℕ) (hn : n < cfg2.N) (r : Fin 2048) (f : Fin 128) (e : Fin 600064), e.val = n / 25 * 2048 + r.val →
    ((outsAt2 V c n hn).2 : S2048x128.Idx → EReal) (ix2 r f) = fold2 (blockSum2 V c e f) (n % 25)
  | 0, hn, r, f, e, he => v2_acc_A V c ⟨0, hn⟩ rfl (by show ¬(0 : ℕ) % 25 = 24; omega) r f e he
  | n + 1, hn, r, f, e, he => by
    by_cases h0 : (n + 1) % 25 = 0
    · rw [h0]
      exact (v2_acc_A V c ⟨n + 1, hn⟩ h0 (by dsimp only; omega) r f e he).trans (congrArg (blockSum2 V c e f) h0)
    · refine (v2_acc_step V c ⟨n + 1, hn⟩ h0 r f e he).trans ?_
      show ((outsAt2 V c n _).2 : S2048x128.Idx → EReal) (ix2 r f) + blockSum2 V c e f ((n + 1) % 25) = _
      rw [v2_acc_eq c n (Nat.lt_of_succ_lt hn) r f e (by omega), show (n + 1) % 25 = n % 25 + 1 by omega]

/-- The running sum over all 25 node blocks is the gather's sum over all 51200 padded node rows. -/
theorem v2_fold_all (c : Dev nD) (e : Fin 600064) (f : Fin 128) :
    fold2 (blockSum2 V c e f) 24
      = Cert.Spec.gatherC (fun e => srcArr2 V c (ix2 e 0)) (fun n f => (featArr2 V c (ix2 n f) : EReal)) (fun n => (degArr2 V c (ix2 n 0) : EReal)) e f := by
  unfold fold2
  rw [Cert.Spec.fold_node (blockSum2 V c e f)]
  unfold Cert.Spec.gatherC
  rw [← Cert.Spec.sum_blocks_node (fun n : Fin 51200 => oh (srcArr2 V c (ix2 e 0)) (BitVec.ofNat 32 n.val) * ((featArr2 V c (ix2 n f) : EReal) * (degArr2 V c (ix2 n 0) : EReal)))]
  refine Finset.sum_congr rfl fun kb _ => ?_
  unfold blockSum2
  rw [dif_pos kb.isLt]

theorem v2_out_eq (c : Dev nD) (t : Fin cfg2.N) (h1 : t.val % 25 = 24) (r : Fin 2048) (f : Fin 128)
    (e : Fin 600064) (he : e.val = t.val / 25 * 2048 + r.val) :
    ((outsAt2 V c t.val t.isLt).1 : S2048x128.Idx → EReal) (ix2 r f)
      = Cert.Spec.gatherC (fun e => srcArr2 V c (ix2 e 0)) (fun n f => (featArr2 V c (ix2 n f) : EReal)) (fun n => (degArr2 V c (ix2 n 0) : EReal)) e f := by
  rw [v2_out_C_apply V c t (by omega) h1 r f, v2_acc_eq V c t.val t.isLt r f e he, h1]
  exact v2_fold_all V c e f

end Cert.KernelIdeal.Fr

end
-- ==== Proof.KI.V2.lean ====
import proofs.«404853_j60129542534_1_alg».proof.Proof.KI.V2d

noncomputable section

namespace Cert.KernelIdeal.Fr

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

abbrev gatherArr2 (c : Dev nD) : Vec Ideal S600064x128 .bf16 := fun i =>
  Cert.Spec.gatherC (fun e => srcArr2 V c (ix2 e 0)) (fun n f => (featArr2 V c (ix2 n f) : EReal)) (fun n => (degArr2 V c (ix2 n 0) : EReal))
    ⟨(i 0).val, idx2_lt0 i⟩ ⟨(i 1).val, idx2_lt1 i⟩

/-- The output's block lies inside the array, so the part of a block that is written back is the block. -/
theorem v2_cut3 (X : Vec Ideal S2048x128 .bf16) (i : grid2.Coords) : (cfg2.win 3).cut i X = X :=
  funext fun j => congrArg X (funext fun a => Fin.ext rfl)

theorem v2_outBlk_apply (G : Vec Ideal S600064x128 .bf16) (t : Fin cfg2.N) (r : Fin 2048) (f : Fin 128) (k : Fin 600064)
    (hk : k.val = t.val / 25 * 2048 + r.val) :
    ((cfg2.win 3).blk t).view.read (Elt Ideal) G (ix2 r f) = G (ix2 k f) := by
  obtain ⟨e0, e1⟩ := v2_idx_3 t
  rw [View.read_apply]
  show G _ = G _
  congr 1
  funext a
  apply Fin.ext
  match a with
  | ⟨0, _⟩ => show win2_3.index t 0 * 2048 + 1 * r.val = k.val; rw [e0, hk]; omega
  | ⟨1, _⟩ => show win2_3.index t 1 * 128 + 1 * f.val = f.val; rw [e1]; omega

/-- What a storing point t writes back is block t / 25 of the gather's result. -/
theorem v2_flushed_eq (c : Dev nD) (t : Fin cfg2.N) (hf : (cfg2.win 3).flush t = true) :
    (dat2 V c).flushed 3 t = ((cfg2.win 3).blk t).view.read (Elt Ideal) (gatherArr2 V c) := by
  have h24 : t.val % 25 = 24 := (flush2_3 t).mp hf
  have hN : t.val < 7325 := lt_of_lt_of_eq t.isLt (show cfg2.N = 7325 from N_2)
  show (cfg2.win 3).cut (grid2.coords t) ((dat2 V c).after 3 t) = _
  rw [after2_3]
  refine (v2_cut3 (outsAt2 V c t.val t.isLt).1 (grid2.coords t)).trans (ix2_ext _ _ fun r f => ?_)
  refine (v2_out_eq V c t h24 r f ⟨t.val / 25 * 2048 + r.val, by have := r.isLt; omega⟩ rfl).trans ?_
  exact (v2_outBlk_apply (gatherArr2 V c) t r f ⟨t.val / 25 * 2048 + r.val, by have := r.isLt; omega⟩ rfl).symm

theorem v2_mem_blk3 (t : Fin cfg2.N) (i : S600064x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole (Pipeline.arrRef spec2 3)).slice (win2_3.rect t)).set ↔ _
  rw [View.set_slice_whole, Rect.mem_set_unit]
  exact Iff.rfl

/-- Row e of the output array is in the block of the storing point (e / 2048) * 25 + 24. -/
theorem v2_cover (i : S600064x128.Idx) : ∃ t : Fin cfg2.N, (cfg2.win 3).flush t = true ∧ i ∈ ((cfg2.win 3).blk t).view.set := by
  have hi0 : (i 0).val < 600064 := idx2_lt0 i
  have hi1 : (i 1).val < 128 := idx2_lt1 i
  obtain ⟨t, ht⟩ : ∃ t : Fin cfg2.N, t.val = (i 0).val / 2048 * 25 + 24 :=
    ⟨⟨_, by rw [show cfg2.N = 7325 from N_2]; omega⟩, rfl⟩
  obtain ⟨e0, e1⟩ := v2_idx_3 t
  refine ⟨t, (flush2_3 t).mpr (by omega), (v2_mem_blk3 t i).mpr fun a => ?_⟩
  match a with
  | ⟨0, _⟩ =>
    show win2_3.index t (0 : Fin 2) * 2048 ≤ (i 0).val ∧ (i 0).val < win2_3.index t (0 : Fin 2) * 2048 + 2048
    rw [e0]; omega
  | ⟨1, _⟩ =>
    show win2_3.index t (1 : Fin 2) * 128 ≤ (i 1).val ∧ (i 1).val < win2_3.index t (1 : Fin 2) * 128 + 128
    rw [e1]; omega

/-- The blocks written back at the storing points cover the output array, so it ends holding the gather's result. -/
theorem arr2_eq (c : Dev nD) : (dat2 V c).arrAt 3 cfg2.N = gatherArr2 V c :=
  (dat2 V c).arrAt_eq_of_cover 3 (gatherArr2 V c) (v2_flushed_eq V c) v2_cover

theorem arr2_apply (c : Dev nD) (e : Fin 600064) (f : Fin 128) :
    ((dat2 V c).arrAt 3 cfg2.N : S600064x128.Idx → EReal) (ix2 e f)
      = Cert.Spec.gatherC (fun e => (V c (Pipeline.arrRef spec2 0) : S600064x1.Idx → BitVec 32) (ix2 e 0))
          (fun n f => (V c (Pipeline.arrRef spec2 1) : S51200x128.Idx → EReal) (ix2 n f))
          (fun n => (V c (Pipeline.arrRef spec2 2) : S51200x1.Idx → EReal) (ix2 n 0)) e f :=
  (congrFun (arr2_eq V c) (ix2 e f)).trans rfl

end Cert.KernelIdeal.Fr

end
-- ==== Proof.KI.V3a.lean ====
import proofs.«404853_j60129542534_1_alg».proof.Proof.KI.R3.Region
import proofs.«404853_j60129542534_1_alg».proof.Proof.KI.VShared
import Idealize.ShloMosaic.Lib.Pipeline.Value
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic

variable {F : FTy → Type} [FloatOps F] {c : Dev nD} {i : grid3.Coords}
  {arg2 : Memref sig .tc .vmem S1x2048 .i32} {harg2 : arg2.IsWhole} {arg3 : Memref sig .tc .vmem S2048x128 .bf16} {harg3 : arg3.IsWhole}
  {arg4 : Memref sig .tc .vmem S2048x1 .f32} {harg4 : arg4.IsWhole} {arg5 : Memref sig .tc .vmem S128x128 .f32} {harg5 : arg5.IsWhole}
  {arg6 : Memref sig .tc .vmem S1x128 .f32} {harg6 : arg6.IsWhole} {arg7 : Memref sig .tc .vmem S2048x128 .f32} {harg7 : arg7.IsWhole}
  {arg8 : Memref sig .tc .vmem S2048x128 .f32} {harg8 : arg8.IsWhole}
  {x0 : Vec F S1x2048 .i32} {x1 : Vec F S2048x128 .bf16} {x2 : Vec F S2048x1 .f32} {x3 : Vec F S128x128 .f32} {x4 : Vec F S1x128 .f32}
  {xs0 : Vec F S2048x128 .f32}

-- A reset point leaves in the accumulator its payload over the zero block.
theorem sout3_A_0_eq {hc0 : cond3_0 i} {hc1 : ¬cond3_1 i} :
    sout3_A_0 c i arg2 harg2 arg3 harg3 arg4 harg4 arg5 harg5 arg6 harg6 arg7 harg7 arg8 harg8 hc0 hc1 x0 x1 x2 x3 x4 = k3_pay2 i x0 (k3_pay1 (F := F)) x1 := by
  unfold sout3_A_0
  rw [View.read_writes_eq_canon _ _ _ (scover3_A_0 c i arg2 harg2 arg3 harg3 arg4 harg4 arg5 harg5 arg6 harg6 arg7 harg7 arg8 harg8 hc0 hc1 x0 x1 x2 x3 x4)]
  unfold kernelRun3_A
  dsimp only
  sl_unfold_words
  rw [View.canon_cons_unit_zero (S := S2048x128) vg_hz, View.readCov_unit_zero (S := S2048x128) _ vg_hz]
  simp only [View.readAt_eq_ld, harg2.read_unread, harg3.read_unread,
    View.ld_unit_zero (S := S1x2048) vg_hz, View.ld_unit_zero (S := S2048x128) vg_hz]

-- A middle point leaves in the accumulator its payload over what the accumulator held.
theorem sout3_B_0_eq {hc0 : ¬cond3_0 i} {hc1 : ¬cond3_1 i} :
    sout3_B_0 c i arg2 harg2 arg3 harg3 arg4 harg4 arg5 harg5 arg6 harg6 arg7 harg7 arg8 harg8 hc0 hc1 x0 x1 x2 x3 x4 xs0 = k3_pay2 i x0 xs0 x1 := by
  unfold sout3_B_0
  rw [View.read_writes_eq_canon _ _ _ (scover3_B_0 c i arg2 harg2 arg3 harg3 arg4 harg4 arg5 harg5 arg6 harg6 arg7 harg7 arg8 harg8 hc0 hc1 x0 x1 x2 x3 x4 xs0)]
  unfold kernelRun3_B
  dsimp only
  sl_unfold_words
  rw [View.canon_unit_zero (S := S2048x128) vg_hz]
  simp only [View.readAt_eq_ld, harg2.read_unread, harg3.read_unread, harg8.read_unread,
    View.ld_unit_zero (S := S1x2048) vg_hz, View.ld_unit_zero (S := S2048x128) vg_hz]

-- A storing point does the same,
theorem sout3_C_0_eq {hc0 : ¬cond3_0 i} {hc1 : cond3_1 i} :
    sout3_C_0 c i arg2 harg2 arg3 harg3 arg4 harg4 arg5 harg5 arg6 harg6 arg7 harg7 arg8 harg8 hc0 hc1 x0 x1 x2 x3 x4 xs0 = k3_pay2 i x0 xs0 x1 := by
  unfold sout3_C_0
  rw [View.read_writes_eq_canon _ _ _ (scover3_C_0 c i arg2 harg2 arg3 harg3 arg4 harg4 arg5 harg5 arg6 harg6 arg7 harg7 arg8 harg8 hc0 hc1 x0 x1 x2 x3 x4 xs0)]
  unfold kernelRun3_C
  dsimp only
  sl_unfold_words
  rw [View.canon_unit_zero (S := S2048x128) vg_hz]
  simp only [View.readAt_eq_ld, harg2.read_unread, harg3.read_unread, harg8.read_unread,
    View.ld_unit_zero (S := S1x2048) vg_hz, View.ld_unit_zero (S := S2048x128) vg_hz]

-- and leaves in the output block the projection of the accumulator it has just written.
theorem out3_C_5_eq {hc0 : ¬cond3_0 i} {hc1 : cond3_1 i} :
    out3_C_5 c i arg2 harg2 arg3 harg3 arg4 harg4 arg5 harg5 arg6 harg6 arg7 harg7 arg8 harg8 hc0 hc1 x0 x1 x2 x3 x4 xs0 = k3_pay3 (k3_pay2 i x0 xs0 x1) x2 x3 x4 := by
  unfold out3_C_5
  rw [View.read_writes_eq_canon _ _ _ (cover3_C_5 c i arg2 harg2 arg3 harg3 arg4 harg4 arg5 harg5 arg6 harg6 arg7 harg7 arg8 harg8 hc0 hc1 x0 x1 x2 x3 x4 xs0)]
  unfold kernelRun3_C
  dsimp only
  sl_unfold_words
  rw [View.canon_unit_zero (S := S2048x128) vg_hz, View.readCov_unit_zero (S := S2048x128) _ vg_hz]
  simp only [View.readAt_eq_ld, harg2.read_unread, harg3.read_unread, harg4.read_unread, harg5.read_unread, harg6.read_unread,
    harg8.read_unread, View.ld_unit_zero (S := S1x2048) vg_hz, View.ld_unit_zero (S := S2048x128) vg_hz,
    View.ld_unit_zero (S := S2048x1) vg_hz, View.ld_unit_zero (S := S128x128) vg_hz, View.ld_unit_zero (S := S1x128) vg_hz]

end Cert.KernelIdeal.Fr

end
-- ==== Proof.KI.V3b.lean ====
import proofs.«404853_j60129542534_1_alg».proof.Proof.Gen.KernelIdeal.Skeleton
import proofs.«404853_j60129542534_1_alg».proof.Proof.KI.VScatterLib
import Idealize.ShloMosaic.Lib.ValueLayout

noncomputable section

namespace Cert.KernelIdeal.Fr

open Cert.KernelIdeal Cert.KernelIdeal.Gen
open Idealize.ShloMosaic Idealize.ShloMosaic.ValueIdx

theorem k3_pay1_apply (y : S2048x128.Idx) : (k3_pay1 (F := Ideal)) y = 0 := by
  unfold k3_pay1
  exact (congrFun (shapeCast_self _ _) y).trans Ideal.ofBits_zero_f32

-- A point adds to the accumulator the product of its one-hot matrix (node row against edge target) with the message block.
theorem k3_pay2_apply (i : grid3.Coords) (v7 : Vec Ideal S1x2048 .i32) (v14 : Vec Ideal S2048x128 .f32) (v15 : Vec Ideal S2048x128 .bf16)
    (r : Fin 2048) (k : Fin 128) :
    k3_pay2 (F := Ideal) i v7 v14 v15 (ix2 r k)
      = v14 (ix2 r k) + ∑ j : Fin 2048, Cert.Spec.oh (BitVec.ofNat 32 ((i 0).val * 2048 + r.val)) (v7 (ix2 0 j)) * v15 (ix2 j k) := by
  unfold k3_pay2
  dsimp only
  refine (congrFun (shapeCast_self _ _) (ix2 r k)).trans ?_
  refine (addf_apply _ _ _).trans (congrArg (v14 (ix2 r k) + ·) ?_)
  refine (matmul_oh_apply _ _ r k).trans (Finset.sum_congr rfl fun j _ => ?_)
  refine congrArg₂ (· * ·) ?_ (congrFun (shapeCast_self _ _) (ix2 j k))
  show FloatOps.sitofp (F := Ideal) .f32 ((IntOp.cmpi .eq
      (IntOp.addi (Scalar.muli (BitVec.ofNat 32 (i 0).val) 2048#32) (iota .tc S2048x2048 32 [0] iota_S2048x2048_d0_w32 (ix2 r j)))
      (broadcastTo S2048x2048 (shapeCast S1x2048 v7 shapeCasts_S1x2048_S1x2048) broadcasts_S1x2048_S2048x2048 (ix2 r j))).setWidth 32) = _
  rw [iota_single_apply, (broadcastTo_1b_ab_apply _ broadcasts_S1x2048_S2048x2048 r j :
    broadcastTo S2048x2048 (shapeCast S1x2048 v7 shapeCasts_S1x2048_S1x2048) _ (ix2 r j) = _), shapeCast_self, sitofp_eq_bit]
  show Cert.Spec.oh (BitVec.ofNat 32 (i 0).val * 2048#32 + BitVec.ofNat 32 r.val) (v7 (ix2 0 j)) = _
  rw [Cert.Spec.ofNat_block]

-- The last step of the layer: the rectifier.
def act3 (x : EReal) : EReal := max x 0

-- A storing point stores the row's scatter sums scaled by its in-degree factor, times W, plus the bias, through the last step.
theorem k3_pay3_apply (v25 : Vec Ideal S2048x128 .f32) (v26 : Vec Ideal S2048x1 .f32)
    (v31 : Vec Ideal S128x128 .f32) (v34 : Vec Ideal S1x128 .f32) (r : Fin 2048) (j : Fin 128) :
    k3_pay3 (F := Ideal) v25 v26 v31 v34 (ix2 r j)
      = act3 ((∑ k : Fin 128, (v25 (ix2 r k) * v26 (ix2 r 0)) * v31 (ix2 k j)) + v34 (ix2 0 j)) := by
  unfold k3_pay3
  refine (vg_relu_apply _ _).trans (congrArg act3 ?_)
  refine (addf_apply _ _ _).trans (congrArg₂ (· + ·) ?_ ?_)
  · refine (matmul_pj_apply _ _ r j).trans (Finset.sum_congr rfl fun k _ => ?_)
    exact congrArg₂ (· * ·) (congrArg (v25 (ix2 r k) * ·)
      ((bcast_col_apply _ broadcasts_S2048x1_S2048x128 r k).trans (congrFun (shapeCast_self _ _) (ix2 r 0)))) rfl
  · exact (broadcastTo_1b_ab_apply _ broadcasts_S1x128_S2048x128 r j).trans (congrFun (shapeCast_self _ _) (ix2 0 j))

end Cert.KernelIdeal.Fr

end
-- ==== Proof.KI.V3c.lean ====
import proofs.«404853_j60129542534_1_alg».proof.Proof.KI.R3.Runs
import proofs.«404853_j60129542534_1_alg».proof.Proof.KI.VShared
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.Tactic Idealize.ShloMosaic.ValueIdx

variable {F : FTy → Type} [FloatOps F]

variable (V : (c : Dev nD) → (b : Ref sig .tc) → Buf (Elt F) ((c : Thread nD τ).loc b))

theorem coords3 : ∀ t : Fin grid3.N, ((grid3.coords t) 0).val = t.val / 293 ∧ ((grid3.coords t) 1).val = t.val % 293 := by
  decide +kernel
theorem idx3_0 : ∀ t : Fin grid3.N, win3_0.index t (0 : Fin 2) = 0 ∧ win3_0.index t (1 : Fin 2) = t.val % 293 := by
  decide +kernel
theorem idx3_1 : ∀ t : Fin grid3.N, win3_1.index t (0 : Fin 2) = t.val % 293 ∧ win3_1.index t (1 : Fin 2) = 0 := by
  decide +kernel
theorem idx3_2 : ∀ t : Fin grid3.N, win3_2.index t (0 : Fin 2) = t.val / 293 ∧ win3_2.index t (1 : Fin 2) = 0 := by
  decide +kernel
theorem idx3_3 : ∀ t : Fin grid3.N, win3_3.index t (0 : Fin 2) = 0 ∧ win3_3.index t (1 : Fin 2) = 0 := by
  decide +kernel
theorem idx3_4 : ∀ t : Fin grid3.N, win3_4.index t (0 : Fin 2) = 0 ∧ win3_4.index t (1 : Fin 2) = 0 := by
  decide +kernel
theorem idx3_5 : ∀ t : Fin grid3.N, win3_5.index t (0 : Fin 2) = t.val / 293 ∧ win3_5.index t (1 : Fin 2) = 0 := by
  decide +kernel

variable (c : Dev nD) (t : Fin cfg3.N)

-- Each block, at an index, is its array at the block's offset plus the index.
theorem iblk3_0_apply (j : Fin 2048) (e : Fin 600064) (he : e.val = t.val % 293 * 2048 + j.val) :
    (iblk3 V c 0 t : Vec F S1x2048 .i32) (ix2 0 j) = (V c (Pipeline.arrRef spec3 0) : S1x600064.Idx → Elt F .i32) (ix2 0 e) :=
  congrArg (V c (Pipeline.arrRef spec3 0) : S1x600064.Idx → Elt F .i32) (ix2_of_val _ _ _
    (by show win3_0.index t (0 : Fin 2) * 1 + 1 * 0 = 0; rw [(idx3_0 t).1])
    (by show win3_0.index t (1 : Fin 2) * 2048 + 1 * j.val = e.val; rw [(idx3_0 t).2, he]; omega))

theorem iblk3_1_apply (j : Fin 2048) (k : Fin 128) (e : Fin 600064) (he : e.val = t.val % 293 * 2048 + j.val) :
    (iblk3 V c 1 t : Vec F S2048x128 .bf16) (ix2 j k) = (V c (Pipeline.arrRef spec3 1) : S600064x128.Idx → Elt F .bf16) (ix2 e k) :=
  congrArg (V c (Pipeline.arrRef spec3 1) : S600064x128.Idx → Elt F .bf16) (ix2_of_val _ _ _
    (by show win3_1.index t (0 : Fin 2) * 2048 + 1 * j.val = e.val; rw [(idx3_1 t).1, he]; omega)
    (by show win3_1.index t (1 : Fin 2) * 128 + 1 * k.val = k.val; rw [(idx3_1 t).2]; omega))

theorem iblk3_2_apply (r : Fin 2048) (n : Fin 51200) (hn : n.val = t.val / 293 * 2048 + r.val) :
    (iblk3 V c 2 t : Vec F S2048x1 .f32) (ix2 r 0) = (V c (Pipeline.arrRef spec3 2) : S51200x1.Idx → Elt F .f32) (ix2 n 0) :=
  congrArg (V c (Pipeline.arrRef spec3 2) : S51200x1.Idx → Elt F .f32) (ix2_of_val _ _ _
    (by show win3_2.index t (0 : Fin 2) * 2048 + 1 * r.val = n.val; rw [(idx3_2 t).1, hn]; omega)
    (by show win3_2.index t (1 : Fin 2) * 1 + 1 * 0 = 0; rw [(idx3_2 t).2]))

theorem iblk3_3_apply (k : Fin 128) (j : Fin 128) :
    (iblk3 V c 3 t : Vec F S128x128 .f32) (ix2 k j) = (V c (Pipeline.arrRef spec3 3) : S128x128.Idx → Elt F .f32) (ix2 k j) :=
  congrArg (V c (Pipeline.arrRef spec3 3) : S128x128.Idx → Elt F .f32) (ix2_of_val _ _ _
    (by show win3_3.index t (0 : Fin 2) * 128 + 1 * k.val = k.val; rw [(idx3_3 t).1]; omega)
    (by show win3_3.index t (1 : Fin 2) * 128 + 1 * j.val = j.val; rw [(idx3_3 t).2]; omega))

theorem iblk3_4_apply (j : Fin 128) :
    (iblk3 V c 4 t : Vec F S1x128 .f32) (ix2 0 j) = (V c (Pipeline.arrRef spec3 4) : S1x128.Idx → Elt F .f32) (ix2 0 j) :=
  congrArg (V c (Pipeline.arrRef spec3 4) : S1x128.Idx → Elt F .f32) (ix2_of_val _ _ _
    (by show win3_4.index t (0 : Fin 2) * 1 + 1 * 0 = 0; rw [(idx3_4 t).1])
    (by show win3_4.index t (1 : Fin 2) * 128 + 1 * j.val = j.val; rw [(idx3_4 t).2]; omega))

end Cert.KernelIdeal.Fr

end
-- ==== Proof.KI.V3d.lean ====
import proofs.«404853_j60129542534_1_alg».proof.Proof.KI.V3a
import proofs.«404853_j60129542534_1_alg».proof.Proof.KI.V3b
import proofs.«404853_j60129542534_1_alg».proof.Proof.KI.V3c

noncomputable section

namespace Cert.KernelIdeal.Fr

open Cert.KernelIdeal Cert.KernelIdeal.Gen
open Idealize.ShloMosaic Idealize.ShloMosaic.TcCoe Idealize.ShloMosaic.Tactic Idealize.ShloMosaic.ValueIdx

variable (V : (c : Dev nD) → (b : Ref sig .tc) → Buf (Elt Ideal) ((c : Thread nD τ).loc b)) (c : Dev nD)

abbrev dblk3 (t : Fin cfg3.N) : Vec Ideal S1x2048 .i32 := iblk3 V c 0 t
abbrev mblk3 (t : Fin cfg3.N) : Vec Ideal S2048x128 .bf16 := iblk3 V c 1 t
abbrev acc3 (n : ℕ) (hn : n < cfg3.N) : Vec Ideal S2048x128 .f32 := (outsAt3 V c n hn).2

abbrev dstA3 : S1x600064.Idx → BitVec 32 := V c (Pipeline.arrRef spec3 0)
abbrev msgA3 : S600064x128.Idx → EReal := V c (Pipeline.arrRef spec3 1)
abbrev degA3 : S51200x1.Idx → EReal := V c (Pipeline.arrRef spec3 2)
abbrev wA3 : S128x128.Idx → EReal := V c (Pipeline.arrRef spec3 3)
abbrev bA3 : S1x128.Idx → EReal := V c (Pipeline.arrRef spec3 4)

variable (t : Fin cfg3.N)

-- After a point that is not a reset the accumulator is the payload over what the point before left.
theorem acc3_step (h0 : ¬t.val % 293 = 0) :
    acc3 V c t.val t.isLt
      = k3_pay2 (grid3.coords t) (dblk3 V c t) (acc3 V c (t.val - 1) (Nat.lt_of_le_of_lt (Nat.sub_le _ _) t.isLt)) (mblk3 V c t) := by
  by_cases h1 : t.val % 293 = 292
  · show (outsAt3 V c t.val t.isLt).2 = _
    rw [outsAt3_C V c t h0 h1]
    dsimp only
    exact sout3_C_0_eq (c := c) (i := grid3.coords t) (arg2 := ms3_0 t) (harg2 := hs3_0 t) (arg3 := ms3_1 t) (harg3 := hs3_1 t) (arg4 := ms3_2 t) (harg4 := hs3_2 t) (arg5 := ms3_3 t) (harg5 := hs3_3 t) (arg6 := ms3_4 t) (harg6 := hs3_4 t) (arg7 := ms3_5 t) (harg7 := hs3_5 t) (arg8 := scM3_0) (harg8 := Memref.isWhole_whole _) (hc0 := fun h => h0 ((hcond3_0 t).mp h)) (hc1 := (hcond3_1 t).mpr h1) (x0 := iblk3 V c 0 t) (x1 := iblk3 V c 1 t) (x2 := iblk3 V c 2 t) (x3 := iblk3 V c 3 t) (x4 := iblk3 V c 4 t) (xs0 := (outsAt3 V c (t.val - 1) (Nat.lt_of_le_of_lt (Nat.sub_le _ _) t.isLt)).2)
  · show (outsAt3 V c t.val t.isLt).2 = _
    rw [outsAt3_B V c t h0 h1]
    dsimp only
    exact sout3_B_0_eq (c := c) (i := grid3.coords t) (arg2 := ms3_0 t) (harg2 := hs3_0 t) (arg3 := ms3_1 t) (harg3 := hs3_1 t) (arg4 := ms3_2 t) (harg4 := hs3_2 t) (arg5 := ms3_3 t) (harg5 := hs3_3 t) (arg6 := ms3_4 t) (harg6 := hs3_4 t) (arg7 := ms3_5 t) (harg7 := hs3_5 t) (arg8 := scM3_0) (harg8 := Memref.isWhole_whole _) (hc0 := fun h => h0 ((hcond3_0 t).mp h)) (hc1 := fun h => h1 ((hcond3_1 t).mp h)) (x0 := iblk3 V c 0 t) (x1 := iblk3 V c 1 t) (x2 := iblk3 V c 2 t) (x3 := iblk3 V c 3 t) (x4 := iblk3 V c 4 t) (xs0 := (outsAt3 V c (t.val - 1) (Nat.lt_of_le_of_lt (Nat.sub_le _ _) t.isLt)).2)

-- Every point adds its edge block's one-hot product, to zero at a reset and else to what the point before left.
theorem acc3_rec (r : Fin 2048) (k : Fin 128) :
    acc3 V c t.val t.isLt (ix2 r k)
      = (if t.val % 293 = 0 then (0 : EReal) else acc3 V c (t.val - 1) (Nat.lt_of_le_of_lt (Nat.sub_le _ _) t.isLt) (ix2 r k))
        + ∑ j : Fin 2048, Cert.Spec.oh (BitVec.ofNat 32 (t.val / 293 * 2048 + r.val)) (dblk3 V c t (ix2 0 j)) * mblk3 V c t (ix2 j k) := by
  rw [← (coords3 t).1]
  by_cases h0 : t.val % 293 = 0
  · rw [if_pos h0]
    have h1 : ¬t.val % 293 = 292 := by omega
    have hA : acc3 V c t.val t.isLt = k3_pay2 (grid3.coords t) (dblk3 V c t) (k3_pay1 (F := Ideal)) (mblk3 V c t) := by
      show (outsAt3 V c t.val t.isLt).2 = _
      rw [outsAt3_A V c t h0 h1]
      dsimp only
      exact sout3_A_0_eq (c := c) (i := grid3.coords t) (arg2 := ms3_0 t) (harg2 := hs3_0 t) (arg3 := ms3_1 t) (harg3 := hs3_1 t) (arg4 := ms3_2 t) (harg4 := hs3_2 t) (arg5 := ms3_3 t) (harg5 := hs3_3 t) (arg6 := ms3_4 t) (harg6 := hs3_4 t) (arg7 := ms3_5 t) (harg7 := hs3_5 t) (arg8 := scM3_0) (harg8 := Memref.isWhole_whole _) (hc0 := (hcond3_0 t).mpr h0) (hc1 := fun h => h1 ((hcond3_1 t).mp h)) (x0 := iblk3 V c 0 t) (x1 := iblk3 V c 1 t) (x2 := iblk3 V c 2 t) (x3 := iblk3 V c 3 t) (x4 := iblk3 V c 4 t)
    exact (congrFun hA _).trans
      ((k3_pay2_apply _ _ _ _ r k).trans (congrArg₂ HAdd.hAdd (k3_pay1_apply _) rfl))
  · rw [if_neg h0]
    exact (congrFun (acc3_step V c t h0) _).trans (k3_pay2_apply _ _ _ _ r k)

-- After the last point of a row of points the accumulator holds the scatter sums of the row's nodes.
theorem acc3_last (h1 : t.val % 293 = 292) (r : Fin 2048) (k : Fin 128) (n : Fin 51200) (hn : n.val = t.val / 293 * 2048 + r.val) :
    acc3 V c t.val t.isLt (ix2 r k)
      = Cert.Spec.aggC (fun e => dstA3 V c (ix2 0 e)) (fun e k => msgA3 V c (ix2 e k)) n k :=
  vg_acc_last (dstA3 V c) (msgA3 V c) (fun n hn => acc3 V c n hn) (fun n hn => dblk3 V c ⟨n, hn⟩) (fun n hn => mblk3 V c ⟨n, hn⟩)
    (fun n hn => acc3_rec V c ⟨n, hn⟩) (fun n hn => iblk3_0_apply V c ⟨n, hn⟩) (fun n hn => iblk3_1_apply V c ⟨n, hn⟩)
    t.val t.isLt h1 r k n hn

-- What the region leaves in its output array: the last step of the projection of the scatter sums.
def G3 : S51200x128.Idx → EReal := fun i =>
  act3 (Cert.Spec.projC (Cert.Spec.aggC (fun e => dstA3 V c (ix2 0 e)) (fun e k => msgA3 V c (ix2 e k)))
    (fun n => degA3 V c (ix2 n 0)) (fun k j => wA3 V c (ix2 k j)) (fun j => bA3 V c (ix2 0 j))
    ⟨(i 0).val, idx2_lt0 i⟩ ⟨(i 1).val, idx2_lt1 i⟩)

-- A storing point stores the rows of that function its block covers.
theorem out3_last (h1 : t.val % 293 = 292) (r : Fin 2048) (j : Fin 128) (n : Fin 51200) (hn : n.val = t.val / 293 * 2048 + r.val) :
    ((outsAt3 V c t.val t.isLt).1 : Vec Ideal S2048x128 .f32) (ix2 r j) = G3 V c (ix2 n j) := by
  have h0 : ¬t.val % 293 = 0 := by omega
  have hs : (outsAt3 V c t.val t.isLt).1 = k3_pay3 (acc3 V c t.val t.isLt) (iblk3 V c 2 t) (iblk3 V c 3 t) (iblk3 V c 4 t) := by
    rw [acc3_step V c t h0]
    rw [outsAt3_C V c t h0 h1]
    dsimp only
    exact out3_C_5_eq (c := c) (i := grid3.coords t) (arg2 := ms3_0 t) (harg2 := hs3_0 t) (arg3 := ms3_1 t) (harg3 := hs3_1 t) (arg4 := ms3_2 t) (harg4 := hs3_2 t) (arg5 := ms3_3 t) (harg5 := hs3_3 t) (arg6 := ms3_4 t) (harg6 := hs3_4 t) (arg7 := ms3_5 t) (harg7 := hs3_5 t) (arg8 := scM3_0) (harg8 := Memref.isWhole_whole _) (hc0 := fun h => h0 ((hcond3_0 t).mp h)) (hc1 := (hcond3_1 t).mpr h1) (x0 := iblk3 V c 0 t) (x1 := iblk3 V c 1 t) (x2 := iblk3 V c 2 t) (x3 := iblk3 V c 3 t) (x4 := iblk3 V c 4 t) (xs0 := (outsAt3 V c (t.val - 1) (Nat.lt_of_le_of_lt (Nat.sub_le _ _) t.isLt)).2)
  refine (congrFun hs _).trans ((k3_pay3_apply _ _ _ _ r j).trans (congrArg act3 ?_))
  unfold Cert.Spec.projC
  refine congrArg₂ (· + ·) (Finset.sum_congr rfl fun k _ => ?_) (iblk3_4_apply V c t j)
  exact congrArg₂ (· * ·) (congrArg₂ (· * ·) (acc3_last V c t h1 r k n hn) (iblk3_2_apply V c t r n hn)) (iblk3_3_apply V c t k j)

end Cert.KernelIdeal.Fr

end
-- ==== Proof.KI.V3e.lean ====
import proofs.«404853_j60129542534_1_alg».proof.Proof.KI.V3d

noncomputable section

namespace Cert.KernelIdeal.Fr

open Cert.KernelIdeal Cert.KernelIdeal.Gen
open Idealize.ShloMosaic Idealize.ShloMosaic.TcCoe Idealize.ShloMosaic.Tactic Idealize.ShloMosaic.ValueIdx

variable (V : (c : Dev nD) → (b : Ref sig .tc) → Buf (Elt Ideal) ((c : Thread nD τ).loc b)) (c : Dev nD)

-- What a storing point writes back is its block of the function the region leaves.
theorem flushed3_eq (t : Fin cfg3.N) (hf : (cfg3.win 5).flush t = true) :
    (dat3 V c).flushed 5 t = ((cfg3.win 5).blk t).view.read (Elt Ideal) (G3 V c) := by
  have hN : cfg3.N = 7325 := N_3
  show (cfg3.win 5).cut (grid3.coords t) ((dat3 V c).after 5 t) = _
  rw [after3_5]
  funext y
  obtain ⟨r, j, rfl⟩ : ∃ (r : Fin 2048) (j : Fin 128), y = ix2 r j := ⟨y 0, y 1, eq_ix2 (n0 := 2048) (n1 := 128) y⟩
  have hnlt : t.val / 293 * 2048 + r.val < 51200 := by have := t.isLt; have := r.isLt; omega
  show ((outsAt3 V c t.val t.isLt).1 : Vec Ideal S2048x128 .f32) (ix2 r j) = G3 V c (((cfg3.win 5).blk t).view.emb (ix2 r j))
  refine (out3_last V c t ((flush3_5 t).mp hf) r j ⟨_, hnlt⟩ rfl).trans (congrArg (G3 V c) (ix2_of_val _ _ _ ?_ ?_).symm)
  · show win3_5.index t (0 : Fin 2) * 2048 + 1 * r.val = t.val / 293 * 2048 + r.val
    rw [(idx3_5 t).1]; omega
  · show win3_5.index t (1 : Fin 2) * 128 + 1 * j.val = j.val
    rw [(idx3_5 t).2]; omega

-- Every node row lies in the block some storing point writes back: row n in that of point (n / 2048) * 293 + 292.
theorem cover3_5 (i : S51200x128.Idx) :
    ∃ t : Fin cfg3.N, (cfg3.win 5).flush t = true ∧ i ∈ ((cfg3.win 5).blk t).view.set := by
  have hN : cfg3.N = 7325 := N_3
  have hi0 : (i 0).val < 51200 := idx2_lt0 i
  have hi1 : (i 1).val < 128 := idx2_lt1 i
  obtain ⟨t, ht⟩ : ∃ t : Fin cfg3.N, t.val = (i 0).val / 2048 * 293 + 292 := ⟨⟨_, by rw [hN]; omega⟩, rfl⟩
  refine ⟨t, (flush3_5 t).mpr (by omega), ?_⟩
  show i ∈ ((View.whole (Pipeline.arrRef spec3 5)).slice (win3_5.rect t)).set
  rw [View.set_slice_whole, Rect.mem_set_unit]
  intro a
  match a with
  | ⟨0, _⟩ =>
    show win3_5.index t (0 : Fin 2) * 2048 ≤ (i 0).val ∧ (i 0).val < win3_5.index t (0 : Fin 2) * 2048 + 2048
    rw [(idx3_5 t).1]; omega
  | ⟨1, _⟩ =>
    show win3_5.index t (1 : Fin 2) * 128 ≤ (i 1).val ∧ (i 1).val < win3_5.index t (1 : Fin 2) * 128 + 128
    rw [(idx3_5 t).2]; omega

-- The output array after the region: the covering blocks carry the function.
theorem arr3_apply (n : Fin 51200) (j : Fin 128) :
    ((dat3 V c).arrAt 5 cfg3.N : S51200x128.Idx → EReal) (ix2 n j)
      = max (Cert.Spec.projC (Cert.Spec.aggC (fun e => (V c (Pipeline.arrRef spec3 0) : S1x600064.Idx → BitVec 32) (ix2 0 e))
            (fun e k => (V c (Pipeline.arrRef spec3 1) : S600064x128.Idx → EReal) (ix2 e k)))
          (fun n => (V c (Pipeline.arrRef spec3 2) : S51200x1.Idx → EReal) (ix2 n 0))
          (fun k j => (V c (Pipeline.arrRef spec3 3) : S128x128.Idx → EReal) (ix2 k j))
          (fun j => (V c (Pipeline.arrRef spec3 4) : S1x128.Idx → EReal) (ix2 0 j)) n j) 0 :=
  congrFun ((dat3 V c).arrAt_eq_of_cover 5 (G3 V c) (flushed3_eq V c) cover3_5) (ix2 n j)

end Cert.KernelIdeal.Fr

end
-- ==== Proof.KI.V4a.lean ====
import proofs.«404853_j60129542534_1_alg».proof.Proof.Gen.KernelIdeal.Skeleton
import proofs.«404853_j60129542534_1_alg».proof.Proof.KI.VShared

noncomputable section

namespace Cert.KernelIdeal.Fr

open Cert.KernelIdeal Cert.KernelIdeal.Gen
open Idealize.ShloMosaic Idealize.ShloMosaic.ValueIdx
open Cert.Spec (oh)

theorem v4_pay1_apply (y : S2048x128.Idx) : (k4_pay1 (F := Ideal) : S2048x128.Idx → EReal) y = 0 := by
  unfold k4_pay1
  (try dsimp only)
  rw [shapeCast_self]
  show Ideal.ofBits .f32 0x00000000#32 = 0
  exact Ideal.ofBits_zero_f32

/-- The update adds, at row r and feature f, the one-hot weighted sum over the point's 2048 node rows. -/
theorem v4_pay2_apply (i : grid4.Coords) (x0 : Vec Ideal S2048x1 .i32) (x1 : Vec Ideal S2048x128 .f32) (x2 : Vec Ideal S2048x1 .f32)
    (acc : Vec Ideal S2048x128 .f32) (r : Fin 2048) (f : Fin 128) :
    (k4_pay2 (F := Ideal) i x0 x1 x2 acc : S2048x128.Idx → EReal) (ix2 r f)
      = (acc (ix2 r f) : EReal) + ∑ j : Fin 2048, oh (x0 (ix2 r 0)) (BitVec.ofNat 32 ((i 1).val * 2048 + j.val)) * ((x1 (ix2 j f) : EReal) * (x2 (ix2 j 0) : EReal)) := by
  unfold k4_pay2
  (try dsimp only)
  rw [shapeCast_self]
  show (acc (ix2 r f) : EReal) + _ = _
  refine congrArg (fun z : EReal => (acc (ix2 r f) : EReal) + z) ((matmul_oh_apply _ _ r f).trans (Finset.sum_congr rfl fun j _ => ?_))
  rw [shapeCast_self, shapeCast_self, shapeCast_self]
  show (FloatOps.sitofp (F := Ideal) .f32 ((IntOp.cmpi .eq (broadcastTo S2048x2048 x0 broadcasts_S2048x1_S2048x2048 (ix2 r j)) _).setWidth 32) : EReal) * ((x1 (ix2 j f) : EReal) * (broadcastTo S2048x128 x2 broadcasts_S2048x1_S2048x128 (ix2 j f) : EReal)) = _
  rw [bcast_col_apply x0, bcast_col_apply x2, vg_colword, sitofp_eq_bit]

theorem v4_pay3_eq (acc : Vec Ideal S2048x128 .f32) (y : S2048x128.Idx) :
    (k4_pay3 (F := Ideal) acc : S2048x128.Idx → EReal) y = (acc y : EReal) := rfl

end Cert.KernelIdeal.Fr

end
-- ==== Proof.KI.V4b.lean ====
import proofs.«404853_j60129542534_1_alg».proof.Proof.KI.R4.Region
import proofs.«404853_j60129542534_1_alg».proof.Proof.KI.VShared
import Idealize.ShloMosaic.Lib.Pipeline.Value

noncomputable section

namespace Cert.KernelIdeal.Fr

open Cert.KernelIdeal Cert.KernelIdeal.Gen
open Idealize.ShloMosaic Idealize.ShloMosaic.TcCoe Idealize.ShloMosaic.Tactic
open Idealize.SL.Sem

variable {F : FTy → Type} [FloatOps F]
variable (c : Dev nD) (i : grid4.Coords) (arg2 : Memref sig .tc .vmem S2048x1 .i32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .bf16) (harg5 : arg5.IsWhole) (arg6 : Memref sig .tc .vmem S2048x128 .f32) (harg6 : arg6.IsWhole)

/-- Each store covers its whole buffer, so a buffer ends at its last store and a load after a store reads that store's value. -/
theorem v4_sout_B (hc0 : ¬cond4_0 i) (hc1 : ¬cond4_1 i)
    (x0 : Vec F S2048x1 .i32) (x1 : Vec F S2048x128 .f32) (x2 : Vec F S2048x1 .f32) (xs0 : Vec F S2048x128 .f32) :
    sout4_B_0 c i arg2 harg2 arg3 harg3 arg4 harg4 arg5 harg5 arg6 harg6 hc0 hc1 x0 x1 x2 xs0 = k4_pay2 i x0 x1 x2 xs0 := by
  unfold sout4_B_0
  rw [View.read_writes_eq_canon _ _ _ (scover4_B_0 c i arg2 harg2 arg3 harg3 arg4 harg4 arg5 harg5 arg6 harg6 hc0 hc1 x0 x1 x2 xs0)]
  unfold kernelRun4_B
  dsimp only
  sl_unfold_words
  rw [View.canon_unit_zero vg_hz]
  simp only [View.readAt_eq_ld, harg2.read_unread, harg3.read_unread, harg4.read_unread, harg6.read_unread, View.ld_unit_zero (S := S2048x1) vg_hz, View.ld_unit_zero (S := S2048x128) vg_hz]

theorem v4_sout_A (hc0 : cond4_0 i) (hc1 : ¬cond4_1 i)
    (x0 : Vec F S2048x1 .i32) (x1 : Vec F S2048x128 .f32) (x2 : Vec F S2048x1 .f32) :
    sout4_A_0 c i arg2 harg2 arg3 harg3 arg4 harg4 arg5 harg5 arg6 harg6 hc0 hc1 x0 x1 x2 = k4_pay2 i x0 x1 x2 (k4_pay1 (F := F)) := by
  unfold sout4_A_0
  rw [View.read_writes_eq_canon _ _ _ (scover4_A_0 c i arg2 harg2 arg3 harg3 arg4 harg4 arg5 harg5 arg6 harg6 hc0 hc1 x0 x1 x2)]
  unfold kernelRun4_A
  dsimp only
  sl_unfold_words
  rw [View.canon_cons_unit_zero (S := S2048x128) vg_hz, View.readCov_unit_zero (S := S2048x128) _ vg_hz]
  simp only [View.readAt_eq_ld, harg2.read_unread, harg3.read_unread, harg4.read_unread, View.ld_unit_zero (S := S2048x1) vg_hz, View.ld_unit_zero (S := S2048x128) vg_hz]

theorem v4_sout_C (hc0 : ¬cond4_0 i) (hc1 : cond4_1 i)
    (x0 : Vec F S2048x1 .i32) (x1 : Vec F S2048x128 .f32) (x2 : Vec F S2048x1 .f32) (xs0 : Vec F S2048x128 .f32) :
    sout4_C_0 c i arg2 harg2 arg3 harg3 arg4 harg4 arg5 harg5 arg6 harg6 hc0 hc1 x0 x1 x2 xs0 = k4_pay2 i x0 x1 x2 xs0 := by
  unfold sout4_C_0
  rw [View.read_writes_eq_canon _ _ _ (scover4_C_0 c i arg2 harg2 arg3 harg3 arg4 harg4 arg5 harg5 arg6 harg6 hc0 hc1 x0 x1 x2 xs0)]
  unfold kernelRun4_C
  dsimp only
  sl_unfold_words
  rw [View.canon_unit_zero vg_hz]
  simp only [View.readAt_eq_ld, harg2.read_unread, harg3.read_unread, harg4.read_unread, harg6.read_unread, View.ld_unit_zero (S := S2048x1) vg_hz, View.ld_unit_zero (S := S2048x128) vg_hz]

theorem v4_out_C (hc0 : ¬cond4_0 i) (hc1 : cond4_1 i)
    (x0 : Vec F S2048x1 .i32) (x1 : Vec F S2048x128 .f32) (x2 : Vec F S2048x1 .f32) (xs0 : Vec F S2048x128 .f32) :
    out4_C_3 c i arg2 harg2 arg3 harg3 arg4 harg4 arg5 harg5 arg6 harg6 hc0 hc1 x0 x1 x2 xs0 = k4_pay3 (k4_pay2 i x0 x1 x2 xs0) := by
  unfold out4_C_3
  rw [View.read_writes_eq_canon _ _ _ (cover4_C_3 c i arg2 harg2 arg3 harg3 arg4 harg4 arg5 harg5 arg6 harg6 hc0 hc1 x0 x1 x2 xs0)]
  unfold kernelRun4_C
  dsimp only
  sl_unfold_words
  rw [View.canon_unit_zero vg_hz, View.readCov_unit_zero (S := S2048x128) _ vg_hz]
  simp only [View.readAt_eq_ld, harg2.read_unread, harg3.read_unread, harg4.read_unread, harg6.read_unread, View.ld_unit_zero (S := S2048x1) vg_hz, View.ld_unit_zero (S := S2048x128) vg_hz]

end Cert.KernelIdeal.Fr

end
-- ==== Proof.KI.V4c.lean ====
import proofs.«404853_j60129542534_1_alg».proof.Proof.KI.R4.Region
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.ValueIdx
open Idealize.SL.Sem

variable {F : FTy → Type} [FloatOps F] (V : (c : Dev nD) → (b : Ref sig .tc) → Buf (Elt F) ((c : Thread nD τ).loc b))

theorem v4_idx_0 : ∀ t : Fin cfg4.N, win4_0.index t (0 : Fin 2) = t.val / 25 ∧ win4_0.index t (1 : Fin 2) = 0 :=
  (by decide +kernel : ∀ t : Fin grid4.N, win4_0.index t (0 : Fin 2) = t.val / 25 ∧ win4_0.index t (1 : Fin 2) = 0)
theorem v4_idx_1 : ∀ t : Fin cfg4.N, win4_1.index t (0 : Fin 2) = t.val % 25 ∧ win4_1.index t (1 : Fin 2) = 0 :=
  (by decide +kernel : ∀ t : Fin grid4.N, win4_1.index t (0 : Fin 2) = t.val % 25 ∧ win4_1.index t (1 : Fin 2) = 0)
theorem v4_idx_2 : ∀ t : Fin cfg4.N, win4_2.index t (0 : Fin 2) = t.val % 25 ∧ win4_2.index t (1 : Fin 2) = 0 :=
  (by decide +kernel : ∀ t : Fin grid4.N, win4_2.index t (0 : Fin 2) = t.val % 25 ∧ win4_2.index t (1 : Fin 2) = 0)
theorem v4_idx_3 : ∀ t : Fin cfg4.N, win4_3.index t (0 : Fin 2) = t.val / 25 ∧ win4_3.index t (1 : Fin 2) = 0 :=
  (by decide +kernel : ∀ t : Fin grid4.N, win4_3.index t (0 : Fin 2) = t.val / 25 ∧ win4_3.index t (1 : Fin 2) = 0)
theorem v4_coord_1 : ∀ t : Fin cfg4.N, (grid4.coords t (1 : Fin 2)).val = t.val % 25 :=
  (by decide +kernel : ∀ t : Fin grid4.N, (grid4.coords t (1 : Fin 2)).val = t.val % 25)

abbrev srcArr4 (c : Dev nD) : Vec F S600064x1 .i32 := V c (Pipeline.arrRef spec4 0)
abbrev featArr4 (c : Dev nD) : Vec F S51200x128 .f32 := V c (Pipeline.arrRef spec4 1)
abbrev degArr4 (c : Dev nD) : Vec F S51200x1 .f32 := V c (Pipeline.arrRef spec4 2)
abbrev srcBlk4 (c : Dev nD) (t : Fin cfg4.N) : Vec F S2048x1 .i32 := iblk4 V c 0 t
abbrev featBlk4 (c : Dev nD) (t : Fin cfg4.N) : Vec F S2048x128 .f32 := iblk4 V c 1 t
abbrev degBlk4 (c : Dev nD) (t : Fin cfg4.N) : Vec F S2048x1 .f32 := iblk4 V c 2 t

/-- A block's coordinate in its array is the block index times the block length plus the coordinate inside the block. -/
theorem v4_srcBlk_apply (c : Dev nD) (t : Fin cfg4.N) (r : Fin 2048) (k : Fin 600064) (hk : k.val = t.val / 25 * 2048 + r.val) :
    srcBlk4 V c t (ix2 r 0) = srcArr4 V c (ix2 k 0) := by
  obtain ⟨e0, e1⟩ := v4_idx_0 t
  unfold srcBlk4 iblk4
  rw [View.read_apply]
  show V c (Pipeline.arrRef spec4 0) _ = V c (Pipeline.arrRef spec4 0) _
  congr 1
  funext a
  apply Fin.ext
  match a with
  | ⟨0, _⟩ => show win4_0.index t 0 * 2048 + 1 * r.val = k.val; rw [e0, hk]; omega
  | ⟨1, _⟩ => show win4_0.index t 1 * 1 + 1 * 0 = 0; rw [e1]

theorem v4_featBlk_apply (c : Dev nD) (t : Fin cfg4.N) (j : Fin 2048) (f : Fin 128) (k : Fin 51200) (hk : k.val = t.val % 25 * 2048 + j.val) :
    featBlk4 V c t (ix2 j f) = featArr4 V c (ix2 k f) := by
  obtain ⟨e0, e1⟩ := v4_idx_1 t
  unfold featBlk4 iblk4
  rw [View.read_apply]
  show V c (Pipeline.arrRef spec4 1) _ = V c (Pipeline.arrRef spec4 1) _
  congr 1
  funext a
  apply Fin.ext
  match a with
  | ⟨0, _⟩ => show win4_1.index t 0 * 2048 + 1 * j.val = k.val; rw [e0, hk]; omega
  | ⟨1, _⟩ => show win4_1.index t 1 * 128 + 1 * f.val = f.val; rw [e1]; omega

theorem v4_degBlk_apply (c : Dev nD) (t : Fin cfg4.N) (j : Fin 2048) (k : Fin 51200) (hk : k.val = t.val % 25 * 2048 + j.val) :
    degBlk4 V c t (ix2 j 0) = degArr4 V c (ix2 k 0) := by
  obtain ⟨e0, e1⟩ := v4_idx_2 t
  unfold degBlk4 iblk4
  rw [View.read_apply]
  show V c (Pipeline.arrRef spec4 2) _ = V c (Pipeline.arrRef spec4 2) _
  congr 1
  funext a
  apply Fin.ext
  match a with
  | ⟨0, _⟩ => show win4_2.index t 0 * 2048 + 1 * j.val = k.val; rw [e0, hk]; omega
  | ⟨1, _⟩ => show win4_2.index t 1 * 1 + 1 * 0 = 0; rw [e1]

end Cert.KernelIdeal.Fr

end
-- ==== Proof.KI.V4d.lean ====
import proofs.«404853_j60129542534_1_alg».proof.Proof.KI.V4a
import proofs.«404853_j60129542534_1_alg».proof.Proof.KI.V4b
import proofs.«404853_j60129542534_1_alg».proof.Proof.KI.V4c

noncomputable section

namespace Cert.KernelIdeal.Fr

open Cert.KernelIdeal Cert.KernelIdeal.Gen
open Idealize.ShloMosaic Idealize.ShloMosaic.TcCoe Idealize.ShloMosaic.ValueIdx
open Idealize.SL.Sem
open Cert.Spec (oh)

variable (V : (c : Dev nD) → (b : Ref sig .tc) → Buf (Elt Ideal) ((c : Thread nD τ).loc b))

/-- The one-hot weighted sum over node block kb for padded edge e and feature f (nothing beyond the 25 blocks). -/
def blockSum4 (c : Dev nD) (e : Fin 600064) (f : Fin 128) (kb : ℕ) : EReal :=
  if h : kb < 25 then
    ∑ j : Fin 2048, oh (srcArr4 V c (ix2 e 0)) (BitVec.ofNat 32 (kb * 2048 + j.val))
      * ((featArr4 V c (ix2 (⟨kb * 2048 + j.val, by have := j.isLt; omega⟩ : Fin 51200) f) : EReal)
          * (degArr4 V c (ix2 (⟨kb * 2048 + j.val, by have := j.isLt; omega⟩ : Fin 51200) 0) : EReal))
  else 0

/-- A running sum: the first term, then one more term per step. -/
abbrev fold4 (P : ℕ → EReal) (k : ℕ) : EReal := @Nat.rec (fun _ => EReal) (P 0) (fun i acc => acc + P (i + 1)) k

/-- Read off the arrays, what point t adds at row r is the sum over node block t % 25 for the edge (t / 25) * 2048 + r. -/
theorem v4_point_sum (c : Dev nD) (t : Fin cfg4.N) (r : Fin 2048) (f : Fin 128) (e : Fin 600064) (he : e.val = t.val / 25 * 2048 + r.val) :
    (∑ j : Fin 2048, oh (srcBlk4 V c t (ix2 r 0)) (BitVec.ofNat 32 ((grid4.coords t 1).val * 2048 + j.val))
        * ((featBlk4 V c t (ix2 j f) : EReal) * (degBlk4 V c t (ix2 j 0) : EReal)))
      = blockSum4 V c e f (t.val % 25) := by
  have hkb : t.val % 25 < 25 := Nat.mod_lt _ (by decide)
  unfold blockSum4
  rw [dif_pos hkb, v4_coord_1 t, v4_srcBlk_apply V c t r e he]
  refine Finset.sum_congr rfl fun j _ => ?_
  rw [v4_featBlk_apply V c t j f ⟨t.val % 25 * 2048 + j.val, by have := j.isLt; omega⟩ rfl,
    v4_degBlk_apply V c t j ⟨t.val % 25 * 2048 + j.val, by have := j.isLt; omega⟩ rfl]

/-- A reset point starts from the zero block, so the accumulator holds that point's sum. -/
theorem v4_acc_A (c : Dev nD) (t : Fin cfg4.N) (h0 : t.val % 25 = 0) (h1 : ¬t.val % 25 = 24) (r : Fin 2048) (f : Fin 128)
    (e : Fin 600064) (he : e.val = t.val / 25 * 2048 + r.val) :
    ((outsAt4 V c t.val t.isLt).2 : S2048x128.Idx → EReal) (ix2 r f) = blockSum4 V c e f (t.val % 25) := by
  rw [outsAt4_A V c t h0 h1]
  dsimp only
  rw [v4_sout_A, v4_pay2_apply, v4_pay1_apply, zero_add]
  exact v4_point_sum V c t r f e he

/-- Every other point adds its sum to what the point before left. -/
theorem v4_acc_step (c : Dev nD) (t : Fin cfg4.N) (h0 : ¬t.val % 25 = 0) (r : Fin 2048) (f : Fin 128)
    (e : Fin 600064) (he : e.val = t.val / 25 * 2048 + r.val) :
    ((outsAt4 V c t.val t.isLt).2 : S2048x128.Idx → EReal) (ix2 r f)
      = ((outsAt4 V c (t.val - 1) (Nat.lt_of_le_of_lt (Nat.sub_le _ _) t.isLt)).2 : S2048x128.Idx → EReal) (ix2 r f) + blockSum4 V c e f (t.val % 25) := by
  by_cases h1 : t.val % 25 = 24
  · rw [outsAt4_C V c t h0 h1]
    dsimp only
    rw [v4_sout_C, v4_pay2_apply, v4_point_sum V c t r f e he]
  · rw [outsAt4_B V c t h0 h1]
    dsimp only
    rw [v4_sout_B, v4_pay2_apply, v4_point_sum V c t r f e he]

/-- At a storing point the output block holds the same as the accumulator: the narrowing changes nothing. -/
theorem v4_out_C_apply (c : Dev nD) (t : Fin cfg4.N) (h0 : ¬t.val % 25 = 0) (h1 : t.val % 25 = 24) (r : Fin 2048) (f : Fin 128) :
    ((outsAt4 V c t.val t.isLt).1 : S2048x128.Idx → EReal) (ix2 r f) = ((outsAt4 V c t.val t.isLt).2 : S2048x128.Idx → EReal) (ix2 r f) := by
  rw [outsAt4_C V c t h0 h1]
  dsimp only
  rw [v4_out_C, v4_sout_C]
  exact v4_pay3_eq _ _

/-- By induction on the position: the accumulator holds the running sum of the block sums up to block n % 25. -/
theorem v4_acc_eq (c : Dev nD) : ∀ (n : ℕ) (hn : n < cfg4.N) (r : Fin 2048) (f : Fin 128) (e : Fin 600064), e.val = n / 25 * 2048 + r.val →
    ((outsAt4 V c n hn).2 : S2048x128.Idx → EReal) (ix2 r f) = fold4 (blockSum4 V c e f) (n % 25)
  | 0, hn, r, f, e, he => v4_acc_A V c ⟨0, hn⟩ rfl (by show ¬(0 : ℕ) % 25 = 24; omega) r f e he
  | n + 1, hn, r, f, e, he => by
    by_cases h0 : (n + 1) % 25 = 0
    · rw [h0]
      exact (v4_acc_A V c ⟨n + 1, hn⟩ h0 (by dsimp only; omega) r f e he).trans (congrArg (blockSum4 V c e f) h0)
    · refine (v4_acc_step V c ⟨n + 1, hn⟩ h0 r f e he).trans ?_
      show ((outsAt4 V c n _).2 : S2048x128.Idx → EReal) (ix2 r f) + blockSum4 V c e f ((n + 1) % 25) = _
      rw [v4_acc_eq c n (Nat.lt_of_succ_lt hn) r f e (by omega), show (n + 1) % 25 = n % 25 + 1 by omega]

/-- The running sum over all 25 node blocks is the gather's sum over all 51200 padded node rows. -/
theorem v4_fold_all (c : Dev nD) (e : Fin 600064) (f : Fin 128) :
    fold4 (blockSum4 V c e f) 24
      = Cert.Spec.gatherC (fun e => srcArr4 V c (ix2 e 0)) (fun n f => (featArr4 V c (ix2 n f) : EReal)) (fun n => (degArr4 V c (ix2 n 0) : EReal)) e f := by
  unfold fold4
  rw [Cert.Spec.fold_node (blockSum4 V c e f)]
  unfold Cert.Spec.gatherC
  rw [← Cert.Spec.sum_blocks_node (fun n : Fin 51200 => oh (srcArr4 V c (ix2 e 0)) (BitVec.ofNat 32 n.val) * ((featArr4 V c (ix2 n f) : EReal) * (degArr4 V c (ix2 n 0) : EReal)))]
  refine Finset.sum_congr rfl fun kb _ => ?_
  unfold blockSum4
  rw [dif_pos kb.isLt]

theorem v4_out_eq (c : Dev nD) (t : Fin cfg4.N) (h1 : t.val % 25 = 24) (r : Fin 2048) (f : Fin 128)
    (e : Fin 600064) (he : e.val = t.val / 25 * 2048 + r.val) :
    ((outsAt4 V c t.val t.isLt).1 : S2048x128.Idx → EReal) (ix2 r f)
      = Cert.Spec.gatherC (fun e => srcArr4 V c (ix2 e 0)) (fun n f => (featArr4 V c (ix2 n f) : EReal)) (fun n => (degArr4 V c (ix2 n 0) : EReal)) e f := by
  rw [v4_out_C_apply V c t (by omega) h1 r f, v4_acc_eq V c t.val t.isLt r f e he, h1]
  exact v4_fold_all V c e f

end Cert.KernelIdeal.Fr

end
-- ==== Proof.KI.V4.lean ====
import proofs.«404853_j60129542534_1_alg».proof.Proof.KI.V4d

noncomputable section

namespace Cert.KernelIdeal.Fr

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

abbrev gatherArr4 (c : Dev nD) : Vec Ideal S600064x128 .bf16 := fun i =>
  Cert.Spec.gatherC (fun e => srcArr4 V c (ix2 e 0)) (fun n f => (featArr4 V c (ix2 n f) : EReal)) (fun n => (degArr4 V c (ix2 n 0) : EReal))
    ⟨(i 0).val, idx2_lt0 i⟩ ⟨(i 1).val, idx2_lt1 i⟩

/-- The output's block lies inside the array, so the part of a block that is written back is the block. -/
theorem v4_cut3 (X : Vec Ideal S2048x128 .bf16) (i : grid4.Coords) : (cfg4.win 3).cut i X = X :=
  funext fun j => congrArg X (funext fun a => Fin.ext rfl)

theorem v4_outBlk_apply (G : Vec Ideal S600064x128 .bf16) (t : Fin cfg4.N) (r : Fin 2048) (f : Fin 128) (k : Fin 600064)
    (hk : k.val = t.val / 25 * 2048 + r.val) :
    ((cfg4.win 3).blk t).view.read (Elt Ideal) G (ix2 r f) = G (ix2 k f) := by
  obtain ⟨e0, e1⟩ := v4_idx_3 t
  rw [View.read_apply]
  show G _ = G _
  congr 1
  funext a
  apply Fin.ext
  match a with
  | ⟨0, _⟩ => show win4_3.index t 0 * 2048 + 1 * r.val = k.val; rw [e0, hk]; omega
  | ⟨1, _⟩ => show win4_3.index t 1 * 128 + 1 * f.val = f.val; rw [e1]; omega

/-- What a storing point t writes back is block t / 25 of the gather's result. -/
theorem v4_flushed_eq (c : Dev nD) (t : Fin cfg4.N) (hf : (cfg4.win 3).flush t = true) :
    (dat4 V c).flushed 3 t = ((cfg4.win 3).blk t).view.read (Elt Ideal) (gatherArr4 V c) := by
  have h24 : t.val % 25 = 24 := (flush4_3 t).mp hf
  have hN : t.val < 7325 := lt_of_lt_of_eq t.isLt (show cfg4.N = 7325 from N_4)
  show (cfg4.win 3).cut (grid4.coords t) ((dat4 V c).after 3 t) = _
  rw [after4_3]
  refine (v4_cut3 (outsAt4 V c t.val t.isLt).1 (grid4.coords t)).trans (ix2_ext _ _ fun r f => ?_)
  refine (v4_out_eq V c t h24 r f ⟨t.val / 25 * 2048 + r.val, by have := r.isLt; omega⟩ rfl).trans ?_
  exact (v4_outBlk_apply (gatherArr4 V c) t r f ⟨t.val / 25 * 2048 + r.val, by have := r.isLt; omega⟩ rfl).symm

theorem v4_mem_blk3 (t : Fin cfg4.N) (i : S600064x128.Idx) :
    i ∈ ((cfg4.win 3).blk t).view.set ↔ ∀ a : Fin 2, win4_3.index t a * S2048x128.size a ≤ (i a).val ∧ (i a).val < win4_3.index t a * S2048x128.size a + S2048x128.size a := by
  show i ∈ ((View.whole (Pipeline.arrRef spec4 3)).slice (win4_3.rect t)).set ↔ _
  rw [View.set_slice_whole, Rect.mem_set_unit]
  exact Iff.rfl

/-- Row e of the output array is in the block of the storing point (e / 2048) * 25 + 24. -/
theorem v4_cover (i : S600064x128.Idx) : ∃ t : Fin cfg4.N, (cfg4.win 3).flush t = true ∧ i ∈ ((cfg4.win 3).blk t).view.set := by
  have hi0 : (i 0).val < 600064 := idx2_lt0 i
  have hi1 : (i 1).val < 128 := idx2_lt1 i
  obtain ⟨t, ht⟩ : ∃ t : Fin cfg4.N, t.val = (i 0).val / 2048 * 25 + 24 :=
    ⟨⟨_, by rw [show cfg4.N = 7325 from N_4]; omega⟩, rfl⟩
  obtain ⟨e0, e1⟩ := v4_idx_3 t
  refine ⟨t, (flush4_3 t).mpr (by omega), (v4_mem_blk3 t i).mpr fun a => ?_⟩
  match a with
  | ⟨0, _⟩ =>
    show win4_3.index t (0 : Fin 2) * 2048 ≤ (i 0).val ∧ (i 0).val < win4_3.index t (0 : Fin 2) * 2048 + 2048
    rw [e0]; omega
  | ⟨1, _⟩ =>
    show win4_3.index t (1 : Fin 2) * 128 ≤ (i 1).val ∧ (i 1).val < win4_3.index t (1 : Fin 2) * 128 + 128
    rw [e1]; omega

/-- The blocks written back at the storing points cover the output array, so it ends holding the gather's result. -/
theorem arr4_eq (c : Dev nD) : (dat4 V c).arrAt 3 cfg4.N = gatherArr4 V c :=
  (dat4 V c).arrAt_eq_of_cover 3 (gatherArr4 V c) (v4_flushed_eq V c) v4_cover

theorem arr4_apply (c : Dev nD) (e : Fin 600064) (f : Fin 128) :
    ((dat4 V c).arrAt 3 cfg4.N : S600064x128.Idx → EReal) (ix2 e f)
      = Cert.Spec.gatherC (fun e => (V c (Pipeline.arrRef spec4 0) : S600064x1.Idx → BitVec 32) (ix2 e 0))
          (fun n f => (V c (Pipeline.arrRef spec4 1) : S51200x128.Idx → EReal) (ix2 n f))
          (fun n => (V c (Pipeline.arrRef spec4 2) : S51200x1.Idx → EReal) (ix2 n 0)) e f :=
  (congrFun (arr4_eq V c) (ix2 e f)).trans rfl

end Cert.KernelIdeal.Fr

end
-- ==== Proof.KI.V5a.lean ====
import proofs.«404853_j60129542534_1_alg».proof.Proof.KI.R5.Region
import proofs.«404853_j60129542534_1_alg».proof.Proof.KI.VShared
import Idealize.ShloMosaic.Lib.Pipeline.Value
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic

variable {F : FTy → Type} [FloatOps F] {c : Dev nD} {i : grid5.Coords}
  {arg2 : Memref sig .tc .vmem S1x2048 .i32} {harg2 : arg2.IsWhole} {arg3 : Memref sig .tc .vmem S2048x128 .bf16} {harg3 : arg3.IsWhole}
  {arg4 : Memref sig .tc .vmem S2048x1 .f32} {harg4 : arg4.IsWhole} {arg5 : Memref sig .tc .vmem S128x16 .f32} {harg5 : arg5.IsWhole}
  {arg6 : Memref sig .tc .vmem S1x16 .f32} {harg6 : arg6.IsWhole} {arg7 : Memref sig .tc .vmem S2048x16 .f32} {harg7 : arg7.IsWhole}
  {arg8 : Memref sig .tc .vmem S2048x128 .f32} {harg8 : arg8.IsWhole}
  {x0 : Vec F S1x2048 .i32} {x1 : Vec F S2048x128 .bf16} {x2 : Vec F S2048x1 .f32} {x3 : Vec F S128x16 .f32} {x4 : Vec F S1x16 .f32}
  {xs0 : Vec F S2048x128 .f32}

-- A reset point leaves in the accumulator its payload over the zero block.
theorem sout5_A_0_eq {hc0 : cond5_0 i} {hc1 : ¬cond5_1 i} :
    sout5_A_0 c i arg2 harg2 arg3 harg3 arg4 harg4 arg5 harg5 arg6 harg6 arg7 harg7 arg8 harg8 hc0 hc1 x0 x1 x2 x3 x4 = k5_pay2 i x0 (k5_pay1 (F := F)) x1 := by
  unfold sout5_A_0
  rw [View.read_writes_eq_canon _ _ _ (scover5_A_0 c i arg2 harg2 arg3 harg3 arg4 harg4 arg5 harg5 arg6 harg6 arg7 harg7 arg8 harg8 hc0 hc1 x0 x1 x2 x3 x4)]
  unfold kernelRun5_A
  dsimp only
  sl_unfold_words
  rw [View.canon_cons_unit_zero (S := S2048x128) vg_hz, View.readCov_unit_zero (S := S2048x128) _ vg_hz]
  simp only [View.readAt_eq_ld, harg2.read_unread, harg3.read_unread,
    View.ld_unit_zero (S := S1x2048) vg_hz, View.ld_unit_zero (S := S2048x128) vg_hz]

-- A middle point leaves in the accumulator its payload over what the accumulator held.
theorem sout5_B_0_eq {hc0 : ¬cond5_0 i} {hc1 : ¬cond5_1 i} :
    sout5_B_0 c i arg2 harg2 arg3 harg3 arg4 harg4 arg5 harg5 arg6 harg6 arg7 harg7 arg8 harg8 hc0 hc1 x0 x1 x2 x3 x4 xs0 = k5_pay2 i x0 xs0 x1 := by
  unfold sout5_B_0
  rw [View.read_writes_eq_canon _ _ _ (scover5_B_0 c i arg2 harg2 arg3 harg3 arg4 harg4 arg5 harg5 arg6 harg6 arg7 harg7 arg8 harg8 hc0 hc1 x0 x1 x2 x3 x4 xs0)]
  unfold kernelRun5_B
  dsimp only
  sl_unfold_words
  rw [View.canon_unit_zero (S := S2048x128) vg_hz]
  simp only [View.readAt_eq_ld, harg2.read_unread, harg3.read_unread, harg8.read_unread,
    View.ld_unit_zero (S := S1x2048) vg_hz, View.ld_unit_zero (S := S2048x128) vg_hz]

-- A storing point does the same,
theorem sout5_C_0_eq {hc0 : ¬cond5_0 i} {hc1 : cond5_1 i} :
    sout5_C_0 c i arg2 harg2 arg3 harg3 arg4 harg4 arg5 harg5 arg6 harg6 arg7 harg7 arg8 harg8 hc0 hc1 x0 x1 x2 x3 x4 xs0 = k5_pay2 i x0 xs0 x1 := by
  unfold sout5_C_0
  rw [View.read_writes_eq_canon _ _ _ (scover5_C_0 c i arg2 harg2 arg3 harg3 arg4 harg4 arg5 harg5 arg6 harg6 arg7 harg7 arg8 harg8 hc0 hc1 x0 x1 x2 x3 x4 xs0)]
  unfold kernelRun5_C
  dsimp only
  sl_unfold_words
  rw [View.canon_unit_zero (S := S2048x128) vg_hz]
  simp only [View.readAt_eq_ld, harg2.read_unread, harg3.read_unread, harg8.read_unread,
    View.ld_unit_zero (S := S1x2048) vg_hz, View.ld_unit_zero (S := S2048x128) vg_hz]

-- and leaves in the output block the projection of the accumulator it has just written.
theorem out5_C_5_eq {hc0 : ¬cond5_0 i} {hc1 : cond5_1 i} :
    out5_C_5 c i arg2 harg2 arg3 harg3 arg4 harg4 arg5 harg5 arg6 harg6 arg7 harg7 arg8 harg8 hc0 hc1 x0 x1 x2 x3 x4 xs0 = k5_pay3 (k5_pay2 i x0 xs0 x1) x2 x3 x4 := by
  unfold out5_C_5
  rw [View.read_writes_eq_canon _ _ _ (cover5_C_5 c i arg2 harg2 arg3 harg3 arg4 harg4 arg5 harg5 arg6 harg6 arg7 harg7 arg8 harg8 hc0 hc1 x0 x1 x2 x3 x4 xs0)]
  unfold kernelRun5_C
  dsimp only
  sl_unfold_words
  rw [View.canon_unit_zero (S := S2048x16) vg_hz, View.readCov_unit_zero (S := S2048x128) _ vg_hz]
  simp only [View.readAt_eq_ld, harg2.read_unread, harg3.read_unread, harg4.read_unread, harg5.read_unread, harg6.read_unread,
    harg8.read_unread, View.ld_unit_zero (S := S1x2048) vg_hz, View.ld_unit_zero (S := S2048x128) vg_hz,
    View.ld_unit_zero (S := S2048x1) vg_hz, View.ld_unit_zero (S := S128x16) vg_hz, View.ld_unit_zero (S := S1x16) vg_hz]

end Cert.KernelIdeal.Fr

end
-- ==== Proof.KI.V5b.lean ====
import proofs.«404853_j60129542534_1_alg».proof.Proof.Gen.KernelIdeal.Skeleton
import proofs.«404853_j60129542534_1_alg».proof.Proof.KI.VScatterLib
import Idealize.ShloMosaic.Lib.ValueLayout

noncomputable section

namespace Cert.KernelIdeal.Fr

open Cert.KernelIdeal Cert.KernelIdeal.Gen
open Idealize.ShloMosaic Idealize.ShloMosaic.ValueIdx

theorem k5_pay1_apply (y : S2048x128.Idx) : (k5_pay1 (F := Ideal)) y = 0 := by
  unfold k5_pay1
  exact (congrFun (shapeCast_self _ _) y).trans Ideal.ofBits_zero_f32

-- A point adds to the accumulator the product of its one-hot matrix (node row against edge target) with the message block.
theorem k5_pay2_apply (i : grid5.Coords) (v7 : Vec Ideal S1x2048 .i32) (v14 : Vec Ideal S2048x128 .f32) (v15 : Vec Ideal S2048x128 .bf16)
    (r : Fin 2048) (k : Fin 128) :
    k5_pay2 (F := Ideal) i v7 v14 v15 (ix2 r k)
      = v14 (ix2 r k) + ∑ j : Fin 2048, Cert.Spec.oh (BitVec.ofNat 32 ((i 0).val * 2048 + r.val)) (v7 (ix2 0 j)) * v15 (ix2 j k) := by
  unfold k5_pay2
  dsimp only
  refine (congrFun (shapeCast_self _ _) (ix2 r k)).trans ?_
  refine (addf_apply _ _ _).trans (congrArg (v14 (ix2 r k) + ·) ?_)
  refine (matmul_oh_apply _ _ r k).trans (Finset.sum_congr rfl fun j _ => ?_)
  refine congrArg₂ (· * ·) ?_ (congrFun (shapeCast_self _ _) (ix2 j k))
  show FloatOps.sitofp (F := Ideal) .f32 ((IntOp.cmpi .eq
      (IntOp.addi (Scalar.muli (BitVec.ofNat 32 (i 0).val) 2048#32) (iota .tc S2048x2048 32 [0] iota_S2048x2048_d0_w32 (ix2 r j)))
      (broadcastTo S2048x2048 (shapeCast S1x2048 v7 shapeCasts_S1x2048_S1x2048) broadcasts_S1x2048_S2048x2048 (ix2 r j))).setWidth 32) = _
  rw [iota_single_apply, (broadcastTo_1b_ab_apply _ broadcasts_S1x2048_S2048x2048 r j :
    broadcastTo S2048x2048 (shapeCast S1x2048 v7 shapeCasts_S1x2048_S1x2048) _ (ix2 r j) = _), shapeCast_self, sitofp_eq_bit]
  show Cert.Spec.oh (BitVec.ofNat 32 (i 0).val * 2048#32 + BitVec.ofNat 32 r.val) (v7 (ix2 0 j)) = _
  rw [Cert.Spec.ofNat_block]

-- The last step of the layer: nothing (the last layer has no rectifier).
def act5 (x : EReal) : EReal := x

-- A storing point stores the row's scatter sums scaled by its in-degree factor, times W, plus the bias, through the last step.
theorem k5_pay3_apply (v25 : Vec Ideal S2048x128 .f32) (v26 : Vec Ideal S2048x1 .f32)
    (v31 : Vec Ideal S128x16 .f32) (v34 : Vec Ideal S1x16 .f32) (r : Fin 2048) (j : Fin 16) :
    k5_pay3 (F := Ideal) v25 v26 v31 v34 (ix2 r j)
      = act5 ((∑ k : Fin 128, (v25 (ix2 r k) * v26 (ix2 r 0)) * v31 (ix2 k j)) + v34 (ix2 0 j)) := by
  unfold k5_pay3
  show _ = (∑ k : Fin 128, (v25 (ix2 r k) * v26 (ix2 r 0)) * v31 (ix2 k j)) + v34 (ix2 0 j)
  refine (addf_apply _ _ _).trans (congrArg₂ (· + ·) ?_ ?_)
  · refine (matmul_pj16_apply _ _ r j).trans (Finset.sum_congr rfl fun k _ => ?_)
    exact congrArg₂ (· * ·) (congrArg (v25 (ix2 r k) * ·)
      ((bcast_col_apply _ broadcasts_S2048x1_S2048x128 r k).trans (congrFun (shapeCast_self _ _) (ix2 r 0)))) rfl
  · exact (broadcastTo_1b_ab_apply _ broadcasts_S1x16_S2048x16 r j).trans (congrFun (shapeCast_self _ _) (ix2 0 j))

end Cert.KernelIdeal.Fr

end
-- ==== Proof.KI.V5c.lean ====
import proofs.«404853_j60129542534_1_alg».proof.Proof.KI.R5.Runs
import proofs.«404853_j60129542534_1_alg».proof.Proof.KI.VShared
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.Tactic Idealize.ShloMosaic.ValueIdx

variable {F : FTy → Type} [FloatOps F]

variable (V : (c : Dev nD) → (b : Ref sig .tc) → Buf (Elt F) ((c : Thread nD τ).loc b))

theorem coords5 : ∀ t : Fin grid5.N, ((grid5.coords t) 0).val = t.val / 293 ∧ ((grid5.coords t) 1).val = t.val % 293 := by
  decide +kernel
theorem idx5_0 : ∀ t : Fin grid5.N, win5_0.index t (0 : Fin 2) = 0 ∧ win5_0.index t (1 : Fin 2) = t.val % 293 := by
  decide +kernel
theorem idx5_1 : ∀ t : Fin grid5.N, win5_1.index t (0 : Fin 2) = t.val % 293 ∧ win5_1.index t (1 : Fin 2) = 0 := by
  decide +kernel
theorem idx5_2 : ∀ t : Fin grid5.N, win5_2.index t (0 : Fin 2) = t.val / 293 ∧ win5_2.index t (1 : Fin 2) = 0 := by
  decide +kernel
theorem idx5_3 : ∀ t : Fin grid5.N, win5_3.index t (0 : Fin 2) = 0 ∧ win5_3.index t (1 : Fin 2) = 0 := by
  decide +kernel
theorem idx5_4 : ∀ t : Fin grid5.N, win5_4.index t (0 : Fin 2) = 0 ∧ win5_4.index t (1 : Fin 2) = 0 := by
  decide +kernel
theorem idx5_5 : ∀ t : Fin grid5.N, win5_5.index t (0 : Fin 2) = t.val / 293 ∧ win5_5.index t (1 : Fin 2) = 0 := by
  decide +kernel

variable (c : Dev nD) (t : Fin cfg5.N)

-- Each block, at an index, is its array at the block's offset plus the index.
theorem iblk5_0_apply (j : Fin 2048) (e : Fin 600064) (he : e.val = t.val % 293 * 2048 + j.val) :
    (iblk5 V c 0 t : Vec F S1x2048 .i32) (ix2 0 j) = (V c (Pipeline.arrRef spec5 0) : S1x600064.Idx → Elt F .i32) (ix2 0 e) :=
  congrArg (V c (Pipeline.arrRef spec5 0) : S1x600064.Idx → Elt F .i32) (ix2_of_val _ _ _
    (by show win5_0.index t (0 : Fin 2) * 1 + 1 * 0 = 0; rw [(idx5_0 t).1])
    (by show win5_0.index t (1 : Fin 2) * 2048 + 1 * j.val = e.val; rw [(idx5_0 t).2, he]; omega))

theorem iblk5_1_apply (j : Fin 2048) (k : Fin 128) (e : Fin 600064) (he : e.val = t.val % 293 * 2048 + j.val) :
    (iblk5 V c 1 t : Vec F S2048x128 .bf16) (ix2 j k) = (V c (Pipeline.arrRef spec5 1) : S600064x128.Idx → Elt F .bf16) (ix2 e k) :=
  congrArg (V c (Pipeline.arrRef spec5 1) : S600064x128.Idx → Elt F .bf16) (ix2_of_val _ _ _
    (by show win5_1.index t (0 : Fin 2) * 2048 + 1 * j.val = e.val; rw [(idx5_1 t).1, he]; omega)
    (by show win5_1.index t (1 : Fin 2) * 128 + 1 * k.val = k.val; rw [(idx5_1 t).2]; omega))

theorem iblk5_2_apply (r : Fin 2048) (n : Fin 51200) (hn : n.val = t.val / 293 * 2048 + r.val) :
    (iblk5 V c 2 t : Vec F S2048x1 .f32) (ix2 r 0) = (V c (Pipeline.arrRef spec5 2) : S51200x1.Idx → Elt F .f32) (ix2 n 0) :=
  congrArg (V c (Pipeline.arrRef spec5 2) : S51200x1.Idx → Elt F .f32) (ix2_of_val _ _ _
    (by show win5_2.index t (0 : Fin 2) * 2048 + 1 * r.val = n.val; rw [(idx5_2 t).1, hn]; omega)
    (by show win5_2.index t (1 : Fin 2) * 1 + 1 * 0 = 0; rw [(idx5_2 t).2]))

theorem iblk5_3_apply (k : Fin 128) (j : Fin 16) :
    (iblk5 V c 3 t : Vec F S128x16 .f32) (ix2 k j) = (V c (Pipeline.arrRef spec5 3) : S128x16.Idx → Elt F .f32) (ix2 k j) :=
  congrArg (V c (Pipeline.arrRef spec5 3) : S128x16.Idx → Elt F .f32) (ix2_of_val _ _ _
    (by show win5_3.index t (0 : Fin 2) * 128 + 1 * k.val = k.val; rw [(idx5_3 t).1]; omega)
    (by show win5_3.index t (1 : Fin 2) * 16 + 1 * j.val = j.val; rw [(idx5_3 t).2]; omega))

theorem iblk5_4_apply (j : Fin 16) :
    (iblk5 V c 4 t : Vec F S1x16 .f32) (ix2 0 j) = (V c (Pipeline.arrRef spec5 4) : S1x16.Idx → Elt F .f32) (ix2 0 j) :=
  congrArg (V c (Pipeline.arrRef spec5 4) : S1x16.Idx → Elt F .f32) (ix2_of_val _ _ _
    (by show win5_4.index t (0 : Fin 2) * 1 + 1 * 0 = 0; rw [(idx5_4 t).1])
    (by show win5_4.index t (1 : Fin 2) * 16 + 1 * j.val = j.val; rw [(idx5_4 t).2]; omega))

end Cert.KernelIdeal.Fr

end
-- ==== Proof.KI.V5d.lean ====
import proofs.«404853_j60129542534_1_alg».proof.Proof.KI.V5a
import proofs.«404853_j60129542534_1_alg».proof.Proof.KI.V5b
import proofs.«404853_j60129542534_1_alg».proof.Proof.KI.V5c

noncomputable section

namespace Cert.KernelIdeal.Fr

open Cert.KernelIdeal Cert.KernelIdeal.Gen
open Idealize.ShloMosaic Idealize.ShloMosaic.TcCoe Idealize.ShloMosaic.Tactic Idealize.ShloMosaic.ValueIdx

variable (V : (c : Dev nD) → (b : Ref sig .tc) → Buf (Elt Ideal) ((c : Thread nD τ).loc b)) (c : Dev nD)

abbrev dblk5 (t : Fin cfg5.N) : Vec Ideal S1x2048 .i32 := iblk5 V c 0 t
abbrev mblk5 (t : Fin cfg5.N) : Vec Ideal S2048x128 .bf16 := iblk5 V c 1 t
abbrev acc5 (n : ℕ) (hn : n < cfg5.N) : Vec Ideal S2048x128 .f32 := (outsAt5 V c n hn).2

abbrev dstA5 : S1x600064.Idx → BitVec 32 := V c (Pipeline.arrRef spec5 0)
abbrev msgA5 : S600064x128.Idx → EReal := V c (Pipeline.arrRef spec5 1)
abbrev degA5 : S51200x1.Idx → EReal := V c (Pipeline.arrRef spec5 2)
abbrev wA5 : S128x16.Idx → EReal := V c (Pipeline.arrRef spec5 3)
abbrev bA5 : S1x16.Idx → EReal := V c (Pipeline.arrRef spec5 4)

variable (t : Fin cfg5.N)

-- After a point that is not a reset the accumulator is the payload over what the point before left.
theorem acc5_step (h0 : ¬t.val % 293 = 0) :
    acc5 V c t.val t.isLt
      = k5_pay2 (grid5.coords t) (dblk5 V c t) (acc5 V c (t.val - 1) (Nat.lt_of_le_of_lt (Nat.sub_le _ _) t.isLt)) (mblk5 V c t) := by
  by_cases h1 : t.val % 293 = 292
  · show (outsAt5 V c t.val t.isLt).2 = _
    rw [outsAt5_C V c t h0 h1]
    dsimp only
    exact sout5_C_0_eq (c := c) (i := grid5.coords t) (arg2 := ms5_0 t) (harg2 := hs5_0 t) (arg3 := ms5_1 t) (harg3 := hs5_1 t) (arg4 := ms5_2 t) (harg4 := hs5_2 t) (arg5 := ms5_3 t) (harg5 := hs5_3 t) (arg6 := ms5_4 t) (harg6 := hs5_4 t) (arg7 := ms5_5 t) (harg7 := hs5_5 t) (arg8 := scM5_0) (harg8 := Memref.isWhole_whole _) (hc0 := fun h => h0 ((hcond5_0 t).mp h)) (hc1 := (hcond5_1 t).mpr h1) (x0 := iblk5 V c 0 t) (x1 := iblk5 V c 1 t) (x2 := iblk5 V c 2 t) (x3 := iblk5 V c 3 t) (x4 := iblk5 V c 4 t) (xs0 := (outsAt5 V c (t.val - 1) (Nat.lt_of_le_of_lt (Nat.sub_le _ _) t.isLt)).2)
  · show (outsAt5 V c t.val t.isLt).2 = _
    rw [outsAt5_B V c t h0 h1]
    dsimp only
    exact sout5_B_0_eq (c := c) (i := grid5.coords t) (arg2 := ms5_0 t) (harg2 := hs5_0 t) (arg3 := ms5_1 t) (harg3 := hs5_1 t) (arg4 := ms5_2 t) (harg4 := hs5_2 t) (arg5 := ms5_3 t) (harg5 := hs5_3 t) (arg6 := ms5_4 t) (harg6 := hs5_4 t) (arg7 := ms5_5 t) (harg7 := hs5_5 t) (arg8 := scM5_0) (harg8 := Memref.isWhole_whole _) (hc0 := fun h => h0 ((hcond5_0 t).mp h)) (hc1 := fun h => h1 ((hcond5_1 t).mp h)) (x0 := iblk5 V c 0 t) (x1 := iblk5 V c 1 t) (x2 := iblk5 V c 2 t) (x3 := iblk5 V c 3 t) (x4 := iblk5 V c 4 t) (xs0 := (outsAt5 V c (t.val - 1) (Nat.lt_of_le_of_lt (Nat.sub_le _ _) t.isLt)).2)

-- Every point adds its edge block's one-hot product, to zero at a reset and else to what the point before left.
theorem acc5_rec (r : Fin 2048) (k : Fin 128) :
    acc5 V c t.val t.isLt (ix2 r k)
      = (if t.val % 293 = 0 then (0 : EReal) else acc5 V c (t.val - 1) (Nat.lt_of_le_of_lt (Nat.sub_le _ _) t.isLt) (ix2 r k))
        + ∑ j : Fin 2048, Cert.Spec.oh (BitVec.ofNat 32 (t.val / 293 * 2048 + r.val)) (dblk5 V c t (ix2 0 j)) * mblk5 V c t (ix2 j k) := by
  rw [← (coords5 t).1]
  by_cases h0 : t.val % 293 = 0
  · rw [if_pos h0]
    have h1 : ¬t.val % 293 = 292 := by omega
    have hA : acc5 V c t.val t.isLt = k5_pay2 (grid5.coords t) (dblk5 V c t) (k5_pay1 (F := Ideal)) (mblk5 V c t) := by
      show (outsAt5 V c t.val t.isLt).2 = _
      rw [outsAt5_A V c t h0 h1]
      dsimp only
      exact sout5_A_0_eq (c := c) (i := grid5.coords t) (arg2 := ms5_0 t) (harg2 := hs5_0 t) (arg3 := ms5_1 t) (harg3 := hs5_1 t) (arg4 := ms5_2 t) (harg4 := hs5_2 t) (arg5 := ms5_3 t) (harg5 := hs5_3 t) (arg6 := ms5_4 t) (harg6 := hs5_4 t) (arg7 := ms5_5 t) (harg7 := hs5_5 t) (arg8 := scM5_0) (harg8 := Memref.isWhole_whole _) (hc0 := (hcond5_0 t).mpr h0) (hc1 := fun h => h1 ((hcond5_1 t).mp h)) (x0 := iblk5 V c 0 t) (x1 := iblk5 V c 1 t) (x2 := iblk5 V c 2 t) (x3 := iblk5 V c 3 t) (x4 := iblk5 V c 4 t)
    exact (congrFun hA _).trans
      ((k5_pay2_apply _ _ _ _ r k).trans (congrArg₂ HAdd.hAdd (k5_pay1_apply _) rfl))
  · rw [if_neg h0]
    exact (congrFun (acc5_step V c t h0) _).trans (k5_pay2_apply _ _ _ _ r k)

-- After the last point of a row of points the accumulator holds the scatter sums of the row's nodes.
theorem acc5_last (h1 : t.val % 293 = 292) (r : Fin 2048) (k : Fin 128) (n : Fin 51200) (hn : n.val = t.val / 293 * 2048 + r.val) :
    acc5 V c t.val t.isLt (ix2 r k)
      = Cert.Spec.aggC (fun e => dstA5 V c (ix2 0 e)) (fun e k => msgA5 V c (ix2 e k)) n k :=
  vg_acc_last (dstA5 V c) (msgA5 V c) (fun n hn => acc5 V c n hn) (fun n hn => dblk5 V c ⟨n, hn⟩) (fun n hn => mblk5 V c ⟨n, hn⟩)
    (fun n hn => acc5_rec V c ⟨n, hn⟩) (fun n hn => iblk5_0_apply V c ⟨n, hn⟩) (fun n hn => iblk5_1_apply V c ⟨n, hn⟩)
    t.val t.isLt h1 r k n hn

-- What the region leaves in its output array: the last step of the projection of the scatter sums.
def G5 : S51200x16.Idx → EReal := fun i =>
  act5 (Cert.Spec.projC (Cert.Spec.aggC (fun e => dstA5 V c (ix2 0 e)) (fun e k => msgA5 V c (ix2 e k)))
    (fun n => degA5 V c (ix2 n 0)) (fun k j => wA5 V c (ix2 k j)) (fun j => bA5 V c (ix2 0 j))
    ⟨(i 0).val, idx2_lt0 i⟩ ⟨(i 1).val, idx2_lt1 i⟩)

-- A storing point stores the rows of that function its block covers.
theorem out5_last (h1 : t.val % 293 = 292) (r : Fin 2048) (j : Fin 16) (n : Fin 51200) (hn : n.val = t.val / 293 * 2048 + r.val) :
    ((outsAt5 V c t.val t.isLt).1 : Vec Ideal S2048x16 .f32) (ix2 r j) = G5 V c (ix2 n j) := by
  have h0 : ¬t.val % 293 = 0 := by omega
  have hs : (outsAt5 V c t.val t.isLt).1 = k5_pay3 (acc5 V c t.val t.isLt) (iblk5 V c 2 t) (iblk5 V c 3 t) (iblk5 V c 4 t) := by
    rw [acc5_step V c t h0]
    rw [outsAt5_C V c t h0 h1]
    dsimp only
    exact out5_C_5_eq (c := c) (i := grid5.coords t) (arg2 := ms5_0 t) (harg2 := hs5_0 t) (arg3 := ms5_1 t) (harg3 := hs5_1 t) (arg4 := ms5_2 t) (harg4 := hs5_2 t) (arg5 := ms5_3 t) (harg5 := hs5_3 t) (arg6 := ms5_4 t) (harg6 := hs5_4 t) (arg7 := ms5_5 t) (harg7 := hs5_5 t) (arg8 := scM5_0) (harg8 := Memref.isWhole_whole _) (hc0 := fun h => h0 ((hcond5_0 t).mp h)) (hc1 := (hcond5_1 t).mpr h1) (x0 := iblk5 V c 0 t) (x1 := iblk5 V c 1 t) (x2 := iblk5 V c 2 t) (x3 := iblk5 V c 3 t) (x4 := iblk5 V c 4 t) (xs0 := (outsAt5 V c (t.val - 1) (Nat.lt_of_le_of_lt (Nat.sub_le _ _) t.isLt)).2)
  refine (congrFun hs _).trans ((k5_pay3_apply _ _ _ _ r j).trans (congrArg act5 ?_))
  unfold Cert.Spec.projC
  refine congrArg₂ (· + ·) (Finset.sum_congr rfl fun k _ => ?_) (iblk5_4_apply V c t j)
  exact congrArg₂ (· * ·) (congrArg₂ (· * ·) (acc5_last V c t h1 r k n hn) (iblk5_2_apply V c t r n hn)) (iblk5_3_apply V c t k j)

end Cert.KernelIdeal.Fr

end
-- ==== Proof.KI.V5e.lean ====
import proofs.«404853_j60129542534_1_alg».proof.Proof.KI.V5d

noncomputable section

namespace Cert.KernelIdeal.Fr

open Cert.KernelIdeal Cert.KernelIdeal.Gen
open Idealize.ShloMosaic Idealize.ShloMosaic.TcCoe Idealize.ShloMosaic.Tactic Idealize.ShloMosaic.ValueIdx

variable (V : (c : Dev nD) → (b : Ref sig .tc) → Buf (Elt Ideal) ((c : Thread nD τ).loc b)) (c : Dev nD)

-- What a storing point writes back is its block of the function the region leaves.
theorem flushed5_eq (t : Fin cfg5.N) (hf : (cfg5.win 5).flush t = true) :
    (dat5 V c).flushed 5 t = ((cfg5.win 5).blk t).view.read (Elt Ideal) (G5 V c) := by
  have hN : cfg5.N = 7325 := N_5
  show (cfg5.win 5).cut (grid5.coords t) ((dat5 V c).after 5 t) = _
  rw [after5_5]
  funext y
  obtain ⟨r, j, rfl⟩ : ∃ (r : Fin 2048) (j : Fin 16), y = ix2 r j := ⟨y 0, y 1, eq_ix2 (n0 := 2048) (n1 := 16) y⟩
  have hnlt : t.val / 293 * 2048 + r.val < 51200 := by have := t.isLt; have := r.isLt; omega
  show ((outsAt5 V c t.val t.isLt).1 : Vec Ideal S2048x16 .f32) (ix2 r j) = G5 V c (((cfg5.win 5).blk t).view.emb (ix2 r j))
  refine (out5_last V c t ((flush5_5 t).mp hf) r j ⟨_, hnlt⟩ rfl).trans (congrArg (G5 V c) (ix2_of_val _ _ _ ?_ ?_).symm)
  · show win5_5.index t (0 : Fin 2) * 2048 + 1 * r.val = t.val / 293 * 2048 + r.val
    rw [(idx5_5 t).1]; omega
  · show win5_5.index t (1 : Fin 2) * 16 + 1 * j.val = j.val
    rw [(idx5_5 t).2]; omega

-- Every node row lies in the block some storing point writes back: row n in that of point (n / 2048) * 293 + 292.
theorem cover5_5 (i : S51200x16.Idx) :
    ∃ t : Fin cfg5.N, (cfg5.win 5).flush t = true ∧ i ∈ ((cfg5.win 5).blk t).view.set := by
  have hN : cfg5.N = 7325 := N_5
  have hi0 : (i 0).val < 51200 := idx2_lt0 i
  have hi1 : (i 1).val < 16 := idx2_lt1 i
  obtain ⟨t, ht⟩ : ∃ t : Fin cfg5.N, t.val = (i 0).val / 2048 * 293 + 292 := ⟨⟨_, by rw [hN]; omega⟩, rfl⟩
  refine ⟨t, (flush5_5 t).mpr (by omega), ?_⟩
  show i ∈ ((View.whole (Pipeline.arrRef spec5 5)).slice (win5_5.rect t)).set
  rw [View.set_slice_whole, Rect.mem_set_unit]
  intro a
  match a with
  | ⟨0, _⟩ =>
    show win5_5.index t (0 : Fin 2) * 2048 ≤ (i 0).val ∧ (i 0).val < win5_5.index t (0 : Fin 2) * 2048 + 2048
    rw [(idx5_5 t).1]; omega
  | ⟨1, _⟩ =>
    show win5_5.index t (1 : Fin 2) * 16 ≤ (i 1).val ∧ (i 1).val < win5_5.index t (1 : Fin 2) * 16 + 16
    rw [(idx5_5 t).2]; omega

-- The output array after the region: the covering blocks carry the function.
theorem arr5_apply (n : Fin 51200) (j : Fin 16) :
    ((dat5 V c).arrAt 5 cfg5.N : S51200x16.Idx → EReal) (ix2 n j)
      = (Cert.Spec.projC (Cert.Spec.aggC (fun e => (V c (Pipeline.arrRef spec5 0) : S1x600064.Idx → BitVec 32) (ix2 0 e))
            (fun e k => (V c (Pipeline.arrRef spec5 1) : S600064x128.Idx → EReal) (ix2 e k)))
          (fun n => (V c (Pipeline.arrRef spec5 2) : S51200x1.Idx → EReal) (ix2 n 0))
          (fun k j => (V c (Pipeline.arrRef spec5 3) : S128x16.Idx → EReal) (ix2 k j))
          (fun j => (V c (Pipeline.arrRef spec5 4) : S1x16.Idx → EReal) (ix2 0 j)) n j) :=
  congrFun ((dat5 V c).arrAt_eq_of_cover 5 (G5 V c) (flushed5_eq V c) cover5_5) (ix2 n j)

end Cert.KernelIdeal.Fr

end
-- ==== Proof.KI.KValue.lean ====
import proofs.«404853_j60129542534_1_alg».proof.Proof.KI.Segs
import proofs.«404853_j60129542534_1_alg».proof.Proof.KI.V0
import proofs.«404853_j60129542534_1_alg».proof.Proof.KI.V1e
import proofs.«404853_j60129542534_1_alg».proof.Proof.KI.V2
import proofs.«404853_j60129542534_1_alg».proof.Proof.KI.V3e
import proofs.«404853_j60129542534_1_alg».proof.Proof.KI.V4
import proofs.«404853_j60129542534_1_alg».proof.Proof.KI.V5e
import proofs.«404853_j60129542534_1_alg».proof.Proof.KI.KCore

noncomputable section

namespace Cert.KernelIdeal.Fr

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

theorem kH0 (e : Fin 600064) (f : Fin 128) :
    (outs m 11 main_v24 c : S600064x128.Idx → EReal) (ix2 e f)
      = Cert.Spec.gatherC (fun e => (V10 m c main_v20 : S600064x1.Idx → BitVec 32) (ix2 e 0))
          (fun n f => (V10 m c main_v23 : S51200x128.Idx → EReal) (ix2 n f))
          (fun n => (V10 m c main_v16 : S51200x1.Idx → EReal) (ix2 n 0)) e f := by
  have h := arr0_apply (rd (Y10 m)) c e f
  show (Y11 m c main_v24 : S600064x128.Idx → EReal) (ix2 e f) = _
  unfold Y11
  rw [Function.update_self]
  exact h

theorem kH1 (n : Fin 51200) (j : Fin 128) :
    (outs m 13 main_v26 c : S51200x128.Idx → EReal) (ix2 n j)
      = max (Cert.Spec.projC
          (Cert.Spec.aggC (fun e => (V12 m (outs m) c main_v22 : S1x600064.Idx → BitVec 32) (ix2 0 e))
            (fun e k => (V12 m (outs m) c main_v24 : S600064x128.Idx → EReal) (ix2 e k)))
          (fun n => (V12 m (outs m) c main_v18 : S51200x1.Idx → EReal) (ix2 n 0))
          (fun k j => (V12 m (outs m) c main_arg3 : S128x128.Idx → EReal) (ix2 k j))
          (fun j => (V12 m (outs m) c main_v25 : S1x128.Idx → EReal) (ix2 0 j)) n j) 0 := by
  have h := arr1_apply (rd (Y12 m)) c n j
  rw [hV12 m c]
  show (Y13 m c main_v26 : S51200x128.Idx → EReal) (ix2 n j) = _
  unfold Y13
  rw [Function.update_self]
  exact h

theorem kH2 (e : Fin 600064) (f : Fin 128) :
    (outs m 14 main_v27 c : S600064x128.Idx → EReal) (ix2 e f)
      = Cert.Spec.gatherC (fun e => (V13 m (outs m) c main_v20 : S600064x1.Idx → BitVec 32) (ix2 e 0))
          (fun n f => (V13 m (outs m) c main_v26 : S51200x128.Idx → EReal) (ix2 n f))
          (fun n => (V13 m (outs m) c main_v16 : S51200x1.Idx → EReal) (ix2 n 0)) e f := by
  have h := arr2_apply (rd (Y13 m)) c e f
  rw [hV13 m c]
  show (Y14 m c main_v27 : S600064x128.Idx → EReal) (ix2 e f) = _
  unfold Y14
  rw [Function.update_self]
  exact h

theorem kH3 (n : Fin 51200) (j : Fin 128) :
    (outs m 16 main_v29 c : S51200x128.Idx → EReal) (ix2 n j)
      = max (Cert.Spec.projC
          (Cert.Spec.aggC (fun e => (V15 m (outs m) c main_v22 : S1x600064.Idx → BitVec 32) (ix2 0 e))
            (fun e k => (V15 m (outs m) c main_v27 : S600064x128.Idx → EReal) (ix2 e k)))
          (fun n => (V15 m (outs m) c main_v18 : S51200x1.Idx → EReal) (ix2 n 0))
          (fun k j => (V15 m (outs m) c main_arg5 : S128x128.Idx → EReal) (ix2 k j))
          (fun j => (V15 m (outs m) c main_v28 : S1x128.Idx → EReal) (ix2 0 j)) n j) 0 := by
  have h := arr3_apply (rd (Y15 m)) c n j
  rw [hV15 m c]
  show (Y16 m c main_v29 : S51200x128.Idx → EReal) (ix2 n j) = _
  unfold Y16
  rw [Function.update_self]
  exact h

theorem kH4 (e : Fin 600064) (f : Fin 128) :
    (outs m 17 main_v30 c : S600064x128.Idx → EReal) (ix2 e f)
      = Cert.Spec.gatherC (fun e => (V16 m (outs m) c main_v20 : S600064x1.Idx → BitVec 32) (ix2 e 0))
          (fun n f => (V16 m (outs m) c main_v29 : S51200x128.Idx → EReal) (ix2 n f))
          (fun n => (V16 m (outs m) c main_v16 : S51200x1.Idx → EReal) (ix2 n 0)) e f := by
  have h := arr4_apply (rd (Y16 m)) c e f
  rw [hV16 m c]
  show (Y17 m c main_v30 : S600064x128.Idx → EReal) (ix2 e f) = _
  unfold Y17
  rw [Function.update_self]
  exact h

theorem kH5 (n : Fin 51200) (j : Fin 16) :
    (outs m 19 main_v32 c : S51200x16.Idx → EReal) (ix2 n j)
      = Cert.Spec.projC
          (Cert.Spec.aggC (fun e => (V18 m (outs m) c main_v22 : S1x600064.Idx → BitVec 32) (ix2 0 e))
            (fun e k => (V18 m (outs m) c main_v30 : S600064x128.Idx → EReal) (ix2 e k)))
          (fun n => (V18 m (outs m) c main_v18 : S51200x1.Idx → EReal) (ix2 n 0))
          (fun k j => (V18 m (outs m) c main_arg7 : S128x16.Idx → EReal) (ix2 k j))
          (fun j => (V18 m (outs m) c main_v31 : S1x16.Idx → EReal) (ix2 0 j)) n j := by
  have h := arr5_apply (rd (Y18 m)) c n j
  rw [hV18 m c]
  show (Y19 m c main_v32 : S51200x16.Idx → EReal) (ix2 n j) = _
  unfold Y19
  rw [Function.update_self]
  exact h

theorem k_result (srcF : Fin 600000 → Fin 50000)
    (hsrc : ∀ e : Fin 600000, (m ((c : Thread nD τ).loc main_arg1) : S600000.Idx → BitVec 32) (ix1 e) = BitVec.ofNat 32 (srcF e).val)
    (n : Fin 50000) (j : Fin 16) :
    (Y20 m c main_v33 : S50000x16.Idx → EReal) (ix2 n j)
      = Cert.Spec.layerR false srcF (dstW m c)
          (Cert.Spec.layerR true srcF (dstW m c)
            (Cert.Spec.layerR true srcF (dstW m c) (feat m c) (dOut m c) (dIn m c) (W1 m c) (b1 m c))
            (dOut m c) (dIn m c) (W2 m c) (b2 m c))
          (dOut m c) (dIn m c) (W3 m c) (b3 m c) n j := by
  have h := k_core m c (outs m) (kH0 m c) (kH1 m c) (kH2 m c) (kH3 m c) (kH4 m c) (kH5 m c) srcF hsrc n j
  rw [hV20 m c] at h
  exact h

end Cert.KernelIdeal.Fr

end
-- ==== Proof.lean ====
import proofs.«404853_j60129542534_1_alg».proof.Defs
import proofs.«404853_j60129542534_1_alg».proof.Proof.Gen.Kernel
import proofs.«404853_j60129542534_1_alg».proof.Proof.Gen.KernelIdeal
import proofs.«404853_j60129542534_1_alg».proof.Proof.Gen.ReferenceIdeal
import proofs.«404853_j60129542534_1_alg».proof.Proof.Gen.Pre_finite_inputs
import proofs.«404853_j60129542534_1_alg».proof.Proof.K.Segs
import proofs.«404853_j60129542534_1_alg».proof.Proof.KI.Segs
import proofs.«404853_j60129542534_1_alg».proof.Proof.Bridge
import proofs.«404853_j60129542534_1_alg».proof.Proof.KI.KValue
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.KernelIdeal.Fr.Y20 (F := Ideal) m c Cert.KernelIdeal.main_v33, ?_, ?_⟩
  · exact Cert.KernelIdeal.Fr.run_value (F := Ideal) m ρ
  · refine (θ_run Cert.ReferenceIdeal.defs _ _).mono (fun _ h c => ⟨(h c).1.trans ?_, (h c).2⟩)
      (Cert.ReferenceIdeal.Value.run (F := Ideal) m' ρ')
    exact Cert.Bridge.result_eq_core m m' c (hpre c) (hagree c) _ (fun srcF hs n j => Cert.KernelIdeal.Fr.k_result m c srcF hs n j)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
